-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S2048x2048 : Shape := ⟨2, ![2048, 2048]⟩
abbrev S64x32 : Shape := ⟨2, ![64, 32]⟩
abbrev S32 : Shape := ⟨1, ![32]⟩
abbrev S32x32 : Shape := ⟨2, ![32, 32]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part2 {F : FTy → Type} [FloatOps F] (main_arg7 : FVec F S32 .f32) (main_arg8 : FVec F S32 .f32) (main_arg9 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  main_v48

def fn_part1 {F : FTy → Type} [FloatOps F] (main_arg4 : FVec F S32 .f32) (main_arg5 : FVec F S32 .f32) (main_arg6 : FVec F S32x32 .f32) (main_arg7 : FVec F S32 .f32) (main_arg8 : FVec F S32 .f32) (main_arg9 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_v33

def fn {F : FTy → Type} [FloatOps F] (main_arg0 : FVec F S2048x64 .f32) (main_arg1 : FVec F S2048x2048 .f32) (main_arg2 : FVec F S64x32 .f32) (main_arg3 : FVec F S32 .f32) (main_arg4 : FVec F S32 .f32) (main_arg5 : FVec F S32 .f32) (main_arg6 : FVec F S32x32 .f32) (main_arg7 : FVec F S32 .f32) (main_arg8 : FVec F S32 .f32) (main_arg9 : FVec F S32 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S64x32 .f32 := Host.absf main_arg2
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_v13 main_v16
-- ==== Kernel.lean ====
abbrev S2048x64 : Shape := ⟨2, ![2048, 64]⟩
abbrev S2048x2048 : Shape := ⟨2, ![2048, 2048]⟩
abbrev S64x32 : Shape := ⟨2, ![64, 32]⟩
abbrev S32 : Shape := ⟨1, ![32]⟩
abbrev S32x32 : Shape := ⟨2, ![32, 32]⟩
abbrev S1x32 : Shape := ⟨2, ![1, 32]⟩
abbrev S2048x32 : Shape := ⟨2, ![2048, 32]⟩
abbrev S2048x256 : Shape := ⟨2, ![2048, 256]⟩
abbrev S2048x1 : Shape := ⟨2, ![2048, 1]⟩
abbrev S256 : Shape := ⟨1, ![256]⟩
abbrev S256x1 : Shape := ⟨2, ![256, 1]⟩
abbrev S256x32 : Shape := ⟨2, ![256, 32]⟩

abbrev nBuf : Space → Nat
  | .hbm => 17
  | .vmem => 18
  | .smem => 0
  | _ => 0

abbrev bufTy : (tb : Table) → Fin (tcTables nBuf tb) → BufTy
  | .hbm, ⟨0, _⟩ => ⟨S2048x64, .f32⟩
  | .hbm, ⟨1, _⟩ => ⟨S2048x2048, .f32⟩
  | .hbm, ⟨2, _⟩ => ⟨S64x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S1x32, .f32⟩
  | .hbm, ⟨11, _⟩ => ⟨S1x32, .f32⟩
  | .hbm, ⟨12, _⟩ => ⟨S1x32, .f32⟩
  | .hbm, ⟨13, _⟩ => ⟨S1x32, .f32⟩
  | .hbm, ⟨14, _⟩ => ⟨S1x32, .f32⟩
  | .hbm, ⟨15, _⟩ => ⟨S1x32, .f32⟩
  | .hbm, ⟨16, _⟩ => ⟨S2048x32, .f32⟩
  | .local _ .vmem, ⟨0, _⟩ => ⟨S2048x64, .f32⟩
  | .local _ .vmem, ⟨1, _⟩ => ⟨S2048x256, .f32⟩
  | .local _ .vmem, ⟨2, _⟩ => ⟨S2048x256, .f32⟩
  | .local _ .vmem, ⟨3, _⟩ => ⟨S64x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | .local _ .vmem, ⟨7, _⟩ => ⟨S32x32, .f32⟩
  | .local _ .vmem, ⟨8, _⟩ => ⟨S1x32, .f32⟩
  | .local _ .vmem, ⟨9, _⟩ => ⟨S1x32, .f32⟩
  | .local _ .vmem, ⟨10, _⟩ => ⟨S1x32, .f32⟩
  | .local _ .vmem, ⟨11, _⟩ => ⟨S2048x32, .f32⟩
  | .local _ .vmem, ⟨12, _⟩ => ⟨S2048x1, .f32⟩
  | .local _ .vmem, ⟨13, _⟩ => ⟨S2048x1, .f32⟩
  | .local _ .vmem, ⟨14, _⟩ => ⟨S2048x32, .f32⟩
  | .local _ .vmem, ⟨15, _⟩ => ⟨S2048x32, .f32⟩
  | .local _ .vmem, ⟨16, _⟩ => ⟨S2048x32, .f32⟩
  | .local _ .vmem, ⟨17, _⟩ => ⟨S2048x32, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11

abbrev nD : Nat := 1
abbrev τ : Topo := Topo.v7x

variable {F : FTy → Type} [FloatOps F]

abbrev grid0 : Pipeline.Grid := ⟨2, ![3, 8], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (i : grid0.Coords) : Fin 2 → Nat :=
  let arg1 : BitVec 32 := BitVec.ofNat 32 (i 1).val
  let c256_i32 : BitVec 32 := 256#32
  let v0 : BitVec 32 := Scalar.muli arg1 c256_i32
  let v28 : Index := Scalar.indexCast v0
  let c0_12 : Index := 0#32
  ![v28.toNat, 0]
def k0_cond3 (i : grid0.Coords) : BitVec 1 :=
  let arg0 : BitVec 32 := BitVec.ofNat 32 (i 0).val
  let c1_i32_3 : BitVec 32 := 1#32
  let v9 : BitVec 1 := Scalar.cmpi .eq arg0 c1_i32_3
  let v10 : BitVec 32 := Scalar.extui v9
  let c0_i32_4 : BitVec 32 := 0#32
  let v11 : BitVec 1 := Scalar.cmpi .ne v10 c0_i32_4
  v11

def k0_off2 (i : grid0.Coords) : Fin 2 → Nat :=
  let arg1 : BitVec 32 := BitVec.ofNat 32 (i 1).val
  let c256_i32 : BitVec 32 := 256#32
  let v0 : BitVec 32 := Scalar.muli arg1 c256_i32
  let v28 : Index := Scalar.indexCast v0
  let c0_14 : Index := 0#32
  ![v28.toNat, 0]
def k0_off3 (i : grid0.Coords) : Fin 2 → Nat :=
  let arg1 : BitVec 32 := BitVec.ofNat 32 (i 1).val
  let c256_i32 : BitVec 32 := 256#32
  let v0 : BitVec 32 := Scalar.muli arg1 c256_i32
  let v30 : Index := Scalar.indexCast v0
  let c0_15 : Index := 0#32
  ![v30.toNat, 0]
def k0_cond5 (i : grid0.Coords) : BitVec 1 :=
  let arg0 : BitVec 32 := BitVec.ofNat 32 (i 0).val
  let c2_i32_7 : BitVec 32 := 2#32
  let v17 : BitVec 1 := Scalar.cmpi .eq arg0 c2_i32_7
  let v18 : BitVec 32 := Scalar.extui v17
  let c0_i32_8 : BitVec 32 := 0#32
  let v19 : BitVec 1 := Scalar.cmpi .ne v18 c0_i32_8
  v19

def k0_off4 (i : grid0.Coords) : Fin 2 → Nat :=
  let arg1 : BitVec 32 := BitVec.ofNat 32 (i 1).val
  let c256_i32 : BitVec 32 := 256#32
  let v0 : BitVec 32 := Scalar.muli arg1 c256_i32
  let v28 : Index := Scalar.indexCast v0
  let c0_14 : Index := 0#32
  ![v28.toNat, 0]
def k0_off5 (i : grid0.Coords) : Fin 2 → Nat :=
  let arg1 : BitVec 32 := BitVec.ofNat 32 (i 1).val
  let c256_i32 : BitVec 32 := 256#32
  let v0 : BitVec 32 := Scalar.muli arg1 c256_i32
  let v30 : Index := Scalar.indexCast v0
  let c0_15 : Index := 0#32
  ![v30.toNat, 0]
def k0_cond6 (i : grid0.Coords) : BitVec 1 :=
  let arg0 : BitVec 32 := BitVec.ofNat 32 (i 0).val
  let c2_i32_9 : BitVec 32 := 2#32
  let v20 : BitVec 1 := Scalar.cmpi .eq arg0 c2_i32_9
  let arg1 : BitVec 32 := BitVec.ofNat 32 (i 1).val
  let c7_i32 : BitVec 32 := 7#32
  let v21 : BitVec 1 := Scalar.cmpi .eq arg1 c7_i32
  let v22 : BitVec 1 := Scalar.andi v20 v21
  let v23 : BitVec 32 := Scalar.extui v22
  let c0_i32_10 : BitVec 32 := 0#32
  let v24 : BitVec 1 := Scalar.cmpi .ne v23 c0_i32_10
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2048x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

class Facts₀ : Prop where
  shapeCasts_S32_S1x32 : S32.ShapeCasts S1x32
  inb_S2048x256_S2048x256_0_0 : ∀ a, (![0, 0] : Fin 2 → Nat) a + S2048x256.size a ≤ S2048x256.size a
  h_S2048x256 : 0 < S2048x256.numel
  reduces_S2048x256_S256 : S2048x256.Reduces [0] S256
  shapeCasts_S256_S256x1 : S256.ShapeCasts S256x1
  h_S256x1 : 0 < S256x1.numel
  shapeCasts_S256x1_S256x1 : S256x1.ShapeCasts S256x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x64_S2048x64_0_0 : ∀ a, (![0, 0] : Fin 2 → Nat) a + S2048x64.size a ≤ S2048x64.size a
  h_S2048x64 : 0 < S2048x64.numel
  inb_S64x32_S64x32_0_0 : ∀ a, (![0, 0] : Fin 2 → Nat) a + S64x32.size a ≤ S64x32.size a
  h_S64x32 : 0 < S64x32.numel
  broadcasts_S2048x1_S2048x32 : S2048x1.Broadcasts S2048x32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  h_S256x32 : 0 < S256x32.numel
  broadcasts_S256x1_S256x32 : S256x1.Broadcasts S256x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  shapeCasts_S256x32_S256x32 : S256x32.ShapeCasts S256x32
  reduces_S2048x32_S32 : S2048x32.Reduces [0] S32
  broadcasts_S1x32_S2048x32 : S1x32.Broadcasts S2048x32
  inb_S32x32_S32x32_0_0 : ∀ a, (![0, 0] : Fin 2 → Nat) a + S32x32.size a ≤ S32x32.size a
  h_S32x32 : 0 < S32x32.numel
  dot_S2048x64_S64x32_S2048x32_1_0_0_1_n_n_wf : DotDims.WF S2048x64 S64x32 S2048x32 [1] [0] [0] [1] [] []
  dot_S2048x256_S2048x32_S256x32_0_0_1_1_n_n_wf : DotDims.WF S2048x256 S2048x32 S256x32 [0] [0] [1] [1] [] []
  dot_S2048x32_S32x32_S2048x32_1_0_0_1_n_n_wf : DotDims.WF S2048x32 S32x32 S2048x32 [1] [0] [0] [1] [] []
  hrank0 : 0 < grid0.rank
  k0_off1_inb : ∀ i : grid0.Coords, ∀ (k0_h1 : k0_cond1 i = 1#1), ∀ a, (k0_off1 i) a + S256x1.size a ≤ S2048x1.size a
  k0_off2_inb : ∀ i : grid0.Coords, ∀ (k0_h3 : k0_cond3 i = 1#1), ∀ a, (k0_off2 i) a + S256x1.size a ≤ S2048x1.size a
  k0_off3_inb : ∀ i : grid0.Coords, ∀ (k0_h3 : k0_cond3 i = 1#1), ∀ a, (k0_off3 i) a + S256x32.size a ≤ S2048x32.size a
  k0_off4_inb : ∀ i : grid0.Coords, ∀ (k0_h5 : k0_cond5 i = 1#1), ∀ a, (k0_off4 i) a + S256x1.size a ≤ S2048x1.size a
  k0_off5_inb : ∀ i : grid0.Coords, ∀ (k0_h5 : k0_cond5 i = 1#1), ∀ a, (k0_off5 i) a + S256x32.size a ≤ S2048x32.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S2048x64.size a
  hwx0_0 : ∀ i : grid0.Coords, EltTy.bits .f32 = 32 ∨ (Rect.block (s := S2048x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x2048.size a
  hwx0_1 : ∀ i : grid0.Coords, EltTy.bits .f32 = 32 ∨ (Rect.block (s := S2048x2048) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2048x32.size a ≤ S2048x32.size a
  hwx0_10 : ∀ i : grid0.Coords, EltTy.bits .f32 = 32 ∨ (Rect.block (s := S2048x32) S2048x32.size (cc0_transform_10 i) (hinb0_10 i)).WholeWords (EltTy.packing .f32)

variable [Facts₀]

def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x256_S2048x32_S256x32_0_0_1_1_n_n : DotDims S2048x256 S2048x32 S256x32 where
  lhsContracting := [0]
  rhsContracting := [0]
  lhsNonContracting := [1]
  rhsNonContracting := [1]
  lhsBatch := []
  rhsBatch := []
  wf := dot_S2048x256_S2048x32_S256x32_0_0_1_1_n_n_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf

abbrev win0_0 : Pipeline.Window sig grid0 :=
  Pipeline.Window.ofSpec (Memref.whole main_arg0) S2048x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S2048x32.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond6 i == 1#1) | ⟨_ + 11, h⟩ => absurd h (Nat.not_lt.2 (Nat.le_add_left _ _))

class Facts : Prop extends Facts₀ where

variable [Facts]
-- ==== ReferenceIdeal.lean ====
abbrev S2048x64 : Shape := ⟨2, ![2048, 64]⟩
abbrev S2048x2048 : Shape := ⟨2, ![2048, 2048]⟩
abbrev S64x32 : Shape := ⟨2, ![64, 32]⟩
abbrev S32 : Shape := ⟨1, ![32]⟩
abbrev S32x32 : Shape := ⟨2, ![32, 32]⟩
abbrev S_ : Shape := ⟨0, ![]⟩
abbrev S4194304 : Shape := ⟨1, ![4194304]⟩
abbrev S4194304x1 : Shape := ⟨2, ![4194304, 1]⟩
abbrev S4194304x2 : Shape := ⟨2, ![4194304, 2]⟩
abbrev S2048 : Shape := ⟨1, ![2048]⟩
abbrev S4196352 : Shape := ⟨1, ![4196352]⟩
abbrev S4196352x1 : Shape := ⟨2, ![4196352, 1]⟩
abbrev S2048x32 : Shape := ⟨2, ![2048, 32]⟩
abbrev S4196352x32 : Shape := ⟨2, ![4196352, 32]⟩
abbrev S1x32 : Shape := ⟨2, ![1, 32]⟩

abbrev nBuf : Space → Nat
  | .hbm => 414
  | .vmem => 0
  | .smem => 0
  | _ => 0

abbrev hbmTy0_0 (i : Nat) : BufTy := match i % 128 with
  | 0 => ⟨S2048x64, .f32⟩
  | 1 => ⟨S2048x2048, .f32⟩
  | 2 => ⟨S64x32, .f32⟩
  | 3 => ⟨S32, .f32⟩
  | 4 => ⟨S32, .f32⟩
  | 5 => ⟨S32, .f32⟩
  | 6 => ⟨S32x32, .f32⟩
  | 7 => ⟨S32, .f32⟩
  | 8 => ⟨S32, .f32⟩
  | 9 => ⟨S32, .f32⟩
  | 10 => ⟨S_, .f32⟩
  | 11 => ⟨S2048x2048, .f32⟩
  | 12 => ⟨S2048x2048, .i1⟩
  | 13 => ⟨S4194304, .i1⟩
  | 14 => ⟨S4194304, .i32⟩
  | 15 => ⟨S_, .i32⟩
  | 16 => ⟨S_, .i32⟩
  | 17 => ⟨S4194304, .i32⟩
  | 18 => ⟨S_, .i32⟩
  | 19 => ⟨S4194304, .i32⟩
  | 20 => ⟨S_, .i32⟩
  | 21 => ⟨S_, .i32⟩
  | 22 => ⟨S4194304, .i32⟩
  | 23 => ⟨S4194304, .i32⟩
  | 24 => ⟨S_, .i32⟩
  | 25 => ⟨S4194304, .i32⟩
  | 26 => ⟨S4194304, .i1⟩
  | 27 => ⟨S_, .i32⟩
  | 28 => ⟨S4194304, .i32⟩
  | 29 => ⟨S4194304, .i32⟩
  | 30 => ⟨S4194304, .i32⟩
  | 31 => ⟨S4194304x1, .i32⟩
  | 32 => ⟨S_, .i32⟩
  | 33 => ⟨S4194304, .i32⟩
  | 34 => ⟨S4194304, .i32⟩
  | 35 => ⟨S_, .i32⟩
  | 36 => ⟨S_, .i32⟩
  | 37 => ⟨S4194304, .i32⟩
  | 38 => ⟨S_, .i32⟩
  | 39 => ⟨S4194304, .i32⟩
  | 40 => ⟨S4194304, .i32⟩
  | 41 => ⟨S4194304, .i32⟩
  | 42 => ⟨S_, .i32⟩
  | 43 => ⟨S4194304, .i32⟩
  | 44 => ⟨S4194304, .i1⟩
  | 45 => ⟨S4194304, .i32⟩
  | 46 => ⟨S4194304, .i32⟩
  | 47 => ⟨S_, .i32⟩
  | 48 => ⟨S4194304, .i32⟩
  | 49 => ⟨S4194304, .i1⟩
  | 50 => ⟨S4194304, .i1⟩
  | 51 => ⟨S_, .i32⟩
  | 52 => ⟨S4194304, .i32⟩
  | 53 => ⟨S4194304, .i32⟩
  | 54 => ⟨S4194304, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S4194304, .i32⟩
  | 62 => ⟨S4194304, .i32⟩
  | 63 => ⟨S_, .i32⟩
  | 64 => ⟨S4194304, .i32⟩
  | 65 => ⟨S4194304, .i1⟩
  | 66 => ⟨S_, .i32⟩
  | 67 => ⟨S4194304, .i32⟩
  | 68 => ⟨S4194304, .i1⟩
  | 69 => ⟨S_, .i32⟩
  | 70 => ⟨S_, .i1⟩
  | 71 => ⟨S4194304, .i1⟩
  | 72 => ⟨S4194304, .i1⟩
  | 73 => ⟨S4194304, .i1⟩
  | 74 => ⟨S4194304, .i32⟩
  | 75 => ⟨S4194304, .i32⟩
  | 76 => ⟨S4194304, .i32⟩
  | 77 => ⟨S_, .i32⟩
  | 78 => ⟨S4194304, .i32⟩
  | 79 => ⟨S4194304, .i32⟩
  | 80 => ⟨S4194304, .i32⟩
  | 81 => ⟨S_, .i32⟩
  | 82 => ⟨S4194304, .i32⟩
  | 83 => ⟨S4194304, .i1⟩
  | 84 => ⟨S4194304, .i32⟩
  | 85 => ⟨S4194304, .i32⟩
  | 86 => ⟨S_, .i32⟩
  | 87 => ⟨S4194304, .i32⟩
  | 88 => ⟨S4194304, .i1⟩
  | 89 => ⟨S4194304, .i1⟩
  | 90 => ⟨S_, .i32⟩
  | 91 => ⟨S4194304, .i32⟩
  | 92 => ⟨S4194304, .i32⟩
  | 93 => ⟨S4194304, .i32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S4194304, .i32⟩
  | 101 => ⟨S4194304, .i32⟩
  | 102 => ⟨S_, .i32⟩
  | 103 => ⟨S4194304, .i32⟩
  | 104 => ⟨S4194304, .i1⟩
  | 105 => ⟨S_, .i32⟩
  | 106 => ⟨S4194304, .i32⟩
  | 107 => ⟨S4194304, .i1⟩
  | 108 => ⟨S_, .i32⟩
  | 109 => ⟨S_, .i1⟩
  | 110 => ⟨S4194304, .i1⟩
  | 111 => ⟨S4194304, .i1⟩
  | 112 => ⟨S4194304, .i1⟩
  | 113 => ⟨S4194304, .i32⟩
  | 114 => ⟨S4194304, .i32⟩
  | 115 => ⟨S4194304, .i32⟩
  | 116 => ⟨S4194304, .i32⟩
  | 117 => ⟨S2048x2048, .i32⟩
  | 118 => ⟨S_, .i32⟩
  | 119 => ⟨S_, .i32⟩
  | 120 => ⟨S4194304, .i32⟩
  | 121 => ⟨S4194304, .i1⟩
  | 122 => ⟨S_, .i32⟩
  | 123 => ⟨S_, .i32⟩
  | 124 => ⟨S4194304, .i32⟩
  | 125 => ⟨S4194304, .i32⟩
  | 126 => ⟨S_, .i32⟩
  | 127 => ⟨S_, .i32⟩
  | _ => ⟨S2048x64, .f32⟩

abbrev hbmTy0_1 (i : Nat) : BufTy := match i % 128 with
  | 0 => ⟨S4194304, .i32⟩
  | 1 => ⟨S4194304, .i32⟩
  | 2 => ⟨S4194304, .i32⟩
  | 3 => ⟨S_, .f32⟩
  | 4 => ⟨S2048x2048, .f32⟩
  | 5 => ⟨S2048x2048, .i1⟩
  | 6 => ⟨S2048x2048, .i32⟩
  | 7 => ⟨S_, .i32⟩
  | 8 => ⟨S_, .i32⟩
  | 9 => ⟨S4194304, .i32⟩
  | 10 => ⟨S4194304, .i1⟩
  | 11 => ⟨S4194304, .f32⟩
  | 12 => ⟨S_, .i32⟩
  | 13 => ⟨S4194304, .i32⟩
  | 14 => ⟨S4194304, .i1⟩
  | 15 => ⟨S_, .i32⟩
  | 16 => ⟨S4194304, .i32⟩
  | 17 => ⟨S4194304, .i32⟩
  | 18 => ⟨S4194304, .i32⟩
  | 19 => ⟨S_, .i32⟩
  | 20 => ⟨S4194304, .i32⟩
  | 21 => ⟨S4194304, .i1⟩
  | 22 => ⟨S_, .i32⟩
  | 23 => ⟨S4194304, .i32⟩
  | 24 => ⟨S4194304, .i32⟩
  | 25 => ⟨S4194304, .i32⟩
  | 26 => ⟨S4194304x1, .i32⟩
  | 27 => ⟨S4194304x1, .i32⟩
  | 28 => ⟨S4194304x2, .i32⟩
  | 29 => ⟨S4194304, .f32⟩
  | 30 => ⟨S4194304, .f32⟩
  | 31 => ⟨S2048, .i32⟩
  | 32 => ⟨S4196352, .i32⟩
  | 33 => ⟨S4196352, .i32⟩
  | 34 => ⟨S_, .f32⟩
  | 35 => ⟨S2048, .f32⟩
  | 36 => ⟨S4196352, .f32⟩
  | 37 => ⟨S_, .f32⟩
  | 38 => ⟨S2048, .f32⟩
  | 39 => ⟨S_, .i32⟩
  | 40 => ⟨S4196352, .i32⟩
  | 41 => ⟨S4196352, .i1⟩
  | 42 => ⟨S_, .i32⟩
  | 43 => ⟨S4196352, .i32⟩
  | 44 => ⟨S4196352, .i32⟩
  | 45 => ⟨S4196352, .i32⟩
  | 46 => ⟨S4196352x1, .i32⟩
  | 47 => ⟨S2048, .f32⟩
  | 48 => ⟨S_, .f32⟩
  | 49 => ⟨S2048, .f32⟩
  | 50 => ⟨S2048, .i1⟩
  | 51 => ⟨S_, .f32⟩
  | 52 => ⟨S_, .f32⟩
  | 53 => ⟨S2048, .f32⟩
  | 54 => ⟨S2048, .f32⟩
  | 55 => ⟨S_, .f32⟩
  | 56 => ⟨S2048, .f32⟩
  | 57 => ⟨S2048, .i1⟩
  | 58 => ⟨S2048, .f32⟩
  | 59 => ⟨S_, .f32⟩
  | 60 => ⟨S2048, .f32⟩
  | 61 => ⟨S2048, .f32⟩
  | 62 => ⟨S_, .f32⟩
  | 63 => ⟨S_, .f32⟩
  | 64 => ⟨S2048, .f32⟩
  | 65 => ⟨S2048, .f32⟩
  | 66 => ⟨S_, .i32⟩
  | 67 => ⟨S4196352, .i32⟩
  | 68 => ⟨S4196352, .i1⟩
  | 69 => ⟨S_, .i32⟩
  | 70 => ⟨S4196352, .i32⟩
  | 71 => ⟨S4196352, .i32⟩
  | 72 => ⟨S4196352, .i32⟩
  | 73 => ⟨S4196352x1, .i32⟩
  | 74 => ⟨S4196352, .f32⟩
  | 75 => ⟨S4196352, .f32⟩
  | 76 => ⟨S_, .i32⟩
  | 77 => ⟨S4196352, .i32⟩
  | 78 => ⟨S4196352, .i1⟩
  | 79 => ⟨S_, .i32⟩
  | 80 => ⟨S4196352, .i32⟩
  | 81 => ⟨S4196352, .i32⟩
  | 82 => ⟨S4196352, .i32⟩
  | 83 => ⟨S4196352x1, .i32⟩
  | 84 => ⟨S4196352, .f32⟩
  | 85 => ⟨S4196352, .f32⟩
  | 86 => ⟨S2048x32, .f32⟩
  | 87 => ⟨S4196352x1, .f32⟩
  | 88 => ⟨S_, .i32⟩
  | 89 => ⟨S4196352, .i32⟩
  | 90 => ⟨S4196352, .i1⟩
  | 91 => ⟨S_, .i32⟩
  | 92 => ⟨S4196352, .i32⟩
  | 93 => ⟨S4196352, .i32⟩
  | 94 => ⟨S4196352, .i32⟩
  | 95 => ⟨S4196352x1, .i32⟩
  | 96 => ⟨S4196352x32, .f32⟩
  | 97 => ⟨S4196352x32, .f32⟩
  | 98 => ⟨S4196352x32, .f32⟩
  | 99 => ⟨S_, .f32⟩
  | 100 => ⟨S2048x32, .f32⟩
  | 101 => ⟨S_, .i32⟩
  | 102 => ⟨S4196352, .i32⟩
  | 103 => ⟨S4196352, .i1⟩
  | 104 => ⟨S_, .i32⟩
  | 105 => ⟨S4196352, .i32⟩
  | 106 => ⟨S4196352, .i32⟩
  | 107 => ⟨S4196352, .i32⟩
  | 108 => ⟨S4196352x1, .i32⟩
  | 109 => ⟨S2048x32, .f32⟩
  | 110 => ⟨S1x32, .f32⟩
  | 111 => ⟨S2048x32, .f32⟩
  | 112 => ⟨S2048x32, .f32⟩
  | 113 => ⟨S_, .f32⟩
  | 114 => ⟨S32, .f32⟩
  | 115 => ⟨S_, .f32⟩
  | 116 => ⟨S32, .f32⟩
  | 117 => ⟨S32, .f32⟩
  | 118 => ⟨S_, .i32⟩
  | 119 => ⟨S_, .f32⟩
  | 120 => ⟨S32, .f32⟩
  | 121 => ⟨S1x32, .f32⟩
  | 122 => ⟨S_, .f32⟩
  | 123 => ⟨S1x32, .f32⟩
  | 124 => ⟨S1x32, .f32⟩
  | 125 => ⟨S2048x32, .f32⟩
  | 126 => ⟨S2048x32, .f32⟩
  | 127 => ⟨S2048x32, .f32⟩
  | _ => ⟨S2048x64, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S32, .f32⟩
  | 5 => ⟨S32, .f32⟩
  | 6 => ⟨S32, .f32⟩
  | 7 => ⟨S_, .f32⟩
  | 8 => ⟨S_, .i1⟩
  | 9 => ⟨S_, .f32⟩
  | 10 => ⟨S_, .f32⟩
  | 11 => ⟨S32, .f32⟩
  | 12 => ⟨S32, .f32⟩
  | 13 => ⟨S1x32, .f32⟩
  | 14 => ⟨S2048x32, .f32⟩
  | 15 => ⟨S2048x32, .f32⟩
  | 16 => ⟨S_, .f32⟩
  | 17 => ⟨S32, .f32⟩
  | 18 => ⟨S32, .f32⟩
  | 19 => ⟨S32, .f32⟩
  | 20 => ⟨S1x32, .f32⟩
  | 21 => ⟨S2048x32, .f32⟩
  | 22 => ⟨S2048x32, .f32⟩
  | 23 => ⟨S1x32, .f32⟩
  | 24 => ⟨S2048x32, .f32⟩
  | 25 => ⟨S2048x32, .f32⟩
  | 26 => ⟨S1x32, .f32⟩
  | 27 => ⟨S2048x32, .f32⟩
  | 28 => ⟨S2048x32, .f32⟩
  | 29 => ⟨S_, .f32⟩
  | 30 => ⟨S2048x32, .f32⟩
  | 31 => ⟨S2048x32, .f32⟩
  | 32 => ⟨S2048, .i32⟩
  | 33 => ⟨S4196352, .i32⟩
  | 34 => ⟨S4196352, .i32⟩
  | 35 => ⟨S_, .f32⟩
  | 36 => ⟨S2048, .f32⟩
  | 37 => ⟨S4196352, .f32⟩
  | 38 => ⟨S_, .f32⟩
  | 39 => ⟨S2048, .f32⟩
  | 40 => ⟨S_, .i32⟩
  | 41 => ⟨S4196352, .i32⟩
  | 42 => ⟨S4196352, .i1⟩
  | 43 => ⟨S_, .i32⟩
  | 44 => ⟨S4196352, .i32⟩
  | 45 => ⟨S4196352, .i32⟩
  | 46 => ⟨S4196352, .i32⟩
  | 47 => ⟨S4196352x1, .i32⟩
  | 48 => ⟨S2048, .f32⟩
  | 49 => ⟨S_, .f32⟩
  | 50 => ⟨S2048, .f32⟩
  | 51 => ⟨S2048, .i1⟩
  | 52 => ⟨S_, .f32⟩
  | 53 => ⟨S_, .f32⟩
  | 54 => ⟨S2048, .f32⟩
  | 55 => ⟨S2048, .f32⟩
  | 56 => ⟨S_, .f32⟩
  | 57 => ⟨S2048, .f32⟩
  | 58 => ⟨S2048, .i1⟩
  | 59 => ⟨S2048, .f32⟩
  | 60 => ⟨S_, .f32⟩
  | 61 => ⟨S2048, .f32⟩
  | 62 => ⟨S2048, .f32⟩
  | 63 => ⟨S_, .f32⟩
  | 64 => ⟨S_, .f32⟩
  | 65 => ⟨S2048, .f32⟩
  | 66 => ⟨S2048, .f32⟩
  | 67 => ⟨S_, .i32⟩
  | 68 => ⟨S4196352, .i32⟩
  | 69 => ⟨S4196352, .i1⟩
  | 70 => ⟨S_, .i32⟩
  | 71 => ⟨S4196352, .i32⟩
  | 72 => ⟨S4196352, .i32⟩
  | 73 => ⟨S4196352, .i32⟩
  | 74 => ⟨S4196352x1, .i32⟩
  | 75 => ⟨S4196352, .f32⟩
  | 76 => ⟨S4196352, .f32⟩
  | 77 => ⟨S_, .i32⟩
  | 78 => ⟨S4196352, .i32⟩
  | 79 => ⟨S4196352, .i1⟩
  | 80 => ⟨S_, .i32⟩
  | 81 => ⟨S4196352, .i32⟩
  | 82 => ⟨S4196352, .i32⟩
  | 83 => ⟨S4196352, .i32⟩
  | 84 => ⟨S4196352x1, .i32⟩
  | 85 => ⟨S4196352, .f32⟩
  | 86 => ⟨S4196352, .f32⟩
  | 87 => ⟨S2048x32, .f32⟩
  | 88 => ⟨S4196352x1, .f32⟩
  | 89 => ⟨S_, .i32⟩
  | 90 => ⟨S4196352, .i32⟩
  | 91 => ⟨S4196352, .i1⟩
  | 92 => ⟨S_, .i32⟩
  | 93 => ⟨S4196352, .i32⟩
  | 94 => ⟨S4196352, .i32⟩
  | 95 => ⟨S4196352, .i32⟩
  | 96 => ⟨S4196352x1, .i32⟩
  | 97 => ⟨S4196352x32, .f32⟩
  | 98 => ⟨S4196352x32, .f32⟩
  | 99 => ⟨S4196352x32, .f32⟩
  | 100 => ⟨S_, .f32⟩
  | 101 => ⟨S2048x32, .f32⟩
  | 102 => ⟨S_, .i32⟩
  | 103 => ⟨S4196352, .i32⟩
  | 104 => ⟨S4196352, .i1⟩
  | 105 => ⟨S_, .i32⟩
  | 106 => ⟨S4196352, .i32⟩
  | 107 => ⟨S4196352, .i32⟩
  | 108 => ⟨S4196352, .i32⟩
  | 109 => ⟨S4196352x1, .i32⟩
  | 110 => ⟨S2048x32, .f32⟩
  | 111 => ⟨S1x32, .f32⟩
  | 112 => ⟨S2048x32, .f32⟩
  | 113 => ⟨S2048x32, .f32⟩
  | 114 => ⟨S_, .f32⟩
  | 115 => ⟨S32, .f32⟩
  | 116 => ⟨S_, .f32⟩
  | 117 => ⟨S32, .f32⟩
  | 118 => ⟨S32, .f32⟩
  | 119 => ⟨S_, .i32⟩
  | 120 => ⟨S_, .f32⟩
  | 121 => ⟨S32, .f32⟩
  | 122 => ⟨S1x32, .f32⟩
  | 123 => ⟨S_, .f32⟩
  | 124 => ⟨S1x32, .f32⟩
  | 125 => ⟨S1x32, .f32⟩
  | 126 => ⟨S2048x32, .f32⟩
  | 127 => ⟨S2048x32, .f32⟩
  | _ => ⟨S2048x64, .f32⟩

abbrev hbmTy0_3 (i : Nat) : BufTy := match i % 128 with
  | 0 => ⟨S2048x32, .f32⟩
  | 1 => ⟨S_, .f32⟩
  | 2 => ⟨S_, .f32⟩
  | 3 => ⟨S_, .f32⟩
  | 4 => ⟨S_, .f32⟩
  | 5 => ⟨S32, .f32⟩
  | 6 => ⟨S32, .f32⟩
  | 7 => ⟨S32, .f32⟩
  | 8 => ⟨S_, .f32⟩
  | 9 => ⟨S_, .i1⟩
  | 10 => ⟨S_, .f32⟩
  | 11 => ⟨S_, .f32⟩
  | 12 => ⟨S32, .f32⟩
  | 13 => ⟨S32, .f32⟩
  | 14 => ⟨S1x32, .f32⟩
  | 15 => ⟨S2048x32, .f32⟩
  | 16 => ⟨S2048x32, .f32⟩
  | 17 => ⟨S_, .f32⟩
  | 18 => ⟨S32, .f32⟩
  | 19 => ⟨S32, .f32⟩
  | 20 => ⟨S32, .f32⟩
  | 21 => ⟨S1x32, .f32⟩
  | 22 => ⟨S2048x32, .f32⟩
  | 23 => ⟨S2048x32, .f32⟩
  | 24 => ⟨S1x32, .f32⟩
  | 25 => ⟨S2048x32, .f32⟩
  | 26 => ⟨S2048x32, .f32⟩
  | 27 => ⟨S1x32, .f32⟩
  | 28 => ⟨S2048x32, .f32⟩
  | 29 => ⟨S2048x32, .f32⟩
  | _ => ⟨S2048x64, .f32⟩

abbrev hbmTy (i : Nat) : BufTy := match i / 128 with
  | 0 => hbmTy0_0 i
  | 1 => hbmTy0_1 i
  | 2 => hbmTy0_2 i
  | 3 => hbmTy0_3 i
  | _ => ⟨S2048x64, .f32⟩

abbrev bufTy : (tb : Table) → Fin (tcTables nBuf tb) → BufTy
  | .hbm, ⟨i, _⟩ => hbmTy i
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_call0_v0 : Ref sig .tc := ⟨.hbm, 13, rfl⟩
abbrev main_call0_v1 : Ref sig .tc := ⟨.hbm, 14, rfl⟩
abbrev main_call0_call0_c : Ref sig .tc := ⟨.hbm, 15, rfl⟩
abbrev main_call0_call0_v0 : Ref sig .tc := ⟨.hbm, 16, rfl⟩
abbrev main_v2 : Ref sig .tc := ⟨.hbm, 17, rfl⟩
abbrev main_c : Ref sig .tc := ⟨.hbm, 18, rfl⟩
abbrev main_v3 : Ref sig .tc := ⟨.hbm, 19, rfl⟩
abbrev main_c_0 : Ref sig .tc := ⟨.hbm, 20, rfl⟩
abbrev main_call1_v0 : Ref sig .tc := ⟨.hbm, 21, rfl⟩
abbrev main_call1_v1 : Ref sig .tc := ⟨.hbm, 22, rfl⟩
abbrev main_v4 : Ref sig .tc := ⟨.hbm, 23, rfl⟩
abbrev main_c_1 : Ref sig .tc := ⟨.hbm, 24, rfl⟩
abbrev main_v5 : Ref sig .tc := ⟨.hbm, 25, rfl⟩
abbrev main_v6 : Ref sig .tc := ⟨.hbm, 26, rfl⟩
abbrev main_c_2 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_3 : Ref sig .tc := ⟨.hbm, 32, rfl⟩
abbrev main_v11 : Ref sig .tc := ⟨.hbm, 33, rfl⟩
abbrev main_v12 : Ref sig .tc := ⟨.hbm, 34, rfl⟩
abbrev main_call2_call0_c : Ref sig .tc := ⟨.hbm, 35, rfl⟩
abbrev main_call2_call0_v0 : Ref sig .tc := ⟨.hbm, 36, rfl⟩
abbrev main_v13 : Ref sig .tc := ⟨.hbm, 37, rfl⟩
abbrev main_c_4 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_call3_v5 : Ref sig .tc := ⟨.hbm, 44, rfl⟩
abbrev main_call3_v6 : Ref sig .tc := ⟨.hbm, 45, rfl⟩
abbrev main_call3_v7 : Ref sig .tc := ⟨.hbm, 46, rfl⟩
abbrev main_call3_c : Ref sig .tc := ⟨.hbm, 47, rfl⟩
abbrev main_call3_v8 : Ref sig .tc := ⟨.hbm, 48, rfl⟩
abbrev main_call3_v9 : Ref sig .tc := ⟨.hbm, 49, rfl⟩
abbrev main_call3_v10 : Ref sig .tc := ⟨.hbm, 50, rfl⟩
abbrev main_call3_c_0 : Ref sig .tc := ⟨.hbm, 51, rfl⟩
abbrev main_call3_v11 : Ref sig .tc := ⟨.hbm, 52, rfl⟩
abbrev main_call3_v12 : Ref sig .tc := ⟨.hbm, 53, rfl⟩
abbrev main_v14 : Ref sig .tc := ⟨.hbm, 54, rfl⟩
abbrev main_c_5 : Ref sig .tc := ⟨.hbm, 55, rfl⟩
abbrev main_call4_v0 : Ref sig .tc := ⟨.hbm, 56, rfl⟩
abbrev main_call4_c : Ref sig .tc := ⟨.hbm, 57, rfl⟩
abbrev main_call4_v1 : Ref sig .tc := ⟨.hbm, 58, rfl⟩
abbrev main_call4_c_0 : Ref sig .tc := ⟨.hbm, 59, rfl⟩
abbrev main_call4_v2 : Ref sig .tc := ⟨.hbm, 60, rfl⟩
abbrev main_call4_v3 : Ref sig .tc := ⟨.hbm, 61, rfl⟩
abbrev main_call4_v4 : Ref sig .tc := ⟨.hbm, 62, rfl⟩
abbrev main_call4_c_1 : Ref sig .tc := ⟨.hbm, 63, rfl⟩
abbrev main_call4_v5 : Ref sig .tc := ⟨.hbm, 64, rfl⟩
abbrev main_call4_v6 : Ref sig .tc := ⟨.hbm, 65, rfl⟩
abbrev main_call4_c_2 : Ref sig .tc := ⟨.hbm, 66, rfl⟩
abbrev main_call4_v7 : Ref sig .tc := ⟨.hbm, 67, rfl⟩
abbrev main_call4_v8 : Ref sig .tc := ⟨.hbm, 68, rfl⟩
abbrev main_call4_c_3 : Ref sig .tc := ⟨.hbm, 69, rfl⟩
abbrev main_call4_v9 : Ref sig .tc := ⟨.hbm, 70, rfl⟩
abbrev main_call4_v10 : Ref sig .tc := ⟨.hbm, 71, rfl⟩
abbrev main_call4_v11 : Ref sig .tc := ⟨.hbm, 72, rfl⟩
abbrev main_call4_v12 : Ref sig .tc := ⟨.hbm, 73, rfl⟩
abbrev main_call4_v13 : Ref sig .tc := ⟨.hbm, 74, rfl⟩
abbrev main_call4_v14 : Ref sig .tc := ⟨.hbm, 75, rfl⟩
abbrev main_v15 : Ref sig .tc := ⟨.hbm, 76, rfl⟩
abbrev main_c_6 : Ref sig .tc := ⟨.hbm, 77, rfl⟩
abbrev main_call5_v0 : Ref sig .tc := ⟨.hbm, 78, rfl⟩
abbrev main_call5_v1 : Ref sig .tc := ⟨.hbm, 79, rfl⟩
abbrev main_call5_v2 : Ref sig .tc := ⟨.hbm, 80, rfl⟩
abbrev main_call5_v3 : Ref sig .tc := ⟨.hbm, 81, rfl⟩
abbrev main_call5_v4 : Ref sig .tc := ⟨.hbm, 82, rfl⟩
abbrev main_call5_v5 : Ref sig .tc := ⟨.hbm, 83, rfl⟩
abbrev main_call5_v6 : Ref sig .tc := ⟨.hbm, 84, rfl⟩
abbrev main_call5_v7 : Ref sig .tc := ⟨.hbm, 85, rfl⟩
abbrev main_call5_c : Ref sig .tc := ⟨.hbm, 86, rfl⟩
abbrev main_call5_v8 : Ref sig .tc := ⟨.hbm, 87, rfl⟩
abbrev main_call5_v9 : Ref sig .tc := ⟨.hbm, 88, rfl⟩
abbrev main_call5_v10 : Ref sig .tc := ⟨.hbm, 89, rfl⟩
abbrev main_call5_c_0 : Ref sig .tc := ⟨.hbm, 90, rfl⟩
abbrev main_call5_v11 : Ref sig .tc := ⟨.hbm, 91, rfl⟩
abbrev main_call5_v12 : Ref sig .tc := ⟨.hbm, 92, rfl⟩
abbrev main_v16 : Ref sig .tc := ⟨.hbm, 93, rfl⟩
abbrev main_c_7 : Ref sig .tc := ⟨.hbm, 94, rfl⟩
abbrev main_call6_v0 : Ref sig .tc := ⟨.hbm, 95, rfl⟩
abbrev main_call6_c : Ref sig .tc := ⟨.hbm, 96, rfl⟩
abbrev main_call6_v1 : Ref sig .tc := ⟨.hbm, 97, rfl⟩
abbrev main_call6_c_0 : Ref sig .tc := ⟨.hbm, 98, rfl⟩
abbrev main_call6_v2 : Ref sig .tc := ⟨.hbm, 99, rfl⟩
abbrev main_call6_v3 : Ref sig .tc := ⟨.hbm, 100, rfl⟩
abbrev main_call6_v4 : Ref sig .tc := ⟨.hbm, 101, rfl⟩
abbrev main_call6_c_1 : Ref sig .tc := ⟨.hbm, 102, rfl⟩
abbrev main_call6_v5 : Ref sig .tc := ⟨.hbm, 103, rfl⟩
abbrev main_call6_v6 : Ref sig .tc := ⟨.hbm, 104, rfl⟩
abbrev main_call6_c_2 : Ref sig .tc := ⟨.hbm, 105, rfl⟩
abbrev main_call6_v7 : Ref sig .tc := ⟨.hbm, 106, rfl⟩
abbrev main_call6_v8 : Ref sig .tc := ⟨.hbm, 107, rfl⟩
abbrev main_call6_c_3 : Ref sig .tc := ⟨.hbm, 108, rfl⟩
abbrev main_call6_v9 : Ref sig .tc := ⟨.hbm, 109, rfl⟩
abbrev main_call6_v10 : Ref sig .tc := ⟨.hbm, 110, rfl⟩
abbrev main_call6_v11 : Ref sig .tc := ⟨.hbm, 111, rfl⟩
abbrev main_call6_v12 : Ref sig .tc := ⟨.hbm, 112, rfl⟩
abbrev main_call6_v13 : Ref sig .tc := ⟨.hbm, 113, rfl⟩
abbrev main_call6_v14 : Ref sig .tc := ⟨.hbm, 114, rfl⟩
abbrev main_v17 : Ref sig .tc := ⟨.hbm, 115, rfl⟩
abbrev main_v18 : Ref sig .tc := ⟨.hbm, 116, rfl⟩
abbrev main_v19 : Ref sig .tc := ⟨.hbm, 117, rfl⟩
abbrev main_c_8 : Ref sig .tc := ⟨.hbm, 118, rfl⟩
abbrev main_v20 : Ref sig .tc := ⟨.hbm, 119, rfl⟩
abbrev main_v21 : Ref sig .tc := ⟨.hbm, 120, rfl⟩
abbrev main_v22 : Ref sig .tc := ⟨.hbm, 121, rfl⟩
abbrev main_c_9 : Ref sig .tc := ⟨.hbm, 122, rfl⟩
abbrev main_call7_v0 : Ref sig .tc := ⟨.hbm, 123, rfl⟩
abbrev main_call7_v1 : Ref sig .tc := ⟨.hbm, 124, rfl⟩
abbrev main_v23 : Ref sig .tc := ⟨.hbm, 125, rfl⟩
abbrev main_c_10 : Ref sig .tc := ⟨.hbm, 126, rfl⟩
abbrev main_call8_v0 : Ref sig .tc := ⟨.hbm, 127, rfl⟩
abbrev main_call8_v1 : Ref sig .tc := ⟨.hbm, 128, rfl⟩
abbrev main_v24 : Ref sig .tc := ⟨.hbm, 129, rfl⟩
abbrev main_v25 : Ref sig .tc := ⟨.hbm, 130, rfl⟩
abbrev main_call9_cst : Ref sig .tc := ⟨.hbm, 131, rfl⟩
abbrev main_call9_v0 : Ref sig .tc := ⟨.hbm, 132, rfl⟩
abbrev main_call9_v1 : Ref sig .tc := ⟨.hbm, 133, rfl⟩
abbrev main_call9_v2 : Ref sig .tc := ⟨.hbm, 134, rfl⟩
abbrev main_call9_c : Ref sig .tc := ⟨.hbm, 135, rfl⟩
abbrev main_v26 : Ref sig .tc := ⟨.hbm, 136, rfl⟩
abbrev main_v27 : Ref sig .tc := ⟨.hbm, 137, rfl⟩
abbrev main_v28 : Ref sig .tc := ⟨.hbm, 138, rfl⟩
abbrev main_v29 : Ref sig .tc := ⟨.hbm, 139, rfl⟩
abbrev main_c_11 : Ref sig .tc := ⟨.hbm, 140, rfl⟩
abbrev main_v30 : Ref sig .tc := ⟨.hbm, 141, rfl⟩
abbrev main_v31 : Ref sig .tc := ⟨.hbm, 142, rfl⟩
abbrev main_c_12 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_c_13 : Ref sig .tc := ⟨.hbm, 147, rfl⟩
abbrev main_v35 : Ref sig .tc := ⟨.hbm, 148, rfl⟩
abbrev main_v36 : Ref sig .tc := ⟨.hbm, 149, rfl⟩
abbrev main_c_14 : Ref sig .tc := ⟨.hbm, 150, rfl⟩
abbrev main_v37 : Ref sig .tc := ⟨.hbm, 151, rfl⟩
abbrev main_v38 : Ref sig .tc := ⟨.hbm, 152, rfl⟩
abbrev main_v39 : Ref sig .tc := ⟨.hbm, 153, rfl⟩
abbrev main_v40 : Ref sig .tc := ⟨.hbm, 154, rfl⟩
abbrev main_v41 : Ref sig .tc := ⟨.hbm, 155, rfl⟩
abbrev main_v42 : Ref sig .tc := ⟨.hbm, 156, rfl⟩
abbrev main_v43 : Ref sig .tc := ⟨.hbm, 157, rfl⟩
abbrev main_v44 : Ref sig .tc := ⟨.hbm, 158, rfl⟩
abbrev main_v45 : Ref sig .tc := ⟨.hbm, 159, rfl⟩
abbrev main_v46 : Ref sig .tc := ⟨.hbm, 160, rfl⟩
abbrev main_v47 : Ref sig .tc := ⟨.hbm, 161, rfl⟩
abbrev main_cst_15 : Ref sig .tc := ⟨.hbm, 162, rfl⟩
abbrev main_v48 : Ref sig .tc := ⟨.hbm, 163, rfl⟩
abbrev main_v49 : Ref sig .tc := ⟨.hbm, 164, rfl⟩
abbrev main_cst_16 : Ref sig .tc := ⟨.hbm, 165, rfl⟩
abbrev main_v50 : Ref sig .tc := ⟨.hbm, 166, rfl⟩
abbrev main_c_17 : Ref sig .tc := ⟨.hbm, 167, rfl⟩
abbrev main_v51 : Ref sig .tc := ⟨.hbm, 168, rfl⟩
abbrev main_v52 : Ref sig .tc := ⟨.hbm, 169, rfl⟩
abbrev main_c_18 : Ref sig .tc := ⟨.hbm, 170, rfl⟩
abbrev main_v53 : Ref sig .tc := ⟨.hbm, 171, rfl⟩
abbrev main_v54 : Ref sig .tc := ⟨.hbm, 172, rfl⟩
abbrev main_v55 : Ref sig .tc := ⟨.hbm, 173, rfl⟩
abbrev main_v56 : Ref sig .tc := ⟨.hbm, 174, rfl⟩
abbrev main_v57 : Ref sig .tc := ⟨.hbm, 175, rfl⟩
abbrev main_cst_19 : Ref sig .tc := ⟨.hbm, 176, rfl⟩
abbrev main_v58 : Ref sig .tc := ⟨.hbm, 177, rfl⟩
abbrev main_v59 : Ref sig .tc := ⟨.hbm, 178, rfl⟩
abbrev main_cst_20 : Ref sig .tc := ⟨.hbm, 179, rfl⟩
abbrev main_call10_v0 : Ref sig .tc := ⟨.hbm, 180, rfl⟩
abbrev main_call10_v1 : Ref sig .tc := ⟨.hbm, 181, rfl⟩
abbrev main_v60 : Ref sig .tc := ⟨.hbm, 182, rfl⟩
abbrev main_cst_21 : Ref sig .tc := ⟨.hbm, 183, rfl⟩
abbrev main_v61 : Ref sig .tc := ⟨.hbm, 184, rfl⟩
abbrev main_v62 : Ref sig .tc := ⟨.hbm, 185, rfl⟩
abbrev main_v63 : Ref sig .tc := ⟨.hbm, 186, rfl⟩
abbrev main_cst_22 : Ref sig .tc := ⟨.hbm, 187, rfl⟩
abbrev main_v64 : Ref sig .tc := ⟨.hbm, 188, rfl⟩
abbrev main_v65 : Ref sig .tc := ⟨.hbm, 189, rfl⟩
abbrev main_cst_23 : Ref sig .tc := ⟨.hbm, 190, rfl⟩
abbrev main_call11_v0 : Ref sig .tc := ⟨.hbm, 191, rfl⟩
abbrev main_call11_v1 : Ref sig .tc := ⟨.hbm, 192, rfl⟩
abbrev main_v66 : Ref sig .tc := ⟨.hbm, 193, rfl⟩
abbrev main_c_24 : Ref sig .tc := ⟨.hbm, 194, rfl⟩
abbrev main_v67 : Ref sig .tc := ⟨.hbm, 195, rfl⟩
abbrev main_v68 : Ref sig .tc := ⟨.hbm, 196, rfl⟩
abbrev main_c_25 : Ref sig .tc := ⟨.hbm, 197, rfl⟩
abbrev main_v69 : Ref sig .tc := ⟨.hbm, 198, rfl⟩
abbrev main_v70 : Ref sig .tc := ⟨.hbm, 199, rfl⟩
abbrev main_v71 : Ref sig .tc := ⟨.hbm, 200, rfl⟩
abbrev main_v72 : Ref sig .tc := ⟨.hbm, 201, rfl⟩
abbrev main_v73 : Ref sig .tc := ⟨.hbm, 202, rfl⟩
abbrev main_v74 : Ref sig .tc := ⟨.hbm, 203, rfl⟩
abbrev main_c_26 : Ref sig .tc := ⟨.hbm, 204, rfl⟩
abbrev main_v75 : Ref sig .tc := ⟨.hbm, 205, rfl⟩
abbrev main_v76 : Ref sig .tc := ⟨.hbm, 206, rfl⟩
abbrev main_c_27 : Ref sig .tc := ⟨.hbm, 207, rfl⟩
abbrev main_v77 : Ref sig .tc := ⟨.hbm, 208, rfl⟩
abbrev main_v78 : Ref sig .tc := ⟨.hbm, 209, rfl⟩
abbrev main_v79 : Ref sig .tc := ⟨.hbm, 210, rfl⟩
abbrev main_v80 : Ref sig .tc := ⟨.hbm, 211, rfl⟩
abbrev main_v81 : Ref sig .tc := ⟨.hbm, 212, rfl⟩
abbrev main_v82 : Ref sig .tc := ⟨.hbm, 213, rfl⟩
abbrev main_v83 : Ref sig .tc := ⟨.hbm, 214, rfl⟩
abbrev main_v84 : Ref sig .tc := ⟨.hbm, 215, rfl⟩
abbrev main_c_28 : Ref sig .tc := ⟨.hbm, 216, rfl⟩
abbrev main_v85 : Ref sig .tc := ⟨.hbm, 217, rfl⟩
abbrev main_v86 : Ref sig .tc := ⟨.hbm, 218, rfl⟩
abbrev main_c_29 : Ref sig .tc := ⟨.hbm, 219, rfl⟩
abbrev main_v87 : Ref sig .tc := ⟨.hbm, 220, rfl⟩
abbrev main_v88 : Ref sig .tc := ⟨.hbm, 221, rfl⟩
abbrev main_v89 : Ref sig .tc := ⟨.hbm, 222, rfl⟩
abbrev main_v90 : Ref sig .tc := ⟨.hbm, 223, rfl⟩
abbrev main_v91 : Ref sig .tc := ⟨.hbm, 224, rfl⟩
abbrev main_v92 : Ref sig .tc := ⟨.hbm, 225, rfl⟩
abbrev main_v93 : Ref sig .tc := ⟨.hbm, 226, rfl⟩
abbrev main_cst_30 : Ref sig .tc := ⟨.hbm, 227, rfl⟩
abbrev main_v94 : Ref sig .tc := ⟨.hbm, 228, rfl⟩
abbrev main_c_31 : Ref sig .tc := ⟨.hbm, 229, rfl⟩
abbrev main_v95 : Ref sig .tc := ⟨.hbm, 230, rfl⟩
abbrev main_v96 : Ref sig .tc := ⟨.hbm, 231, rfl⟩
abbrev main_c_32 : Ref sig .tc := ⟨.hbm, 232, rfl⟩
abbrev main_v97 : Ref sig .tc := ⟨.hbm, 233, rfl⟩
abbrev main_v98 : Ref sig .tc := ⟨.hbm, 234, rfl⟩
abbrev main_v99 : Ref sig .tc := ⟨.hbm, 235, rfl⟩
abbrev main_v100 : Ref sig .tc := ⟨.hbm, 236, rfl⟩
abbrev main_v101 : Ref sig .tc := ⟨.hbm, 237, rfl⟩
abbrev main_v102 : Ref sig .tc := ⟨.hbm, 238, rfl⟩
abbrev main_v103 : Ref sig .tc := ⟨.hbm, 239, rfl⟩
abbrev main_v104 : Ref sig .tc := ⟨.hbm, 240, rfl⟩
abbrev main_cst_33 : Ref sig .tc := ⟨.hbm, 241, rfl⟩
abbrev main_v105 : Ref sig .tc := ⟨.hbm, 242, rfl⟩
abbrev main_cst_34 : Ref sig .tc := ⟨.hbm, 243, rfl⟩
abbrev main_v106 : Ref sig .tc := ⟨.hbm, 244, rfl⟩
abbrev main_v107 : Ref sig .tc := ⟨.hbm, 245, rfl⟩
abbrev main_c_35 : Ref sig .tc := ⟨.hbm, 246, rfl⟩
abbrev main_call12_cst : Ref sig .tc := ⟨.hbm, 247, rfl⟩
abbrev main_call12_v0 : Ref sig .tc := ⟨.hbm, 248, rfl⟩
abbrev main_call12_v1 : Ref sig .tc := ⟨.hbm, 249, rfl⟩
abbrev main_call12_cst_0 : Ref sig .tc := ⟨.hbm, 250, rfl⟩
abbrev main_call12_v2 : Ref sig .tc := ⟨.hbm, 251, rfl⟩
abbrev main_call12_v3 : Ref sig .tc := ⟨.hbm, 252, rfl⟩
abbrev main_call12_v4 : Ref sig .tc := ⟨.hbm, 253, rfl⟩
abbrev main_call12_v5 : Ref sig .tc := ⟨.hbm, 254, rfl⟩
abbrev main_call12_v6 : Ref sig .tc := ⟨.hbm, 255, rfl⟩
abbrev main_call12_v7 : Ref sig .tc := ⟨.hbm, 256, rfl⟩
abbrev main_call12_cst_1 : Ref sig .tc := ⟨.hbm, 257, rfl⟩
abbrev main_call12_v8 : Ref sig .tc := ⟨.hbm, 258, rfl⟩
abbrev main_call12_cst_2 : Ref sig .tc := ⟨.hbm, 259, rfl⟩
abbrev main_call12_v9 : Ref sig .tc := ⟨.hbm, 260, rfl⟩
abbrev main_call12_v10 : Ref sig .tc := ⟨.hbm, 261, rfl⟩
abbrev main_call12_v11 : Ref sig .tc := ⟨.hbm, 262, rfl⟩
abbrev main_call12_cst_3 : Ref sig .tc := ⟨.hbm, 263, rfl⟩
abbrev main_call12_v12 : Ref sig .tc := ⟨.hbm, 264, rfl⟩
abbrev main_call12_cst_4 : Ref sig .tc := ⟨.hbm, 265, rfl⟩
abbrev main_call12_call0_v0 : Ref sig .tc := ⟨.hbm, 266, rfl⟩
abbrev main_call12_call0_v1 : Ref sig .tc := ⟨.hbm, 267, rfl⟩
abbrev main_v108 : Ref sig .tc := ⟨.hbm, 268, rfl⟩
abbrev main_v109 : Ref sig .tc := ⟨.hbm, 269, rfl⟩
abbrev main_v110 : Ref sig .tc := ⟨.hbm, 270, rfl⟩
abbrev main_v111 : Ref sig .tc := ⟨.hbm, 271, rfl⟩
abbrev main_cst_36 : Ref sig .tc := ⟨.hbm, 272, rfl⟩
abbrev main_v112 : Ref sig .tc := ⟨.hbm, 273, rfl⟩
abbrev main_v113 : Ref sig .tc := ⟨.hbm, 274, rfl⟩
abbrev main_v114 : Ref sig .tc := ⟨.hbm, 275, rfl⟩
abbrev main_v115 : Ref sig .tc := ⟨.hbm, 276, rfl⟩
abbrev main_v116 : Ref sig .tc := ⟨.hbm, 277, rfl⟩
abbrev main_v117 : Ref sig .tc := ⟨.hbm, 278, rfl⟩
abbrev main_v118 : Ref sig .tc := ⟨.hbm, 279, rfl⟩
abbrev main_v119 : Ref sig .tc := ⟨.hbm, 280, rfl⟩
abbrev main_v120 : Ref sig .tc := ⟨.hbm, 281, rfl⟩
abbrev main_v121 : Ref sig .tc := ⟨.hbm, 282, rfl⟩
abbrev main_v122 : Ref sig .tc := ⟨.hbm, 283, rfl⟩
abbrev main_v123 : Ref sig .tc := ⟨.hbm, 284, rfl⟩
abbrev main_call13_cst : Ref sig .tc := ⟨.hbm, 285, rfl⟩
abbrev main_call13_v0 : Ref sig .tc := ⟨.hbm, 286, rfl⟩
abbrev main_v124 : Ref sig .tc := ⟨.hbm, 287, rfl⟩
abbrev main_v125 : Ref sig .tc := ⟨.hbm, 288, rfl⟩
abbrev main_v126 : Ref sig .tc := ⟨.hbm, 289, rfl⟩
abbrev main_v127 : Ref sig .tc := ⟨.hbm, 290, rfl⟩
abbrev main_cst_37 : Ref sig .tc := ⟨.hbm, 291, rfl⟩
abbrev main_v128 : Ref sig .tc := ⟨.hbm, 292, rfl⟩
abbrev main_v129 : Ref sig .tc := ⟨.hbm, 293, rfl⟩
abbrev main_cst_38 : Ref sig .tc := ⟨.hbm, 294, rfl⟩
abbrev main_v130 : Ref sig .tc := ⟨.hbm, 295, rfl⟩
abbrev main_c_39 : Ref sig .tc := ⟨.hbm, 296, rfl⟩
abbrev main_v131 : Ref sig .tc := ⟨.hbm, 297, rfl⟩
abbrev main_v132 : Ref sig .tc := ⟨.hbm, 298, rfl⟩
abbrev main_c_40 : Ref sig .tc := ⟨.hbm, 299, rfl⟩
abbrev main_v133 : Ref sig .tc := ⟨.hbm, 300, rfl⟩
abbrev main_v134 : Ref sig .tc := ⟨.hbm, 301, rfl⟩
abbrev main_v135 : Ref sig .tc := ⟨.hbm, 302, rfl⟩
abbrev main_v136 : Ref sig .tc := ⟨.hbm, 303, rfl⟩
abbrev main_v137 : Ref sig .tc := ⟨.hbm, 304, rfl⟩
abbrev main_cst_41 : Ref sig .tc := ⟨.hbm, 305, rfl⟩
abbrev main_v138 : Ref sig .tc := ⟨.hbm, 306, rfl⟩
abbrev main_v139 : Ref sig .tc := ⟨.hbm, 307, rfl⟩
abbrev main_cst_42 : Ref sig .tc := ⟨.hbm, 308, rfl⟩
abbrev main_call14_v0 : Ref sig .tc := ⟨.hbm, 309, rfl⟩
abbrev main_call14_v1 : Ref sig .tc := ⟨.hbm, 310, rfl⟩
abbrev main_v140 : Ref sig .tc := ⟨.hbm, 311, rfl⟩
abbrev main_cst_43 : Ref sig .tc := ⟨.hbm, 312, rfl⟩
abbrev main_v141 : Ref sig .tc := ⟨.hbm, 313, rfl⟩
abbrev main_v142 : Ref sig .tc := ⟨.hbm, 314, rfl⟩
abbrev main_v143 : Ref sig .tc := ⟨.hbm, 315, rfl⟩
abbrev main_cst_44 : Ref sig .tc := ⟨.hbm, 316, rfl⟩
abbrev main_v144 : Ref sig .tc := ⟨.hbm, 317, rfl⟩
abbrev main_v145 : Ref sig .tc := ⟨.hbm, 318, rfl⟩
abbrev main_cst_45 : Ref sig .tc := ⟨.hbm, 319, rfl⟩
abbrev main_call15_v0 : Ref sig .tc := ⟨.hbm, 320, rfl⟩
abbrev main_call15_v1 : Ref sig .tc := ⟨.hbm, 321, rfl⟩
abbrev main_v146 : Ref sig .tc := ⟨.hbm, 322, rfl⟩
abbrev main_c_46 : Ref sig .tc := ⟨.hbm, 323, rfl⟩
abbrev main_v147 : Ref sig .tc := ⟨.hbm, 324, rfl⟩
abbrev main_v148 : Ref sig .tc := ⟨.hbm, 325, rfl⟩
abbrev main_c_47 : Ref sig .tc := ⟨.hbm, 326, rfl⟩
abbrev main_v149 : Ref sig .tc := ⟨.hbm, 327, rfl⟩
abbrev main_v150 : Ref sig .tc := ⟨.hbm, 328, rfl⟩
abbrev main_v151 : Ref sig .tc := ⟨.hbm, 329, rfl⟩
abbrev main_v152 : Ref sig .tc := ⟨.hbm, 330, rfl⟩
abbrev main_v153 : Ref sig .tc := ⟨.hbm, 331, rfl⟩
abbrev main_v154 : Ref sig .tc := ⟨.hbm, 332, rfl⟩
abbrev main_c_48 : Ref sig .tc := ⟨.hbm, 333, rfl⟩
abbrev main_v155 : Ref sig .tc := ⟨.hbm, 334, rfl⟩
abbrev main_v156 : Ref sig .tc := ⟨.hbm, 335, rfl⟩
abbrev main_c_49 : Ref sig .tc := ⟨.hbm, 336, rfl⟩
abbrev main_v157 : Ref sig .tc := ⟨.hbm, 337, rfl⟩
abbrev main_v158 : Ref sig .tc := ⟨.hbm, 338, rfl⟩
abbrev main_v159 : Ref sig .tc := ⟨.hbm, 339, rfl⟩
abbrev main_v160 : Ref sig .tc := ⟨.hbm, 340, rfl⟩
abbrev main_v161 : Ref sig .tc := ⟨.hbm, 341, rfl⟩
abbrev main_v162 : Ref sig .tc := ⟨.hbm, 342, rfl⟩
abbrev main_v163 : Ref sig .tc := ⟨.hbm, 343, rfl⟩
abbrev main_v164 : Ref sig .tc := ⟨.hbm, 344, rfl⟩
abbrev main_c_50 : Ref sig .tc := ⟨.hbm, 345, rfl⟩
abbrev main_v165 : Ref sig .tc := ⟨.hbm, 346, rfl⟩
abbrev main_v166 : Ref sig .tc := ⟨.hbm, 347, rfl⟩
abbrev main_c_51 : Ref sig .tc := ⟨.hbm, 348, rfl⟩
abbrev main_v167 : Ref sig .tc := ⟨.hbm, 349, rfl⟩
abbrev main_v168 : Ref sig .tc := ⟨.hbm, 350, rfl⟩
abbrev main_v169 : Ref sig .tc := ⟨.hbm, 351, rfl⟩
abbrev main_v170 : Ref sig .tc := ⟨.hbm, 352, rfl⟩
abbrev main_v171 : Ref sig .tc := ⟨.hbm, 353, rfl⟩
abbrev main_v172 : Ref sig .tc := ⟨.hbm, 354, rfl⟩
abbrev main_v173 : Ref sig .tc := ⟨.hbm, 355, rfl⟩
abbrev main_cst_52 : Ref sig .tc := ⟨.hbm, 356, rfl⟩
abbrev main_v174 : Ref sig .tc := ⟨.hbm, 357, rfl⟩
abbrev main_c_53 : Ref sig .tc := ⟨.hbm, 358, rfl⟩
abbrev main_v175 : Ref sig .tc := ⟨.hbm, 359, rfl⟩
abbrev main_v176 : Ref sig .tc := ⟨.hbm, 360, rfl⟩
abbrev main_c_54 : Ref sig .tc := ⟨.hbm, 361, rfl⟩
abbrev main_v177 : Ref sig .tc := ⟨.hbm, 362, rfl⟩
abbrev main_v178 : Ref sig .tc := ⟨.hbm, 363, rfl⟩
abbrev main_v179 : Ref sig .tc := ⟨.hbm, 364, rfl⟩
abbrev main_v180 : Ref sig .tc := ⟨.hbm, 365, rfl⟩
abbrev main_v181 : Ref sig .tc := ⟨.hbm, 366, rfl⟩
abbrev main_v182 : Ref sig .tc := ⟨.hbm, 367, rfl⟩
abbrev main_v183 : Ref sig .tc := ⟨.hbm, 368, rfl⟩
abbrev main_v184 : Ref sig .tc := ⟨.hbm, 369, rfl⟩
abbrev main_cst_55 : Ref sig .tc := ⟨.hbm, 370, rfl⟩
abbrev main_v185 : Ref sig .tc := ⟨.hbm, 371, rfl⟩
abbrev main_cst_56 : Ref sig .tc := ⟨.hbm, 372, rfl⟩
abbrev main_v186 : Ref sig .tc := ⟨.hbm, 373, rfl⟩
abbrev main_v187 : Ref sig .tc := ⟨.hbm, 374, rfl⟩
abbrev main_c_57 : Ref sig .tc := ⟨.hbm, 375, rfl⟩
abbrev main_call16_cst : Ref sig .tc := ⟨.hbm, 376, rfl⟩
abbrev main_call16_v0 : Ref sig .tc := ⟨.hbm, 377, rfl⟩
abbrev main_call16_v1 : Ref sig .tc := ⟨.hbm, 378, rfl⟩
abbrev main_call16_cst_0 : Ref sig .tc := ⟨.hbm, 379, rfl⟩
abbrev main_call16_v2 : Ref sig .tc := ⟨.hbm, 380, rfl⟩
abbrev main_call16_v3 : Ref sig .tc := ⟨.hbm, 381, rfl⟩
abbrev main_call16_v4 : Ref sig .tc := ⟨.hbm, 382, rfl⟩
abbrev main_call16_v5 : Ref sig .tc := ⟨.hbm, 383, rfl⟩
abbrev main_call16_v6 : Ref sig .tc := ⟨.hbm, 384, rfl⟩
abbrev main_call16_v7 : Ref sig .tc := ⟨.hbm, 385, rfl⟩
abbrev main_call16_cst_1 : Ref sig .tc := ⟨.hbm, 386, rfl⟩
abbrev main_call16_v8 : Ref sig .tc := ⟨.hbm, 387, rfl⟩
abbrev main_call16_cst_2 : Ref sig .tc := ⟨.hbm, 388, rfl⟩
abbrev main_call16_v9 : Ref sig .tc := ⟨.hbm, 389, rfl⟩
abbrev main_call16_v10 : Ref sig .tc := ⟨.hbm, 390, rfl⟩
abbrev main_call16_v11 : Ref sig .tc := ⟨.hbm, 391, rfl⟩
abbrev main_call16_cst_3 : Ref sig .tc := ⟨.hbm, 392, rfl⟩
abbrev main_call16_v12 : Ref sig .tc := ⟨.hbm, 393, rfl⟩
abbrev main_call16_cst_4 : Ref sig .tc := ⟨.hbm, 394, rfl⟩
abbrev main_call16_call0_v0 : Ref sig .tc := ⟨.hbm, 395, rfl⟩
abbrev main_call16_call0_v1 : Ref sig .tc := ⟨.hbm, 396, rfl⟩
abbrev main_v188 : Ref sig .tc := ⟨.hbm, 397, rfl⟩
abbrev main_v189 : Ref sig .tc := ⟨.hbm, 398, rfl⟩
abbrev main_v190 : Ref sig .tc := ⟨.hbm, 399, rfl⟩
abbrev main_v191 : Ref sig .tc := ⟨.hbm, 400, rfl⟩
abbrev main_cst_58 : Ref sig .tc := ⟨.hbm, 401, rfl⟩
abbrev main_v192 : Ref sig .tc := ⟨.hbm, 402, rfl⟩
abbrev main_v193 : Ref sig .tc := ⟨.hbm, 403, rfl⟩
abbrev main_v194 : Ref sig .tc := ⟨.hbm, 404, rfl⟩
abbrev main_v195 : Ref sig .tc := ⟨.hbm, 405, rfl⟩
abbrev main_v196 : Ref sig .tc := ⟨.hbm, 406, rfl⟩
abbrev main_v197 : Ref sig .tc := ⟨.hbm, 407, rfl⟩
abbrev main_v198 : Ref sig .tc := ⟨.hbm, 408, rfl⟩
abbrev main_v199 : Ref sig .tc := ⟨.hbm, 409, rfl⟩
abbrev main_v200 : Ref sig .tc := ⟨.hbm, 410, rfl⟩
abbrev main_v201 : Ref sig .tc := ⟨.hbm, 411, rfl⟩
abbrev main_v202 : Ref sig .tc := ⟨.hbm, 412, rfl⟩
abbrev main_v203 : Ref sig .tc := ⟨.hbm, 413, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  shapeCasts_S2048x2048_S4194304 : S2048x2048.ShapeCasts S4194304
  natLt_1_32 : 1 < 32
  bcast_S_S_ : S_.BroadcastsInDim S_ (![] : Fin 0 → Fin S_.rank)
  reduceWindows_S4194304_S4194304_w4194304s1p4194303_0 : S4194304.ReduceWindows (![4194304] : Fin 1 → Nat) ![1] ![4194303] ![0] S4194304
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  reducesTo_S2048x2048_S_d0_1 : S2048x2048.ReducesTo [0, 1] S_
  concatenates_S4194304x1_S4194304x1_S4194304x2_d1 : Shape.Concatenates [S4194304x1, S4194304x1] S4194304x2 1
  concatenates_S4194304_S2048_S4196352_d0 : Shape.Concatenates [S4194304, S2048] S4196352 0
  bcast_S_S2048 : S_.BroadcastsInDim S2048 (![] : Fin 0 → Fin S2048.rank)
  bcast_S_S4196352 : S_.BroadcastsInDim S4196352 (![] : Fin 0 → Fin S4196352.rank)
  bcast_S4196352_S4196352x1_0 : S4196352.BroadcastsInDim S4196352x1 (![0] : Fin 1 → Fin S4196352x1.rank)
  bcast_S4196352x1_S4196352x32_0_1 : S4196352x1.BroadcastsInDim S4196352x32 (![0, 1] : Fin 2 → Fin S4196352x32.rank)
  bcast_S_S2048x32 : S_.BroadcastsInDim S2048x32 (![] : Fin 0 → Fin S2048x32.rank)
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  reducesTo_S2048x32_S32_d0 : S2048x32.ReducesTo [0] S32
  bcast_S_S32 : S_.BroadcastsInDim S32 (![] : Fin 0 → Fin S32.rank)
  bcast_S_S1x32 : S_.BroadcastsInDim S1x32 (![] : Fin 0 → Fin S1x32.rank)
  scatter_S4194304_S4194304x1_S4194304_n_0_0_1_wf : ScatterDims.WF S4194304 S4194304x1 S4194304 [] [0] [0] 1
  gather_S2048x2048_S4194304x2_S4194304_n_01_n_n_01_1_11_wf : GatherDims.WF S2048x2048 S4194304x2 S4194304 [] [0, 1] [] [0, 1] [] 1 ![1, 1]
  scatter_S2048_S4196352x1_S4196352_n_0_0_1_wf : ScatterDims.WF S2048 S4196352x1 S4196352 [] [0] [0] 1
  gather_S2048_S4196352x1_S4196352_n_0_n_n_0_1_1_wf : GatherDims.WF S2048 S4196352x1 S4196352 [] [0] [] [0] [] 1 ![1]
  dot_S2048x64_S64x32_S2048x32_1_0_0_1_n_n_wf : DotDims.WF S2048x64 S64x32 S2048x32 [1] [0] [0] [1] [] []
  gather_S2048x32_S4196352x1_S4196352x32_1_0_n_n_0_1_132_wf : GatherDims.WF S2048x32 S4196352x1 S4196352x32 [1] [0] [] [0] [] 1 ![1, 32]
  scatter_S2048x32_S4196352x1_S4196352x32_1_0_0_1_wf : ScatterDims.WF S2048x32 S4196352x1 S4196352x32 [1] [0] [0] 1
  dot_S2048x32_S32x32_S2048x32_1_0_0_1_n_n_wf : DotDims.WF S2048x32 S32x32 S2048x32 [1] [0] [0] [1] [] []

variable [Facts₀]

def scatter_S4194304_S4194304x1_S4194304_n_0_0_1 : ScatterDims S4194304 S4194304x1 S4194304 where
  updateWindowDims := []
  insertedWindowDims := [0]
  scatterDimsToOperandDims := [0]
  indexVectorDim := 1
  wf := scatter_S4194304_S4194304x1_S4194304_n_0_0_1_wf
def gather_S2048x2048_S4194304x2_S4194304_n_01_n_n_01_1_11 : GatherDims S2048x2048 S4194304x2 S4194304 where
  offsetDims := []
  collapsedSliceDims := [0, 1]
  operandBatchingDims := []
  startIndicesBatchingDims := []
  startIndexMap := [0, 1]
  indexVectorDim := 1
  sliceSizes := ![1, 1]
  wf := gather_S2048x2048_S4194304x2_S4194304_n_01_n_n_01_1_11_wf
def scatter_S2048_S4196352x1_S4196352_n_0_0_1 : ScatterDims S2048 S4196352x1 S4196352 where
  updateWindowDims := []
  insertedWindowDims := [0]
  scatterDimsToOperandDims := [0]
  indexVectorDim := 1
  wf := scatter_S2048_S4196352x1_S4196352_n_0_0_1_wf
def gather_S2048_S4196352x1_S4196352_n_0_n_n_0_1_1 : GatherDims S2048 S4196352x1 S4196352 where
  offsetDims := []
  collapsedSliceDims := [0]
  operandBatchingDims := []
  startIndicesBatchingDims := []
  startIndexMap := [0]
  indexVectorDim := 1
  sliceSizes := ![1]
  wf := gather_S2048_S4196352x1_S4196352_n_0_n_n_0_1_1_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def gather_S2048x32_S4196352x1_S4196352x32_1_0_n_n_0_1_132 : GatherDims S2048x32 S4196352x1 S4196352x32 where
  offsetDims := [1]
  collapsedSliceDims := [0]
  operandBatchingDims := []
  startIndicesBatchingDims := []
  startIndexMap := [0]
  indexVectorDim := 1
  sliceSizes := ![1, 32]
  wf := gather_S2048x32_S4196352x1_S4196352x32_1_0_n_n_0_1_132_wf
def scatter_S2048x32_S4196352x1_S4196352x32_1_0_0_1 : ScatterDims S2048x32 S4196352x1 S4196352x32 where
  updateWindowDims := [1]
  insertedWindowDims := [0]
  scatterDimsToOperandDims := [0]
  indexVectorDim := 1
  wf := scatter_S2048x32_S4196352x1_S4196352x32_1_0_0_1_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf

class Facts : Prop extends Facts₀ where

variable [Facts]
-- ==== Proof.Spec.lean ====
import Idealize.ShloMosaic.PureOps.Ideal
import Idealize.ShloMosaic.Lib.ValueIdx

noncomputable section

namespace Cert.GcnSpec

open Idealize.ShloMosaic Idealize.ShloMosaic.ValueIdx

abbrev Mat (a b : Nat) := Fin a → Fin b → EReal
abbrev Vect (a : Nat) := Fin a → EReal

def f0 : EReal := Ideal.ofBits .f32 0x00000000#32
def f1 : EReal := Ideal.ofBits .f32 0x3F800000#32
def f2048 : EReal := Ideal.ofBits .f32 0x45000000#32
def feps : EReal := Ideal.ofBits .f32 0x3727C5AC#32

def colsum (A : Mat 2048 2048) (c : Fin 2048) : EReal := ∑ r : Fin 2048, A r c

def deg (A : Mat 2048 2048) (c : Fin 2048) : EReal := colsum A c + f1

def dis (A : Mat 2048 2048) (c : Fin 2048) : EReal :=
  Scalar.select (Ideal.cmp .ogt (deg A c) f0) (Ideal.rsqrt (deg A c)) f0

def lin {n d k : Nat} (X : Mat n d) (W : Mat d k) : Mat n k := fun r j => ∑ a : Fin d, X r a * W a j

def prop {k : Nat} (A : Mat 2048 2048) (U : Mat 2048 k) : Mat 2048 k := fun c j => ∑ r : Fin 2048, A r c * U r j

def conv {k : Nat} (A : Mat 2048 2048) (H : Mat 2048 k) (b : Vect k) : Mat 2048 k := fun c j =>
  dis A c * (prop A (fun r j' => dis A r * H r j') c j + dis A c * H c j) + b j

def mean {k : Nat} (Y : Mat 2048 k) (j : Fin k) : EReal := Ideal.div (∑ r : Fin 2048, Y r j) f2048

def var {k : Nat} (Y : Mat 2048 k) (j : Fin k) : EReal :=
  Ideal.div (∑ r : Fin 2048, (Y r j - mean Y j) * (Y r j - mean Y j)) f2048

def bn {k : Nat} (Y : Mat 2048 k) (g be : Vect k) : Mat 2048 k := fun r j =>
  (Y r j - mean Y j) * Ideal.rsqrt (var Y j + feps) * g j + be j

def relu {k : Nat} (Y : Mat 2048 k) : Mat 2048 k := fun r j => max (Y r j) f0

def y1 (X : Mat 2048 64) (A : Mat 2048 2048) (W1 : Mat 64 32) (b1 : Vect 32) : Mat 2048 32 := conv A (lin X W1) b1
def a1 (X : Mat 2048 64) (A : Mat 2048 2048) (W1 : Mat 64 32) (b1 g1 be1 : Vect 32) : Mat 2048 32 :=
  relu (bn (y1 X A W1 b1) g1 be1)
def y2 (X : Mat 2048 64) (A : Mat 2048 2048) (W1 : Mat 64 32) (b1 g1 be1 : Vect 32) (W2 : Mat 32 32) (b2 : Vect 32) :
    Mat 2048 32 := conv A (lin (a1 X A W1 b1 g1 be1) W2) b2
def out (X : Mat 2048 64) (A : Mat 2048 2048) (W1 : Mat 64 32) (b1 g1 be1 : Vect 32) (W2 : Mat 32 32)
    (b2 g2 be2 : Vect 32) : Mat 2048 32 := bn (y2 X A W1 b1 g1 be1 W2 b2) g2 be2

def mat {a b : Nat} (v : (⟨2, ![a, b]⟩ : Shape).Idx → EReal) : Mat a b := fun r k => v (ix2 r k)
def vect {a : Nat} (v : (⟨1, ![a]⟩ : Shape).Idx → EReal) : Vect a := fun k => v (ix1 k)
def toArr {a b : Nat} (f : Mat a b) : (⟨2, ![a, b]⟩ : Shape).Idx → EReal := fun i => f (i 0) (i 1)

theorem toArr_ix2 {a b : Nat} (f : Mat a b) (r : Fin a) (k : Fin b) : toArr f (ix2 r k) = f r k := rfl

def IsReal {ι : Type} (v : ι → EReal) : Prop := ∀ i, ∃ r : ℝ, v i = (r : EReal)

def result (x : (⟨2, ![2048, 64]⟩ : Shape).Idx → EReal) (adj : (⟨2, ![2048, 2048]⟩ : Shape).Idx → EReal)
    (w1 : (⟨2, ![64, 32]⟩ : Shape).Idx → EReal) (b1 g1 be1 : (⟨1, ![32]⟩ : Shape).Idx → EReal)
    (w2 : (⟨2, ![32, 32]⟩ : Shape).Idx → EReal) (b2 g2 be2 : (⟨1, ![32]⟩ : Shape).Idx → EReal) :
    (⟨2, ![2048, 32]⟩ : Shape).Idx → EReal :=
  toArr (out (mat x) (mat adj) (mat w1) (vect b1) (vect g1) (vect be1) (mat w2) (vect b2) (vect g2) (vect be2))

end Cert.GcnSpec

end
-- ==== Proof.KDefs.lean ====
import proofs.«103018_g28046136442917_fold_wed_c4_759_2_alg».proof.Proof.Gen.KernelIdeal.Launch
import proofs.«103018_g28046136442917_fold_wed_c4_759_2_alg».proof.Proof.Gen.KernelIdeal.Skeleton
import proofs.«103018_g28046136442917_fold_wed_c4_759_2_alg».proof.Proof.Gen.KernelIdeal.Points
import proofs.«103018_g28046136442917_fold_wed_c4_759_2_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.KBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond1 (i : grid0.Coords) : Prop := k0_cond1 i = 1#1
abbrev cond2 (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
abbrev cond3 (i : grid0.Coords) : Prop := k0_cond3 i = 1#1
abbrev cond4 (i : grid0.Coords) : Prop := (Scalar.cmpi .ne (Scalar.extui (Scalar.andi (Scalar.cmpi .eq (BitVec.ofNat 32 (i 0).val) 2#32) (Scalar.cmpi .eq (BitVec.ofNat 32 (i 1).val) 0#32))) 0#32) = 1#1
abbrev cond5 (i : grid0.Coords) : Prop := k0_cond5 i = 1#1
abbrev cond6 (i : grid0.Coords) : Prop := k0_cond6 i = 1#1

theorem hcond1 : ∀ t : Fin cfg0.N, cond1 (grid0.coords t) ↔ t.val / 8 = 0 :=
  (by decide +kernel : ∀ t : Fin grid0.N, cond1 (grid0.coords t) ↔ t.val / 8 = 0)
theorem hcond2 : ∀ t : Fin cfg0.N, cond2 (grid0.coords t) ↔ t.val = 8 :=
  (by decide +kernel : ∀ t : Fin grid0.N, cond2 (grid0.coords t) ↔ t.val = 8)
theorem hcond3 : ∀ t : Fin cfg0.N, cond3 (grid0.coords t) ↔ t.val / 8 = 1 :=
  (by decide +kernel : ∀ t : Fin grid0.N, cond3 (grid0.coords t) ↔ t.val / 8 = 1)
theorem hcond4 : ∀ t : Fin cfg0.N, cond4 (grid0.coords t) ↔ t.val = 16 :=
  (by decide +kernel : ∀ t : Fin grid0.N, cond4 (grid0.coords t) ↔ t.val = 16)
theorem hcond5 : ∀ t : Fin cfg0.N, cond5 (grid0.coords t) ↔ t.val / 8 = 2 :=
  (by decide +kernel : ∀ t : Fin grid0.N, cond5 (grid0.coords t) ↔ t.val / 8 = 2)
theorem hcond6 : ∀ t : Fin cfg0.N, cond6 (grid0.coords t) ↔ t.val = 23 :=
  (by decide +kernel : ∀ t : Fin grid0.N, cond6 (grid0.coords t) ↔ t.val = 23)

theorem coords_phase : ∀ t : Fin cfg0.N, (grid0.coords t 0).val = t.val / 8 :=
  (by decide +kernel : ∀ t : Fin grid0.N, (grid0.coords t 0).val = t.val / 8)
theorem coords_block : ∀ t : Fin cfg0.N, (grid0.coords t 1).val = t.val % 8 :=
  (by decide +kernel : ∀ t : Fin grid0.N, (grid0.coords t 1).val = t.val % 8)

theorem off1_at (t : Fin cfg0.N) : k0_off1 (grid0.coords t) = ![256 * (t.val % 8), 0] := by
  rw [k0_off1_eq, coords_block]
theorem off2_at (t : Fin cfg0.N) : k0_off2 (grid0.coords t) = ![256 * (t.val % 8), 0] := by
  rw [k0_off2_eq, coords_block]
theorem off3_at (t : Fin cfg0.N) : k0_off3 (grid0.coords t) = ![256 * (t.val % 8), 0] := by
  rw [k0_off3_eq, coords_block]
theorem off4_at (t : Fin cfg0.N) : k0_off4 (grid0.coords t) = ![256 * (t.val % 8), 0] := by
  rw [k0_off4_eq, coords_block]
theorem off5_at (t : Fin cfg0.N) : k0_off5 (grid0.coords t) = ![256 * (t.val % 8), 0] := by
  rw [k0_off5_eq, coords_block]

abbrev ms0_0 (t : Fin cfg0.N) : Memref sig .tc .vmem S2048x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x32 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x32 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x32 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x32 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2048x32 .f32 := win0_10.stage (cfg0.slots t 10)
abbrev hs0_10 (t : Fin cfg0.N) : (ms0_10 t).IsWhole := hstage0_10 ((cfg0.slots t 10).cast nbuf0_10)

abbrev scM0_0 : Memref sig .tc .vmem S2048x1 .f32 := Memref.whole cc0_scratch0
abbrev scM0_1 : Memref sig .tc .vmem S2048x1 .f32 := Memref.whole cc0_scratch1
abbrev scM0_2 : Memref sig .tc .vmem S2048x32 .f32 := Memref.whole cc0_scratch2
abbrev scM0_3 : Memref sig .tc .vmem S2048x32 .f32 := Memref.whole cc0_scratch3
abbrev scM0_4 : Memref sig .tc .vmem S2048x32 .f32 := Memref.whole cc0_scratch4
abbrev scM0_5 : Memref sig .tc .vmem S2048x32 .f32 := Memref.whole cc0_scratch5

theorem bodyAt0_eq (t : Fin cfg0.N) :
    bodyAt0 (F := F) t = cc0__gcn_kernel (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      scM0_0 (Memref.isWhole_whole _) scM0_1 (Memref.isWhole_whole _) scM0_2 (Memref.isWhole_whole _) scM0_3 (Memref.isWhole_whole _) scM0_4 (Memref.isWhole_whole _) scM0_5 (Memref.isWhole_whole _) := rfl

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem idleAt0_10 : ∀ t : Fin cfg0.N, t.val ≠ 23 → cfg0.idle 10 (grid0.coords t) = true := by decide +kernel
theorem liveAt0_10 : ∀ t : Fin cfg0.N, t.val = 23 → cfg0.idle 10 (grid0.coords t) = false := by decide +kernel
theorem noFlush0_10 : ∀ t : Fin cfg0.N, t.val ≠ 23 → (cfg0.win 10).flush t = false := by decide +kernel
theorem flushAt0_10 : ∀ t : Fin cfg0.N, t.val = 23 → (cfg0.win 10).flush t = true := by decide +kernel

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- What a run of the body owes, whatever the case: owning the ten input blocks, the output block and the six carried
    buffers at their contents, the body runs and hands all seventeen back, the inputs as found and the other seven with
    the given pieces written. -/
def BodySpec (c : Dev nD) (i : grid0.Coords) (arg2 : Memref sig .tc .vmem S2048x64 .f32) (harg2 : arg2.IsWhole) (arg3 : Memref sig .tc .vmem S2048x256 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x32 .f32) (harg15 : arg15.IsWhole) (arg16 : Memref sig .tc .vmem S2048x32 .f32) (harg16 : arg16.IsWhole) (arg17 : Memref sig .tc .vmem S2048x32 .f32) (harg17 : arg17.IsWhole) (arg18 : Memref sig .tc .vmem S2048x32 .f32) (harg18 : arg18.IsWhole)
    (x0 : Vec F S2048x64 .f32) (x1 : Vec F S2048x256 .f32) (x2 : Vec F S64x32 .f32) (x3 x4 x5 : Vec F S1x32 .f32) (x6 : Vec F S32x32 .f32) (x7 x8 x9 : Vec F S1x32 .f32) (xs0 xs1 : Vec F S2048x1 .f32) (xs2 xs3 xs4 xs5 : Vec F S2048x32 .f32)
    (LS0 LS1 : List (View.Piece (Elt F) S2048x1 .f32)) (LS2 LS3 LS4 LS5 LO : List (View.Piece (Elt F) S2048x32 .f32)) : Prop :=
  ∀ (xo : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xo ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ owns (c : Thread nD τ) arg18 fullShare xs5
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ owns (c : Thread nD τ) arg10 fullShare x8
                ∗ owns (c : Thread nD τ) arg11 fullShare x9
                ∗ (arg12.view.loc (c : Thread nD τ) ↦[arg12.view.set]{fullShare} arg12.view.writes (Elt F) (harg12.unread xo) LO)
                ∗ (arg13.view.loc (c : Thread nD τ) ↦[arg13.view.set]{fullShare} arg13.view.writes (Elt F) (harg13.unread xs0) LS0)
                ∗ (arg14.view.loc (c : Thread nD τ) ↦[arg14.view.set]{fullShare} arg14.view.writes (Elt F) (harg14.unread xs1) LS1)
                ∗ (arg15.view.loc (c : Thread nD τ) ↦[arg15.view.set]{fullShare} arg15.view.writes (Elt F) (harg15.unread xs2) LS2)
                ∗ (arg16.view.loc (c : Thread nD τ) ↦[arg16.view.set]{fullShare} arg16.view.writes (Elt F) (harg16.unread xs3) LS3)
                ∗ (arg17.view.loc (c : Thread nD τ) ↦[arg17.view.set]{fullShare} arg17.view.writes (Elt F) (harg17.unread xs4) LS4)
                ∗ (arg18.view.loc (c : Thread nD τ) ↦[arg18.view.set]{fullShare} arg18.view.writes (Elt F) (harg18.unread xs5) LS5)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K

/-- The ten argument arrays hold in `mem` what they hold in `m`. -/
abbrev ArgsKept (m mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)

end Cert.KernelIdeal.KBody

end
-- ==== Proof.KInv.lean ====
import proofs.«103018_g28046136442917_fold_wed_c4_759_2_alg».proof.Proof.KDefs
import Idealize.ShloMosaic.Lib.Pipeline.Value
import Idealize.ShloMosaic.Lib.ValueIdx
import Idealize.ShloMosaic.Lib.WritesUnit
import Idealize.ShloMosaic.Lib.WholeRead

set_option maxRecDepth 16384

noncomputable section

namespace Cert.KernelIdeal.KInv

open Idealize.ShloMosaic Idealize.ShloMosaic.TcCoe
open Idealize.SL.Sem
open Idealize.ShloMosaic.ValueIdx
open Cert.KernelIdeal Cert.KernelIdeal.Gen Cert.KernelIdeal.KBody

variable {F : FTy → Type} [FloatOps F]

variable (m : (ℓ : Loc nD τ sig) → Buf (Elt F) ℓ) (c : Dev nD)

abbrev t0 : Fin cfg0.N := ⟨0, by decide⟩

abbrev tj (j : Fin 8) : Fin cfg0.N := ⟨j.val, by have := j.isLt; have : cfg0.N = 24 := N_0; omega⟩

abbrev xA : Vec F S2048x64 .f32 := iblk m c 0 t0
abbrev adjBlk (j : Fin 8) : Vec F S2048x256 .f32 := iblk m c 1 (tj j)
abbrev w1A : Vec F S64x32 .f32 := iblk m c 2 t0
abbrev b1A : Vec F S1x32 .f32 := iblk m c 3 t0
abbrev g1A : Vec F S1x32 .f32 := iblk m c 4 t0
abbrev be1A : Vec F S1x32 .f32 := iblk m c 5 t0
abbrev w2A : Vec F S32x32 .f32 := iblk m c 6 t0
abbrev b2A : Vec F S1x32 .f32 := iblk m c 7 t0
abbrev g2A : Vec F S1x32 .f32 := iblk m c 8 t0
abbrev be2A : Vec F S1x32 .f32 := iblk m c 9 t0

def rowsOf1 (X : Vec F S2048x1 .f32) (j : Fin 8) : Vec F S256x1 .f32 :=
  fun z => X (ix2 ⟨256 * j.val + (z 0).val, by have := j.isLt; have := idx2_lt0 z; omega⟩ ⟨0, by decide⟩)

def rowsOf32 (X : Vec F S2048x32 .f32) (j : Fin 8) : Vec F S256x32 .f32 :=
  fun z => X (ix2 ⟨256 * j.val + (z 0).val, by have := j.isLt; have := idx2_lt0 z; omega⟩ (z 1))

abbrev rowBlk {n1 : Nat} (y : (⟨2, ![2048, n1]⟩ : Shape).Idx) : Fin 8 :=
  ⟨(y 0).val / 256, by have := idx2_lt0 y; omega⟩

abbrev rowLoc {n1 : Nat} (y : (⟨2, ![2048, n1]⟩ : Shape).Idx) : Fin 256 :=
  ⟨(y 0).val % 256, Nat.mod_lt _ (by decide)⟩

def DEG : Vec F S2048x1 .f32 :=
  fun y => k0_pay1 (adjBlk m c (rowBlk y)) (ix2 (rowLoc y) ⟨0, by decide⟩)

def DIS : Vec F S2048x1 .f32 := k0_pay3 (DEG m c)

def U1 : Vec F S2048x32 .f32 := k0_pay4 (DEG m c) (xA m c) (w1A m c)

def Y1 : Vec F S2048x32 .f32 :=
  fun y => k0_pay5 (adjBlk m c (rowBlk y)) (U1 m c) (rowsOf1 (DIS m c) (rowBlk y)) (rowsOf32 (U1 m c) (rowBlk y)) (b1A m c)
    (ix2 (rowLoc y) (y 1))

def U2 : Vec F S2048x32 .f32 := k0_pay6 (Y1 m c) (g1A m c) (be1A m c) (w2A m c) (DIS m c)

def Y2 : Vec F S2048x32 .f32 :=
  fun y => k0_pay7 (adjBlk m c (rowBlk y)) (U2 m c) (rowsOf1 (DIS m c) (rowBlk y)) (rowsOf32 (U2 m c) (rowBlk y)) (b2A m c)
    (ix2 (rowLoc y) (y 1))

def OUT : Vec F S2048x32 .f32 := k0_pay8 (Y2 m c) (g2A m c) (be2A m c)

def Inv (n : ℕ) (X0 X1 : Vec F S2048x1 .f32) (X2 X3 X4 X5 : Vec F S2048x32 .f32) : Prop :=
  (∀ y, (y 0).val < 256 * min n 8 → X0 y = DEG m c y)
  ∧ (9 ≤ n → X1 = DIS m c ∧ X2 = U1 m c)
  ∧ (∀ y, 8 ≤ n → (y 0).val < 256 * min (n - 8) 8 → X3 y = Y1 m c y)
  ∧ (17 ≤ n → X4 = U2 m c)
  ∧ (∀ y, 16 ≤ n → (y 0).val < 256 * min (n - 16) 8 → X5 y = Y2 m c y)

theorem inv_zero (X0 X1 : Vec F S2048x1 .f32) (X2 X3 X4 X5 : Vec F S2048x32 .f32) : Inv m c 0 X0 X1 X2 X3 X4 X5 :=
  ⟨fun y h => absurd h (by simp), fun h => absurd h (by decide), fun y h => absurd h (by decide), fun h => absurd h (by decide),
    fun y h => absurd h (by decide)⟩

theorem iblk0 (t : Fin cfg0.N) : (iblk m c 0 t : Vec F S2048x64 .f32) = xA m c := rfl
theorem iblk2 (t : Fin cfg0.N) : (iblk m c 2 t : Vec F S64x32 .f32) = w1A m c := rfl
theorem iblk3 (t : Fin cfg0.N) : (iblk m c 3 t : Vec F S1x32 .f32) = b1A m c := rfl
theorem iblk4 (t : Fin cfg0.N) : (iblk m c 4 t : Vec F S1x32 .f32) = g1A m c := rfl
theorem iblk5 (t : Fin cfg0.N) : (iblk m c 5 t : Vec F S1x32 .f32) = be1A m c := rfl
theorem iblk6 (t : Fin cfg0.N) : (iblk m c 6 t : Vec F S32x32 .f32) = w2A m c := rfl
theorem iblk7 (t : Fin cfg0.N) : (iblk m c 7 t : Vec F S1x32 .f32) = b2A m c := rfl
theorem iblk8 (t : Fin cfg0.N) : (iblk m c 8 t : Vec F S1x32 .f32) = g2A m c := rfl
theorem iblk9 (t : Fin cfg0.N) : (iblk m c 9 t : Vec F S1x32 .f32) = be2A m c := rfl

theorem index1_eq (t : Fin cfg0.N) : (cfg0.win 1).index t = ![0, t.val % 8] := by
  show cc0_transform_1 (grid0.coords t) = _
  unfold cc0_transform_1
  simp only [coords_block t]
  have h : t.val % 8 < 4294967296 := by omega
  simp [BitVec.toNat_ofNat, Nat.mod_eq_of_lt h]

theorem read_slice_unit_congr {s : Shape} {e : EltTy} {sp : Space} (A : Memref sig .tc sp s e)
    (f : A.view.ty.Contents (Elt F)) {off off' size : Fin s.rank → ℕ} (h : off = off')
    (p : ∀ a, off a + size a ≤ s.size a) (p' : ∀ a, off' a + size a ≤ s.size a) :
    (A.slice (Rect.unit off size p) fun _ => rfl).view.read (Elt F) f
      = (A.slice (Rect.unit off' size p') fun _ => rfl).view.read (Elt F) f := by
  subst h; rfl

theorem iblk1 (t : Fin cfg0.N) :
    (iblk m c 1 t : Vec F S2048x256 .f32) = adjBlk m c ⟨t.val % 8, Nat.mod_lt _ (by decide)⟩ :=
  read_slice_unit_congr _ _ (funext fun a => by
    rw [index1_eq t, index1_eq (tj ⟨t.val % 8, Nat.mod_lt _ (by decide)⟩)]
    simp only [Nat.mod_mod]) _ _

section Reads

theorem ld_whole_unread {S : Shape} (M : Memref sig .tc .vmem S .f32) (hM : M.IsWhole) (X : Vec F S .f32)
    {off : Fin S.rank → ℕ} (inb : ∀ a, off a + S.size a ≤ S.size a) :
    View.readAt (Elt F) M.view (Rect.unit off S.size inb).toLoadRect (hM.unread X) = X := by
  funext x
  rw [hM.readAt_unread]
  congr 1
  funext a; apply Fin.ext
  show off a + 1 * (x a).val = (x a).val
  have := inb a; omega

theorem ld_rows1_unread (M : Memref sig .tc .vmem S2048x1 .f32) (hM : M.IsWhole) (X : Vec F S2048x1 .f32) (j : Fin 8)
    {off : Fin 2 → ℕ} (inb : ∀ a, off a + S256x1.size a ≤ S2048x1.size a) (hoff : off = ![256 * j.val, 0]) :
    View.readAt (Elt F) M.view (Rect.unit (s := S2048x1) off S256x1.size inb).toLoadRect (hM.unread X)
      = rowsOf1 X j := by
  subst hoff
  funext z
  rw [hM.readAt_unread]
  unfold rowsOf1
  congr 1
  funext a; apply Fin.ext
  match a with
  | ⟨0, _⟩ => show 256 * j.val + 1 * (z 0).val = 256 * j.val + (z 0).val; omega
  | ⟨1, _⟩ => show 0 + 1 * (z 1).val = 0; have := idx2_lt1 z; omega

theorem ld_rows32_unread (M : Memref sig .tc .vmem S2048x32 .f32) (hM : M.IsWhole) (X : Vec F S2048x32 .f32) (j : Fin 8)
    {off : Fin 2 → ℕ} (inb : ∀ a, off a + S256x32.size a ≤ S2048x32.size a) (hoff : off = ![256 * j.val, 0]) :
    View.readAt (Elt F) M.view (Rect.unit (s := S2048x32) off S256x32.size inb).toLoadRect (hM.unread X)
      = rowsOf32 X j := by
  subst hoff
  funext z
  rw [hM.readAt_unread]
  unfold rowsOf32
  congr 1
  funext a; apply Fin.ext
  match a with
  | ⟨0, _⟩ => show 256 * j.val + 1 * (z 0).val = 256 * j.val + (z 0).val; omega
  | ⟨1, _⟩ => show 0 + 1 * (z 1).val = (z 1).val; omega

theorem ld_whole {S : Shape} (M : Memref sig .tc .vmem S .f32) (hM : M.IsWhole) (f : M.view.ty.Contents (Elt F))
    {off : Fin S.rank → ℕ} (inb : ∀ a, off a + S.size a ≤ S.size a) :
    View.readAt (Elt F) M.view (Rect.unit off S.size inb).toLoadRect f = M.view.read (Elt F) f := by
  have h := ld_whole_unread M hM (M.view.read (Elt F) f) inb
  rwa [hM.unread_read] at h

theorem ld_rows1 (M : Memref sig .tc .vmem S2048x1 .f32) (hM : M.IsWhole) (f : M.view.ty.Contents (Elt F)) (j : Fin 8)
    {off : Fin 2 → ℕ} (inb : ∀ a, off a + S256x1.size a ≤ S2048x1.size a) (hoff : off = ![256 * j.val, 0]) :
    View.readAt (Elt F) M.view (Rect.unit (s := S2048x1) off S256x1.size inb).toLoadRect f
      = rowsOf1 (M.view.read (Elt F) f) j := by
  have h := ld_rows1_unread M hM (M.view.read (Elt F) f) j inb hoff
  rwa [hM.unread_read] at h

theorem ld_rows32 (M : Memref sig .tc .vmem S2048x32 .f32) (hM : M.IsWhole) (f : M.view.ty.Contents (Elt F)) (j : Fin 8)
    {off : Fin 2 → ℕ} (inb : ∀ a, off a + S256x32.size a ≤ S2048x32.size a) (hoff : off = ![256 * j.val, 0]) :
    View.readAt (Elt F) M.view (Rect.unit (s := S2048x32) off S256x32.size inb).toLoadRect f
      = rowsOf32 (M.view.read (Elt F) f) j := by
  have h := ld_rows32_unread M hM (M.view.read (Elt F) f) j inb hoff
  rwa [hM.unread_read] at h

variable {d : Fin 2 → ℕ} (M : Memref sig .tc .vmem (⟨2, d⟩ : Shape) .f32) (hM : M.IsWhole)

theorem read_nil (X : Vec F ⟨2, d⟩ .f32) :
    M.view.read (Elt F) (M.view.writes (Elt F) (hM.unread X) []) = X := hM.read_unread X

theorem read_whole (f : M.view.ty.Contents (Elt F)) {off : Fin 2 → ℕ}
    (inb : ∀ a, off a + (⟨2, d⟩ : Shape).size a ≤ (⟨2, d⟩ : Shape).size a)
    (w : (Rect.unit (s := ⟨2, d⟩) off (⟨2, d⟩ : Shape).size inb).shape.Idx → Elt F .f32)
    (L : List (View.Piece (Elt F) (⟨2, d⟩ : Shape) .f32)) :
    M.view.read (Elt F) (M.view.writes (Elt F) f (⟨Rect.unit off _ inb, w⟩ :: L)) = w :=
  funext fun y => View.read_writes_cons_unit_of_mem M.view f inb w L y y rfl fun a => by
    have := inb a; omega

end Reads

def RowsSet {n1 : ℕ} (X' X : Vec F ⟨2, ![2048, n1]⟩ .f32) (j : Fin 8) (W : Vec F ⟨2, ![256, n1]⟩ .f32) : Prop :=
  ∀ y, X' y = if rowBlk y = j then W (ix2 (rowLoc y) (y 1)) else X y

theorem rowsSet_read {n1 : ℕ} (M : Memref sig .tc .vmem (⟨2, ![2048, n1]⟩ : Shape) .f32) (hM : M.IsWhole)
    (X : Vec F ⟨2, ![2048, n1]⟩ .f32) (j : Fin 8) {off : Fin 2 → ℕ}
    (inb : ∀ a, off a + (![256, n1] : Fin 2 → ℕ) a ≤ (![2048, n1] : Fin 2 → ℕ) a)
    (w : (Rect.unit (s := ⟨2, ![2048, n1]⟩) off ![256, n1] inb).shape.Idx → Elt F .f32)
    (hoff : off = ![256 * j.val, 0]) :
    RowsSet (M.view.read (Elt F) (M.view.writes (Elt F) (hM.unread X) [⟨Rect.unit off ![256, n1] inb, w⟩])) X j w := by
  intro y
  by_cases h : rowBlk y = j
  · rw [if_pos h]
    have hj : (y 0).val / 256 = j.val := congrArg Fin.val h
    exact View.read_writes_cons_rows_of_mem M.view _ inb w [] y (ix2 (rowLoc y) (y 1)) hoff
      (show (y 0).val = 256 * j.val + (y 0).val % 256 by omega) rfl
  · rw [if_neg h]
    have hj : (y 0).val / 256 ≠ j.val := fun e => h (Fin.ext e)
    exact (View.read_writes_cons_rows_of_not_mem M.view _ inb w [] y hoff (W := 256) rfl (by omega)).trans
      (congrFun (hM.read_unread X) y)

section Steps

variable {X0 X1 : Vec F S2048x1 .f32} {X2 X3 X4 X5 : Vec F S2048x32 .f32}

theorem deg_of_inv {n : ℕ} (hn : 8 ≤ n) (hI : Inv m c n X0 X1 X2 X3 X4 X5) : X0 = DEG m c :=
  funext fun y => hI.1 y (by have := idx2_lt0 y; rw [Nat.min_eq_right hn]; omega)

theorem y1_of_inv {n : ℕ} (hn : 16 ≤ n) (hI : Inv m c n X0 X1 X2 X3 X4 X5) : X3 = Y1 m c :=
  funext fun y => hI.2.2.1 y (by omega) (by have := idx2_lt0 y; rw [Nat.min_eq_right (by omega)]; omega)

theorem y2_of_inv {n : ℕ} (hn : 24 ≤ n) (hI : Inv m c n X0 X1 X2 X3 X4 X5) : X5 = Y2 m c :=
  funext fun y => hI.2.2.2.2 y (by omega) (by have := idx2_lt0 y; rw [Nat.min_eq_right (by omega)]; omega)

theorem step_A (n : ℕ) (j : Fin 8) (hn : n = j.val) (hI : Inv m c n X0 X1 X2 X3 X4 X5) {X0' : Vec F S2048x1 .f32}
    (h0 : RowsSet X0' X0 j (k0_pay1 (adjBlk m c j))) : Inv m c (n + 1) X0' X1 X2 X3 X4 X5 := by
  subst hn
  have hj := j.isLt
  refine ⟨fun y hy => ?_, fun h => absurd h (by omega), fun y h hy => ?_, fun h => absurd h (by omega),
    fun y h => absurd h (by omega)⟩
  · rw [h0 y]
    by_cases hb : rowBlk y = j
    · rw [if_pos hb]; unfold DEG; rw [hb]
      have h1 : y 1 = ⟨0, by decide⟩ := Fin.ext (by have := idx2_lt1 y; show (y 1).val = 0; omega)
      rw [h1]; rfl
    · rw [if_neg hb]
      have hne : (y 0).val / 256 ≠ j.val := fun e => hb (Fin.ext e)
      exact hI.1 y (by rw [Nat.min_eq_left (by omega)] at hy ⊢; omega)
  · exfalso; rw [Nat.min_eq_left (by omega)] at hy; omega

theorem step_B (n : ℕ) (j : Fin 8) (hj : j.val = 0) (hn : n = 8) (hI : Inv m c n X0 X1 X2 X3 X4 X5)
    {X1' : Vec F S2048x1 .f32} {X2' X3' : Vec F S2048x32 .f32}
    (h1 : X1' = k0_pay3 X0) (h2 : X2' = k0_pay4 X0 (xA m c) (w1A m c))
    (h3 : RowsSet X3' X3 j (k0_pay5 (adjBlk m c j) X2' (rowsOf1 X1' j) (rowsOf32 X2' j) (b1A m c))) :
    Inv m c (n + 1) X0 X1' X2' X3' X4 X5 := by
  obtain rfl : j = 0 := Fin.ext hj
  subst hn
  obtain rfl := deg_of_inv m c (le_refl 8) hI
  have e1 : X1' = DIS m c := h1
  have e2 : X2' = U1 m c := h2
  subst e1 e2
  refine ⟨fun y _ => rfl, fun _ => ⟨rfl, rfl⟩, fun y _ hy => ?_, fun h => absurd h (by decide), fun y h => absurd h (by decide)⟩
  rw [h3 y]
  have hb : rowBlk y = 0 := Fin.ext (by show (y 0).val / 256 = 0; simp at hy; omega)
  rw [if_pos hb]; unfold Y1; rw [hb]

theorem step_C (n : ℕ) (j : Fin 8) (hj1 : 1 ≤ j.val) (hn : n = 8 + j.val) (hI : Inv m c n X0 X1 X2 X3 X4 X5) {X3' : Vec F S2048x32 .f32}
    (h3 : RowsSet X3' X3 j (k0_pay5 (adjBlk m c j) X2 (rowsOf1 X1 j) (rowsOf32 X2 j) (b1A m c))) :
    Inv m c (n + 1) X0 X1 X2 X3' X4 X5 := by
  subst hn
  have hj := j.isLt
  obtain ⟨rfl, rfl⟩ := hI.2.1 (by omega)
  refine ⟨fun y hy => hI.1 y (by rw [Nat.min_eq_right (by omega)] at hy ⊢; exact hy), fun _ => ⟨rfl, rfl⟩, fun y _ hy => ?_,
    fun h => absurd h (by omega), fun y h hy => ?_⟩
  · rw [h3 y]
    by_cases hb : rowBlk y = j
    · rw [if_pos hb]; unfold Y1; rw [hb]
    · rw [if_neg hb]
      have hne : (y 0).val / 256 ≠ j.val := fun e => hb (Fin.ext e)
      exact hI.2.2.1 y (by omega) (by
        rw [Nat.min_eq_left (by omega)] at hy ⊢; omega)
  · exfalso; rw [Nat.min_eq_left (by omega)] at hy; omega

theorem step_D (n : ℕ) (j : Fin 8) (hj : j.val = 0) (hn : n = 16) (hI : Inv m c n X0 X1 X2 X3 X4 X5)
    {X4' X5' : Vec F S2048x32 .f32}
    (h4 : X4' = k0_pay6 X3 (g1A m c) (be1A m c) (w2A m c) X1)
    (h5 : RowsSet X5' X5 j (k0_pay7 (adjBlk m c j) X4' (rowsOf1 X1 j) (rowsOf32 X4' j) (b2A m c))) :
    Inv m c (n + 1) X0 X1 X2 X3 X4' X5' := by
  obtain rfl : j = 0 := Fin.ext hj
  subst hn
  obtain rfl := y1_of_inv m c (le_refl 16) hI
  obtain ⟨rfl, rfl⟩ := hI.2.1 (by decide)
  have e4 : X4' = U2 m c := h4
  subst e4
  refine ⟨fun y hy => hI.1 y hy, fun _ => ⟨rfl, rfl⟩, fun y _ _ => rfl, fun _ => rfl, fun y _ hy => ?_⟩
  rw [h5 y]
  have hb : rowBlk y = 0 := Fin.ext (by show (y 0).val / 256 = 0; simp at hy; omega)
  rw [if_pos hb]; unfold Y2; rw [hb]

theorem step_E (n : ℕ) (j : Fin 8) (hj1 : 1 ≤ j.val) (hn : n = 16 + j.val) (hI : Inv m c n X0 X1 X2 X3 X4 X5) {X5' : Vec F S2048x32 .f32}
    (h5 : RowsSet X5' X5 j (k0_pay7 (adjBlk m c j) X4 (rowsOf1 X1 j) (rowsOf32 X4 j) (b2A m c))) :
    Inv m c (n + 1) X0 X1 X2 X3 X4 X5' := by
  subst hn
  have hj := j.isLt
  obtain ⟨rfl, rfl⟩ := hI.2.1 (by omega)
  obtain rfl := hI.2.2.2.1 (by omega)
  refine ⟨fun y hy => hI.1 y (by rw [Nat.min_eq_right (by omega)] at hy ⊢; exact hy), fun _ => ⟨rfl, rfl⟩,
    fun y _ hy => hI.2.2.1 y (by omega) (by rw [Nat.min_eq_right (by omega)] at hy ⊢; exact hy), fun _ => rfl, fun y _ hy => ?_⟩
  rw [h5 y]
  by_cases hb : rowBlk y = j
  · rw [if_pos hb]; unfold Y2; rw [hb]
  · rw [if_neg hb]
    have hne : (y 0).val / 256 ≠ j.val := fun e => hb (Fin.ext e)
    exact hI.2.2.2.2 y (by omega) (by
      rw [Nat.min_eq_left (by omega)] at hy ⊢; omega)

theorem out_of_inv {n : ℕ} (hn : 24 ≤ n) (hI : Inv m c n X0 X1 X2 X3 X4 X5) :
    k0_pay8 X5 (g2A m c) (be2A m c) = OUT m c := by
  obtain rfl := y2_of_inv m c hn hI
  rfl

end Steps

end Cert.KernelIdeal.KInv

end
-- ==== Proof.KRunA.lean ====
import proofs.«103018_g28046136442917_fold_wed_c4_759_2_alg».proof.Proof.KDefs

set_option maxRecDepth 16384

noncomputable section

namespace Cert.KernelIdeal.KBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S2048x64 .f32) (harg2 : arg2.IsWhole) (arg3 : Memref sig .tc .vmem S2048x256 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x32 .f32) (harg15 : arg15.IsWhole) (arg16 : Memref sig .tc .vmem S2048x32 .f32) (harg16 : arg16.IsWhole) (arg17 : Memref sig .tc .vmem S2048x32 .f32) (harg17 : arg17.IsWhole) (arg18 : Memref sig .tc .vmem S2048x32 .f32) (harg18 : arg18.IsWhole)
    (hc1 : cond1 i) (hc2 : ¬cond2 i) (hc3 : ¬cond3 i) (hc4 : ¬cond4 i) (hc5 : ¬cond5 i) (hc6 : ¬cond6 i)
    (x0 : Vec F S2048x64 .f32) (x1 : Vec F S2048x256 .f32) (x2 : Vec F S64x32 .f32) (x3 x4 x5 : Vec F S1x32 .f32) (x6 : Vec F S32x32 .f32) (x7 x8 x9 : Vec F S1x32 .f32)
    (xs0 xs1 : Vec F S2048x1 .f32) (xs2 xs3 xs4 xs5 : Vec F S2048x32 .f32)

set_option maxHeartbeats 1000000 in
noncomputable def kernelRun_A :
    Σ' (LS0 LS1 : List (View.Piece (Elt F) S2048x1 .f32)) (LS2 LS3 LS4 LS5 : List (View.Piece (Elt F) S2048x32 .f32)), { LO : List (View.Piece (Elt F) S2048x32 .f32) //
      BodySpec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 xs0 xs1 xs2 xs3 xs4 xs5 LS0 LS1 LS2 LS3 LS4 LS5 LO } := by
  refine ⟨?_, [], [], [], [], [], [], fun xo E K => ?run⟩
  case run =>
    simp only [cc0__gcn_kernel_eq_skeleton]; unfold cc0__gcn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
    sl_exec (disch := first | exact hc1 | exact hc2 | exact hc3 | exact hc4 | exact hc5 | exact hc6)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexact H12
    isplitl [H13]; · iexact H13
    isplitl [H14]; · iexact H14
    isplitl [H15]; · iexact H15
    isplitl [H16]; · iexact H16
    isplitl [H17]; · iexact H17
    iexact H18

theorem kernelRun_A_pieces :
    let R := kernelRun_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 hc5 hc6 x0 x1 x2 x3 x4 x5 x6 x7 x8 x9 xs0 xs1 xs2 xs3 xs4 xs5
    R.1 = [⟨Rect.unit (s := S2048x1) (k0_off1 i) S256x1.size (k0_off1_inb i hc1),
          k0_pay1 (View.readAt (Elt F) arg3.view (Rect.unit (s := S2048x256) ![0, 0] S2048x256.size inb_S2048x256_S2048x256_0_0).toLoadRect (harg3.unread x1))⟩] ∧
    R.2.1 = [] ∧
    R.2.2.1 = [] ∧
    R.2.2.2.1 = [] ∧
    R.2.2.2.2.1 = [] ∧
    R.2.2.2.2.2.1 = [] ∧
    R.2.2.2.2.2.2.1 = [] :=
  ⟨rfl, rfl, rfl, rfl, rfl, rfl, rfl⟩

end Cert.KernelIdeal.KBody

end
-- ==== Proof.KRunB.lean ====
import proofs.«103018_g28046136442917_fold_wed_c4_759_2_alg».proof.Proof.KDefs

set_option maxRecDepth 16384

noncomputable section

namespace Cert.KernelIdeal.KBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S2048x64 .f32) (harg2 : arg2.IsWhole) (arg3 : Memref sig .tc .vmem S2048x256 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x32 .f32) (harg15 : arg15.IsWhole) (arg16 : Memref sig .tc .vmem S2048x32 .f32) (harg16 : arg16.IsWhole) (arg17 : Memref sig .tc .vmem S2048x32 .f32) (harg17 : arg17.IsWhole) (arg18 : Memref sig .tc .vmem S2048x32 .f32) (harg18 : arg18.IsWhole)
    (hc1 : ¬cond1 i) (hc2 : cond2 i) (hc3 : cond3 i) (hc4 : ¬cond4 i) (hc5 : ¬cond5 i) (hc6 : ¬cond6 i)
    (x0 : Vec F S2048x64 .f32) (x1 : Vec F S2048x256 .f32) (x2 : Vec F S64x32 .f32) (x3 x4 x5 : Vec F S1x32 .f32) (x6 : Vec F S32x32 .f32) (x7 x8 x9 : Vec F S1x32 .f32)
    (xs0 xs1 : Vec F S2048x1 .f32) (xs2 xs3 xs4 xs5 : Vec F S2048x32 .f32)

set_option maxHeartbeats 1000000 in
noncomputable def kernelRun_B :
    Σ' (LS0 LS1 : List (View.Piece (Elt F) S2048x1 .f32)) (LS2 LS3 LS4 LS5 : List (View.Piece (Elt F) S2048x32 .f32)), { LO : List (View.Piece (Elt F) S2048x32 .f32) //
      BodySpec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 xs0 xs1 xs2 xs3 xs4 xs5 LS0 LS1 LS2 LS3 LS4 LS5 LO } := by
  refine ⟨[], ?_, ?_, ?_, [], [], [], fun xo E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fo, %hfo, HO⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfo; obtain rfl := harg13.eq_unread hfs0; obtain rfl := harg14.eq_unread hfs1; obtain rfl := harg15.eq_unread hfs2; obtain rfl := harg16.eq_unread hfs3; obtain rfl := harg17.eq_unread hfs4; obtain rfl := harg18.eq_unread hfs5
    sl_exec (disch := first | exact hc1 | exact hc2 | exact hc3 | exact hc4 | exact hc5 | exact hc6)
    sl_step
    rw [← Memref.writes_eq_junk_of_covChk harg14 (harg14.unread xs1) _ (.leaf 0) ?cov14]
    case cov14 => rfl
    rw [← Memref.writes_eq_junk_of_covChk harg15 (harg15.unread xs2) _ (.leaf 0) ?cov15]
    case cov15 => rfl
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HO]
    · iexact HO
    isplitl [HS0]
    · iexact HS0
    isplitl [HS1]
    · iexact HS1
    isplitl [HS2]
    · iexact HS2
    isplitl [HS3]
    · iexact HS3
    isplitl [HS4]
    · iexact HS4
    iexact HS5

theorem kernelRun_B_pieces :
    let R := kernelRun_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 hc5 hc6 x0 x1 x2 x3 x4 x5 x6 x7 x8 x9 xs0 xs1 xs2 xs3 xs4 xs5
    R.1 = [] ∧
    R.2.1 = [⟨(Rect.unit (s := S2048x1) ![0, 0] S2048x1.size inb_S2048x1_S2048x1_0_0), k0_pay3 (View.readAt (Elt F) arg13.view (Rect.unit (s := S2048x1) ![0, 0] S2048x1.size inb_S2048x1_S2048x1_0_0).toLoadRect (harg13.unread xs0))⟩] ∧
    R.2.2.1 = [⟨(Rect.unit (s := S2048x32) ![0, 0] S2048x32.size inb_S2048x32_S2048x32_0_0), k0_pay4 (View.readAt (Elt F) arg13.view (Rect.unit (s := S2048x1) ![0, 0] S2048x1.size inb_S2048x1_S2048x1_0_0).toLoadRect (harg13.unread xs0)) (View.readAt (Elt F) arg2.view (Rect.unit (s := S2048x64) ![0, 0] S2048x64.size inb_S2048x64_S2048x64_0_0).toLoadRect (harg2.unread x0)) (View.readAt (Elt F) arg4.view (Rect.unit (s := S64x32) ![0, 0] S64x32.size inb_S64x32_S64x32_0_0).toLoadRect (harg4.unread x2))⟩] ∧
    R.2.2.2.2.1 = [] ∧
    R.2.2.2.2.2.1 = [] ∧
    R.2.2.2.2.2.2.1 = [] :=
  ⟨rfl, rfl, rfl, rfl, rfl, rfl⟩

end Cert.KernelIdeal.KBody

end
-- ==== Proof.KRunC.lean ====
import proofs.«103018_g28046136442917_fold_wed_c4_759_2_alg».proof.Proof.KDefs

set_option maxRecDepth 16384

noncomputable section

namespace Cert.KernelIdeal.KBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S2048x64 .f32) (harg2 : arg2.IsWhole) (arg3 : Memref sig .tc .vmem S2048x256 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x32 .f32) (harg15 : arg15.IsWhole) (arg16 : Memref sig .tc .vmem S2048x32 .f32) (harg16 : arg16.IsWhole) (arg17 : Memref sig .tc .vmem S2048x32 .f32) (harg17 : arg17.IsWhole) (arg18 : Memref sig .tc .vmem S2048x32 .f32) (harg18 : arg18.IsWhole)
    (hc1 : ¬cond1 i) (hc2 : ¬cond2 i) (hc3 : cond3 i) (hc4 : ¬cond4 i) (hc5 : ¬cond5 i) (hc6 : ¬cond6 i)
    (x0 : Vec F S2048x64 .f32) (x1 : Vec F S2048x256 .f32) (x2 : Vec F S64x32 .f32) (x3 x4 x5 : Vec F S1x32 .f32) (x6 : Vec F S32x32 .f32) (x7 x8 x9 : Vec F S1x32 .f32)
    (xs0 xs1 : Vec F S2048x1 .f32) (xs2 xs3 xs4 xs5 : Vec F S2048x32 .f32)

set_option maxHeartbeats 1000000 in
noncomputable def kernelRun_C :
    Σ' (LS0 LS1 : List (View.Piece (Elt F) S2048x1 .f32)) (LS2 LS3 LS4 LS5 : List (View.Piece (Elt F) S2048x32 .f32)), { LO : List (View.Piece (Elt F) S2048x32 .f32) //
      BodySpec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 xs0 xs1 xs2 xs3 xs4 xs5 LS0 LS1 LS2 LS3 LS4 LS5 LO } := by
  refine ⟨[], [], [], ?_, [], [], [], fun xo E K => ?run⟩
  case run =>
    simp only [cc0__gcn_kernel_eq_skeleton]; unfold cc0__gcn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
    sl_exec (disch := first | exact hc1 | exact hc2 | exact hc3 | exact hc4 | exact hc5 | exact hc6)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexact H12
    isplitl [H13]; · iexact H13
    isplitl [H14]; · iexact H14
    isplitl [H15]; · iexact H15
    isplitl [H16]; · iexact H16
    isplitl [H17]; · iexact H17
    iexact H18

theorem kernelRun_C_pieces :
    let R := kernelRun_C (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 hc5 hc6 x0 x1 x2 x3 x4 x5 x6 x7 x8 x9 xs0 xs1 xs2 xs3 xs4 xs5
    R.1 = [] ∧
    R.2.1 = [] ∧
    R.2.2.1 = [] ∧
    R.2.2.2.1 = [⟨Rect.unit (s := S2048x32) (k0_off3 i) S256x32.size (k0_off3_inb i hc3),
          k0_pay5 (View.readAt (Elt F) arg3.view (Rect.unit (s := S2048x256) ![0, 0] S2048x256.size inb_S2048x256_S2048x256_0_0).toLoadRect (harg3.unread x1))
            (View.readAt (Elt F) arg15.view (Rect.unit (s := S2048x32) ![0, 0] S2048x32.size inb_S2048x32_S2048x32_0_0).toLoadRect (harg15.unread xs2))
            (View.readAt (Elt F) arg14.view (Rect.unit (s := S2048x1) (k0_off2 i) S256x1.size (k0_off2_inb i hc3)).toLoadRect (harg14.unread xs1))
            (View.readAt (Elt F) arg15.view (Rect.unit (s := S2048x32) (k0_off3 i) S256x32.size (k0_off3_inb i hc3)).toLoadRect (harg15.unread xs2))
            (View.readAt (Elt F) arg5.view (Rect.unit (s := S1x32) ![0, 0] S1x32.size inb_S1x32_S1x32_0_0).toLoadRect (harg5.unread x3))⟩] ∧
    R.2.2.2.2.1 = [] ∧
    R.2.2.2.2.2.1 = [] ∧
    R.2.2.2.2.2.2.1 = [] :=
  ⟨rfl, rfl, rfl, rfl, rfl, rfl, rfl⟩

end Cert.KernelIdeal.KBody

end
-- ==== Proof.KRunD.lean ====
import proofs.«103018_g28046136442917_fold_wed_c4_759_2_alg».proof.Proof.KDefs

set_option maxRecDepth 16384

noncomputable section

namespace Cert.KernelIdeal.KBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S2048x64 .f32) (harg2 : arg2.IsWhole) (arg3 : Memref sig .tc .vmem S2048x256 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x32 .f32) (harg15 : arg15.IsWhole) (arg16 : Memref sig .tc .vmem S2048x32 .f32) (harg16 : arg16.IsWhole) (arg17 : Memref sig .tc .vmem S2048x32 .f32) (harg17 : arg17.IsWhole) (arg18 : Memref sig .tc .vmem S2048x32 .f32) (harg18 : arg18.IsWhole)
    (hc1 : ¬cond1 i) (hc2 : ¬cond2 i) (hc3 : ¬cond3 i) (hc4 : cond4 i) (hc5 : cond5 i) (hc6 : ¬cond6 i)
    (x0 : Vec F S2048x64 .f32) (x1 : Vec F S2048x256 .f32) (x2 : Vec F S64x32 .f32) (x3 x4 x5 : Vec F S1x32 .f32) (x6 : Vec F S32x32 .f32) (x7 x8 x9 : Vec F S1x32 .f32)
    (xs0 xs1 : Vec F S2048x1 .f32) (xs2 xs3 xs4 xs5 : Vec F S2048x32 .f32)

set_option maxHeartbeats 1000000 in
noncomputable def kernelRun_D :
    Σ' (LS0 LS1 : List (View.Piece (Elt F) S2048x1 .f32)) (LS2 LS3 LS4 LS5 : List (View.Piece (Elt F) S2048x32 .f32)), { LO : List (View.Piece (Elt F) S2048x32 .f32) //
      BodySpec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 xs0 xs1 xs2 xs3 xs4 xs5 LS0 LS1 LS2 LS3 LS4 LS5 LO } := by
  refine ⟨[], [], [], [], ?_, ?_, [], fun xo E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fo, %hfo, HO⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfo; obtain rfl := harg13.eq_unread hfs0; obtain rfl := harg14.eq_unread hfs1; obtain rfl := harg15.eq_unread hfs2; obtain rfl := harg16.eq_unread hfs3; obtain rfl := harg17.eq_unread hfs4; obtain rfl := harg18.eq_unread hfs5
    sl_exec (disch := first | exact hc1 | exact hc2 | exact hc3 | exact hc4 | exact hc5 | exact hc6)
    sl_step
    rw [← Memref.writes_eq_junk_of_covChk harg17 (harg17.unread xs4) _ (.leaf 0) ?cov17]
    case cov17 => rfl
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HO]
    · iexact HO
    isplitl [HS0]
    · iexact HS0
    isplitl [HS1]
    · iexact HS1
    isplitl [HS2]
    · iexact HS2
    isplitl [HS3]
    · iexact HS3
    isplitl [HS4]
    · iexact HS4
    iexact HS5

theorem kernelRun_D_pieces :
    let R := kernelRun_D (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 hc5 hc6 x0 x1 x2 x3 x4 x5 x6 x7 x8 x9 xs0 xs1 xs2 xs3 xs4 xs5
    R.1 = [] ∧
    R.2.1 = [] ∧
    R.2.2.1 = [] ∧
    R.2.2.2.1 = [] ∧
    R.2.2.2.2.1 = [⟨(Rect.unit (s := S2048x32) ![0, 0] S2048x32.size inb_S2048x32_S2048x32_0_0), k0_pay6 (View.readAt (Elt F) arg16.view (Rect.unit (s := S2048x32) ![0, 0] S2048x32.size inb_S2048x32_S2048x32_0_0).toLoadRect (harg16.unread xs3)) (View.readAt (Elt F) arg6.view (Rect.unit (s := S1x32) ![0, 0] S1x32.size inb_S1x32_S1x32_0_0).toLoadRect (harg6.unread x4)) (View.readAt (Elt F) arg7.view (Rect.unit (s := S1x32) ![0, 0] S1x32.size inb_S1x32_S1x32_0_0).toLoadRect (harg7.unread x5)) (View.readAt (Elt F) arg8.view (Rect.unit (s := S32x32) ![0, 0] S32x32.size inb_S32x32_S32x32_0_0).toLoadRect (harg8.unread x6)) (View.readAt (Elt F) arg14.view (Rect.unit (s := S2048x1) ![0, 0] S2048x1.size inb_S2048x1_S2048x1_0_0).toLoadRect (harg14.unread xs1))⟩] ∧
    R.2.2.2.2.2.1 = [⟨(Rect.unit (s := S2048x32) (k0_off5 i) S256x32.size (k0_off5_inb i hc5)), k0_pay7 (View.readAt (Elt F) arg3.view (Rect.unit (s := S2048x256) ![0, 0] S2048x256.size inb_S2048x256_S2048x256_0_0).toLoadRect (harg3.unread x1))
        (arg17.view.readCov [⟨(Rect.unit (s := S2048x32) ![0, 0] S2048x32.size inb_S2048x32_S2048x32_0_0), k0_pay6 (View.readAt (Elt F) arg16.view (Rect.unit (s := S2048x32) ![0, 0] S2048x32.size inb_S2048x32_S2048x32_0_0).toLoadRect (harg16.unread xs3)) (View.readAt (Elt F) arg6.view (Rect.unit (s := S1x32) ![0, 0] S1x32.size inb_S1x32_S1x32_0_0).toLoadRect (harg6.unread x4)) (View.readAt (Elt F) arg7.view (Rect.unit (s := S1x32) ![0, 0] S1x32.size inb_S1x32_S1x32_0_0).toLoadRect (harg7.unread x5)) (View.readAt (Elt F) arg8.view (Rect.unit (s := S32x32) ![0, 0] S32x32.size inb_S32x32_S32x32_0_0).toLoadRect (harg8.unread x6)) (View.readAt (Elt F) arg14.view (Rect.unit (s := S2048x1) ![0, 0] S2048x1.size inb_S2048x1_S2048x1_0_0).toLoadRect (harg14.unread xs1))⟩] (Rect.unit (s := S2048x32) ![0, 0] S2048x32.size inb_S2048x32_S2048x32_0_0).toLoadRect)
        (View.readAt (Elt F) arg14.view (Rect.unit (s := S2048x1) (k0_off4 i) S256x1.size (k0_off4_inb i hc5)).toLoadRect (harg14.unread xs1))
        (View.readAt (Elt F) arg17.view (Rect.unit (s := S2048x32) (k0_off5 i) S256x32.size (k0_off5_inb i hc5)).toLoadRect (arg17.view.writes (Elt F) arg17.view.junk [⟨(Rect.unit (s := S2048x32) ![0, 0] S2048x32.size inb_S2048x32_S2048x32_0_0), k0_pay6 (View.readAt (Elt F) arg16.view (Rect.unit (s := S2048x32) ![0, 0] S2048x32.size inb_S2048x32_S2048x32_0_0).toLoadRect (harg16.unread xs3)) (View.readAt (Elt F) arg6.view (Rect.unit (s := S1x32) ![0, 0] S1x32.size inb_S1x32_S1x32_0_0).toLoadRect (harg6.unread x4)) (View.readAt (Elt F) arg7.view (Rect.unit (s := S1x32) ![0, 0] S1x32.size inb_S1x32_S1x32_0_0).toLoadRect (harg7.unread x5)) (View.readAt (Elt F) arg8.view (Rect.unit (s := S32x32) ![0, 0] S32x32.size inb_S32x32_S32x32_0_0).toLoadRect (harg8.unread x6)) (View.readAt (Elt F) arg14.view (Rect.unit (s := S2048x1) ![0, 0] S2048x1.size inb_S2048x1_S2048x1_0_0).toLoadRect (harg14.unread xs1))⟩]))
        (View.readAt (Elt F) arg9.view (Rect.unit (s := S1x32) ![0, 0] S1x32.size inb_S1x32_S1x32_0_0).toLoadRect (harg9.unread x7))⟩] ∧
    R.2.2.2.2.2.2.1 = [] :=
  ⟨rfl, rfl, rfl, rfl, rfl, rfl, rfl⟩

end Cert.KernelIdeal.KBody

end
-- ==== Proof.KRunE.lean ====
import proofs.«103018_g28046136442917_fold_wed_c4_759_2_alg».proof.Proof.KDefs

set_option maxRecDepth 16384

noncomputable section

namespace Cert.KernelIdeal.KBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S2048x64 .f32) (harg2 : arg2.IsWhole) (arg3 : Memref sig .tc .vmem S2048x256 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x32 .f32) (harg15 : arg15.IsWhole) (arg16 : Memref sig .tc .vmem S2048x32 .f32) (harg16 : arg16.IsWhole) (arg17 : Memref sig .tc .vmem S2048x32 .f32) (harg17 : arg17.IsWhole) (arg18 : Memref sig .tc .vmem S2048x32 .f32) (harg18 : arg18.IsWhole)
    (hc1 : ¬cond1 i) (hc2 : ¬cond2 i) (hc3 : ¬cond3 i) (hc4 : ¬cond4 i) (hc5 : cond5 i) (hc6 : ¬cond6 i)
    (x0 : Vec F S2048x64 .f32) (x1 : Vec F S2048x256 .f32) (x2 : Vec F S64x32 .f32) (x3 x4 x5 : Vec F S1x32 .f32) (x6 : Vec F S32x32 .f32) (x7 x8 x9 : Vec F S1x32 .f32)
    (xs0 xs1 : Vec F S2048x1 .f32) (xs2 xs3 xs4 xs5 : Vec F S2048x32 .f32)

set_option maxHeartbeats 1000000 in
noncomputable def kernelRun_E :
    Σ' (LS0 LS1 : List (View.Piece (Elt F) S2048x1 .f32)) (LS2 LS3 LS4 LS5 : List (View.Piece (Elt F) S2048x32 .f32)), { LO : List (View.Piece (Elt F) S2048x32 .f32) //
      BodySpec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 xs0 xs1 xs2 xs3 xs4 xs5 LS0 LS1 LS2 LS3 LS4 LS5 LO } := by
  refine ⟨[], [], [], [], [], ?_, [], fun xo E K => ?run⟩
  case run =>
    simp only [cc0__gcn_kernel_eq_skeleton]; unfold cc0__gcn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
    sl_exec (disch := first | exact hc1 | exact hc2 | exact hc3 | exact hc4 | exact hc5 | exact hc6)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexact H12
    isplitl [H13]; · iexact H13
    isplitl [H14]; · iexact H14
    isplitl [H15]; · iexact H15
    isplitl [H16]; · iexact H16
    isplitl [H17]; · iexact H17
    iexact H18

theorem kernelRun_E_pieces :
    let R := kernelRun_E (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 hc5 hc6 x0 x1 x2 x3 x4 x5 x6 x7 x8 x9 xs0 xs1 xs2 xs3 xs4 xs5
    R.1 = [] ∧
    R.2.1 = [] ∧
    R.2.2.1 = [] ∧
    R.2.2.2.1 = [] ∧
    R.2.2.2.2.1 = [] ∧
    R.2.2.2.2.2.1 = [⟨Rect.unit (s := S2048x32) (k0_off5 i) S256x32.size (k0_off5_inb i hc5),
          k0_pay7 (View.readAt (Elt F) arg3.view (Rect.unit (s := S2048x256) ![0, 0] S2048x256.size inb_S2048x256_S2048x256_0_0).toLoadRect (harg3.unread x1))
            (View.readAt (Elt F) arg17.view (Rect.unit (s := S2048x32) ![0, 0] S2048x32.size inb_S2048x32_S2048x32_0_0).toLoadRect (harg17.unread xs4))
            (View.readAt (Elt F) arg14.view (Rect.unit (s := S2048x1) (k0_off4 i) S256x1.size (k0_off4_inb i hc5)).toLoadRect (harg14.unread xs1))
            (View.readAt (Elt F) arg17.view (Rect.unit (s := S2048x32) (k0_off5 i) S256x32.size (k0_off5_inb i hc5)).toLoadRect (harg17.unread xs4))
            (View.readAt (Elt F) arg9.view (Rect.unit (s := S1x32) ![0, 0] S1x32.size inb_S1x32_S1x32_0_0).toLoadRect (harg9.unread x7))⟩] ∧
    R.2.2.2.2.2.2.1 = [] :=
  ⟨rfl, rfl, rfl, rfl, rfl, rfl, rfl⟩

end Cert.KernelIdeal.KBody

end
-- ==== Proof.KRunFz.lean ====
import proofs.«103018_g28046136442917_fold_wed_c4_759_2_alg».proof.Proof.KDefs

set_option maxRecDepth 16384

noncomputable section

namespace Cert.KernelIdeal.KBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S2048x64 .f32) (harg2 : arg2.IsWhole) (arg3 : Memref sig .tc .vmem S2048x256 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S1x32 .f32) (harg10 : arg10.IsWhole) (arg11 : Memref sig .tc .vmem S1x32 .f32) (harg11 : arg11.IsWhole) (arg12 : Memref sig .tc .vmem S2048x32 .f32) (harg12 : arg12.IsWhole) (arg13 : Memref sig .tc .vmem S2048x1 .f32) (harg13 : arg13.IsWhole) (arg14 : Memref sig .tc .vmem S2048x1 .f32) (harg14 : arg14.IsWhole) (arg15 : Memref sig .tc .vmem S2048x32 .f32) (harg15 : arg15.IsWhole) (arg16 : Memref sig .tc .vmem S2048x32 .f32) (harg16 : arg16.IsWhole) (arg17 : Memref sig .tc .vmem S2048x32 .f32) (harg17 : arg17.IsWhole) (arg18 : Memref sig .tc .vmem S2048x32 .f32) (harg18 : arg18.IsWhole)
    (hc1 : ¬cond1 i) (hc2 : ¬cond2 i) (hc3 : ¬cond3 i) (hc4 : ¬cond4 i) (hc5 : cond5 i) (hc6 : cond6 i)
    (x0 : Vec F S2048x64 .f32) (x1 : Vec F S2048x256 .f32) (x2 : Vec F S64x32 .f32) (x3 x4 x5 : Vec F S1x32 .f32) (x6 : Vec F S32x32 .f32) (x7 x8 x9 : Vec F S1x32 .f32)
    (xs0 xs1 : Vec F S2048x1 .f32) (xs2 xs3 xs4 xs5 : Vec F S2048x32 .f32)

set_option maxHeartbeats 1000000 in
noncomputable def kernelRun_Fz :
    Σ' (LS0 LS1 : List (View.Piece (Elt F) S2048x1 .f32)) (LS2 LS3 LS4 LS5 : List (View.Piece (Elt F) S2048x32 .f32)), { LO : List (View.Piece (Elt F) S2048x32 .f32) //
      BodySpec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 xs0 xs1 xs2 xs3 xs4 xs5 LS0 LS1 LS2 LS3 LS4 LS5 LO } := by
  refine ⟨[], [], [], [], [], ?_, ?_, fun xo E K => ?run⟩
  case run =>
    simp only [cc0__gcn_kernel_eq_skeleton]; unfold cc0__gcn_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
    sl_exec (disch := first | exact hc1 | exact hc2 | exact hc3 | exact hc4 | exact hc5 | exact hc6)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexact H12
    isplitl [H13]; · iexact H13
    isplitl [H14]; · iexact H14
    isplitl [H15]; · iexact H15
    isplitl [H16]; · iexact H16
    isplitl [H17]; · iexact H17
    iexact H18

theorem kernelRun_Fz_pieces :
    let R := kernelRun_Fz (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc1 hc2 hc3 hc4 hc5 hc6 x0 x1 x2 x3 x4 x5 x6 x7 x8 x9 xs0 xs1 xs2 xs3 xs4 xs5
    R.1 = [] ∧
    R.2.1 = [] ∧
    R.2.2.1 = [] ∧
    R.2.2.2.1 = [] ∧
    R.2.2.2.2.1 = [] ∧
    R.2.2.2.2.2.1 = [⟨Rect.unit (s := S2048x32) (k0_off5 i) S256x32.size (k0_off5_inb i hc5),
          k0_pay7 (View.readAt (Elt F) arg3.view (Rect.unit (s := S2048x256) ![0, 0] S2048x256.size inb_S2048x256_S2048x256_0_0).toLoadRect (harg3.unread x1))
            (View.readAt (Elt F) arg17.view (Rect.unit (s := S2048x32) ![0, 0] S2048x32.size inb_S2048x32_S2048x32_0_0).toLoadRect (harg17.unread xs4))
            (View.readAt (Elt F) arg14.view (Rect.unit (s := S2048x1) (k0_off4 i) S256x1.size (k0_off4_inb i hc5)).toLoadRect (harg14.unread xs1))
            (View.readAt (Elt F) arg17.view (Rect.unit (s := S2048x32) (k0_off5 i) S256x32.size (k0_off5_inb i hc5)).toLoadRect (harg17.unread xs4))
            (View.readAt (Elt F) arg9.view (Rect.unit (s := S1x32) ![0, 0] S1x32.size inb_S1x32_S1x32_0_0).toLoadRect (harg9.unread x7))⟩] ∧
    R.2.2.2.2.2.2.1 = [⟨Rect.unit (s := S2048x32) ![0, 0] S2048x32.size inb_S2048x32_S2048x32_0_0,
          k0_pay8 (View.readAt (Elt F) arg18.view (Rect.unit (s := S2048x32) ![0, 0] S2048x32.size inb_S2048x32_S2048x32_0_0).toLoadRect
              (arg18.view.writes (Elt F) (harg18.unread xs5)
                [⟨Rect.unit (s := S2048x32) (k0_off5 i) S256x32.size (k0_off5_inb i hc5),
                  k0_pay7 (View.readAt (Elt F) arg3.view (Rect.unit (s := S2048x256) ![0, 0] S2048x256.size inb_S2048x256_S2048x256_0_0).toLoadRect (harg3.unread x1))
                    (View.readAt (Elt F) arg17.view (Rect.unit (s := S2048x32) ![0, 0] S2048x32.size inb_S2048x32_S2048x32_0_0).toLoadRect (harg17.unread xs4))
                    (View.readAt (Elt F) arg14.view (Rect.unit (s := S2048x1) (k0_off4 i) S256x1.size (k0_off4_inb i hc5)).toLoadRect (harg14.unread xs1))
                    (View.readAt (Elt F) arg17.view (Rect.unit (s := S2048x32) (k0_off5 i) S256x32.size (k0_off5_inb i hc5)).toLoadRect (harg17.unread xs4))
                    (View.readAt (Elt F) arg9.view (Rect.unit (s := S1x32) ![0, 0] S1x32.size inb_S1x32_S1x32_0_0).toLoadRect (harg9.unread x7))⟩]))
            (View.readAt (Elt F) arg10.view (Rect.unit (s := S1x32) ![0, 0] S1x32.size inb_S1x32_S1x32_0_0).toLoadRect (harg10.unread x8))
            (View.readAt (Elt F) arg11.view (Rect.unit (s := S1x32) ![0, 0] S1x32.size inb_S1x32_S1x32_0_0).toLoadRect (harg11.unread x9))⟩] :=
  ⟨rfl, rfl, rfl, rfl, rfl, rfl, rfl⟩

end Cert.KernelIdeal.KBody

end
-- ==== Proof.KInvRun.lean ====
import proofs.«103018_g28046136442917_fold_wed_c4_759_2_alg».proof.Proof.KInv
import proofs.«103018_g28046136442917_fold_wed_c4_759_2_alg».proof.Proof.KRunA
import proofs.«103018_g28046136442917_fold_wed_c4_759_2_alg».proof.Proof.KRunB
import proofs.«103018_g28046136442917_fold_wed_c4_759_2_alg».proof.Proof.KRunC
import proofs.«103018_g28046136442917_fold_wed_c4_759_2_alg».proof.Proof.KRunD
import proofs.«103018_g28046136442917_fold_wed_c4_759_2_alg».proof.Proof.KRunE
import proofs.«103018_g28046136442917_fold_wed_c4_759_2_alg».proof.Proof.KRunFz

set_option maxRecDepth 16384

noncomputable section

namespace Cert.KernelIdeal.KInv

open Idealize.ShloMosaic Idealize.ShloMosaic.TcCoe
open Idealize.SL.Sem
open Idealize.ShloMosaic.ValueIdx
open Cert.KernelIdeal Cert.KernelIdeal.Gen Cert.KernelIdeal.KBody

variable {F : FTy → Type} [FloatOps F]

variable (m : (ℓ : Loc nD τ sig) → Buf (Elt F) ℓ) (c : Dev nD)

/-- The invariant once the pieces `L0 … L5` are written over the contents `X0 … X5` of the six carried buffers. -/
abbrev InvAfter (n : ℕ) (X0 X1 : Vec F S2048x1 .f32) (X2 X3 X4 X5 : Vec F S2048x32 .f32)
    (L0 L1 : List (View.Piece (Elt F) S2048x1 .f32)) (L2 L3 L4 L5 : List (View.Piece (Elt F) S2048x32 .f32)) : Prop :=
  Inv m c n
    (scM0_0.view.read (Elt F) (scM0_0.view.writes (Elt F) ((Memref.isWhole_whole _).unread X0) L0))
    (scM0_1.view.read (Elt F) (scM0_1.view.writes (Elt F) ((Memref.isWhole_whole _).unread X1) L1))
    (scM0_2.view.read (Elt F) (scM0_2.view.writes (Elt F) ((Memref.isWhole_whole _).unread X2) L2))
    (scM0_3.view.read (Elt F) (scM0_3.view.writes (Elt F) ((Memref.isWhole_whole _).unread X3) L3))
    (scM0_4.view.read (Elt F) (scM0_4.view.writes (Elt F) ((Memref.isWhole_whole _).unread X4) L4))
    (scM0_5.view.read (Elt F) (scM0_5.view.writes (Elt F) ((Memref.isWhole_whole _).unread X5) L5))

theorem inv_step_A_of (t : Fin cfg0.N) (ht : t.val / 8 = 0) (X0 X1 : Vec F S2048x1 .f32) (X2 X3 X4 X5 : Vec F S2048x32 .f32) (hI : Inv m c t.val X0 X1 X2 X3 X4 X5)
    {L0 L1 : List (View.Piece (Elt F) S2048x1 .f32)} {L2 L3 L4 L5 : List (View.Piece (Elt F) S2048x32 .f32)}
    {off : Fin 2 → ℕ} {inb : ∀ a, off a + S256x1.size a ≤ S2048x1.size a}
    {w : (Rect.unit (s := S2048x1) off S256x1.size inb).shape.Idx → Elt F .f32}
    (h0 : L0 = [⟨Rect.unit (s := S2048x1) off S256x1.size inb, w⟩]) (hoff : off = ![256 * (t.val % 8), 0])
    (hw : w = k0_pay1 (adjBlk m c ⟨t.val % 8, Nat.mod_lt _ (by decide)⟩))
    (h1 : L1 = []) (h2 : L2 = []) (h3 : L3 = []) (h4 : L4 = []) (h5 : L5 = []) :
    InvAfter m c (t.val + 1) X0 X1 X2 X3 X4 X5 L0 L1 L2 L3 L4 L5 := by
  subst h0 h1 h2 h3 h4 h5 hw
  unfold InvAfter
  rw [read_nil, read_nil, read_nil, read_nil, read_nil]
  exact step_A m c t.val ⟨t.val % 8, Nat.mod_lt _ (by decide)⟩ (by show t.val = t.val % 8; omega) hI
    (rowsSet_read (n1 := 1) scM0_0 _ X0 ⟨t.val % 8, Nat.mod_lt _ (by decide)⟩ inb _ hoff)

theorem inv_step_B_of (t : Fin cfg0.N) (ht : t.val = 8) (X0 X1 : Vec F S2048x1 .f32) (X2 X3 X4 X5 : Vec F S2048x32 .f32) (hI : Inv m c t.val X0 X1 X2 X3 X4 X5)
    {L0 L1 : List (View.Piece (Elt F) S2048x1 .f32)} {L2 L3 L4 L5 : List (View.Piece (Elt F) S2048x32 .f32)}
    {off1 : Fin 2 → ℕ} {inb1 : ∀ a, off1 a + S2048x1.size a ≤ S2048x1.size a}
    {w1 : (Rect.unit (s := S2048x1) off1 S2048x1.size inb1).shape.Idx → Elt F .f32}
    {off2 : Fin 2 → ℕ} {inb2 : ∀ a, off2 a + S2048x32.size a ≤ S2048x32.size a}
    {w2 : (Rect.unit (s := S2048x32) off2 S2048x32.size inb2).shape.Idx → Elt F .f32}
    {off3 : Fin 2 → ℕ} {inb3 : ∀ a, off3 a + S256x32.size a ≤ S2048x32.size a}
    {w3 : (Rect.unit (s := S2048x32) off3 S256x32.size inb3).shape.Idx → Elt F .f32}
    (h0 : L0 = [])
    (h1 : L1 = [⟨Rect.unit (s := S2048x1) off1 S2048x1.size inb1, w1⟩]) (hw1 : w1 = k0_pay3 X0)
    (h2 : L2 = [⟨Rect.unit (s := S2048x32) off2 S2048x32.size inb2, w2⟩]) (hw2 : w2 = k0_pay4 X0 (xA m c) (w1A m c))
    (h3 : L3 = [⟨Rect.unit (s := S2048x32) off3 S256x32.size inb3, w3⟩]) (hoff3 : off3 = ![256 * (t.val % 8), 0])
    (hw3 : w3 = k0_pay5 (adjBlk m c ⟨t.val % 8, Nat.mod_lt _ (by decide)⟩) (k0_pay4 X0 (xA m c) (w1A m c)) (rowsOf1 (k0_pay3 X0) ⟨t.val % 8, Nat.mod_lt _ (by decide)⟩)
      (rowsOf32 (k0_pay4 X0 (xA m c) (w1A m c)) ⟨t.val % 8, Nat.mod_lt _ (by decide)⟩) (b1A m c))
    (h4 : L4 = []) (h5 : L5 = []) :
    InvAfter m c (t.val + 1) X0 X1 X2 X3 X4 X5 L0 L1 L2 L3 L4 L5 := by
  subst h0 h1 h2 h3 h4 h5 hw1 hw2 hw3
  unfold InvAfter
  rw [read_nil, read_nil, read_nil]
  have e1 := read_whole (F := F) scM0_1 ((Memref.isWhole_whole _).unread X1) inb1 (k0_pay3 X0) []
  have e2 := read_whole (F := F) scM0_2 ((Memref.isWhole_whole _).unread X2) inb2 (k0_pay4 X0 (xA m c) (w1A m c)) []
  refine step_B m c t.val ⟨t.val % 8, Nat.mod_lt _ (by decide)⟩ (by show t.val % 8 = 0; omega) ht hI e1 e2 ?_
  rw [e1, e2]
  exact rowsSet_read (n1 := 32) scM0_3 _ X3 ⟨t.val % 8, Nat.mod_lt _ (by decide)⟩ inb3 _ hoff3

theorem inv_step_C_of (t : Fin cfg0.N) (ht : t.val / 8 = 1) (ht8 : t.val ≠ 8) (X0 X1 : Vec F S2048x1 .f32) (X2 X3 X4 X5 : Vec F S2048x32 .f32) (hI : Inv m c t.val X0 X1 X2 X3 X4 X5)
    {L0 L1 : List (View.Piece (Elt F) S2048x1 .f32)} {L2 L3 L4 L5 : List (View.Piece (Elt F) S2048x32 .f32)}
    {off3 : Fin 2 → ℕ} {inb3 : ∀ a, off3 a + S256x32.size a ≤ S2048x32.size a}
    {w3 : (Rect.unit (s := S2048x32) off3 S256x32.size inb3).shape.Idx → Elt F .f32}
    (h0 : L0 = []) (h1 : L1 = []) (h2 : L2 = [])
    (h3 : L3 = [⟨Rect.unit (s := S2048x32) off3 S256x32.size inb3, w3⟩]) (hoff3 : off3 = ![256 * (t.val % 8), 0])
    (hw3 : w3 = k0_pay5 (adjBlk m c ⟨t.val % 8, Nat.mod_lt _ (by decide)⟩) X2 (rowsOf1 X1 ⟨t.val % 8, Nat.mod_lt _ (by decide)⟩) (rowsOf32 X2 ⟨t.val % 8, Nat.mod_lt _ (by decide)⟩) (b1A m c))
    (h4 : L4 = []) (h5 : L5 = []) :
    InvAfter m c (t.val + 1) X0 X1 X2 X3 X4 X5 L0 L1 L2 L3 L4 L5 := by
  subst h0 h1 h2 h3 h4 h5 hw3
  unfold InvAfter
  rw [read_nil, read_nil, read_nil, read_nil, read_nil]
  exact step_C m c t.val ⟨t.val % 8, Nat.mod_lt _ (by decide)⟩ (by show 1 ≤ t.val % 8; omega) (by show t.val = 8 + t.val % 8; omega) hI
    (rowsSet_read (n1 := 32) scM0_3 _ X3 ⟨t.val % 8, Nat.mod_lt _ (by decide)⟩ inb3 _ hoff3)

theorem inv_step_D_of (t : Fin cfg0.N) (ht : t.val = 16) (X0 X1 : Vec F S2048x1 .f32) (X2 X3 X4 X5 : Vec F S2048x32 .f32) (hI : Inv m c t.val X0 X1 X2 X3 X4 X5)
    {L0 L1 : List (View.Piece (Elt F) S2048x1 .f32)} {L2 L3 L4 L5 : List (View.Piece (Elt F) S2048x32 .f32)}
    {off4 : Fin 2 → ℕ} {inb4 : ∀ a, off4 a + S2048x32.size a ≤ S2048x32.size a}
    {w4 : (Rect.unit (s := S2048x32) off4 S2048x32.size inb4).shape.Idx → Elt F .f32}
    {off5 : Fin 2 → ℕ} {inb5 : ∀ a, off5 a + S256x32.size a ≤ S2048x32.size a}
    {w5 : (Rect.unit (s := S2048x32) off5 S256x32.size inb5).shape.Idx → Elt F .f32}
    (h0 : L0 = []) (h1 : L1 = []) (h2 : L2 = []) (h3 : L3 = [])
    (h4 : L4 = [⟨Rect.unit (s := S2048x32) off4 S2048x32.size inb4, w4⟩]) (hw4 : w4 = k0_pay6 X3 (g1A m c) (be1A m c) (w2A m c) X1)
    (h5 : L5 = [⟨Rect.unit (s := S2048x32) off5 S256x32.size inb5, w5⟩]) (hoff5 : off5 = ![256 * (t.val % 8), 0])
    (hw5 : w5 = k0_pay7 (adjBlk m c ⟨t.val % 8, Nat.mod_lt _ (by decide)⟩) (k0_pay6 X3 (g1A m c) (be1A m c) (w2A m c) X1) (rowsOf1 X1 ⟨t.val % 8, Nat.mod_lt _ (by decide)⟩)
      (rowsOf32 (k0_pay6 X3 (g1A m c) (be1A m c) (w2A m c) X1) ⟨t.val % 8, Nat.mod_lt _ (by decide)⟩) (b2A m c)) :
    InvAfter m c (t.val + 1) X0 X1 X2 X3 X4 X5 L0 L1 L2 L3 L4 L5 := by
  subst h0 h1 h2 h3 h4 h5 hw4 hw5
  unfold InvAfter
  rw [read_nil, read_nil, read_nil, read_nil]
  have e4 := read_whole (F := F) scM0_4 ((Memref.isWhole_whole _).unread X4) inb4 (k0_pay6 X3 (g1A m c) (be1A m c) (w2A m c) X1) []
  refine step_D m c t.val ⟨t.val % 8, Nat.mod_lt _ (by decide)⟩ (by show t.val % 8 = 0; omega) ht hI e4 ?_
  rw [e4]
  exact rowsSet_read (n1 := 32) scM0_5 _ X5 ⟨t.val % 8, Nat.mod_lt _ (by decide)⟩ inb5 _ hoff5

theorem inv_step_E_of (t : Fin cfg0.N) (ht : t.val / 8 = 2) (ht16 : t.val ≠ 16) (X0 X1 : Vec F S2048x1 .f32) (X2 X3 X4 X5 : Vec F S2048x32 .f32) (hI : Inv m c t.val X0 X1 X2 X3 X4 X5)
    {L0 L1 : List (View.Piece (Elt F) S2048x1 .f32)} {L2 L3 L4 L5 : List (View.Piece (Elt F) S2048x32 .f32)}
    {off5 : Fin 2 → ℕ} {inb5 : ∀ a, off5 a + S256x32.size a ≤ S2048x32.size a}
    {w5 : (Rect.unit (s := S2048x32) off5 S256x32.size inb5).shape.Idx → Elt F .f32}
    (h0 : L0 = []) (h1 : L1 = []) (h2 : L2 = []) (h3 : L3 = []) (h4 : L4 = [])
    (h5 : L5 = [⟨Rect.unit (s := S2048x32) off5 S256x32.size inb5, w5⟩]) (hoff5 : off5 = ![256 * (t.val % 8), 0])
    (hw5 : w5 = k0_pay7 (adjBlk m c ⟨t.val % 8, Nat.mod_lt _ (by decide)⟩) X4 (rowsOf1 X1 ⟨t.val % 8, Nat.mod_lt _ (by decide)⟩) (rowsOf32 X4 ⟨t.val % 8, Nat.mod_lt _ (by decide)⟩) (b2A m c)) :
    InvAfter m c (t.val + 1) X0 X1 X2 X3 X4 X5 L0 L1 L2 L3 L4 L5 := by
  subst h0 h1 h2 h3 h4 h5 hw5
  unfold InvAfter
  rw [read_nil, read_nil, read_nil, read_nil, read_nil]
  exact step_E m c t.val ⟨t.val % 8, Nat.mod_lt _ (by decide)⟩ (by show 1 ≤ t.val % 8; omega) (by show t.val = 16 + t.val % 8; omega) hI
    (rowsSet_read (n1 := 32) scM0_5 _ X5 ⟨t.val % 8, Nat.mod_lt _ (by decide)⟩ inb5 _ hoff5)

theorem out_final_of (t : Fin cfg0.N) (ht : t.val = 23) (X0 X1 : Vec F S2048x1 .f32) (X2 X3 X4 X5 : Vec F S2048x32 .f32) (hI : Inv m c t.val X0 X1 X2 X3 X4 X5)
    {L5 LO : List (View.Piece (Elt F) S2048x32 .f32)}
    {off5 : Fin 2 → ℕ} {inb5 : ∀ a, off5 a + S256x32.size a ≤ S2048x32.size a}
    {w5 : (Rect.unit (s := S2048x32) off5 S256x32.size inb5).shape.Idx → Elt F .f32}
    {offo : Fin 2 → ℕ} {inbo : ∀ a, offo a + S2048x32.size a ≤ S2048x32.size a}
    {wo : (Rect.unit (s := S2048x32) offo S2048x32.size inbo).shape.Idx → Elt F .f32}
    (h5 : L5 = [⟨Rect.unit (s := S2048x32) off5 S256x32.size inb5, w5⟩])
    {X0' X1' : Vec F S2048x1 .f32} {X2' X3' X4' : Vec F S2048x32 .f32}
    (hI' : Inv m c (t.val + 1) X0' X1' X2' X3' X4' (scM0_5.view.read (Elt F) (scM0_5.view.writes (Elt F) ((Memref.isWhole_whole _).unread X5) L5)))
    (hO : LO = [⟨Rect.unit (s := S2048x32) offo S2048x32.size inbo, wo⟩])
    (hwo : wo = k0_pay8 (scM0_5.view.read (Elt F) (scM0_5.view.writes (Elt F) ((Memref.isWhole_whole _).unread X5)
      [⟨Rect.unit (s := S2048x32) off5 S256x32.size inb5, w5⟩])) (g2A m c) (be2A m c))
    (xo : Vec F S2048x32 .f32) :
    (ms0_10 t).view.read (Elt F) ((ms0_10 t).view.writes (Elt F) ((hs0_10 t).unread xo) LO) = OUT m c := by
  subst h5 hO hwo
  rw [read_whole]
  exact out_of_inv m c (by omega) hI'

section
variable (t : Fin cfg0.N) (hc1 : cond1 (grid0.coords t)) (hc2 : ¬cond2 (grid0.coords t)) (hc3 : ¬cond3 (grid0.coords t)) (hc4 : ¬cond4 (grid0.coords t)) (hc5 : ¬cond5 (grid0.coords t)) (hc6 : ¬cond6 (grid0.coords t))
    (X0 X1 : Vec F S2048x1 .f32) (X2 X3 X4 X5 : Vec F S2048x32 .f32)

abbrev runA :=
  kernelRun_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc1 hc2 hc3 hc4 hc5 hc6 (iblk m c 0 t) (iblk m c 1 t) (iblk m c 2 t) (iblk m c 3 t) (iblk m c 4 t) (iblk m c 5 t) (iblk m c 6 t) (iblk m c 7 t) (iblk m c 8 t) (iblk m c 9 t) X0 X1 X2 X3 X4 X5

theorem inv_step_A (hI : Inv m c t.val X0 X1 X2 X3 X4 X5) :
    InvAfter m c (t.val + 1) X0 X1 X2 X3 X4 X5 (runA m c t hc1 hc2 hc3 hc4 hc5 hc6 X0 X1 X2 X3 X4 X5).1 (runA m c t hc1 hc2 hc3 hc4 hc5 hc6 X0 X1 X2 X3 X4 X5).2.1 (runA m c t hc1 hc2 hc3 hc4 hc5 hc6 X0 X1 X2 X3 X4 X5).2.2.1 (runA m c t hc1 hc2 hc3 hc4 hc5 hc6 X0 X1 X2 X3 X4 X5).2.2.2.1 (runA m c t hc1 hc2 hc3 hc4 hc5 hc6 X0 X1 X2 X3 X4 X5).2.2.2.2.1 (runA m c t hc1 hc2 hc3 hc4 hc5 hc6 X0 X1 X2 X3 X4 X5).2.2.2.2.2.1 :=
  inv_step_A_of m c t ((hcond1 t).mp hc1) X0 X1 X2 X3 X4 X5 hI
    (kernelRun_A_pieces ..).1 (off1_at t)
    (by rw [ld_whole_unread (ms0_1 t) (hs0_1 t), iblk1 m c t])
    (kernelRun_A_pieces ..).2.1
    (kernelRun_A_pieces ..).2.2.1
    (kernelRun_A_pieces ..).2.2.2.1
    (kernelRun_A_pieces ..).2.2.2.2.1
    (kernelRun_A_pieces ..).2.2.2.2.2.1
end

section
variable (t : Fin cfg0.N) (hc1 : ¬cond1 (grid0.coords t)) (hc2 : cond2 (grid0.coords t)) (hc3 : cond3 (grid0.coords t)) (hc4 : ¬cond4 (grid0.coords t)) (hc5 : ¬cond5 (grid0.coords t)) (hc6 : ¬cond6 (grid0.coords t))
    (X0 X1 : Vec F S2048x1 .f32) (X2 X3 X4 X5 : Vec F S2048x32 .f32)

abbrev runB :=
  kernelRun_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc1 hc2 hc3 hc4 hc5 hc6 (iblk m c 0 t) (iblk m c 1 t) (iblk m c 2 t) (iblk m c 3 t) (iblk m c 4 t) (iblk m c 5 t) (iblk m c 6 t) (iblk m c 7 t) (iblk m c 8 t) (iblk m c 9 t) X0 X1 X2 X3 X4 X5

set_option maxHeartbeats 1000000 in
theorem runB_LS3 :
    (runB m c t hc1 hc2 hc3 hc4 hc5 hc6 X0 X1 X2 X3 X4 X5).2.2.2.1
      = [⟨(Rect.unit (s := S2048x32) (k0_off3 (grid0.coords t)) S256x32.size (k0_off3_inb (grid0.coords t) hc3)), k0_pay5 (View.readAt (Elt F) (ms0_1 t).view (Rect.unit (s := S2048x256) ![0, 0] S2048x256.size inb_S2048x256_S2048x256_0_0).toLoadRect ((hs0_1 t).unread (iblk m c 1 t)))
        (scM0_2.view.readCov [⟨(Rect.unit (s := S2048x32) ![0, 0] S2048x32.size inb_S2048x32_S2048x32_0_0), k0_pay4 (View.readAt (Elt F) scM0_0.view (Rect.unit (s := S2048x1) ![0, 0] S2048x1.size inb_S2048x1_S2048x1_0_0).toLoadRect ((Memref.isWhole_whole _).unread X0)) (View.readAt (Elt F) (ms0_0 t).view (Rect.unit (s := S2048x64) ![0, 0] S2048x64.size inb_S2048x64_S2048x64_0_0).toLoadRect ((hs0_0 t).unread (iblk m c 0 t))) (View.readAt (Elt F) (ms0_2 t).view (Rect.unit (s := S64x32) ![0, 0] S64x32.size inb_S64x32_S64x32_0_0).toLoadRect ((hs0_2 t).unread (iblk m c 2 t)))⟩] (Rect.unit (s := S2048x32) ![0, 0] S2048x32.size inb_S2048x32_S2048x32_0_0).toLoadRect)
        (View.readAt (Elt F) scM0_1.view (Rect.unit (s := S2048x1) (k0_off2 (grid0.coords t)) S256x1.size (k0_off2_inb (grid0.coords t) hc3)).toLoadRect (scM0_1.view.writes (Elt F) ((Memref.isWhole_whole _).unread X1) [⟨(Rect.unit (s := S2048x1) ![0, 0] S2048x1.size inb_S2048x1_S2048x1_0_0), k0_pay3 (View.readAt (Elt F) scM0_0.view (Rect.unit (s := S2048x1) ![0, 0] S2048x1.size inb_S2048x1_S2048x1_0_0).toLoadRect ((Memref.isWhole_whole _).unread X0))⟩]))
        (View.readAt (Elt F) scM0_2.view (Rect.unit (s := S2048x32) (k0_off3 (grid0.coords t)) S256x32.size (k0_off3_inb (grid0.coords t) hc3)).toLoadRect (scM0_2.view.writes (Elt F) scM0_2.view.junk [⟨(Rect.unit (s := S2048x32) ![0, 0] S2048x32.size inb_S2048x32_S2048x32_0_0), k0_pay4 (View.readAt (Elt F) scM0_0.view (Rect.unit (s := S2048x1) ![0, 0] S2048x1.size inb_S2048x1_S2048x1_0_0).toLoadRect ((Memref.isWhole_whole _).unread X0)) (View.readAt (Elt F) (ms0_0 t).view (Rect.unit (s := S2048x64) ![0, 0] S2048x64.size inb_S2048x64_S2048x64_0_0).toLoadRect ((hs0_0 t).unread (iblk m c 0 t))) (View.readAt (Elt F) (ms0_2 t).view (Rect.unit (s := S64x32) ![0, 0] S64x32.size inb_S64x32_S64x32_0_0).toLoadRect ((hs0_2 t).unread (iblk m c 2 t)))⟩]))
        (View.readAt (Elt F) (ms0_3 t).view (Rect.unit (s := S1x32) ![0, 0] S1x32.size inb_S1x32_S1x32_0_0).toLoadRect ((hs0_3 t).unread (iblk m c 3 t)))⟩] := rfl

theorem inv_step_B (hI : Inv m c t.val X0 X1 X2 X3 X4 X5) :
    InvAfter m c (t.val + 1) X0 X1 X2 X3 X4 X5 (runB m c t hc1 hc2 hc3 hc4 hc5 hc6 X0 X1 X2 X3 X4 X5).1 (runB m c t hc1 hc2 hc3 hc4 hc5 hc6 X0 X1 X2 X3 X4 X5).2.1 (runB m c t hc1 hc2 hc3 hc4 hc5 hc6 X0 X1 X2 X3 X4 X5).2.2.1 (runB m c t hc1 hc2 hc3 hc4 hc5 hc6 X0 X1 X2 X3 X4 X5).2.2.2.1 (runB m c t hc1 hc2 hc3 hc4 hc5 hc6 X0 X1 X2 X3 X4 X5).2.2.2.2.1 (runB m c t hc1 hc2 hc3 hc4 hc5 hc6 X0 X1 X2 X3 X4 X5).2.2.2.2.2.1 :=
  inv_step_B_of m c t ((hcond2 t).mp hc2) X0 X1 X2 X3 X4 X5 hI
    (kernelRun_B_pieces ..).1
    (kernelRun_B_pieces ..).2.1
    (by rw [ld_whole_unread scM0_0])
    (kernelRun_B_pieces ..).2.2.1
    (by rw [ld_whole_unread scM0_0, ld_whole_unread (ms0_0 t) (hs0_0 t), iblk0 m c t, ld_whole_unread (ms0_2 t) (hs0_2 t), iblk2 m c t])
    (runB_LS3 m c t hc1 hc2 hc3 hc4 hc5 hc6 X0 X1 X2 X3 X4 X5) (off3_at t)
    (by
      unfold View.readCov
      rw [ld_whole scM0_2 (Memref.isWhole_whole _), ld_rows1 scM0_1 (Memref.isWhole_whole _) _ ⟨t.val % 8, Nat.mod_lt _ (by decide)⟩ _ (off2_at t), ld_rows32 scM0_2 (Memref.isWhole_whole _) _ ⟨t.val % 8, Nat.mod_lt _ (by decide)⟩ _ (off3_at t),
        read_whole, read_whole, ld_whole_unread (ms0_1 t) (hs0_1 t), iblk1 m c t, ld_whole_unread scM0_0,
        ld_whole_unread (ms0_0 t) (hs0_0 t), iblk0 m c t, ld_whole_unread (ms0_2 t) (hs0_2 t), iblk2 m c t,
        ld_whole_unread (ms0_3 t) (hs0_3 t), iblk3 m c t])
    (kernelRun_B_pieces ..).2.2.2.1
    (kernelRun_B_pieces ..).2.2.2.2.1
end

section
variable (t : Fin cfg0.N) (hc1 : ¬cond1 (grid0.coords t)) (hc2 : ¬cond2 (grid0.coords t)) (hc3 : cond3 (grid0.coords t)) (hc4 : ¬cond4 (grid0.coords t)) (hc5 : ¬cond5 (grid0.coords t)) (hc6 : ¬cond6 (grid0.coords t))
    (X0 X1 : Vec F S2048x1 .f32) (X2 X3 X4 X5 : Vec F S2048x32 .f32)

abbrev runC :=
  kernelRun_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc1 hc2 hc3 hc4 hc5 hc6 (iblk m c 0 t) (iblk m c 1 t) (iblk m c 2 t) (iblk m c 3 t) (iblk m c 4 t) (iblk m c 5 t) (iblk m c 6 t) (iblk m c 7 t) (iblk m c 8 t) (iblk m c 9 t) X0 X1 X2 X3 X4 X5

theorem inv_step_C (hI : Inv m c t.val X0 X1 X2 X3 X4 X5) :
    InvAfter m c (t.val + 1) X0 X1 X2 X3 X4 X5 (runC m c t hc1 hc2 hc3 hc4 hc5 hc6 X0 X1 X2 X3 X4 X5).1 (runC m c t hc1 hc2 hc3 hc4 hc5 hc6 X0 X1 X2 X3 X4 X5).2.1 (runC m c t hc1 hc2 hc3 hc4 hc5 hc6 X0 X1 X2 X3 X4 X5).2.2.1 (runC m c t hc1 hc2 hc3 hc4 hc5 hc6 X0 X1 X2 X3 X4 X5).2.2.2.1 (runC m c t hc1 hc2 hc3 hc4 hc5 hc6 X0 X1 X2 X3 X4 X5).2.2.2.2.1 (runC m c t hc1 hc2 hc3 hc4 hc5 hc6 X0 X1 X2 X3 X4 X5).2.2.2.2.2.1 :=
  inv_step_C_of m c t ((hcond3 t).mp hc3) (fun h => hc2 ((hcond2 t).mpr h)) X0 X1 X2 X3 X4 X5 hI
    (kernelRun_C_pieces ..).1
    (kernelRun_C_pieces ..).2.1
    (kernelRun_C_pieces ..).2.2.1
    (kernelRun_C_pieces ..).2.2.2.1 (off3_at t)
    (by rw [ld_whole_unread (ms0_1 t) (hs0_1 t), iblk1 m c t, ld_whole_unread scM0_2,
      ld_rows1_unread scM0_1 _ X1 ⟨t.val % 8, Nat.mod_lt _ (by decide)⟩ _ (off2_at t), ld_rows32_unread scM0_2 _ X2 ⟨t.val % 8, Nat.mod_lt _ (by decide)⟩ _ (off3_at t),
      ld_whole_unread (ms0_3 t) (hs0_3 t), iblk3 m c t])
    (kernelRun_C_pieces ..).2.2.2.2.1
    (kernelRun_C_pieces ..).2.2.2.2.2.1
end

section
variable (t : Fin cfg0.N) (hc1 : ¬cond1 (grid0.coords t)) (hc2 : ¬cond2 (grid0.coords t)) (hc3 : ¬cond3 (grid0.coords t)) (hc4 : cond4 (grid0.coords t)) (hc5 : cond5 (grid0.coords t)) (hc6 : ¬cond6 (grid0.coords t))
    (X0 X1 : Vec F S2048x1 .f32) (X2 X3 X4 X5 : Vec F S2048x32 .f32)

abbrev runD :=
  kernelRun_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc1 hc2 hc3 hc4 hc5 hc6 (iblk m c 0 t) (iblk m c 1 t) (iblk m c 2 t) (iblk m c 3 t) (iblk m c 4 t) (iblk m c 5 t) (iblk m c 6 t) (iblk m c 7 t) (iblk m c 8 t) (iblk m c 9 t) X0 X1 X2 X3 X4 X5

theorem inv_step_D (hI : Inv m c t.val X0 X1 X2 X3 X4 X5) :
    InvAfter m c (t.val + 1) X0 X1 X2 X3 X4 X5 (runD m c t hc1 hc2 hc3 hc4 hc5 hc6 X0 X1 X2 X3 X4 X5).1 (runD m c t hc1 hc2 hc3 hc4 hc5 hc6 X0 X1 X2 X3 X4 X5).2.1 (runD m c t hc1 hc2 hc3 hc4 hc5 hc6 X0 X1 X2 X3 X4 X5).2.2.1 (runD m c t hc1 hc2 hc3 hc4 hc5 hc6 X0 X1 X2 X3 X4 X5).2.2.2.1 (runD m c t hc1 hc2 hc3 hc4 hc5 hc6 X0 X1 X2 X3 X4 X5).2.2.2.2.1 (runD m c t hc1 hc2 hc3 hc4 hc5 hc6 X0 X1 X2 X3 X4 X5).2.2.2.2.2.1 :=
  inv_step_D_of m c t ((hcond4 t).mp hc4) X0 X1 X2 X3 X4 X5 hI
    (kernelRun_D_pieces ..).1
    (kernelRun_D_pieces ..).2.1
    (kernelRun_D_pieces ..).2.2.1
    (kernelRun_D_pieces ..).2.2.2.1
    (kernelRun_D_pieces ..).2.2.2.2.1
    (by rw [ld_whole_unread scM0_3, ld_whole_unread (ms0_4 t) (hs0_4 t), iblk4 m c t, ld_whole_unread (ms0_5 t) (hs0_5 t),
      iblk5 m c t, ld_whole_unread (ms0_6 t) (hs0_6 t), iblk6 m c t, ld_whole_unread scM0_1])
    (kernelRun_D_pieces ..).2.2.2.2.2.1 (off5_at t)
    (by
      unfold View.readCov
      rw [ld_whole scM0_4 (Memref.isWhole_whole _), ld_rows32 scM0_4 (Memref.isWhole_whole _) _ ⟨t.val % 8, Nat.mod_lt _ (by decide)⟩ _ (off5_at t), read_whole,
        ld_whole_unread (ms0_1 t) (hs0_1 t), iblk1 m c t, ld_whole_unread scM0_3, ld_whole_unread (ms0_4 t) (hs0_4 t),
        iblk4 m c t, ld_whole_unread (ms0_5 t) (hs0_5 t), iblk5 m c t, ld_whole_unread (ms0_6 t) (hs0_6 t), iblk6 m c t,
        ld_whole_unread scM0_1, ld_rows1_unread scM0_1 _ X1 ⟨t.val % 8, Nat.mod_lt _ (by decide)⟩ _ (off4_at t),
        ld_whole_unread (ms0_7 t) (hs0_7 t), iblk7 m c t])
end

section
variable (t : Fin cfg0.N) (hc1 : ¬cond1 (grid0.coords t)) (hc2 : ¬cond2 (grid0.coords t)) (hc3 : ¬cond3 (grid0.coords t)) (hc4 : ¬cond4 (grid0.coords t)) (hc5 : cond5 (grid0.coords t)) (hc6 : ¬cond6 (grid0.coords t))
    (X0 X1 : Vec F S2048x1 .f32) (X2 X3 X4 X5 : Vec F S2048x32 .f32)

abbrev runE :=
  kernelRun_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc1 hc2 hc3 hc4 hc5 hc6 (iblk m c 0 t) (iblk m c 1 t) (iblk m c 2 t) (iblk m c 3 t) (iblk m c 4 t) (iblk m c 5 t) (iblk m c 6 t) (iblk m c 7 t) (iblk m c 8 t) (iblk m c 9 t) X0 X1 X2 X3 X4 X5

theorem inv_step_E (hI : Inv m c t.val X0 X1 X2 X3 X4 X5) :
    InvAfter m c (t.val + 1) X0 X1 X2 X3 X4 X5 (runE m c t hc1 hc2 hc3 hc4 hc5 hc6 X0 X1 X2 X3 X4 X5).1 (runE m c t hc1 hc2 hc3 hc4 hc5 hc6 X0 X1 X2 X3 X4 X5).2.1 (runE m c t hc1 hc2 hc3 hc4 hc5 hc6 X0 X1 X2 X3 X4 X5).2.2.1 (runE m c t hc1 hc2 hc3 hc4 hc5 hc6 X0 X1 X2 X3 X4 X5).2.2.2.1 (runE m c t hc1 hc2 hc3 hc4 hc5 hc6 X0 X1 X2 X3 X4 X5).2.2.2.2.1 (runE m c t hc1 hc2 hc3 hc4 hc5 hc6 X0 X1 X2 X3 X4 X5).2.2.2.2.2.1 :=
  inv_step_E_of m c t ((hcond5 t).mp hc5) (fun h => hc4 ((hcond4 t).mpr h)) X0 X1 X2 X3 X4 X5 hI
    (kernelRun_E_pieces ..).1
    (kernelRun_E_pieces ..).2.1
    (kernelRun_E_pieces ..).2.2.1
    (kernelRun_E_pieces ..).2.2.2.1
    (kernelRun_E_pieces ..).2.2.2.2.1
    (kernelRun_E_pieces ..).2.2.2.2.2.1 (off5_at t)
    (by rw [ld_whole_unread (ms0_1 t) (hs0_1 t), iblk1 m c t, ld_whole_unread scM0_4,
      ld_rows1_unread scM0_1 _ X1 ⟨t.val % 8, Nat.mod_lt _ (by decide)⟩ _ (off4_at t), ld_rows32_unread scM0_4 _ X4 ⟨t.val % 8, Nat.mod_lt _ (by decide)⟩ _ (off5_at t),
      ld_whole_unread (ms0_7 t) (hs0_7 t), iblk7 m c t])
end

section
variable (t : Fin cfg0.N) (hc1 : ¬cond1 (grid0.coords t)) (hc2 : ¬cond2 (grid0.coords t)) (hc3 : ¬cond3 (grid0.coords t)) (hc4 : ¬cond4 (grid0.coords t)) (hc5 : cond5 (grid0.coords t)) (hc6 : cond6 (grid0.coords t))
    (X0 X1 : Vec F S2048x1 .f32) (X2 X3 X4 X5 : Vec F S2048x32 .f32)

abbrev runFz :=
  kernelRun_Fz c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc1 hc2 hc3 hc4 hc5 hc6 (iblk m c 0 t) (iblk m c 1 t) (iblk m c 2 t) (iblk m c 3 t) (iblk m c 4 t) (iblk m c 5 t) (iblk m c 6 t) (iblk m c 7 t) (iblk m c 8 t) (iblk m c 9 t) X0 X1 X2 X3 X4 X5

theorem inv_step_Fz (hI : Inv m c t.val X0 X1 X2 X3 X4 X5) :
    InvAfter m c (t.val + 1) X0 X1 X2 X3 X4 X5 (runFz m c t hc1 hc2 hc3 hc4 hc5 hc6 X0 X1 X2 X3 X4 X5).1 (runFz m c t hc1 hc2 hc3 hc4 hc5 hc6 X0 X1 X2 X3 X4 X5).2.1 (runFz m c t hc1 hc2 hc3 hc4 hc5 hc6 X0 X1 X2 X3 X4 X5).2.2.1 (runFz m c t hc1 hc2 hc3 hc4 hc5 hc6 X0 X1 X2 X3 X4 X5).2.2.2.1 (runFz m c t hc1 hc2 hc3 hc4 hc5 hc6 X0 X1 X2 X3 X4 X5).2.2.2.2.1 (runFz m c t hc1 hc2 hc3 hc4 hc5 hc6 X0 X1 X2 X3 X4 X5).2.2.2.2.2.1 :=
  inv_step_E_of m c t ((hcond5 t).mp hc5) (fun h => hc4 ((hcond4 t).mpr h)) X0 X1 X2 X3 X4 X5 hI
    (kernelRun_Fz_pieces ..).1
    (kernelRun_Fz_pieces ..).2.1
    (kernelRun_Fz_pieces ..).2.2.1
    (kernelRun_Fz_pieces ..).2.2.2.1
    (kernelRun_Fz_pieces ..).2.2.2.2.1
    (kernelRun_Fz_pieces ..).2.2.2.2.2.1 (off5_at t)
    (by rw [ld_whole_unread (ms0_1 t) (hs0_1 t), iblk1 m c t, ld_whole_unread scM0_4,
      ld_rows1_unread scM0_1 _ X1 ⟨t.val % 8, Nat.mod_lt _ (by decide)⟩ _ (off4_at t), ld_rows32_unread scM0_4 _ X4 ⟨t.val % 8, Nat.mod_lt _ (by decide)⟩ _ (off5_at t),
      ld_whole_unread (ms0_7 t) (hs0_7 t), iblk7 m c t])

theorem out_final (hI : Inv m c t.val X0 X1 X2 X3 X4 X5)
    (xo : Vec F S2048x32 .f32) :
    (ms0_10 t).view.read (Elt F) ((ms0_10 t).view.writes (Elt F) ((hs0_10 t).unread xo) (runFz m c t hc1 hc2 hc3 hc4 hc5 hc6 X0 X1 X2 X3 X4 X5).2.2.2.2.2.2.1)
      = OUT m c :=
  out_final_of m c t ((hcond6 t).mp hc6) X0 X1 X2 X3 X4 X5 hI
    (kernelRun_Fz_pieces ..).2.2.2.2.2.1
    (inv_step_Fz m c t hc1 hc2 hc3 hc4 hc5 hc6 X0 X1 X2 X3 X4 X5 hI)
    (kernelRun_Fz_pieces ..).2.2.2.2.2.2
    (by rw [ld_whole scM0_5 (Memref.isWhole_whole _), ld_whole_unread (ms0_8 t) (hs0_8 t), iblk8 m c t, ld_whole_unread (ms0_9 t) (hs0_9 t), iblk9 m c t])
    xo
end

end Cert.KernelIdeal.KInv

end
-- ==== Proof.KFrame.lean ====
import proofs.«103018_g28046136442917_fold_wed_c4_759_2_alg».proof.Proof.KDefs
import proofs.«103018_g28046136442917_fold_wed_c4_759_2_alg».proof.Proof.KInv
import proofs.«103018_g28046136442917_fold_wed_c4_759_2_alg».proof.Proof.KRunA
import proofs.«103018_g28046136442917_fold_wed_c4_759_2_alg».proof.Proof.KRunB
import proofs.«103018_g28046136442917_fold_wed_c4_759_2_alg».proof.Proof.KRunC
import proofs.«103018_g28046136442917_fold_wed_c4_759_2_alg».proof.Proof.KRunD
import proofs.«103018_g28046136442917_fold_wed_c4_759_2_alg».proof.Proof.KRunE
import proofs.«103018_g28046136442917_fold_wed_c4_759_2_alg».proof.Proof.KRunFz
import proofs.«103018_g28046136442917_fold_wed_c4_759_2_alg».proof.Proof.KInvRun

set_option maxRecDepth 16384

noncomputable section

namespace Cert.KernelIdeal.KBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.KInv (Inv OUT)

variable (m : (ℓ : Loc nD τ sig) → Buf (Elt F) ℓ) (ρ : Dev nD → PrngReg)

def PhiS (c : Dev nD) (n : ℕ) : sProp 𝕄 :=
  iprop(∃ X0 : Vec F S2048x1 .f32, ∃ X1 : Vec F S2048x1 .f32, ∃ X2 : Vec F S2048x32 .f32, ∃ X3 : Vec F S2048x32 .f32,
    ∃ X4 : Vec F S2048x32 .f32, ∃ X5 : Vec F S2048x32 .f32,
      owns (c : Thread nD τ) scM0_0 fullShare X0 ∗ owns (c : Thread nD τ) scM0_1 fullShare X1 ∗ owns (c : Thread nD τ) scM0_2 fullShare X2 ∗ owns (c : Thread nD τ) scM0_3 fullShare X3 ∗ owns (c : Thread nD τ) scM0_4 fullShare X4 ∗ owns (c : Thread nD τ) scM0_5 fullShare X5
      ∗ ⌜Inv m c n X0 X1 X2 X3 X4 X5⌝ ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => OUT m c
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = OUT m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
theorem leaves0_3 (c : Dev nD) (t : Fin cfg0.N) :
    (dats m 0 c).leavesExact 3 t = owns (c : Thread nD τ) (ms0_3 t) fullShare (iblk m c 3 t) := by
  unfold Dat.leavesExact; rw [liveAt0_3 t, after0_3]
theorem leaves0_4 (c : Dev nD) (t : Fin cfg0.N) :
    (dats m 0 c).leavesExact 4 t = owns (c : Thread nD τ) (ms0_4 t) fullShare (iblk m c 4 t) := by
  unfold Dat.leavesExact; rw [liveAt0_4 t, after0_4]
theorem leaves0_5 (c : Dev nD) (t : Fin cfg0.N) :
    (dats m 0 c).leavesExact 5 t = owns (c : Thread nD τ) (ms0_5 t) fullShare (iblk m c 5 t) := by
  unfold Dat.leavesExact; rw [liveAt0_5 t, after0_5]
theorem leaves0_6 (c : Dev nD) (t : Fin cfg0.N) :
    (dats m 0 c).leavesExact 6 t = owns (c : Thread nD τ) (ms0_6 t) fullShare (iblk m c 6 t) := by
  unfold Dat.leavesExact; rw [liveAt0_6 t, after0_6]
theorem leaves0_7 (c : Dev nD) (t : Fin cfg0.N) :
    (dats m 0 c).leavesExact 7 t = owns (c : Thread nD τ) (ms0_7 t) fullShare (iblk m c 7 t) := by
  unfold Dat.leavesExact; rw [liveAt0_7 t, after0_7]
theorem leaves0_8 (c : Dev nD) (t : Fin cfg0.N) :
    (dats m 0 c).leavesExact 8 t = owns (c : Thread nD τ) (ms0_8 t) fullShare (iblk m c 8 t) := by
  unfold Dat.leavesExact; rw [liveAt0_8 t, after0_8]
theorem leaves0_9 (c : Dev nD) (t : Fin cfg0.N) :
    (dats m 0 c).leavesExact 9 t = owns (c : Thread nD τ) (ms0_9 t) fullShare (iblk m c 9 t) := by
  unfold Dat.leavesExact; rw [liveAt0_9 t, after0_9]

theorem leaves0_10_idle (c : Dev nD) (t : Fin cfg0.N) (hi : cfg0.idle 10 (grid0.coords t) = true) (hf : (cfg0.win 10).flush t = false) :
    (dats m 0 c).leavesExact 10 t = iprop(∃ d, owns (c : Thread nD τ) (ms0_10 t) fullShare ((dats m 0 c).before 10 t d)) :=
  Dat.leavesExact_idle (dats m 0 c) 10 t hi hf

theorem leaves0_10_live (c : Dev nD) (t : Fin cfg0.N) (hi : cfg0.idle 10 (grid0.coords t) = false) :
    (dats m 0 c).leavesExact 10 t = owns (c : Thread nD τ) (ms0_10 t) fullShare (OUT m c) := by
  unfold Dat.leavesExact; rw [hi, after0_10]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
theorem leaf (c : Dev nD) (t : Fin cfg0.N)
    (h : ∀ (X0 X1 : Vec F S2048x1 .f32) (X2 X3 X4 X5 : Vec F S2048x32 .f32), Inv m c t.val X0 X1 X2 X3 X4 X5 →
      ∃ (LS0 LS1 : List (View.Piece (Elt F) S2048x1 .f32)) (LS2 LS3 LS4 LS5 LO : List (View.Piece (Elt F) S2048x32 .f32)),
        BodySpec c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _)
            (iblk m c 0 t) (iblk m c 1 t) (iblk m c 2 t) (iblk m c 3 t) (iblk m c 4 t) (iblk m c 5 t) (iblk m c 6 t) (iblk m c 7 t) (iblk m c 8 t) (iblk m c 9 t) X0 X1 X2 X3 X4 X5 LS0 LS1 LS2 LS3 LS4 LS5 LO
        ∧ KInv.InvAfter m c (t.val + 1) X0 X1 X2 X3 X4 X5 LS0 LS1 LS2 LS3 LS4 LS5
        ∧ ((cfg0.idle 10 (grid0.coords t) = true ∧ (cfg0.win 10).flush t = false ∧ LO = [])
            ∨ (cfg0.idle 10 (grid0.coords t) = false
                ∧ ∀ xo : Vec F S2048x32 .f32, (ms0_10 t).view.read (Elt F) ((ms0_10 t).view.writes (Elt F) ((hs0_10 t).unread xo) LO) = OUT m c))) :
    bodyPre m c t ⊢ wp frame (wpE (defs₀ (F := F)) Variants.none c none) Set.univ (bodyAt0 t) (fun _ => bodyPost m c t) := by
  unfold bodyPre bodyPost
  rw [bodyAt0_eq]
  simp only [before0_0, before0_1, before0_2, before0_3, before0_4, before0_5, before0_6, before0_7, before0_8, before0_9, leaves0_0, leaves0_1, leaves0_2, leaves0_3, leaves0_4, leaves0_5, leaves0_6, leaves0_7, leaves0_8, leaves0_9]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  iintro ⟨⟨%X0, %X1, %X2, %X3, %X4, %X5, HS0, HS1, HS2, HS3, HS4, HS5, %hI, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain ⟨LS0, LS1, LS2, LS3, LS4, LS5, LO, hrun, hstep, hO⟩ := h X0 X1 X2 X3 X4 X5 hI
  iapply (hrun _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, HS0, HS1, HS2, HS3, HS4, HS5⟩
  isplitl [HS0 HS1 HS2 HS3 HS4 HS5 Hg]
  · iexists _; iexists _; iexists _; iexists _; iexists _; iexists _
    isplitl [HS0]; · iapply (owns_intro (c : Thread nD τ) scM0_0 fullShare _); iexact HS0
    isplitl [HS1]; · iapply (owns_intro (c : Thread nD τ) scM0_1 fullShare _); iexact HS1
    isplitl [HS2]; · iapply (owns_intro (c : Thread nD τ) scM0_2 fullShare _); iexact HS2
    isplitl [HS3]; · iapply (owns_intro (c : Thread nD τ) scM0_3 fullShare _); iexact HS3
    isplitl [HS4]; · iapply (owns_intro (c : Thread nD τ) scM0_4 fullShare _); iexact HS4
    isplitl [HS5]; · iapply (owns_intro (c : Thread nD τ) scM0_5 fullShare _); iexact HS5
    isplitr; · ipureintro; exact hstep
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  rcases hO with ⟨hi, hf, rfl⟩ | ⟨hi, hout⟩
  · rw [leaves0_10_idle m c t hi hf]
    iexists d10; unfold owns; iexists _; isplitr
    swap; · iexact H10
    ipureintro; exact (hs0_10 t).read_unread _
  · rw [leaves0_10_live m c t hi]
    unfold owns; iexists _; isplitr
    swap; · iexact H10
    ipureintro; exact hout _

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  have hN : t.val < 24 := lt_of_lt_of_eq t.isLt (show cfg0.N = 24 from N_0)
  by_cases h1 : t.val / 8 = 0
  ·
    have hc1 : cond1 (grid0.coords t) := (hcond1 t).mpr h1
    have hc2 : ¬cond2 (grid0.coords t) := fun h => by have := (hcond2 t).mp h; omega
    have hc3 : ¬cond3 (grid0.coords t) := fun h => by have := (hcond3 t).mp h; omega
    have hc4 : ¬cond4 (grid0.coords t) := fun h => by have := (hcond4 t).mp h; omega
    have hc5 : ¬cond5 (grid0.coords t) := fun h => by have := (hcond5 t).mp h; omega
    have hc6 : ¬cond6 (grid0.coords t) := fun h => by have := (hcond6 t).mp h; omega
    exact leaf m c t fun X0 X1 X2 X3 X4 X5 hI =>
      ⟨_, _, _, _, _, _, _, (KInv.runA m c t hc1 hc2 hc3 hc4 hc5 hc6 X0 X1 X2 X3 X4 X5).2.2.2.2.2.2.2,
        KInv.inv_step_A m c t hc1 hc2 hc3 hc4 hc5 hc6 X0 X1 X2 X3 X4 X5 hI, Or.inl ⟨idleAt0_10 t (by omega), noFlush0_10 t (by omega), (kernelRun_A_pieces ..).2.2.2.2.2.2⟩⟩
  have hc1 : ¬cond1 (grid0.coords t) := fun h => h1 ((hcond1 t).mp h)
  by_cases h3 : t.val / 8 = 1
  · have hc3 : cond3 (grid0.coords t) := (hcond3 t).mpr h3
    have hc4 : ¬cond4 (grid0.coords t) := fun h => by have := (hcond4 t).mp h; omega
    have hc5 : ¬cond5 (grid0.coords t) := fun h => by have := (hcond5 t).mp h; omega
    have hc6 : ¬cond6 (grid0.coords t) := fun h => by have := (hcond6 t).mp h; omega
    by_cases h2 : t.val = 8
    ·
      have hc2 : cond2 (grid0.coords t) := (hcond2 t).mpr h2
      exact leaf m c t fun X0 X1 X2 X3 X4 X5 hI =>
      ⟨_, _, _, _, _, _, _, (KInv.runB m c t hc1 hc2 hc3 hc4 hc5 hc6 X0 X1 X2 X3 X4 X5).2.2.2.2.2.2.2,
        KInv.inv_step_B m c t hc1 hc2 hc3 hc4 hc5 hc6 X0 X1 X2 X3 X4 X5 hI, Or.inl ⟨idleAt0_10 t (by omega), noFlush0_10 t (by omega), (kernelRun_B_pieces ..).2.2.2.2.2⟩⟩
    ·
      have hc2 : ¬cond2 (grid0.coords t) := fun h => h2 ((hcond2 t).mp h)
      exact leaf m c t fun X0 X1 X2 X3 X4 X5 hI =>
      ⟨_, _, _, _, _, _, _, (KInv.runC m c t hc1 hc2 hc3 hc4 hc5 hc6 X0 X1 X2 X3 X4 X5).2.2.2.2.2.2.2,
        KInv.inv_step_C m c t hc1 hc2 hc3 hc4 hc5 hc6 X0 X1 X2 X3 X4 X5 hI, Or.inl ⟨idleAt0_10 t (by omega), noFlush0_10 t (by omega), (kernelRun_C_pieces ..).2.2.2.2.2.2⟩⟩
  have hc3 : ¬cond3 (grid0.coords t) := fun h => h3 ((hcond3 t).mp h)
  have h5 : t.val / 8 = 2 := by omega
  have hc2 : ¬cond2 (grid0.coords t) := fun h => by have := (hcond2 t).mp h; omega
  have hc5 : cond5 (grid0.coords t) := (hcond5 t).mpr h5
  by_cases h4 : t.val = 16
  ·
    have hc4 : cond4 (grid0.coords t) := (hcond4 t).mpr h4
    have hc6 : ¬cond6 (grid0.coords t) := fun h => by have := (hcond6 t).mp h; omega
    exact leaf m c t fun X0 X1 X2 X3 X4 X5 hI =>
      ⟨_, _, _, _, _, _, _, (KInv.runD m c t hc1 hc2 hc3 hc4 hc5 hc6 X0 X1 X2 X3 X4 X5).2.2.2.2.2.2.2,
        KInv.inv_step_D m c t hc1 hc2 hc3 hc4 hc5 hc6 X0 X1 X2 X3 X4 X5 hI, Or.inl ⟨idleAt0_10 t (by omega), noFlush0_10 t (by omega), (kernelRun_D_pieces ..).2.2.2.2.2.2⟩⟩
  have hc4 : ¬cond4 (grid0.coords t) := fun h => h4 ((hcond4 t).mp h)
  by_cases h6 : t.val = 23
  ·
    have hc6 : cond6 (grid0.coords t) := (hcond6 t).mpr h6
    exact leaf m c t fun X0 X1 X2 X3 X4 X5 hI =>
      ⟨_, _, _, _, _, _, _, (KInv.runFz m c t hc1 hc2 hc3 hc4 hc5 hc6 X0 X1 X2 X3 X4 X5).2.2.2.2.2.2.2,
        KInv.inv_step_Fz m c t hc1 hc2 hc3 hc4 hc5 hc6 X0 X1 X2 X3 X4 X5 hI, Or.inr ⟨liveAt0_10 t h6, fun xo => KInv.out_final m c t hc1 hc2 hc3 hc4 hc5 hc6 X0 X1 X2 X3 X4 X5 hI xo⟩⟩
  ·
    have hc6 : ¬cond6 (grid0.coords t) := fun h => h6 ((hcond6 t).mp h)
    exact leaf m c t fun X0 X1 X2 X3 X4 X5 hI =>
      ⟨_, _, _, _, _, _, _, (KInv.runE m c t hc1 hc2 hc3 hc4 hc5 hc6 X0 X1 X2 X3 X4 X5).2.2.2.2.2.2.2,
        KInv.inv_step_E m c t hc1 hc2 hc3 hc4 hc5 hc6 X0 X1 X2 X3 X4 X5 hI, Or.inl ⟨idleAt0_10 t (by omega), noFlush0_10 t (by omega), (kernelRun_E_pieces ..).2.2.2.2.2.2⟩⟩

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 from rfl, PhiA0_eq]
  unfold PhiS
  iintro ⟨⟨⟨%d0, H0⟩, ⟨%d1, H1⟩, ⟨%d2, H2⟩, ⟨%d3, H3⟩, ⟨%d4, H4⟩, ⟨%d5, H5⟩⟩, Hg⟩
  iexists d0; iexists d1; iexists d2; iexists d3; iexists d4; iexists d5
  isplitl [H0]; · iexact H0
  isplitl [H1]; · iexact H1
  isplitl [H2]; · iexact H2
  isplitl [H3]; · iexact H3
  isplitl [H4]; · iexact H4
  isplitl [H5]; · iexact H5
  isplitr; · ipureintro; exact KInv.inv_zero m c d0 d1 d2 d3 d4 d5
  iexact Hg

theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨%X0, %X1, %X2, %X3, %X4, %X5, H0, H1, H2, H3, H4, H5, -, Hg⟩
  isplitl [H0 H1 H2 H3 H4 H5]
  · isplitl [H0]; · iexists _; iexact H0
    isplitl [H1]; · iexists _; iexact H1
    isplitl [H2]; · iexists _; iexact H2
    isplitl [H3]; · iexists _; iexact H3
    isplitl [H4]; · iexists _; iexact H4
    iexists _; iexact H5
  iexact Hg

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem frame : θ_run defs (onTc (τ := τ) (main (F := F))) ⟨m, fun _ => 0, ρ⟩ (fun r => ∀ c : Dev nD,
      ArgsKept m r.2.mem c) :=
  frame_of m ρ (dats m) (A_eq m) (run_main m ρ)

theorem index10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

theorem flushed10_eq (c : Dev nD) (t : Fin cfg0.N) :
    (dats m 0 c).flushed 10 t = ((cfg0.win 10).blk t).view.read (Elt F) (OUT m c) := by
  show (cfg0.win 10).cut (grid0.coords t) ((dats m 0 c).after 10 t) = _
  rw [after0_10]
  obtain ⟨e0, e1⟩ := index10 t
  funext j
  show OUT m c j = OUT m c (((cfg0.win 10).blk t).view.emb j)
  congr 1
  funext a; apply Fin.ext
  match a with
  | ⟨0, _⟩ => show (j 0).val = win0_10.index t (0 : Fin 2) * 2048 + 1 * (j 0).val; omega
  | ⟨1, _⟩ => show (j 1).val = win0_10.index t (1 : Fin 2) * 32 + 1 * (j 1).val; omega

theorem mem_blk10 (t : Fin cfg0.N) (i : S2048x32.Idx) : i ∈ ((cfg0.win 10).blk t).view.set := by
  show i ∈ ((View.whole main_v6).slice (win0_10.rect t)).set
  rw [View.set_slice_whole, Rect.mem_set_unit]
  obtain ⟨e0, e1⟩ := index10 t
  intro a
  match a with
  | ⟨0, _⟩ =>
    show win0_10.index t (0 : Fin 2) * 2048 ≤ (i 0).val ∧ (i 0).val < win0_10.index t (0 : Fin 2) * 2048 + 2048
    have hi : (i 0).val < 2048 := (i 0).isLt; omega
  | ⟨1, _⟩ =>
    show win0_10.index t (1 : Fin 2) * 32 ≤ (i 1).val ∧ (i 1).val < win0_10.index t (1 : Fin 2) * 32 + 32
    have hi : (i 1).val < 32 := (i 1).isLt; omega

theorem cover10 (i : S2048x32.Idx) :
    ∃ t : Fin cfg0.N, (cfg0.win 10).flush t = true ∧ i ∈ ((cfg0.win 10).blk t).view.set :=
  ⟨⟨23, by decide⟩, flushAt0_10 _ rfl, mem_blk10 _ i⟩

theorem out_arr (c : Dev nD) : (dats m 0 c).arrAt 10 cfg0.N = OUT m c :=
  (dats m 0 c).arrAt_eq_of_cover 10 (OUT m c) (fun t _ => flushed10_eq m c t) (cover10)

theorem run_value : θ_run defs (onTc (τ := τ) (main (F := F))) ⟨m, fun _ => 0, ρ⟩ (fun r => ∀ c : Dev nD,
      r.2.mem ((c.tc : Thread nD τ).loc main_v6) = OUT m c
      ∧ ArgsKept m r.2.mem c) :=
  (θ_run defs _ _).mono (fun r h c => ⟨((h c).1 10).trans (out_arr m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.KernelIdeal.KBody

end
-- ==== Proof.KPay.lean ====
import proofs.«103018_g28046136442917_fold_wed_c4_759_2_alg».proof.Proof.Gen.KernelIdeal.Skeleton
import proofs.«103018_g28046136442917_fold_wed_c4_759_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KPay

open Idealize.ShloMosaic Idealize.ShloMosaic.ValueIdx
open Cert.KernelIdeal Cert.KernelIdeal.Gen Cert.GcnSpec

def disOf (d : EReal) : EReal := Scalar.select (Ideal.cmp .ogt (d + f1) f0) (Ideal.rsqrt (d + f1)) f0

def rowVec {b : Nat} (v : (⟨2, ![1, b]⟩ : Shape).Idx → EReal) : Vect b := fun k => v (ix2 0 k)

section Layout
variable {α : Type}

theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lift0_ix1 {n m : ℕ} (h : (⟨2, ![n, m]⟩ : Shape).Reduces [0] ⟨1, ![m]⟩) (q : Fin m) (k : Fin n) :
    h.lift (ix1 q) k = ix2 k q := by
  funext c
  apply Fin.ext
  match c with
  | ⟨0, _⟩ => rfl
  | ⟨1, _⟩ => rfl

end Layout

theorem lhsA_0 (j : S2048x32.Idx) (c : dot_S2048x64_S64x32_S2048x32_1_0_0_1_n_n.contr.Idx) :
    (dot_S2048x64_S64x32_S2048x32_1_0_0_1_n_n.lhsIdx j c 0).val = (j 0).val := by
  simp [DotDims.lhsIdx, dot_S2048x64_S64x32_S2048x32_1_0_0_1_n_n]
  rfl

theorem lhsA_1 (j : S2048x32.Idx) (c : dot_S2048x64_S64x32_S2048x32_1_0_0_1_n_n.contr.Idx) :
    (dot_S2048x64_S64x32_S2048x32_1_0_0_1_n_n.lhsIdx j c 1).val = (c ⟨0, by decide⟩).val :=
  dot_S2048x64_S64x32_S2048x32_1_0_0_1_n_n.lhsIdx_val_of_single rfl j c

theorem rhsA_1 (j : S2048x32.Idx) (c : dot_S2048x64_S64x32_S2048x32_1_0_0_1_n_n.contr.Idx) :
    (dot_S2048x64_S64x32_S2048x32_1_0_0_1_n_n.rhsIdx j c 1).val = (j 1).val := by
  simp [DotDims.rhsIdx, dot_S2048x64_S64x32_S2048x32_1_0_0_1_n_n]
  rfl

theorem rhsA_0 (j : S2048x32.Idx) (c : dot_S2048x64_S64x32_S2048x32_1_0_0_1_n_n.contr.Idx) :
    (dot_S2048x64_S64x32_S2048x32_1_0_0_1_n_n.rhsIdx j c 0).val = (c ⟨0, by decide⟩).val :=
  dot_S2048x64_S64x32_S2048x32_1_0_0_1_n_n.rhsIdx_val_of_single rfl j c

theorem matmulA_apply (x : FVec Ideal S2048x64 .f32) (w : FVec Ideal S64x32 .f32) (p : Fin 2048) (k : Fin 32) :
    matmul dot_S2048x64_S64x32_S2048x32_1_0_0_1_n_n none x w (constant (F := Ideal) S2048x32 .f32 0x00000000#32) (ix2 p k)
      = ∑ c : Fin 64, x (ix2 p c) * w (ix2 c k) := by
  show FloatOps.matmul dot_S2048x64_S64x32_S2048x32_1_0_0_1_n_n none x w _ (ix2 p k) = _
  rw [Ideal.matmul_constant_zero_apply, ← Equiv.sum_comp (contrEquiv1 dot_S2048x64_S64x32_S2048x32_1_0_0_1_n_n 64 rfl rfl).symm]
  refine Finset.sum_congr rfl fun c _ => ?_
  have hc := contrEquiv1_symm_val dot_S2048x64_S64x32_S2048x32_1_0_0_1_n_n 64 rfl rfl c
  have hl : dot_S2048x64_S64x32_S2048x32_1_0_0_1_n_n.lhsIdx (ix2 p k) ((contrEquiv1 dot_S2048x64_S64x32_S2048x32_1_0_0_1_n_n 64 rfl rfl).symm c) = ix2 p c := by
    funext ax; apply Fin.ext
    match ax with
    | ⟨0, _⟩ => exact lhsA_0 _ _
    | ⟨1, _⟩ => exact (lhsA_1 _ _).trans hc
  have hr : dot_S2048x64_S64x32_S2048x32_1_0_0_1_n_n.rhsIdx (ix2 p k) ((contrEquiv1 dot_S2048x64_S64x32_S2048x32_1_0_0_1_n_n 64 rfl rfl).symm c) = ix2 c k := by
    funext ax; apply Fin.ext
    match ax with
    | ⟨0, _⟩ => exact (rhsA_0 _ _).trans hc
    | ⟨1, _⟩ => exact rhsA_1 _ _
  rw [hl, hr]

theorem lhsB_1 (j : S256x32.Idx) (c : dot_S2048x256_S2048x32_S256x32_0_0_1_1_n_n.contr.Idx) :
    (dot_S2048x256_S2048x32_S256x32_0_0_1_1_n_n.lhsIdx j c 1).val = (j 0).val := by
  simp [DotDims.lhsIdx, dot_S2048x256_S2048x32_S256x32_0_0_1_1_n_n]
  rfl

theorem lhsB_0 (j : S256x32.Idx) (c : dot_S2048x256_S2048x32_S256x32_0_0_1_1_n_n.contr.Idx) :
    (dot_S2048x256_S2048x32_S256x32_0_0_1_1_n_n.lhsIdx j c 0).val = (c ⟨0, by decide⟩).val :=
  dot_S2048x256_S2048x32_S256x32_0_0_1_1_n_n.lhsIdx_val_of_single rfl j c

theorem rhsB_1 (j : S256x32.Idx) (c : dot_S2048x256_S2048x32_S256x32_0_0_1_1_n_n.contr.Idx) :
    (dot_S2048x256_S2048x32_S256x32_0_0_1_1_n_n.rhsIdx j c 1).val = (j 1).val := by
  simp [DotDims.rhsIdx, dot_S2048x256_S2048x32_S256x32_0_0_1_1_n_n]
  rfl

theorem rhsB_0 (j : S256x32.Idx) (c : dot_S2048x256_S2048x32_S256x32_0_0_1_1_n_n.contr.Idx) :
    (dot_S2048x256_S2048x32_S256x32_0_0_1_1_n_n.rhsIdx j c 0).val = (c ⟨0, by decide⟩).val :=
  dot_S2048x256_S2048x32_S256x32_0_0_1_1_n_n.rhsIdx_val_of_single rfl j c

theorem matmulB_apply (x : FVec Ideal S2048x256 .f32) (w : FVec Ideal S2048x32 .f32) (p : Fin 256) (k : Fin 32) :
    matmul dot_S2048x256_S2048x32_S256x32_0_0_1_1_n_n none x w (constant (F := Ideal) S256x32 .f32 0x00000000#32) (ix2 p k)
      = ∑ c : Fin 2048, x (ix2 c p) * w (ix2 c k) := by
  show FloatOps.matmul dot_S2048x256_S2048x32_S256x32_0_0_1_1_n_n none x w _ (ix2 p k) = _
  rw [Ideal.matmul_constant_zero_apply, ← Equiv.sum_comp (contrEquiv1 dot_S2048x256_S2048x32_S256x32_0_0_1_1_n_n 2048 rfl rfl).symm]
  refine Finset.sum_congr rfl fun c _ => ?_
  have hc := contrEquiv1_symm_val dot_S2048x256_S2048x32_S256x32_0_0_1_1_n_n 2048 rfl rfl c
  have hl : dot_S2048x256_S2048x32_S256x32_0_0_1_1_n_n.lhsIdx (ix2 p k) ((contrEquiv1 dot_S2048x256_S2048x32_S256x32_0_0_1_1_n_n 2048 rfl rfl).symm c) = ix2 c p := by
    funext ax; apply Fin.ext
    match ax with
    | ⟨0, _⟩ => exact (lhsB_0 _ _).trans hc
    | ⟨1, _⟩ => exact lhsB_1 _ _
  have hr : dot_S2048x256_S2048x32_S256x32_0_0_1_1_n_n.rhsIdx (ix2 p k) ((contrEquiv1 dot_S2048x256_S2048x32_S256x32_0_0_1_1_n_n 2048 rfl rfl).symm c) = ix2 c k := by
    funext ax; apply Fin.ext
    match ax with
    | ⟨0, _⟩ => exact (rhsB_0 _ _).trans hc
    | ⟨1, _⟩ => exact rhsB_1 _ _
  rw [hl, hr]

theorem lhsC_0 (j : S2048x32.Idx) (c : dot_S2048x32_S32x32_S2048x32_1_0_0_1_n_n.contr.Idx) :
    (dot_S2048x32_S32x32_S2048x32_1_0_0_1_n_n.lhsIdx j c 0).val = (j 0).val := by
  simp [DotDims.lhsIdx, dot_S2048x32_S32x32_S2048x32_1_0_0_1_n_n]
  rfl

theorem lhsC_1 (j : S2048x32.Idx) (c : dot_S2048x32_S32x32_S2048x32_1_0_0_1_n_n.contr.Idx) :
    (dot_S2048x32_S32x32_S2048x32_1_0_0_1_n_n.lhsIdx j c 1).val = (c ⟨0, by decide⟩).val :=
  dot_S2048x32_S32x32_S2048x32_1_0_0_1_n_n.lhsIdx_val_of_single rfl j c

theorem rhsC_1 (j : S2048x32.Idx) (c : dot_S2048x32_S32x32_S2048x32_1_0_0_1_n_n.contr.Idx) :
    (dot_S2048x32_S32x32_S2048x32_1_0_0_1_n_n.rhsIdx j c 1).val = (j 1).val := by
  simp [DotDims.rhsIdx, dot_S2048x32_S32x32_S2048x32_1_0_0_1_n_n]
  rfl

theorem rhsC_0 (j : S2048x32.Idx) (c : dot_S2048x32_S32x32_S2048x32_1_0_0_1_n_n.contr.Idx) :
    (dot_S2048x32_S32x32_S2048x32_1_0_0_1_n_n.rhsIdx j c 0).val = (c ⟨0, by decide⟩).val :=
  dot_S2048x32_S32x32_S2048x32_1_0_0_1_n_n.rhsIdx_val_of_single rfl j c

theorem matmulC_apply (x : FVec Ideal S2048x32 .f32) (w : FVec Ideal S32x32 .f32) (p : Fin 2048) (k : Fin 32) :
    matmul dot_S2048x32_S32x32_S2048x32_1_0_0_1_n_n none x w (constant (F := Ideal) S2048x32 .f32 0x00000000#32) (ix2 p k)
      = ∑ c : Fin 32, x (ix2 p c) * w (ix2 c k) := by
  show FloatOps.matmul dot_S2048x32_S32x32_S2048x32_1_0_0_1_n_n none x w _ (ix2 p k) = _
  rw [Ideal.matmul_constant_zero_apply, ← Equiv.sum_comp (contrEquiv1 dot_S2048x32_S32x32_S2048x32_1_0_0_1_n_n 32 rfl rfl).symm]
  refine Finset.sum_congr rfl fun c _ => ?_
  have hc := contrEquiv1_symm_val dot_S2048x32_S32x32_S2048x32_1_0_0_1_n_n 32 rfl rfl c
  have hl : dot_S2048x32_S32x32_S2048x32_1_0_0_1_n_n.lhsIdx (ix2 p k) ((contrEquiv1 dot_S2048x32_S32x32_S2048x32_1_0_0_1_n_n 32 rfl rfl).symm c) = ix2 p c := by
    funext ax; apply Fin.ext
    match ax with
    | ⟨0, _⟩ => exact lhsC_0 _ _
    | ⟨1, _⟩ => exact (lhsC_1 _ _).trans hc
  have hr : dot_S2048x32_S32x32_S2048x32_1_0_0_1_n_n.rhsIdx (ix2 p k) ((contrEquiv1 dot_S2048x32_S32x32_S2048x32_1_0_0_1_n_n 32 rfl rfl).symm c) = ix2 c k := by
    funext ax; apply Fin.ext
    match ax with
    | ⟨0, _⟩ => exact (rhsC_0 _ _).trans hc
    | ⟨1, _⟩ => exact rhsC_1 _ _
  rw [hl, hr]

theorem pay1_apply (a : Vec Ideal S2048x256 .f32) (q : Fin 256) :
    k0_pay1 a (ix2 q 0) = ∑ r : Fin 2048, a (ix2 r q) := by
  unfold k0_pay1
  refine (congrFun (shapeCast_self _ _) _).trans ?_
  refine (shapeCast_a_a1_apply _ _ q 0).trans ?_
  refine (Ideal.multiReduction_add_single a _ reduces_S2048x256_S256 _ _ (ix1 q)).trans ?_
  exact Finset.sum_congr rfl fun r _ => congrArg a (lift0_ix1 _ q r)

theorem pay2_apply (d : Vec Ideal S2048x1 .f32) (r : Fin 2048) :
    k0_pay2 d (ix2 r 0)
      = Scalar.select (Ideal.cmp .ogt (d (ix2 r 0) + f1) f0) (Ideal.rsqrt (d (ix2 r 0) + f1)) f0 := by
  unfold k0_pay2
  rfl

theorem pay3_apply (d : Vec Ideal S2048x1 .f32) (r : Fin 2048) :
    k0_pay3 d (ix2 r 0)
      = Scalar.select (Ideal.cmp .ogt (d (ix2 r 0) + f1) f0) (Ideal.rsqrt (d (ix2 r 0) + f1)) f0 := by
  unfold k0_pay3
  exact (congrFun (shapeCast_self _ _) _).trans (pay2_apply d r)

theorem pay4_apply (d : Vec Ideal S2048x1 .f32) (x : Vec Ideal S2048x64 .f32) (w : Vec Ideal S64x32 .f32)
    (r : Fin 2048) (k : Fin 32) :
    k0_pay4 d x w (ix2 r k)
      = Scalar.select (Ideal.cmp .ogt (d (ix2 r 0) + f1) f0) (Ideal.rsqrt (d (ix2 r 0) + f1)) f0
          * ∑ a : Fin 64, x (ix2 r a) * w (ix2 a k) := by
  unfold k0_pay4
  refine (congrFun (shapeCast_self _ _) _).trans ?_
  refine (mulf_apply _ _ _).trans ?_
  exact congrArg₂ (· * ·) ((broadcastTo_a1_ab_apply _ _ r k).trans (pay2_apply d r)) (matmulA_apply x w r k)

theorem conv_block_apply (a : FVec Ideal S2048x256 .f32) (u : FVec Ideal S2048x32 .f32) (dr : FVec Ideal S256x1 .f32)
    (ur : FVec Ideal S256x32 .f32) (b : FVec Ideal S1x32 .f32) (p : Fin 256) (k : Fin 32) :
    shapeCast S256x32
        (addf
          (mulf (broadcastTo S256x32 dr broadcasts_S256x1_S256x32)
            (addf (matmul dot_S2048x256_S2048x32_S256x32_0_0_1_1_n_n none a u (constant (F := Ideal) S256x32 .f32 0x00000000#32)) ur))
          (broadcastTo S256x32 (shapeCast S1x32 b shapeCasts_S1x32_S1x32) broadcasts_S1x32_S256x32))
        shapeCasts_S256x32_S256x32 (ix2 p k)
      = dr (ix2 p 0) * ((∑ r : Fin 2048, a (ix2 r p) * u (ix2 r k)) + ur (ix2 p k)) + b (ix2 0 k) := by
  refine (congrFun (shapeCast_self _ _) _).trans ?_
  refine (addf_apply _ _ _).trans ?_
  refine congrArg₂ (· + ·) ?_ ?_
  · refine (mulf_apply _ _ _).trans ?_
    refine congrArg₂ (· * ·) (broadcastTo_a1_ab_apply _ _ p k) ?_
    refine (addf_apply _ _ _).trans ?_
    exact congrArg (· + ur (ix2 p k)) (matmulB_apply a u p k)
  · refine (broadcastTo_1b_ab_apply _ _ p k).trans ?_
    exact congrFun (shapeCast_self _ _) _

theorem pay5_apply (a : Vec Ideal S2048x256 .f32) (u : Vec Ideal S2048x32 .f32) (dr : Vec Ideal S256x1 .f32)
    (ur : Vec Ideal S256x32 .f32) (b : Vec Ideal S1x32 .f32) (p : Fin 256) (k : Fin 32) :
    k0_pay5 a u dr ur b (ix2 p k)
      = dr (ix2 p 0) * ((∑ r : Fin 2048, a (ix2 r p) * u (ix2 r k)) + ur (ix2 p k)) + b (ix2 0 k) := by
  unfold k0_pay5
  exact conv_block_apply a u dr ur b p k

theorem pay7_apply (a : Vec Ideal S2048x256 .f32) (u : Vec Ideal S2048x32 .f32) (dr : Vec Ideal S256x1 .f32)
    (ur : Vec Ideal S256x32 .f32) (b : Vec Ideal S1x32 .f32) (p : Fin 256) (k : Fin 32) :
    k0_pay7 a u dr ur b (ix2 p k)
      = dr (ix2 p 0) * ((∑ r : Fin 2048, a (ix2 r p) * u (ix2 r k)) + ur (ix2 p k)) + b (ix2 0 k) := by
  unfold k0_pay7
  exact conv_block_apply a u dr ur b p k

theorem rowSum_apply (v : FVec Ideal S2048x32 .f32) (k : Fin 32) :
    shapeCast S1x32 (multiReduction (F := Ideal) .add [0] S32 v 0x00000000#32 reduces_S2048x32_S32 (.inl rfl) rfl)
        shapeCasts_S32_S1x32 (ix2 0 k)
      = ∑ r : Fin 2048, v (ix2 r k) := by
  refine (shapeCast_a_1a_apply _ _ 0 k).trans ?_
  refine (Ideal.multiReduction_add_single v _ reduces_S2048x32_S32 _ _ (ix1 k)).trans ?_
  exact Finset.sum_congr rfl fun r _ => congrArg v (lift0_ix1 _ k r)

def kMean (y : FVec Ideal S2048x32 .f32) : FVec Ideal S1x32 .f32 :=
  divf (shapeCast S1x32 (multiReduction (F := Ideal) .add [0] S32 y 0x00000000#32 reduces_S2048x32_S32 (.inl rfl) rfl)
      shapeCasts_S32_S1x32)
    (broadcast S1x32 (Scalar.ofBits .f32 0x45000000#32))

theorem kMean_apply (y : FVec Ideal S2048x32 .f32) (k : Fin 32) : kMean y (ix2 0 k) = mean (mat y) k := by
  unfold kMean
  refine (divf_apply _ _ _).trans ?_
  exact congrArg (Ideal.div · f2048) (rowSum_apply y k)

def kCen (y : FVec Ideal S2048x32 .f32) : FVec Ideal S2048x32 .f32 :=
  subf y (broadcastTo S2048x32 (kMean y) broadcasts_S1x32_S2048x32)

theorem kCen_apply (y : FVec Ideal S2048x32 .f32) (r : Fin 2048) (k : Fin 32) :
    kCen y (ix2 r k) = y (ix2 r k) - mean (mat y) k := by
  unfold kCen
  refine (subf_apply _ _ _).trans ?_
  exact congrArg (y (ix2 r k) - ·) ((broadcastTo_1b_ab_apply _ _ r k).trans (kMean_apply y k))

def kVar (y : FVec Ideal S2048x32 .f32) : FVec Ideal S1x32 .f32 :=
  divf (shapeCast S1x32
      (multiReduction (F := Ideal) .add [0] S32 (mulf (kCen y) (kCen y)) 0x00000000#32 reduces_S2048x32_S32 (.inl rfl) rfl)
      shapeCasts_S32_S1x32)
    (broadcast S1x32 (Scalar.ofBits .f32 0x45000000#32))

theorem kVar_apply (y : FVec Ideal S2048x32 .f32) (k : Fin 32) : kVar y (ix2 0 k) = var (mat y) k := by
  unfold kVar
  refine (divf_apply _ _ _).trans ?_
  refine congrArg (Ideal.div · f2048) ?_
  refine (rowSum_apply _ k).trans ?_
  refine Finset.sum_congr rfl fun r _ => ?_
  refine (mulf_apply _ _ _).trans ?_
  exact congrArg₂ (· * ·) (kCen_apply y r k) (kCen_apply y r k)

def kBn (y : FVec Ideal S2048x32 .f32) (g be : FVec Ideal S1x32 .f32) : FVec Ideal S2048x32 .f32 :=
  addf
    (mulf
      (mulf (kCen y)
        (broadcastTo S2048x32 (rsqrt (addf (kVar y) (broadcast S1x32 (Scalar.ofBits .f32 0x3727C5AC#32))))
          broadcasts_S1x32_S2048x32))
      (broadcastTo S2048x32 (shapeCast S1x32 g shapeCasts_S1x32_S1x32) broadcasts_S1x32_S2048x32))
    (broadcastTo S2048x32 (shapeCast S1x32 be shapeCasts_S1x32_S1x32) broadcasts_S1x32_S2048x32)

theorem kBn_apply (y : FVec Ideal S2048x32 .f32) (g be : FVec Ideal S1x32 .f32) (r : Fin 2048) (k : Fin 32) :
    kBn y g be (ix2 r k) = bn (mat y) (rowVec g) (rowVec be) r k := by
  unfold kBn
  refine (addf_apply _ _ _).trans ?_
  refine congrArg₂ (· + ·) ?_ ?_
  · refine (mulf_apply _ _ _).trans ?_
    refine congrArg₂ (· * ·) ?_ ?_
    · refine (mulf_apply _ _ _).trans ?_
      refine congrArg₂ (· * ·) (kCen_apply y r k) ?_
      refine (broadcastTo_1b_ab_apply _ _ r k).trans ?_
      exact congrArg (fun t => Ideal.rsqrt (t + feps)) (kVar_apply y k)
    · refine (broadcastTo_1b_ab_apply _ _ r k).trans ?_
      exact congrFun (shapeCast_self _ _) _
  · refine (broadcastTo_1b_ab_apply _ _ r k).trans ?_
    exact congrFun (shapeCast_self _ _) _

theorem pay8_apply (y : Vec Ideal S2048x32 .f32) (g be : Vec Ideal S1x32 .f32) (r : Fin 2048) (k : Fin 32) :
    k0_pay8 y g be (ix2 r k) = bn (mat y) (rowVec g) (rowVec be) r k := by
  unfold k0_pay8
  exact kBn_apply y g be r k

theorem pay6_apply (y : Vec Ideal S2048x32 .f32) (g be : Vec Ideal S1x32 .f32) (w : Vec Ideal S32x32 .f32)
    (d : Vec Ideal S2048x1 .f32) (r : Fin 2048) (k : Fin 32) :
    k0_pay6 y g be w d (ix2 r k)
      = d (ix2 r 0) * ∑ a : Fin 32, relu (bn (mat y) (rowVec g) (rowVec be)) r a * w (ix2 a k) := by
  unfold k0_pay6
  refine (congrFun (shapeCast_self _ _) _).trans ?_
  refine (mulf_apply _ _ _).trans ?_
  refine congrArg₂ (· * ·) (broadcastTo_a1_ab_apply _ _ r k) ?_
  refine (matmulC_apply (maximumf (kBn y g be) (broadcast S2048x32 (Scalar.ofBits .f32 0x00000000#32))) w r k).trans ?_
  refine Finset.sum_congr rfl fun a _ => ?_
  refine congrArg (· * w (ix2 a k)) ?_
  refine (maximumf_apply _ _ _).trans ?_
  exact congrArg (max · f0) (kBn_apply y g be r a)

end Cert.KernelIdeal.KPay

end
-- ==== Proof.KVal.lean ====
import proofs.«103018_g28046136442917_fold_wed_c4_759_2_alg».proof.Proof.Gen.KernelIdeal.Frame
import proofs.«103018_g28046136442917_fold_wed_c4_759_2_alg».proof.Proof.Gen.KernelIdeal.Skeleton
import proofs.«103018_g28046136442917_fold_wed_c4_759_2_alg».proof.Proof.Spec
import proofs.«103018_g28046136442917_fold_wed_c4_759_2_alg».proof.Proof.KPay
import proofs.«103018_g28046136442917_fold_wed_c4_759_2_alg».proof.Proof.KInv
import Idealize.ShloMosaic.Lib.Pipeline.Value

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

theorem idx_facts : ∀ t : Fin cfg0.N,
    win0_0.index t (0 : Fin 2) = 0 ∧ win0_0.index t (1 : Fin 2) = 0
    ∧ win0_1.index t (0 : Fin 2) = 0 ∧ win0_1.index t (1 : Fin 2) = t.val % 8
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

theorem row_of_vec (v : S32.Idx → EReal) (k : Fin 32) :
    shapeCast S1x32 v shapeCasts_S32_S1x32 (ix2 (0 : Fin 1) k) = GcnSpec.vect v k := by
  unfold GcnSpec.vect
  refine shapeCast_apply v _ _ (ix1 k) ?_
  rw [Shape.rowMajor_val_two, Shape.rowMajor_val_one]
  show k.val = 0 * 32 + k.val
  omega

theorem V_main_v0 : (V m c main_v0 : S1x32.Idx → EReal)
    = shapeCast S1x32 (m ((c : Thread nD τ).loc main_arg3)) shapeCasts_S32_S1x32 := by
  dsimp only [Gen.V, Gen.hostOps0]; after_results; rfl
theorem V_main_v1 : (V m c main_v1 : S1x32.Idx → EReal)
    = shapeCast S1x32 (m ((c : Thread nD τ).loc main_arg4)) shapeCasts_S32_S1x32 := by
  dsimp only [Gen.V, Gen.hostOps0]; after_results; rfl
theorem V_main_v2 : (V m c main_v2 : S1x32.Idx → EReal)
    = shapeCast S1x32 (m ((c : Thread nD τ).loc main_arg5)) shapeCasts_S32_S1x32 := by
  dsimp only [Gen.V, Gen.hostOps0]; after_results; rfl
theorem V_main_v3 : (V m c main_v3 : S1x32.Idx → EReal)
    = shapeCast S1x32 (m ((c : Thread nD τ).loc main_arg7)) shapeCasts_S32_S1x32 := by
  dsimp only [Gen.V, Gen.hostOps0]; after_results; rfl
theorem V_main_v4 : (V m c main_v4 : S1x32.Idx → EReal)
    = shapeCast S1x32 (m ((c : Thread nD τ).loc main_arg8)) shapeCasts_S32_S1x32 := by
  dsimp only [Gen.V, Gen.hostOps0]; after_results; rfl
theorem V_main_v5 : (V m c main_v5 : S1x32.Idx → EReal)
    = shapeCast S1x32 (m ((c : Thread nD τ).loc main_arg9)) shapeCasts_S32_S1x32 := by
  dsimp only [Gen.V, Gen.hostOps0]; after_results; rfl

theorem iblk0_apply (t : Fin cfg0.N) (r : Fin 2048) (a : Fin 64) :
    (iblk (F := Ideal) m c 0 t : S2048x64.Idx → EReal) (ix2 r a)
      = GcnSpec.mat (m ((c : Thread nD τ).loc main_arg0)) r a := by
  unfold iblk
  rw [View.read_apply]
  show V m c main_arg0 (((cfg0.win 0).blk t).view.emb (ix2 r a)) = _
  rw [V_main_arg0]
  unfold GcnSpec.mat
  congr 1
  obtain ⟨e0, e1, -⟩ := idx_facts t
  funext b; apply Fin.ext
  match b with
  | ⟨0, _⟩ =>
    show win0_0.index t (0 : Fin 2) * 2048 + 1 * r.val = r.val
    omega
  | ⟨1, _⟩ =>
    show win0_0.index t (1 : Fin 2) * 64 + 1 * a.val = a.val
    omega

theorem iblk1_apply (t : Fin cfg0.N) (r : Fin 2048) (q : Fin 256) (cc : Fin 2048)
    (hcc : cc.val = 256 * (t.val % 8) + q.val) :
    (iblk (F := Ideal) m c 1 t : S2048x256.Idx → EReal) (ix2 r q)
      = GcnSpec.mat (m ((c : Thread nD τ).loc main_arg1)) r cc := by
  unfold iblk
  rw [View.read_apply]
  show V m c main_arg1 (((cfg0.win 1).blk t).view.emb (ix2 r q)) = _
  rw [V_main_arg1]
  unfold GcnSpec.mat
  congr 1
  obtain ⟨-, -, e0, e1, -⟩ := idx_facts t
  funext b; apply Fin.ext
  match b with
  | ⟨0, _⟩ =>
    show win0_1.index t (0 : Fin 2) * 2048 + 1 * r.val = r.val
    omega
  | ⟨1, _⟩ =>
    show win0_1.index t (1 : Fin 2) * 256 + 1 * q.val = cc.val
    omega

theorem iblk2_apply (t : Fin cfg0.N) (a : Fin 64) (k : Fin 32) :
    (iblk (F := Ideal) m c 2 t : S64x32.Idx → EReal) (ix2 a k)
      = GcnSpec.mat (m ((c : Thread nD τ).loc main_arg2)) a k := by
  unfold iblk
  rw [View.read_apply]
  show V m c main_arg2 (((cfg0.win 2).blk t).view.emb (ix2 a k)) = _
  rw [V_main_arg2]
  unfold GcnSpec.mat
  congr 1
  obtain ⟨-, -, -, -, e0, e1, -⟩ := idx_facts t
  funext b; apply Fin.ext
  match b with
  | ⟨0, _⟩ =>
    show win0_2.index t (0 : Fin 2) * 64 + 1 * a.val = a.val
    omega
  | ⟨1, _⟩ =>
    show win0_2.index t (1 : Fin 2) * 32 + 1 * k.val = k.val
    omega

theorem iblk6_apply (t : Fin cfg0.N) (a : Fin 32) (k : Fin 32) :
    (iblk (F := Ideal) m c 6 t : S32x32.Idx → EReal) (ix2 a k)
      = GcnSpec.mat (m ((c : Thread nD τ).loc main_arg6)) a k := by
  unfold iblk
  rw [View.read_apply]
  show V m c main_arg6 (((cfg0.win 6).blk t).view.emb (ix2 a k)) = _
  rw [V_main_arg6]
  unfold GcnSpec.mat
  congr 1
  obtain ⟨-, -, -, -, -, -, -, -, -, -, -, -, e0, e1, -⟩ := idx_facts t
  funext b; apply Fin.ext
  match b with
  | ⟨0, _⟩ =>
    show win0_6.index t (0 : Fin 2) * 32 + 1 * a.val = a.val
    omega
  | ⟨1, _⟩ =>
    show win0_6.index t (1 : Fin 2) * 32 + 1 * k.val = k.val
    omega

theorem iblk3_apply (t : Fin cfg0.N) (k : Fin 32) :
    (iblk (F := Ideal) m c 3 t : S1x32.Idx → EReal) (ix2 0 k)
      = GcnSpec.vect (m ((c : Thread nD τ).loc main_arg3)) k := by
  unfold iblk
  rw [View.read_apply]
  show V m c main_v0 (((cfg0.win 3).blk t).view.emb (ix2 0 k)) = _
  rw [V_main_v0, ← row_of_vec]
  congr 1
  obtain ⟨-, -, -, -, -, -, e0, e1, -⟩ := idx_facts t
  funext b; apply Fin.ext
  match b with
  | ⟨0, _⟩ =>
    show win0_3.index t (0 : Fin 2) * 1 + 1 * 0 = 0
    omega
  | ⟨1, _⟩ =>
    show win0_3.index t (1 : Fin 2) * 32 + 1 * k.val = k.val
    omega

theorem iblk4_apply (t : Fin cfg0.N) (k : Fin 32) :
    (iblk (F := Ideal) m c 4 t : S1x32.Idx → EReal) (ix2 0 k)
      = GcnSpec.vect (m ((c : Thread nD τ).loc main_arg4)) k := by
  unfold iblk
  rw [View.read_apply]
  show V m c main_v1 (((cfg0.win 4).blk t).view.emb (ix2 0 k)) = _
  rw [V_main_v1, ← row_of_vec]
  congr 1
  obtain ⟨-, -, -, -, -, -, -, -, e0, e1, -⟩ := idx_facts t
  funext b; apply Fin.ext
  match b with
  | ⟨0, _⟩ =>
    show win0_4.index t (0 : Fin 2) * 1 + 1 * 0 = 0
    omega
  | ⟨1, _⟩ =>
    show win0_4.index t (1 : Fin 2) * 32 + 1 * k.val = k.val
    omega

theorem iblk5_apply (t : Fin cfg0.N) (k : Fin 32) :
    (iblk (F := Ideal) m c 5 t : S1x32.Idx → EReal) (ix2 0 k)
      = GcnSpec.vect (m ((c : Thread nD τ).loc main_arg5)) k := by
  unfold iblk
  rw [View.read_apply]
  show V m c main_v2 (((cfg0.win 5).blk t).view.emb (ix2 0 k)) = _
  rw [V_main_v2, ← row_of_vec]
  congr 1
  obtain ⟨-, -, -, -, -, -, -, -, -, -, e0, e1, -⟩ := idx_facts t
  funext b; apply Fin.ext
  match b with
  | ⟨0, _⟩ =>
    show win0_5.index t (0 : Fin 2) * 1 + 1 * 0 = 0
    omega
  | ⟨1, _⟩ =>
    show win0_5.index t (1 : Fin 2) * 32 + 1 * k.val = k.val
    omega

theorem iblk7_apply (t : Fin cfg0.N) (k : Fin 32) :
    (iblk (F := Ideal) m c 7 t : S1x32.Idx → EReal) (ix2 0 k)
      = GcnSpec.vect (m ((c : Thread nD τ).loc main_arg7)) k := by
  unfold iblk
  rw [View.read_apply]
  show V m c main_v3 (((cfg0.win 7).blk t).view.emb (ix2 0 k)) = _
  rw [V_main_v3, ← row_of_vec]
  congr 1
  obtain ⟨-, -, -, -, -, -, -, -, -, -, -, -, -, -, e0, e1, -⟩ := idx_facts t
  funext b; apply Fin.ext
  match b with
  | ⟨0, _⟩ =>
    show win0_7.index t (0 : Fin 2) * 1 + 1 * 0 = 0
    omega
  | ⟨1, _⟩ =>
    show win0_7.index t (1 : Fin 2) * 32 + 1 * k.val = k.val
    omega

theorem iblk8_apply (t : Fin cfg0.N) (k : Fin 32) :
    (iblk (F := Ideal) m c 8 t : S1x32.Idx → EReal) (ix2 0 k)
      = GcnSpec.vect (m ((c : Thread nD τ).loc main_arg8)) k := by
  unfold iblk
  rw [View.read_apply]
  show V m c main_v4 (((cfg0.win 8).blk t).view.emb (ix2 0 k)) = _
  rw [V_main_v4, ← row_of_vec]
  congr 1
  obtain ⟨-, -, -, -, -, -, -, -, -, -, -, -, -, -, -, -, e0, e1, -⟩ := idx_facts t
  funext b; apply Fin.ext
  match b with
  | ⟨0, _⟩ =>
    show win0_8.index t (0 : Fin 2) * 1 + 1 * 0 = 0
    omega
  | ⟨1, _⟩ =>
    show win0_8.index t (1 : Fin 2) * 32 + 1 * k.val = k.val
    omega

theorem iblk9_apply (t : Fin cfg0.N) (k : Fin 32) :
    (iblk (F := Ideal) m c 9 t : S1x32.Idx → EReal) (ix2 0 k)
      = GcnSpec.vect (m ((c : Thread nD τ).loc main_arg9)) k := by
  unfold iblk
  rw [View.read_apply]
  show V m c main_v5 (((cfg0.win 9).blk t).view.emb (ix2 0 k)) = _
  rw [V_main_v5, ← row_of_vec]
  congr 1
  obtain ⟨-, -, -, -, -, -, -, -, -, -, -, -, -, -, -, -, -, -, e0, e1⟩ := idx_facts t
  funext b; apply Fin.ext
  match b with
  | ⟨0, _⟩ =>
    show win0_9.index t (0 : Fin 2) * 1 + 1 * 0 = 0
    omega
  | ⟨1, _⟩ =>
    show win0_9.index t (1 : Fin 2) * 32 + 1 * k.val = k.val
    omega

abbrev X : GcnSpec.Mat 2048 64 := GcnSpec.mat (m ((c : Thread nD τ).loc main_arg0))
abbrev A : GcnSpec.Mat 2048 2048 := GcnSpec.mat (m ((c : Thread nD τ).loc main_arg1))
abbrev W1 : GcnSpec.Mat 64 32 := GcnSpec.mat (m ((c : Thread nD τ).loc main_arg2))
abbrev b1 : GcnSpec.Vect 32 := GcnSpec.vect (m ((c : Thread nD τ).loc main_arg3))
abbrev g1 : GcnSpec.Vect 32 := GcnSpec.vect (m ((c : Thread nD τ).loc main_arg4))
abbrev be1 : GcnSpec.Vect 32 := GcnSpec.vect (m ((c : Thread nD τ).loc main_arg5))
abbrev W2 : GcnSpec.Mat 32 32 := GcnSpec.mat (m ((c : Thread nD τ).loc main_arg6))
abbrev b2 : GcnSpec.Vect 32 := GcnSpec.vect (m ((c : Thread nD τ).loc main_arg7))
abbrev g2 : GcnSpec.Vect 32 := GcnSpec.vect (m ((c : Thread nD τ).loc main_arg8))
abbrev be2 : GcnSpec.Vect 32 := GcnSpec.vect (m ((c : Thread nD τ).loc main_arg9))

theorem xA_apply (r : Fin 2048) (a : Fin 64) : KInv.xA (F := Ideal) m c (ix2 r a) = X m c r a :=
  iblk0_apply m c _ r a

theorem adjBlk_apply (j : Fin 8) (r : Fin 2048) (q : Fin 256) (cc : Fin 2048) (hcc : cc.val = 256 * j.val + q.val) :
    KInv.adjBlk (F := Ideal) m c j (ix2 r q) = A m c r cc :=
  iblk1_apply m c _ r q cc (by
    have hj := j.isLt
    show cc.val = 256 * (j.val % 8) + q.val
    omega)

theorem w1A_apply (a : Fin 64) (k : Fin 32) : KInv.w1A (F := Ideal) m c (ix2 a k) = W1 m c a k :=
  iblk2_apply m c _ a k
theorem w2A_apply (a : Fin 32) (k : Fin 32) : KInv.w2A (F := Ideal) m c (ix2 a k) = W2 m c a k :=
  iblk6_apply m c _ a k
theorem b1A_apply (k : Fin 32) : KInv.b1A (F := Ideal) m c (ix2 0 k) = b1 m c k := iblk3_apply m c _ k
theorem g1A_apply (k : Fin 32) : KInv.g1A (F := Ideal) m c (ix2 0 k) = g1 m c k := iblk4_apply m c _ k
theorem be1A_apply (k : Fin 32) : KInv.be1A (F := Ideal) m c (ix2 0 k) = be1 m c k := iblk5_apply m c _ k
theorem b2A_apply (k : Fin 32) : KInv.b2A (F := Ideal) m c (ix2 0 k) = b2 m c k := iblk7_apply m c _ k
theorem g2A_apply (k : Fin 32) : KInv.g2A (F := Ideal) m c (ix2 0 k) = g2 m c k := iblk8_apply m c _ k
theorem be2A_apply (k : Fin 32) : KInv.be2A (F := Ideal) m c (ix2 0 k) = be2 m c k := iblk9_apply m c _ k

theorem DEG_apply (r : Fin 2048) : KInv.DEG (F := Ideal) m c (ix2 r 0) = GcnSpec.colsum (A m c) r := by
  unfold KInv.DEG
  show k0_pay1 (KInv.adjBlk m c (KInv.rowBlk (ix2 r 0))) (ix2 (KInv.rowLoc (ix2 r (0 : Fin 1))) 0) = _
  rw [KPay.pay1_apply]
  unfold GcnSpec.colsum
  refine Finset.sum_congr rfl fun r' _ => ?_
  exact adjBlk_apply m c _ r' _ r (by
    show r.val = 256 * (r.val / 256) + r.val % 256
    omega)

theorem DIS_apply (r : Fin 2048) : KInv.DIS (F := Ideal) m c (ix2 r 0) = GcnSpec.dis (A m c) r := by
  unfold KInv.DIS
  rw [KPay.pay3_apply, DEG_apply]
  rfl

theorem U1_apply (r : Fin 2048) (k : Fin 32) :
    KInv.U1 (F := Ideal) m c (ix2 r k) = GcnSpec.dis (A m c) r * GcnSpec.lin (X m c) (W1 m c) r k := by
  unfold KInv.U1
  rw [KPay.pay4_apply, DEG_apply]
  have hs : (∑ a : Fin 64, KInv.xA (F := Ideal) m c (ix2 r a) * KInv.w1A (F := Ideal) m c (ix2 a k))
      = GcnSpec.lin (X m c) (W1 m c) r k :=
    Finset.sum_congr rfl fun a _ => by rw [xA_apply, w1A_apply]
  rw [hs]
  rfl

theorem rowsOf1_apply (Z : Vec Ideal S2048x1 .f32) (j : Fin 8) (p : Fin 256) (r : Fin 2048)
    (h : r.val = 256 * j.val + p.val) : KInv.rowsOf1 Z j (ix2 p 0) = Z (ix2 r 0) := by
  obtain ⟨rv, hr⟩ := r
  simp only at h
  subst h
  rfl

theorem rowsOf32_apply (Z : Vec Ideal S2048x32 .f32) (j : Fin 8) (p : Fin 256) (k : Fin 32) (r : Fin 2048)
    (h : r.val = 256 * j.val + p.val) : KInv.rowsOf32 Z j (ix2 p k) = Z (ix2 r k) := by
  obtain ⟨rv, hr⟩ := r
  simp only at h
  subst h
  rfl

theorem row_split (r : Fin 2048) (k : Fin 32) :
    r.val = 256 * (KInv.rowBlk (ix2 r k)).val + (KInv.rowLoc (ix2 r k)).val := by
  show r.val = 256 * (r.val / 256) + r.val % 256
  omega

theorem Y1_apply (r : Fin 2048) (k : Fin 32) :
    KInv.Y1 (F := Ideal) m c (ix2 r k) = GcnSpec.y1 (X m c) (A m c) (W1 m c) (b1 m c) r k := by
  have hr := row_split r k
  unfold KInv.Y1
  show k0_pay5 _ _ _ _ _ (ix2 (KInv.rowLoc (ix2 r k)) k) = _
  rw [KPay.pay5_apply, rowsOf1_apply _ _ _ r hr, rowsOf32_apply _ _ _ k r hr, DIS_apply, U1_apply, b1A_apply]
  have hs : (∑ r' : Fin 2048, KInv.adjBlk (F := Ideal) m c (KInv.rowBlk (ix2 r k)) (ix2 r' (KInv.rowLoc (ix2 r k)))
        * KInv.U1 (F := Ideal) m c (ix2 r' k))
      = ∑ r' : Fin 2048, A m c r' r * (GcnSpec.dis (A m c) r' * GcnSpec.lin (X m c) (W1 m c) r' k) :=
    Finset.sum_congr rfl fun r' _ => by rw [adjBlk_apply m c _ r' _ r hr, U1_apply]
  rw [hs]
  rfl

theorem mat_Y1 : GcnSpec.mat (KInv.Y1 (F := Ideal) m c) = GcnSpec.y1 (X m c) (A m c) (W1 m c) (b1 m c) :=
  funext fun r => funext fun k => Y1_apply m c r k

theorem rowVec_g1A : KPay.rowVec (KInv.g1A (F := Ideal) m c) = g1 m c := funext fun k => g1A_apply m c k
theorem rowVec_be1A : KPay.rowVec (KInv.be1A (F := Ideal) m c) = be1 m c := funext fun k => be1A_apply m c k
theorem rowVec_g2A : KPay.rowVec (KInv.g2A (F := Ideal) m c) = g2 m c := funext fun k => g2A_apply m c k
theorem rowVec_be2A : KPay.rowVec (KInv.be2A (F := Ideal) m c) = be2 m c := funext fun k => be2A_apply m c k

theorem U2_apply (r : Fin 2048) (k : Fin 32) :
    KInv.U2 (F := Ideal) m c (ix2 r k)
      = GcnSpec.dis (A m c) r
        * GcnSpec.lin (GcnSpec.a1 (X m c) (A m c) (W1 m c) (b1 m c) (g1 m c) (be1 m c)) (W2 m c) r k := by
  unfold KInv.U2
  rw [KPay.pay6_apply, DIS_apply, mat_Y1, rowVec_g1A, rowVec_be1A]
  have hs : (∑ a : Fin 32, GcnSpec.relu (GcnSpec.bn (GcnSpec.y1 (X m c) (A m c) (W1 m c) (b1 m c)) (g1 m c) (be1 m c)) r a
        * KInv.w2A (F := Ideal) m c (ix2 a k))
      = GcnSpec.lin (GcnSpec.a1 (X m c) (A m c) (W1 m c) (b1 m c) (g1 m c) (be1 m c)) (W2 m c) r k :=
    Finset.sum_congr rfl fun a _ => by rw [w2A_apply]; rfl
  rw [hs]

theorem Y2_apply (r : Fin 2048) (k : Fin 32) :
    KInv.Y2 (F := Ideal) m c (ix2 r k)
      = GcnSpec.y2 (X m c) (A m c) (W1 m c) (b1 m c) (g1 m c) (be1 m c) (W2 m c) (b2 m c) r k := by
  have hr := row_split r k
  unfold KInv.Y2
  show k0_pay7 _ _ _ _ _ (ix2 (KInv.rowLoc (ix2 r k)) k) = _
  rw [KPay.pay7_apply, rowsOf1_apply _ _ _ r hr, rowsOf32_apply _ _ _ k r hr, DIS_apply, U2_apply, b2A_apply]
  have hs : (∑ r' : Fin 2048, KInv.adjBlk (F := Ideal) m c (KInv.rowBlk (ix2 r k)) (ix2 r' (KInv.rowLoc (ix2 r k)))
        * KInv.U2 (F := Ideal) m c (ix2 r' k))
      = ∑ r' : Fin 2048, A m c r' r * (GcnSpec.dis (A m c) r'
          * GcnSpec.lin (GcnSpec.a1 (X m c) (A m c) (W1 m c) (b1 m c) (g1 m c) (be1 m c)) (W2 m c) r' k) :=
    Finset.sum_congr rfl fun r' _ => by rw [adjBlk_apply m c _ r' _ r hr, U2_apply]
  rw [hs]
  rfl

theorem mat_Y2 : GcnSpec.mat (KInv.Y2 (F := Ideal) m c)
    = GcnSpec.y2 (X m c) (A m c) (W1 m c) (b1 m c) (g1 m c) (be1 m c) (W2 m c) (b2 m c) :=
  funext fun r => funext fun k => Y2_apply m c r k

theorem OUT_apply (r : Fin 2048) (k : Fin 32) :
    KInv.OUT (F := Ideal) m c (ix2 r k)
      = GcnSpec.out (X m c) (A m c) (W1 m c) (b1 m c) (g1 m c) (be1 m c) (W2 m c) (b2 m c) (g2 m c) (be2 m c) r k := by
  unfold KInv.OUT
  rw [KPay.pay8_apply, mat_Y2, rowVec_g2A, rowVec_be2A]
  rfl

theorem OUT_eq : KInv.OUT (F := Ideal) m c
    = GcnSpec.result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) := by
  funext i
  obtain ⟨r, k, rfl⟩ : ∃ (r : Fin 2048) (k : Fin 32), i = ix2 r k := ⟨i 0, i 1, eq_ix2 i⟩
  unfold GcnSpec.result
  rw [GcnSpec.toArr_ix2]
  exact OUT_apply m c r k

end Cert.KernelIdeal.KVal

end
-- ==== Proof.KValue.lean ====
import proofs.«103018_g28046136442917_fold_wed_c4_759_2_alg».proof.KernelIdeal
import proofs.«103018_g28046136442917_fold_wed_c4_759_2_alg».proof.Proof.Gen.KernelIdeal
import proofs.«103018_g28046136442917_fold_wed_c4_759_2_alg».proof.Proof.Spec
import proofs.«103018_g28046136442917_fold_wed_c4_759_2_alg».proof.Proof.KFrame
import proofs.«103018_g28046136442917_fold_wed_c4_759_2_alg».proof.Proof.KVal

noncomputable section

namespace Cert.KernelIdeal.KValue

open Idealize.ShloMosaic Idealize.SL.Sem

theorem run (m : (ℓ : Loc nD τ sig) → Buf (Elt Ideal) ℓ)
    (ρ : Dev nD → PrngReg) :
    θ_run (defs (F := Ideal)) (onTc (τ := τ) (main (F := Ideal))) ⟨m, fun _ => 0, ρ⟩
      (fun r => ∀ c : Dev nD,
        r.2.mem ((c.tc : Thread nD τ).loc main_v6)
          = GcnSpec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ KBody.ArgsKept m r.2.mem c) :=
  (θ_run (defs (F := Ideal)) _ _).mono
    (fun _ h c => ⟨(h c).1.trans (KVal.OUT_eq m c), (h c).2⟩)
    (KBody.run_value (F := Ideal) m ρ)

end Cert.KernelIdeal.KValue

end
-- ==== Proof.Algebra.lean ====
import proofs.«103018_g28046136442917_fold_wed_c4_759_2_alg».proof.Proof.Spec
import Idealize.ShloMosaic.PureOps.Ideal
import Idealize.ShloMosaic.PureOps.Ideal.Laws
import Idealize.ShloMosaic.Lib.ValueIdx
import Mathlib.Data.EReal.Inv
import Mathlib.Algebra.BigOperators.Ring.Finset
import Mathlib.Algebra.Order.BigOperators.Group.Finset
import Mathlib.Analysis.SpecialFunctions.Pow.Real
import Mathlib.Tactic.Ring
import Mathlib.Tactic.FieldSimp
import Mathlib.Tactic.NormNum
import Mathlib.Tactic.Positivity

noncomputable section

namespace Cert.GcnAlgebra

open Idealize.ShloMosaic Idealize.ShloMosaic.ValueIdx Cert.GcnSpec

abbrev MatReal {a b : Nat} (M : Mat a b) : Prop := ∀ r k, ∃ x : ℝ, M r k = (x : EReal)
abbrev VectReal {a : Nat} (v : Vect a) : Prop := ∀ k, ∃ x : ℝ, v k = (x : EReal)

theorem f0_eq : f0 = 0 := by simp [f0, Ideal.ofBits, Ideal.ieee]
theorem f1_eq : f1 = 1 := by
  simp [f1, Ideal.ofBits, Ideal.ieee]
  exact_mod_cast (by norm_num : (8388608 : ℝ) * (2 ^ 23)⁻¹ = 1)
theorem f2048_eq : f2048 = ((2048 : ℝ) : EReal) := by
  simp [f2048, Ideal.ofBits, Ideal.ieee]
  exact_mod_cast (by norm_num : (8388608 : ℝ) * (2 ^ 12)⁻¹ = 2048)
theorem feps_pos : ∃ r : ℝ, 0 < r ∧ feps = (r : EReal) := by
  refine ⟨10995116 * ((2 : ℝ) ^ 40)⁻¹, by positivity, ?_⟩
  simp [feps, Ideal.ofBits, Ideal.ieee]

theorem f0_coe : f0 = ((0 : ℝ) : EReal) := by rw [f0_eq, EReal.coe_zero]
theorem f1_coe : f1 = ((1 : ℝ) : EReal) := by rw [f1_eq, EReal.coe_one]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_real {ι : Type} (s : Finset ι) (f : ι → EReal) (h : ∀ i, ∃ x : ℝ, f i = (x : EReal)) :
    ∃ x : ℝ, (∑ i ∈ s, f i) = (x : EReal) := by
  choose g hg using h
  exact ⟨∑ i ∈ s, g i, by rw [coe_sum]; exact Finset.sum_congr rfl fun i _ => hg i⟩

theorem mul_real {a b : EReal} (ha : ∃ x : ℝ, a = (x : EReal)) (hb : ∃ y : ℝ, b = (y : EReal)) :
    ∃ z : ℝ, a * b = (z : EReal) := by
  obtain ⟨x, rfl⟩ := ha; obtain ⟨y, rfl⟩ := hb; exact ⟨x * y, (EReal.coe_mul x y).symm⟩
theorem add_real {a b : EReal} (ha : ∃ x : ℝ, a = (x : EReal)) (hb : ∃ y : ℝ, b = (y : EReal)) :
    ∃ z : ℝ, a + b = (z : EReal) := by
  obtain ⟨x, rfl⟩ := ha; obtain ⟨y, rfl⟩ := hb; exact ⟨x + y, (EReal.coe_add x y).symm⟩
theorem sub_real {a b : EReal} (ha : ∃ x : ℝ, a = (x : EReal)) (hb : ∃ y : ℝ, b = (y : EReal)) :
    ∃ z : ℝ, a - b = (z : EReal) := by
  obtain ⟨x, rfl⟩ := ha; obtain ⟨y, rfl⟩ := hb; exact ⟨x - y, (EReal.coe_sub x y).symm⟩

theorem cmp_ogt_pos {x : ℝ} (h : 0 < x) : Ideal.cmp .ogt (x : EReal) 0 = 1#1 := by
  have : (0 : EReal) < (x : EReal) := by exact_mod_cast h
  simp [Ideal.cmp, this]
theorem cmp_ogt_nonpos {x : ℝ} (h : ¬ 0 < x) : Ideal.cmp .ogt (x : EReal) 0 = 0#1 := by
  have : ¬ (0 : EReal) < (x : EReal) := by exact_mod_cast h
  simp [Ideal.cmp, this]

theorem div_sqrt_eq_mul_rsqrt {w : ℝ} (hw : 0 < w) (a : EReal) :
    Ideal.div a (Ideal.sqrt (w : EReal)) = a * Ideal.rsqrt (w : EReal) := by
  rw [Ideal.sqrt_coe, if_neg (not_lt.2 hw.le), Ideal.rsqrt_coe, if_neg (not_lt.2 hw.le), if_neg hw.ne',
    Ideal.div_coe (Real.sqrt_ne_zero'.2 hw), one_div]

theorem rsqrt_pos_real {w : ℝ} (hw : 0 < w) : Ideal.rsqrt (w : EReal) = (((Real.sqrt w)⁻¹ : ℝ) : EReal) := by
  rw [Ideal.rsqrt_coe, if_neg (not_lt.2 hw.le), if_neg hw.ne']

theorem dis_ref_eq (d : EReal) (hd : ∃ x : ℝ, d = x) :
    Scalar.select (Ideal.cmp .ogt d f0) (Ideal.div f1 (Ideal.sqrt (Scalar.select (Ideal.cmp .ogt d f0) d f1))) f0
      = Scalar.select (Ideal.cmp .ogt d f0) (Ideal.rsqrt d) f0 := by
  obtain ⟨x, rfl⟩ := hd
  rw [f0_eq]
  by_cases h : 0 < x
  · rw [cmp_ogt_pos h, select_one, select_one, select_one, div_sqrt_eq_mul_rsqrt h, f1_eq, one_mul]
  · rw [cmp_ogt_nonpos h, select_zero, select_zero]

theorem mat_real {a b : Nat} {v : (⟨2, ![a, b]⟩ : Shape).Idx → EReal} (h : IsReal v) : MatReal (mat v) :=
  fun r k => h (ix2 r k)
theorem vect_real {a : Nat} {v : (⟨1, ![a]⟩ : Shape).Idx → EReal} (h : IsReal v) : VectReal (vect v) :=
  fun k => h (ix1 k)

theorem deg_real {A : Mat 2048 2048} (hA : MatReal A) (c : Fin 2048) : ∃ x : ℝ, deg A c = (x : EReal) :=
  add_real (sum_real _ _ fun r => hA r c) ⟨1, f1_coe⟩

theorem dis_of_deg {A : Mat 2048 2048} {c : Fin 2048} {x : ℝ} (hx : deg A c = (x : EReal)) :
    dis A c = ((if 0 < x then (Real.sqrt x)⁻¹ else 0 : ℝ) : EReal) := by
  unfold dis
  rw [hx, f0_eq]
  by_cases h : 0 < x
  · rw [cmp_ogt_pos h, select_one, rsqrt_pos_real h, if_pos h]
  · rw [cmp_ogt_nonpos h, select_zero, if_neg h, EReal.coe_zero]

theorem dis_real {A : Mat 2048 2048} (hA : MatReal A) (c : Fin 2048) : ∃ x : ℝ, dis A c = (x : EReal) := by
  obtain ⟨x, hx⟩ := deg_real hA c
  exact ⟨_, dis_of_deg hx⟩

theorem lin_real {n d k : Nat} {X : Mat n d} {W : Mat d k} (hX : MatReal X) (hW : MatReal W) : MatReal (lin X W) :=
  fun r j => sum_real _ _ fun a => mul_real (hX r a) (hW a j)

theorem prop_real {k : Nat} {A : Mat 2048 2048} {V : Mat 2048 k} (hA : MatReal A) (hV : MatReal V) :
    MatReal (prop A V) :=
  fun c j => sum_real _ _ fun r => mul_real (hA r c) (hV r j)

theorem conv_real {k : Nat} {A : Mat 2048 2048} {H : Mat 2048 k} {b : Vect k} (hA : MatReal A) (hH : MatReal H)
    (hb : VectReal b) : MatReal (conv A H b) :=
  fun c j => add_real (mul_real (dis_real hA c) (add_real
    (prop_real hA (fun r j' => mul_real (dis_real hA r) (hH r j')) c j) (mul_real (dis_real hA c) (hH c j)))) (hb j)

theorem div_f2048 (a : EReal) : Ideal.div a f2048 = a * (((1 / 2048 : ℝ)) : EReal) := by
  rw [f2048_eq, Ideal.div_coe (by norm_num)]

theorem mean_real {k : Nat} {Y : Mat 2048 k} (hY : MatReal Y) : VectReal (mean Y) := fun j => by
  unfold mean
  rw [div_f2048]
  exact mul_real (sum_real _ _ fun r => hY r j) ⟨_, rfl⟩

theorem var_nonneg {k : Nat} {Y : Mat 2048 k} (hY : MatReal Y) (j : Fin k) :
    ∃ x : ℝ, 0 ≤ x ∧ var Y j = (x : EReal) := by
  choose y hy using hY
  obtain ⟨m, hm⟩ := mean_real (fun r k => ⟨y r k, hy r k⟩) j
  refine ⟨(∑ r : Fin 2048, (y r j - m) * (y r j - m)) * (1 / 2048),
    mul_nonneg (Finset.sum_nonneg fun r _ => mul_self_nonneg _) (by norm_num), ?_⟩
  unfold var
  rw [div_f2048, hm, EReal.coe_mul, coe_sum]
  refine congrArg (· * (((1 / 2048 : ℝ)) : EReal)) ?_
  exact Finset.sum_congr rfl fun r _ => by rw [hy r j, ← EReal.coe_sub, ← EReal.coe_mul]

theorem var_real {k : Nat} {Y : Mat 2048 k} (hY : MatReal Y) : VectReal (var Y) := fun j => by
  obtain ⟨x, _, hx⟩ := var_nonneg hY j
  exact ⟨x, hx⟩

theorem var_eps_pos {k : Nat} {Y : Mat 2048 k} (hY : MatReal Y) (j : Fin k) :
    ∃ x : ℝ, 0 < x ∧ var Y j + feps = (x : EReal) := by
  obtain ⟨x, hx0, hx⟩ := var_nonneg hY j
  obtain ⟨e, he0, he⟩ := feps_pos
  exact ⟨x + e, by positivity, by rw [hx, he, EReal.coe_add]⟩

theorem bn_real {k : Nat} {Y : Mat 2048 k} {g be : Vect k} (hY : MatReal Y) (hg : VectReal g) (hbe : VectReal be) :
    MatReal (bn Y g be) := fun r j => by
  obtain ⟨w, hw0, hw⟩ := var_eps_pos hY j
  unfold bn
  rw [hw, rsqrt_pos_real hw0]
  exact add_real (mul_real (mul_real (sub_real (hY r j) (mean_real hY j)) ⟨_, rfl⟩) (hg j)) (hbe j)

theorem relu_real {k : Nat} {Y : Mat 2048 k} (hY : MatReal Y) : MatReal (relu Y) := fun r j => by
  obtain ⟨x, hx⟩ := hY r j
  refine ⟨max x 0, ?_⟩
  unfold relu
  rw [hx, f0_coe]
  exact (EReal.coe_strictMono.monotone.map_max).symm

theorem y1_real {X : Mat 2048 64} {A : Mat 2048 2048} {W1 : Mat 64 32} {b1 : Vect 32}
    (hX : MatReal X) (hA : MatReal A) (hW1 : MatReal W1) (hb1 : VectReal b1) : MatReal (y1 X A W1 b1) :=
  conv_real hA (lin_real hX hW1) hb1
theorem a1_real {X : Mat 2048 64} {A : Mat 2048 2048} {W1 : Mat 64 32} {b1 g1 be1 : Vect 32}
    (hX : MatReal X) (hA : MatReal A) (hW1 : MatReal W1) (hb1 : VectReal b1) (hg1 : VectReal g1) (hbe1 : VectReal be1) :
    MatReal (a1 X A W1 b1 g1 be1) :=
  relu_real (bn_real (y1_real hX hA hW1 hb1) hg1 hbe1)
theorem y2_real {X : Mat 2048 64} {A : Mat 2048 2048} {W1 : Mat 64 32} {b1 g1 be1 : Vect 32} {W2 : Mat 32 32} {b2 : Vect 32}
    (hX : MatReal X) (hA : MatReal A) (hW1 : MatReal W1) (hb1 : VectReal b1) (hg1 : VectReal g1) (hbe1 : VectReal be1)
    (hW2 : MatReal W2) (hb2 : VectReal b2) : MatReal (y2 X A W1 b1 g1 be1 W2 b2) :=
  conv_real hA (lin_real (a1_real hX hA hW1 hb1 hg1 hbe1) hW2) hb2
theorem out_real {X : Mat 2048 64} {A : Mat 2048 2048} {W1 : Mat 64 32} {b1 g1 be1 : Vect 32} {W2 : Mat 32 32}
    {b2 g2 be2 : Vect 32}
    (hX : MatReal X) (hA : MatReal A) (hW1 : MatReal W1) (hb1 : VectReal b1) (hg1 : VectReal g1) (hbe1 : VectReal be1)
    (hW2 : MatReal W2) (hb2 : VectReal b2) (hg2 : VectReal g2) (hbe2 : VectReal be2) :
    MatReal (out X A W1 b1 g1 be1 W2 b2 g2 be2) :=
  bn_real (y2_real hX hA hW1 hb1 hg1 hbe1 hW2 hb2) hg2 hbe2

theorem conv_core {n : Nat} (d a h : Fin n → ℝ) (dc hc bj : ℝ) :
    ((∑ r : Fin n, (d r * a r * dc) * h r) + (dc * 1 * dc) * hc) + bj
      = dc * ((∑ r : Fin n, a r * (d r * h r)) + dc * hc) + bj := by
  rw [mul_add, Finset.mul_sum]
  congr 2
  · exact Finset.sum_congr rfl fun r _ => by ring
  · ring

theorem conv_ref_eq {k : Nat} {A : Mat 2048 2048} {H : Mat 2048 k} {b : Vect k} (hA : MatReal A) (hH : MatReal H)
    (hb : VectReal b) (c : Fin 2048) (j : Fin k) :
    ((∑ r : Fin 2048, (dis A r * A r c * dis A c) * H r j) + (dis A c * f1 * dis A c) * H c j) + b j
      = conv A H b c j := by
  choose d hd using dis_real hA
  choose a ha using hA
  choose h hh using hH
  choose bb hbb using hb
  unfold conv prop
  simp only [hd, ha, hh, hbb, f1_coe, ← EReal.coe_mul, ← coe_sum, ← EReal.coe_add]
  exact congrArg _ (conv_core d (fun r => a r c) (fun r => h r j) (d c) (h c j) (bb j))

theorem conv_sum_real {k : Nat} {A : Mat 2048 2048} {H : Mat 2048 k} (hA : MatReal A) (hH : MatReal H)
    (c : Fin 2048) (j : Fin k) :
    (∃ x : ℝ, (∑ r : Fin 2048, (dis A r * A r c * dis A c) * H r j) = (x : EReal)) ∧
      ∃ y : ℝ, (dis A c * f1 * dis A c) * H c j = (y : EReal) :=
  ⟨sum_real _ _ fun r => mul_real (mul_real (mul_real (dis_real hA r) (hA r c)) (dis_real hA c)) (hH r j),
    mul_real (mul_real (mul_real (dis_real hA c) ⟨1, f1_coe⟩) (dis_real hA c)) (hH c j)⟩

theorem conv_ref_eq_self_first {k : Nat} {A : Mat 2048 2048} {H : Mat 2048 k} {b : Vect k} (hA : MatReal A)
    (hH : MatReal H) (hb : VectReal b) (c : Fin 2048) (j : Fin k) :
    ((dis A c * f1 * dis A c) * H c j + ∑ r : Fin 2048, (dis A r * A r c * dis A c) * H r j) + b j
      = conv A H b c j := by
  rw [add_comm ((dis A c * f1 * dis A c) * H c j)]
  exact conv_ref_eq hA hH hb c j

theorem conv_ref_eq_zero {k : Nat} {A : Mat 2048 2048} {H : Mat 2048 k} {b : Vect k} (hA : MatReal A)
    (hH : MatReal H) (hb : VectReal b) (c : Fin 2048) (j : Fin k) :
    (f0 + ((∑ r : Fin 2048, (dis A r * A r c * dis A c) * H r j) + (dis A c * f1 * dis A c) * H c j)) + b j
      = conv A H b c j := by
  rw [f0_eq, zero_add]
  exact conv_ref_eq hA hH hb c j

theorem conv_ref_eq_zero_left {k : Nat} {A : Mat 2048 2048} {H : Mat 2048 k} {b : Vect k} (hA : MatReal A)
    (hH : MatReal H) (hb : VectReal b) (c : Fin 2048) (j : Fin k) :
    ((f0 + ∑ r : Fin 2048, (dis A r * A r c * dis A c) * H r j) + (dis A c * f1 * dis A c) * H c j) + b j
      = conv A H b c j := by
  rw [f0_eq, zero_add]
  exact conv_ref_eq hA hH hb c j

theorem conv_ref_eq_zero_self_first {k : Nat} {A : Mat 2048 2048} {H : Mat 2048 k} {b : Vect k} (hA : MatReal A)
    (hH : MatReal H) (hb : VectReal b) (c : Fin 2048) (j : Fin k) :
    (f0 + ((dis A c * f1 * dis A c) * H c j + ∑ r : Fin 2048, (dis A r * A r c * dis A c) * H r j)) + b j
      = conv A H b c j := by
  rw [f0_eq, zero_add]
  exact conv_ref_eq_self_first hA hH hb c j

theorem bn_ref_eq {k : Nat} {Y : Mat 2048 k} {g be : Vect k} (hY : MatReal Y) (hg : VectReal g) (hbe : VectReal be)
    (r : Fin 2048) (j : Fin k) :
    Ideal.div (Y r j - mean Y j) (Ideal.sqrt (var Y j + feps)) * g j + be j = bn Y g be r j := by
  obtain ⟨w, hw0, hw⟩ := var_eps_pos hY j
  unfold bn
  rw [hw, div_sqrt_eq_mul_rsqrt hw0]

end Cert.GcnAlgebra

end
-- ==== Proof.RBn.lean ====
import proofs.«103018_g28046136442917_fold_wed_c4_759_2_alg».proof.ReferenceIdeal
import proofs.«103018_g28046136442917_fold_wed_c4_759_2_alg».proof.Proof.Gen.ReferenceIdeal
import proofs.«103018_g28046136442917_fold_wed_c4_759_2_alg».proof.Proof.Spec
import proofs.«103018_g28046136442917_fold_wed_c4_759_2_alg».proof.Proof.Algebra
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.ReferenceIdeal.RBn

open Idealize.ShloMosaic Idealize.ShloMosaic.ValueIdx
open Cert.ReferenceIdeal.Facts₀

def dotR1 (x : FVec Ideal S2048x64 .f32) (w : FVec Ideal S64x32 .f32) : FVec Ideal S2048x32 .f32 :=
  Host.dotGeneral dot_S2048x64_S64x32_S2048x32_1_0_0_1_n_n none x w

def dotR2 (h : FVec Ideal S2048x32 .f32) (w : FVec Ideal S32x32 .f32) : FVec Ideal S2048x32 .f32 :=
  Host.dotGeneral dot_S2048x32_S32x32_S2048x32_1_0_0_1_n_n none h w

def rows (v : FVec Ideal S32 .f32) : FVec Ideal S2048x32 .f32 :=
  broadcastInDim S2048x32 ![0, 1] bcast_S1x32_S2048x32_0_1 (broadcastInDim S1x32 ![1] bcast_S32_S1x32_1 v)

def colSumR (Y : FVec Ideal S2048x32 .f32) : FVec Ideal S32 .f32 :=
  Host.reduceAdd Y (constant (F := Ideal) S_ .f32 0x00000000#32) reducesTo_S2048x32_S32_d0 h_S_

def meanR (Y : FVec Ideal S2048x32 .f32) : FVec Ideal S32 .f32 :=
  Host.divf (colSumR Y) (broadcastInDim S32 ![] bcast_S_S32 (constant (F := Ideal) S_ .f32 0x45000000#32))

def centredR (Y : FVec Ideal S2048x32 .f32) : FVec Ideal S2048x32 .f32 :=
  subf Y (broadcastInDim S2048x32 ![0, 1] bcast_S1x32_S2048x32_0_1
    (Host.divf (broadcastInDim S1x32 ![1] bcast_S32_S1x32_1 (colSumR Y))
      (broadcastInDim S1x32 ![] bcast_S_S1x32 (constant (F := Ideal) S_ .f32 0x45000000#32))))

def divisorR (ddof : IVec S_ 32) : FVec Ideal S_ .f32 :=
  subf (constant (F := Ideal) S_ .f32 0x45000000#32) (sitofp .f32 ddof)

def whereR (p : IVec S_ 1) (a : FVec Ideal S32 .f32) (s : FVec Ideal S_ .f32) : FVec Ideal S32 .f32 :=
  select (broadcastInDim S32 ![] bcast_S_S32 p) a (broadcastInDim S32 ![] bcast_S_S32 (id s))

def varR (Y : FVec Ideal S2048x32 .f32) (ddof : IVec S_ 32) : FVec Ideal S32 .f32 :=
  whereR (cmpf .ogt (divisorR ddof) (constant (F := Ideal) S_ .f32 0x00000000#32))
    (Host.divf (colSumR (mulf (centredR Y) (centredR Y))) (broadcastInDim S32 ![] bcast_S_S32 (divisorR ddof)))
    (constant (F := Ideal) S_ .f32 0x7FC00000#32)

def bnR (Y : FVec Ideal S2048x32 .f32) (g be : FVec Ideal S32 .f32) : FVec Ideal S2048x32 .f32 :=
  addf (mulf (Host.divf (subf Y (rows (meanR Y)))
      (rows (Host.sqrt (addf (varR Y (constantI S_ 32 0#32))
        (broadcastInDim S32 ![] bcast_S_S32 (constant (F := Ideal) S_ .f32 0x3727C5AC#32))))))
    (rows g)) (rows be)

def reluR (Y : FVec Ideal S2048x32 .f32) : FVec Ideal S2048x32 .f32 :=
  maximumf Y (broadcastInDim S2048x32 ![] bcast_S_S2048x32 (constant (F := Ideal) S_ .f32 0x00000000#32))

theorem rows_apply (v : FVec Ideal S32 .f32) (r : Fin 2048) (k : Fin 32) : rows v (ix2 r k) = v (ix1 k) := by
  unfold rows
  rw [broadcastInDim_apply ![0, 1] bcast_S1x32_S2048x32_0_1 _ (ix2 r k) (ix2 (0 : Fin 1) k) (by
    intro a
    match a with
    | ⟨0, _⟩ => rfl
    | ⟨1, _⟩ => rfl)]
  exact broadcastInDim_apply ![1] bcast_S32_S1x32_1 v (ix2 (0 : Fin 1) k) (ix1 k) (by
    intro a
    match a with
    | ⟨0, _⟩ => rfl)

theorem hostSqrt_apply {s : Shape} (x : FVec Ideal s .f32) (i : s.Idx) : Host.sqrt x i = Ideal.sqrt (x i) := rfl

theorem colSumR_apply (Y : FVec Ideal S2048x32 .f32) (k : Fin 32) :
    colSumR Y (ix1 k) = ∑ r : Fin 2048, Y (ix2 r k) := by
  unfold colSumR
  rw [hostReduceAdd_apply, Ideal.hostReduceAdd_single reducesTo_S2048x32_S32_d0 (by decide), constant_apply,
    Ideal.ofBits_zero_f32, zero_add]
  refine Finset.sum_congr rfl fun r _ => ?_
  exact congrArg Y (funext fun a => Fin.ext (by
    match a with
    | ⟨0, _⟩ => rfl
    | ⟨1, _⟩ => rfl))

theorem meanR_apply (Y : FVec Ideal S2048x32 .f32) (k : Fin 32) :
    meanR Y (ix1 k) = GcnSpec.mean (GcnSpec.mat Y) k := by
  unfold meanR
  rw [hostDivf_apply, colSumR_apply, broadcastInDim_scalar_apply, constant_apply]
  rfl

theorem centredR_apply (Y : FVec Ideal S2048x32 .f32) (r : Fin 2048) (k : Fin 32) :
    centredR Y (ix2 r k) = Y (ix2 r k) - GcnSpec.mean (GcnSpec.mat Y) k := by
  unfold centredR
  rw [subf_apply, broadcastInDim_apply ![0, 1] bcast_S1x32_S2048x32_0_1 _ (ix2 r k) (ix2 (0 : Fin 1) k) (by
    intro a
    match a with
    | ⟨0, _⟩ => rfl
    | ⟨1, _⟩ => rfl), hostDivf_apply,
    broadcastInDim_apply ![1] bcast_S32_S1x32_1 _ (ix2 (0 : Fin 1) k) (ix1 k) (by
      intro a
      match a with
      | ⟨0, _⟩ => rfl), colSumR_apply, broadcastInDim_scalar_apply, constant_apply]
  rfl

theorem divisorR_zero (j : S_.Idx) : divisorR (constantI S_ 32 0#32) j = GcnSpec.f2048 := by
  unfold divisorR
  rw [subf_apply, constant_apply, sitofp_apply]
  show GcnSpec.f2048 - (((constantI S_ 32 0#32 j).toInt : ℝ) : EReal) = GcnSpec.f2048
  simp [constantI]

theorem f2048_gt_zero :
    FloatOps.cmpf (F := Ideal) (φ := .f32) .ogt GcnSpec.f2048 (Ideal.ofBits .f32 0x00000000#32) = 1#1 := by
  rw [Ideal.cmpf_def, Ideal.ofBits_zero_f32, GcnAlgebra.f2048_eq]
  exact GcnAlgebra.cmp_ogt_pos (by norm_num)

theorem varR_apply (Y : FVec Ideal S2048x32 .f32) (k : Fin 32) :
    varR Y (constantI S_ 32 0#32) (ix1 k) = GcnSpec.var (GcnSpec.mat Y) k := by
  unfold varR whereR
  rw [select_apply, broadcastInDim_scalar_apply, cmpf_apply, divisorR_zero, constant_apply, f2048_gt_zero, select_one,
    hostDivf_apply, colSumR_apply, broadcastInDim_scalar_apply, divisorR_zero]
  unfold GcnSpec.var
  refine congrArg (fun s => Ideal.div s GcnSpec.f2048) (Finset.sum_congr rfl fun r _ => ?_)
  rw [mulf_apply, centredR_apply]
  rfl

theorem bnR_apply (Y : FVec Ideal S2048x32 .f32) (g be : FVec Ideal S32 .f32) (hY : GcnSpec.IsReal Y)
    (hg : GcnSpec.IsReal g) (hbe : GcnSpec.IsReal be) (r : Fin 2048) (k : Fin 32) :
    bnR Y g be (ix2 r k) = GcnSpec.bn (GcnSpec.mat Y) (GcnSpec.vect g) (GcnSpec.vect be) r k := by
  unfold bnR
  rw [addf_apply, mulf_apply, hostDivf_apply, subf_apply, rows_apply, rows_apply, rows_apply, rows_apply, meanR_apply,
    hostSqrt_apply, addf_apply, varR_apply, broadcastInDim_scalar_apply, constant_apply]
  exact GcnAlgebra.bn_ref_eq (GcnAlgebra.mat_real hY) (GcnAlgebra.vect_real hg) (GcnAlgebra.vect_real hbe) r k

theorem reluR_apply (Y : FVec Ideal S2048x32 .f32) (r : Fin 2048) (k : Fin 32) :
    reluR Y (ix2 r k) = GcnSpec.relu (GcnSpec.mat Y) r k := by
  unfold reluR
  rw [maximumf_apply, broadcastInDim_scalar_apply, constant_apply]
  rfl

theorem lhs1_0 (i : S2048x32.Idx) (q : dot_S2048x64_S64x32_S2048x32_1_0_0_1_n_n.contr.Idx) :
    (dot_S2048x64_S64x32_S2048x32_1_0_0_1_n_n.lhsIdx i q 0).val = (i 0).val := by
  unfold DotDims.lhsIdx
  rw [dif_neg (show ¬(0 : Fin S2048x64.rank) ∈ dot_S2048x64_S64x32_S2048x32_1_0_0_1_n_n.lhsBatch by decide),
    dif_pos (show (0 : Fin S2048x64.rank) ∈ dot_S2048x64_S64x32_S2048x32_1_0_0_1_n_n.lhsNonContracting by decide)]
  rfl
theorem lhs1_1 (i : S2048x32.Idx) (q : dot_S2048x64_S64x32_S2048x32_1_0_0_1_n_n.contr.Idx) :
    (dot_S2048x64_S64x32_S2048x32_1_0_0_1_n_n.lhsIdx i q 1).val = (q ⟨0, by decide⟩).val :=
  dot_S2048x64_S64x32_S2048x32_1_0_0_1_n_n.lhsIdx_val_of_single rfl i q
theorem rhs1_0 (i : S2048x32.Idx) (q : dot_S2048x64_S64x32_S2048x32_1_0_0_1_n_n.contr.Idx) :
    (dot_S2048x64_S64x32_S2048x32_1_0_0_1_n_n.rhsIdx i q 0).val = (q ⟨0, by decide⟩).val :=
  dot_S2048x64_S64x32_S2048x32_1_0_0_1_n_n.rhsIdx_val_of_single rfl i q
theorem rhs1_1 (i : S2048x32.Idx) (q : dot_S2048x64_S64x32_S2048x32_1_0_0_1_n_n.contr.Idx) :
    (dot_S2048x64_S64x32_S2048x32_1_0_0_1_n_n.rhsIdx i q 1).val = (i 1).val := by
  unfold DotDims.rhsIdx
  rw [dif_neg (show ¬(1 : Fin S64x32.rank) ∈ dot_S2048x64_S64x32_S2048x32_1_0_0_1_n_n.rhsBatch by decide),
    dif_pos (show (1 : Fin S64x32.rank) ∈ dot_S2048x64_S64x32_S2048x32_1_0_0_1_n_n.rhsNonContracting by decide)]
  rfl

theorem dotR1_apply (x : FVec Ideal S2048x64 .f32) (w : FVec Ideal S64x32 .f32) (r : Fin 2048) (k : Fin 32) :
    dotR1 x w (ix2 r k) = GcnSpec.lin (GcnSpec.mat x) (GcnSpec.mat w) r k := by
  unfold dotR1
  simp only [Host.dotGeneral]
  rw [Ideal.dotGeneral_apply,
    ← Equiv.sum_comp (ValueIdx.contrEquiv1 dot_S2048x64_S64x32_S2048x32_1_0_0_1_n_n 64 rfl rfl).symm]
  refine Finset.sum_congr rfl fun a _ => ?_
  have hk := ValueIdx.contrEquiv1_symm_val dot_S2048x64_S64x32_S2048x32_1_0_0_1_n_n 64 rfl rfl a
  have el : dot_S2048x64_S64x32_S2048x32_1_0_0_1_n_n.lhsIdx (ix2 r k)
      ((ValueIdx.contrEquiv1 dot_S2048x64_S64x32_S2048x32_1_0_0_1_n_n 64 rfl rfl).symm a) = ix2 r a :=
    funext fun b => Fin.ext (by
      match b with
      | ⟨0, _⟩ => exact lhs1_0 _ _
      | ⟨1, _⟩ => exact (lhs1_1 _ _).trans hk)
  have er : dot_S2048x64_S64x32_S2048x32_1_0_0_1_n_n.rhsIdx (ix2 r k)
      ((ValueIdx.contrEquiv1 dot_S2048x64_S64x32_S2048x32_1_0_0_1_n_n 64 rfl rfl).symm a) = ix2 a k :=
    funext fun b => Fin.ext (by
      match b with
      | ⟨0, _⟩ => exact (rhs1_0 _ _).trans hk
      | ⟨1, _⟩ => exact rhs1_1 _ _)
  rw [el, er]
  rfl

theorem lhs2_0 (i : S2048x32.Idx) (q : dot_S2048x32_S32x32_S2048x32_1_0_0_1_n_n.contr.Idx) :
    (dot_S2048x32_S32x32_S2048x32_1_0_0_1_n_n.lhsIdx i q 0).val = (i 0).val := by
  unfold DotDims.lhsIdx
  rw [dif_neg (show ¬(0 : Fin S2048x32.rank) ∈ dot_S2048x32_S32x32_S2048x32_1_0_0_1_n_n.lhsBatch by decide),
    dif_pos (show (0 : Fin S2048x32.rank) ∈ dot_S2048x32_S32x32_S2048x32_1_0_0_1_n_n.lhsNonContracting by decide)]
  rfl
theorem lhs2_1 (i : S2048x32.Idx) (q : dot_S2048x32_S32x32_S2048x32_1_0_0_1_n_n.contr.Idx) :
    (dot_S2048x32_S32x32_S2048x32_1_0_0_1_n_n.lhsIdx i q 1).val = (q ⟨0, by decide⟩).val :=
  dot_S2048x32_S32x32_S2048x32_1_0_0_1_n_n.lhsIdx_val_of_single rfl i q
theorem rhs2_0 (i : S2048x32.Idx) (q : dot_S2048x32_S32x32_S2048x32_1_0_0_1_n_n.contr.Idx) :
    (dot_S2048x32_S32x32_S2048x32_1_0_0_1_n_n.rhsIdx i q 0).val = (q ⟨0, by decide⟩).val :=
  dot_S2048x32_S32x32_S2048x32_1_0_0_1_n_n.rhsIdx_val_of_single rfl i q
theorem rhs2_1 (i : S2048x32.Idx) (q : dot_S2048x32_S32x32_S2048x32_1_0_0_1_n_n.contr.Idx) :
    (dot_S2048x32_S32x32_S2048x32_1_0_0_1_n_n.rhsIdx i q 1).val = (i 1).val := by
  unfold DotDims.rhsIdx
  rw [dif_neg (show ¬(1 : Fin S32x32.rank) ∈ dot_S2048x32_S32x32_S2048x32_1_0_0_1_n_n.rhsBatch by decide),
    dif_pos (show (1 : Fin S32x32.rank) ∈ dot_S2048x32_S32x32_S2048x32_1_0_0_1_n_n.rhsNonContracting by decide)]
  rfl

theorem dotR2_apply (h : FVec Ideal S2048x32 .f32) (w : FVec Ideal S32x32 .f32) (r : Fin 2048) (k : Fin 32) :
    dotR2 h w (ix2 r k) = GcnSpec.lin (GcnSpec.mat h) (GcnSpec.mat w) r k := by
  unfold dotR2
  simp only [Host.dotGeneral]
  rw [Ideal.dotGeneral_apply,
    ← Equiv.sum_comp (ValueIdx.contrEquiv1 dot_S2048x32_S32x32_S2048x32_1_0_0_1_n_n 32 rfl rfl).symm]
  refine Finset.sum_congr rfl fun a _ => ?_
  have hk := ValueIdx.contrEquiv1_symm_val dot_S2048x32_S32x32_S2048x32_1_0_0_1_n_n 32 rfl rfl a
  have el : dot_S2048x32_S32x32_S2048x32_1_0_0_1_n_n.lhsIdx (ix2 r k)
      ((ValueIdx.contrEquiv1 dot_S2048x32_S32x32_S2048x32_1_0_0_1_n_n 32 rfl rfl).symm a) = ix2 r a :=
    funext fun b => Fin.ext (by
      match b with
      | ⟨0, _⟩ => exact lhs2_0 _ _
      | ⟨1, _⟩ => exact (lhs2_1 _ _).trans hk)
  have er : dot_S2048x32_S32x32_S2048x32_1_0_0_1_n_n.rhsIdx (ix2 r k)
      ((ValueIdx.contrEquiv1 dot_S2048x32_S32x32_S2048x32_1_0_0_1_n_n 32 rfl rfl).symm a) = ix2 a k :=
    funext fun b => Fin.ext (by
      match b with
      | ⟨0, _⟩ => exact (rhs2_0 _ _).trans hk
      | ⟨1, _⟩ => exact rhs2_1 _ _)
  rw [el, er]
  rfl

end Cert.ReferenceIdeal.RBn

end
-- ==== Proof.LibNonzero.lean ====
import Mathlib.Algebra.BigOperators.Group.Finset.Basic
import Mathlib.Data.Finset.Card
import Mathlib.Order.Interval.Finset.Nat
import Mathlib.Tactic.SplitIfs
import Batteries.Tactic.Init

namespace Cert.LibNonzero

def cnt (mask : ℕ → Bool) (i : ℕ) : ℕ := ((Finset.range (i + 1)).filter (fun j => mask j = true)).card

def total (mask : ℕ → Bool) (n : ℕ) : ℕ := ((Finset.range n).filter (fun j => mask j = true)).card

def bin (mask : ℕ → Bool) (n k : ℕ) : ℕ := ((Finset.range n).filter (fun i => cnt mask i = k)).card

def pos (mask : ℕ → Bool) (n k : ℕ) : ℕ := ((Finset.range n).filter (fun i => cnt mask i ≤ k)).card

variable {mask : ℕ → Bool} {n : ℕ}

theorem eq_range_card_of_lower (s : Finset ℕ) (h : ∀ i ∈ s, ∀ j, j ≤ i → j ∈ s) : s = Finset.range s.card := by
  have hsub : s ⊆ Finset.range s.card := by
    intro i hi
    rw [Finset.mem_range]
    have hseg : Finset.range (i + 1) ⊆ s := by
      intro j hj
      rw [Finset.mem_range] at hj
      exact h i hi j (by omega)
    have hcard := Finset.card_le_card hseg
    rw [Finset.card_range] at hcard
    omega
  exact Finset.eq_of_subset_of_card_le hsub (by rw [Finset.card_range])

theorem cnt_eq_total (mask : ℕ → Bool) (i : ℕ) : cnt mask i = total mask (i + 1) := rfl

theorem total_zero (mask : ℕ → Bool) : total mask 0 = 0 := by
  unfold total
  rw [Finset.range_zero, Finset.filter_empty, Finset.card_empty]

theorem total_succ (mask : ℕ → Bool) (n : ℕ) : total mask (n + 1) = total mask n + if mask n then 1 else 0 := by
  unfold total
  rw [Finset.range_add_one, Finset.filter_insert]
  split_ifs with hm
  · rw [Finset.card_insert_of_notMem]
    intro hmem
    have := (Finset.mem_filter.1 hmem).1
    rw [Finset.mem_range] at this
    omega
  · rfl

theorem total_mono (mask : ℕ → Bool) {m n : ℕ} (h : m ≤ n) : total mask m ≤ total mask n :=
  Finset.card_le_card (Finset.filter_subset_filter _ (Finset.range_mono h))

theorem total_le (mask : ℕ → Bool) (n : ℕ) : total mask n ≤ n :=
  (Finset.card_filter_le _ _).trans_eq (Finset.card_range n)

theorem cnt_mono (mask : ℕ → Bool) {i j : ℕ} (h : i ≤ j) : cnt mask i ≤ cnt mask j :=
  total_mono mask (Nat.succ_le_succ h)

theorem cnt_monotone (mask : ℕ → Bool) : Monotone (cnt mask) := fun _ _ h => cnt_mono mask h

theorem cnt_zero (mask : ℕ → Bool) : cnt mask 0 = if mask 0 then 1 else 0 := by
  rw [cnt_eq_total, total_succ, total_zero, Nat.zero_add]

theorem cnt_succ (mask : ℕ → Bool) (i : ℕ) : cnt mask (i + 1) = cnt mask i + if mask (i + 1) then 1 else 0 :=
  total_succ mask (i + 1)

theorem cnt_le (mask : ℕ → Bool) (i : ℕ) : cnt mask i ≤ i + 1 := total_le mask (i + 1)

theorem cnt_last (mask : ℕ → Bool) {n : ℕ} (hn : 0 < n) : cnt mask (n - 1) = total mask n := by
  rw [cnt_eq_total, Nat.sub_add_cancel hn]

theorem cnt_le_total (mask : ℕ → Bool) {i n : ℕ} (hi : i < n) : cnt mask i ≤ total mask n :=
  total_mono mask hi

theorem cnt_pos_of_mask {i : ℕ} (hm : mask i = true) : 0 < cnt mask i :=
  Finset.card_pos.2 ⟨i, Finset.mem_filter.2 ⟨Finset.mem_range.2 (Nat.lt_succ_self i), hm⟩⟩

theorem cnt_eq_succ_of_first {p k : ℕ} (h1 : k < cnt mask p) (h2 : ∀ j, j < p → cnt mask j ≤ k) :
    cnt mask p = k + 1 ∧ mask p = true := by
  cases p with
  | zero =>
    rw [cnt_zero] at h1 ⊢
    split_ifs at h1 ⊢ with hm
    · exact ⟨by omega, hm⟩
    · omega
  | succ q =>
    have hq := h2 q (Nat.lt_succ_self q)
    rw [cnt_succ] at h1 ⊢
    split_ifs at h1 ⊢ with hm
    · exact ⟨by omega, hm⟩
    · omega

theorem filter_cnt_le_eq_range (mask : ℕ → Bool) (n k : ℕ) :
    (Finset.range n).filter (fun i => cnt mask i ≤ k) = Finset.range (pos mask n k) := by
  apply eq_range_card_of_lower
  intro i hi j hji
  rw [Finset.mem_filter, Finset.mem_range] at hi ⊢
  exact ⟨by omega, (cnt_mono mask hji).trans hi.2⟩

theorem lt_pos_iff {i k : ℕ} : i < pos mask n k ↔ i < n ∧ cnt mask i ≤ k := by
  rw [← Finset.mem_range, ← filter_cnt_le_eq_range, Finset.mem_filter, Finset.mem_range]

theorem pos_le (mask : ℕ → Bool) (n k : ℕ) : pos mask n k ≤ n :=
  (Finset.card_filter_le _ _).trans_eq (Finset.card_range n)

theorem pos_eq_sum_bin (mask : ℕ → Bool) (n k : ℕ) :
    pos mask n k = ∑ k' ∈ Finset.range (k + 1), bin mask n k' := by
  have H : (((Finset.range n).filter (fun i => cnt mask i ≤ k) : Finset ℕ) : Set ℕ).MapsTo (cnt mask)
      (Finset.range (k + 1)) := by
    intro i hi
    have hi' := Finset.mem_filter.1 (Finset.mem_coe.1 hi)
    exact Finset.mem_coe.2 (Finset.mem_range.2 (by omega))
  unfold pos bin
  rw [Finset.card_eq_sum_card_fiberwise H]
  apply Finset.sum_congr rfl
  intro k' hk'
  rw [Finset.mem_range] at hk'
  rw [Finset.filter_filter]
  congr 1
  apply Finset.filter_congr
  intro i _
  constructor
  · rintro ⟨_, h⟩
    exact h
  · intro h
    exact ⟨by omega, h⟩

theorem pos_mono (mask : ℕ → Bool) (n : ℕ) {k k' : ℕ} (h : k ≤ k') : pos mask n k ≤ pos mask n k' := by
  by_contra hlt
  have hlt' := Nat.lt_of_not_le hlt
  have h1 := lt_pos_iff.1 hlt'
  have h2 := lt_pos_iff.2 ⟨h1.1, h1.2.trans h⟩
  omega

theorem pos_lt {k : ℕ} (hk : k < total mask n) : pos mask n k < n := by
  have hn : 0 < n := by
    have := total_le mask n
    omega
  have hle := pos_le mask n k
  by_contra hge
  have hlast : n - 1 < pos mask n k := by omega
  have hc := (lt_pos_iff.1 hlast).2
  rw [cnt_last mask hn] at hc
  omega

theorem cnt_pos_and_mask_pos {k : ℕ} (hk : k < total mask n) :
    cnt mask (pos mask n k) = k + 1 ∧ mask (pos mask n k) = true := by
  have hlt := pos_lt hk
  apply cnt_eq_succ_of_first
  · by_contra hle
    have := lt_pos_iff.2 ⟨hlt, Nat.le_of_not_lt hle⟩
    omega
  · intro j hj
    exact (lt_pos_iff.1 hj).2

theorem mask_pos {k : ℕ} (hk : k < total mask n) : mask (pos mask n k) = true :=
  (cnt_pos_and_mask_pos hk).2

theorem cnt_pos {k : ℕ} (hk : k < total mask n) : cnt mask (pos mask n k) = k + 1 :=
  (cnt_pos_and_mask_pos hk).1

theorem pos_strictMono {k k' : ℕ} (hk' : k' < total mask n) (h : k < k') : pos mask n k < pos mask n k' := by
  have hk : k < total mask n := by omega
  apply lt_pos_iff.2
  refine ⟨pos_lt hk, ?_⟩
  rw [cnt_pos hk]
  omega

theorem pos_inj {k k' : ℕ} (hk : k < total mask n) (hk' : k' < total mask n)
    (h : pos mask n k = pos mask n k') : k = k' := by
  rcases Nat.lt_trichotomy k k' with hlt | heq | hgt
  · have := pos_strictMono hk' hlt
    omega
  · exact heq
  · have := pos_strictMono hk hgt
    omega

theorem pos_of_total_le {k : ℕ} (hk : total mask n ≤ k) : pos mask n k = n := by
  unfold pos
  rw [Finset.filter_true_of_mem, Finset.card_range]
  intro i hi
  exact (cnt_le_total mask (Finset.mem_range.1 hi)).trans hk

theorem pos_cnt_sub_one {i : ℕ} (hi : i < n) (hm : mask i = true) : pos mask n (cnt mask i - 1) = i := by
  have hc := cnt_pos_of_mask hm
  have h1 : ¬ i < pos mask n (cnt mask i - 1) := by
    intro h
    have := (lt_pos_iff.1 h).2
    omega
  have h2 : ∀ j, j < i → j < pos mask n (cnt mask i - 1) := by
    intro j hj
    apply lt_pos_iff.2
    refine ⟨by omega, ?_⟩
    obtain ⟨q, rfl⟩ : ∃ q, i = q + 1 := ⟨i - 1, by omega⟩
    have hjq := cnt_mono mask (show j ≤ q by omega)
    rw [cnt_succ, if_pos hm]
    omega
  rcases Nat.lt_trichotomy (pos mask n (cnt mask i - 1)) i with h | h | h
  · have := h2 _ h
    omega
  · exact h
  · exact absurd h h1

theorem exists_pos_of_mask {i : ℕ} (hi : i < n) (hm : mask i = true) :
    ∃ k, k < total mask n ∧ pos mask n k = i := by
  refine ⟨cnt mask i - 1, ?_, pos_cnt_sub_one hi hm⟩
  have h1 := cnt_le_total mask hi
  have h2 := cnt_pos_of_mask hm
  omega

theorem sum_pos (mask : ℕ → Bool) (n : ℕ) {M : Type*} [AddCommMonoid M] (g : ℕ → M) :
    ∑ k ∈ Finset.range (total mask n), g (pos mask n k)
      = ∑ i ∈ (Finset.range n).filter (fun i => mask i = true), g i := by
  apply Finset.sum_bij (fun k _ => pos mask n k)
  · intro k hk
    rw [Finset.mem_range] at hk
    rw [Finset.mem_filter, Finset.mem_range]
    exact ⟨pos_lt hk, mask_pos hk⟩
  · intro k hk k' hk' h
    rw [Finset.mem_range] at hk hk'
    exact pos_inj hk hk' h
  · intro i hi
    rw [Finset.mem_filter, Finset.mem_range] at hi
    obtain ⟨k, hk, hki⟩ := exists_pos_of_mask hi.1 hi.2
    exact ⟨k, Finset.mem_range.2 hk, hki⟩
  · intro k _
    rfl

end Cert.LibNonzero
-- ==== Proof.RNz.lean ====
import proofs.«103018_g28046136442917_fold_wed_c4_759_2_alg».proof.ReferenceIdeal
import proofs.«103018_g28046136442917_fold_wed_c4_759_2_alg».proof.Proof.Gen.ReferenceIdeal
import proofs.«103018_g28046136442917_fold_wed_c4_759_2_alg».proof.Proof.Spec
import proofs.«103018_g28046136442917_fold_wed_c4_759_2_alg».proof.Proof.LibNonzero
import Idealize.ShloMosaic.Lib.StableHlo.Predicate
import Idealize.ShloMosaic.Lib.ValueIdx
import Idealize.ShloMosaic.PureOps.Ideal

noncomputable section

namespace Cert.ReferenceIdeal.RNz

open Idealize.ShloMosaic Idealize.SL.Sem
open Cert.ReferenceIdeal Cert.ReferenceIdeal.Facts₀

abbrev lit (b : BitVec 32) : IVec S_ 32 := constantI S_ 32 b

abbrev splat (c : IVec S_ 32) : IVec S4194304 32 := broadcastInDim S4194304 ![] bcast_S_S4194304 c

def maskV (adj : FVec Ideal S2048x2048 .f32) : IVec S2048x2048 1 :=
  cmpf .une adj (broadcastInDim S2048x2048 ![] bcast_S_S2048x2048 (constant S_ .f32 0x00000000#32))

def cumsum0 (x : IVec S4194304 32) : IVec S4194304 32 :=
  Host.reduceWindow IntOp.addi ![4194304] ![1] ![4194303] ![0] x
    (broadcastInDim S_ ![] bcast_S_S_ (lit 0#32))
    reduceWindows_S4194304_S4194304_w4194304s1p4194303_0 h_S_

def flatV (adj : FVec Ideal S2048x2048 .f32) : IVec S4194304 32 :=
  extui 32 (shapeCast S4194304 (maskV adj) shapeCasts_S2048x2048_S4194304) natLt_1_32

def cumV (adj : FVec Ideal S2048x2048 .f32) : IVec S4194304 32 := cumsum0 (flatV adj)

def clipV (adj : FVec Ideal S2048x2048 .f32) : IVec S4194304 32 :=
  maxsi (splat (id (lit 0#32))) (cumV adj)

def wrapV (adj : FVec Ideal S2048x2048 .f32) : IVec S4194304 32 :=
  select (cmpi .slt (clipV adj) (splat (lit 0#32))) (addi (clipV adj) (splat (lit 4194304#32))) (clipV adj)

def binV (adj : FVec Ideal S2048x2048 .f32) : IVec S4194304 32 :=
  Host.scatter scatter_S4194304_S4194304x1_S4194304_n_0_0_1 IntOp.addi (splat (lit 0#32))
    (broadcastInDim S4194304x1 ![0] bcast_S4194304_S4194304x1_0 (wrapV adj)) (splat (lit 1#32))

def posV (adj : FVec Ideal S2048x2048 .f32) : IVec S4194304 32 := cumsum0 (binV adj)

def floorDivV (x : IVec S4194304 32) (d : IVec S_ 32) : IVec S4194304 32 :=
  select
    (andi (cmpi .ne (signi x) (splat (signi d))) (cmpi .ne (Host.remsi x (splat d)) (splat (lit 0#32))))
    (subi (Host.divsi x (splat d)) (splat (lit 1#32)))
    (Host.divsi x (splat d))

def remDivisor (d : IVec S_ 32) : IVec S_ 32 := select (cmpi .eq (id d) (lit 0#32)) (lit 1#32) (id d)

def remainderV (x : IVec S4194304 32) (d : IVec S_ 32) : IVec S4194304 32 :=
  select
    (andi
      (cmpi .ne (cmpi .slt (Host.remsi x (splat (remDivisor d))) (splat (lit 0#32)))
        (broadcastInDim S4194304 ![] bcast_S_S4194304 (cmpi .slt (remDivisor d) (lit 0#32))))
      (cmpi .ne (Host.remsi x (splat (remDivisor d))) (splat (lit 0#32))))
    (addi (Host.remsi x (splat (remDivisor d))) (splat (remDivisor d)))
    (Host.remsi x (splat (remDivisor d)))

def rowRawV (adj : FVec Ideal S2048x2048 .f32) : IVec S4194304 32 :=
  remainderV (floorDivV (posV adj) (lit 2048#32)) (lit 2048#32)

def colRawV (adj : FVec Ideal S2048x2048 .f32) : IVec S4194304 32 :=
  remainderV (floorDivV (posV adj) (lit 1#32)) (lit 2048#32)

def cntV (adj : FVec Ideal S2048x2048 .f32) : IVec S_ 32 :=
  Host.reduce IntOp.addi (extui 32 (maskV adj) natLt_1_32) (lit 0#32) reducesTo_S2048x2048_S_d0_1 h_S_

def beyondV (adj : FVec Ideal S2048x2048 .f32) : IVec S4194304 1 :=
  cmpi .sge (iotaInDim S4194304 32 0) (splat (cntV adj))

def where3V (c : IVec S4194304 1) (d : IVec S_ 32) (x : IVec S4194304 32) : IVec S4194304 32 :=
  select c (splat (id d)) x

def rowW (adj : FVec Ideal S2048x2048 .f32) : IVec S4194304 32 := where3V (beyondV adj) (lit 0#32) (rowRawV adj)

def colW (adj : FVec Ideal S2048x2048 .f32) : IVec S4194304 32 := where3V (beyondV adj) (lit 0#32) (colRawV adj)

def cnt2V (adj : FVec Ideal S2048x2048 .f32) : IVec S_ 32 :=
  Host.reduce IntOp.addi
    (extui 32 (cmpf .une adj (broadcastInDim S2048x2048 ![] bcast_S_S2048x2048 (constant S_ .f32 0x00000000#32))) natLt_1_32)
    (lit 0#32) reducesTo_S2048x2048_S_d0_1 h_S_

def validV (adj : FVec Ideal S2048x2048 .f32) : FVec Ideal S4194304 .f32 :=
  uitofp .f32 (cmpi .slt (iotaInDim S4194304 32 0) (splat (cnt2V adj)))

def wrap2048 (x : IVec S4194304 32) : IVec S4194304 32 :=
  select (cmpi .slt x (splat (lit 0#32))) (addi x (splat (lit 2048#32))) x

def pairV (adj : FVec Ideal S2048x2048 .f32) : IVec S4194304x2 32 :=
  concatenate S4194304x2 1
    [⟨S4194304x1, broadcastInDim S4194304x1 ![0] bcast_S4194304_S4194304x1_0 (wrap2048 (rowW adj))⟩,
     ⟨S4194304x1, broadcastInDim S4194304x1 ![0] bcast_S4194304_S4194304x1_0 (wrap2048 (colW adj))⟩]
    concatenates_S4194304x1_S4194304x1_S4194304x2_d1

def gatherV (adj : FVec Ideal S2048x2048 .f32) : FVec Ideal S4194304 .f32 :=
  Host.gather gather_S2048x2048_S4194304x2_S4194304_n_01_n_n_01_1_11 adj (pairV adj)

def ewV (adj : FVec Ideal S2048x2048 .f32) : FVec Ideal S4194304 .f32 := mulf (gatherV adj) (validV adj)

end Cert.ReferenceIdeal.RNz

end
-- ==== Proof.LibGatherScatter.lean ====
import Idealize.ShloMosaic.PureOps.Ideal
import Idealize.ShloMosaic.PureOps.Ideal.Laws
import Idealize.ShloMosaic.Lib.ValueIdx
import Idealize.ShloMosaic.Lib.StableHlo.Predicate

noncomputable section

namespace Cert.LibGatherScatter

open Idealize.ShloMosaic Idealize.ShloMosaic.ValueIdx

theorem one_not_mem_zero : (1 : Fin 2) ∉ [(0 : Fin 2)] := by decide
theorem zero_not_mem_one : (0 : Fin 2) ∉ [(1 : Fin 2)] := by decide

theorem rowGather_apply {α : Type} {N C R w : Nat} (d : GatherDims ⟨2, ![N, C]⟩ ⟨2, ![R, 1]⟩ ⟨2, ![R, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, C]⟩ : Shape).Idx → α) (idx : IVec ⟨2, ![R, 1]⟩ w) (r : Fin R) (c : Fin C) (hN : 0 < N) :
    Host.gather d x idx (ix2 r c) = x (ix2 ⟨min (idx (ix2 r (0 : Fin 1))).toInt.toNat (N - 1), by omega⟩ c) := by
  obtain ⟨od, cd, ob, sb, sm, iv, ss, wf⟩ := d
  simp only at hoff hcoll hob hsb hsim hivd
  subst hoff hcoll hob hsb hsim hivd
  generalize hd : (⟨[1], [0], [], [], [0], 1, ss, wf⟩ : GatherDims ⟨2, ![N, C]⟩ ⟨2, ![R, 1]⟩ ⟨2, ![R, C]⟩) = d
  have hb : ∀ a : Fin 2, a ∉ d.operandBatchingDims := by subst hd; exact fun a => List.not_mem_nil
  unfold Host.gather
  congr 1
  funext a
  refine Fin.ext ?_
  match a with
  | ⟨0, _⟩ =>
    show d.start (ix2 r c) idx 0 + d.batchCoord (ix2 r c) 0 + d.offCoord (ix2 r c) 0 = min (idx (ix2 r 0)).toInt.toNat (N - 1)
    have hc : (0 : Fin 2) ∈ d.collapsedSliceDims := by subst hd; exact List.mem_singleton.mpr rfl
    have hm : (0 : Fin 2) ∈ d.startIndexMap := by subst hd; exact List.mem_singleton.mpr rfl
    rw [d.batchCoord_eq_zero _ _ (hb 0), d.offCoord_eq_zero _ _ (fun h => ((d.mem_sKept _).mp h).1 hc), Nat.add_zero]
    unfold GatherDims.start
    rw [dif_pos hm, d.slice_collapsed 0 hc]
    have hsi : d.siIdx (ix2 r c) ⟨List.idxOf (0 : Fin 2) d.startIndexMap, List.idxOf_lt_length_iff.2 hm⟩ = ix2 r 0 := by
      subst hd
      funext b; refine Fin.ext ?_
      match b with
      | ⟨0, _⟩ => rfl
      | ⟨1, _⟩ => rfl
    rw [hsi]
    rfl
  | ⟨1, _⟩ =>
    show d.start (ix2 r c) idx 1 + d.batchCoord (ix2 r c) 1 + d.offCoord (ix2 r c) 1 = c.val
    have hm : (1 : Fin 2) ∉ d.startIndexMap := by subst hd; exact one_not_mem_zero
    have hk : (1 : Fin 2) ∈ d.sKept := (d.mem_sKept _).mpr ⟨by subst hd; exact one_not_mem_zero, hb 1⟩
    rw [d.batchCoord_eq_zero _ _ (hb 1), Nat.add_zero]
    unfold GatherDims.start GatherDims.offCoord
    rw [dif_neg hm, dif_pos hk, Nat.zero_add]
    subst hd
    rfl

theorem rowScatterAdd_apply {N C R w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1)
    (x : FVec Ideal ⟨2, ![N, C]⟩ .f32) (idx : IVec ⟨2, ![R, 1]⟩ w) (upd : FVec Ideal ⟨2, ![R, C]⟩ .f32) (n : Fin N) (c : Fin C) :
    Host.scatterAdd d x idx upd (ix2 n c)
      = x (ix2 n c) + ∑ r : Fin R, if (idx (ix2 r (0 : Fin 1))).toInt = (n.val : Int) then upd (ix2 r c) else 0 := by
  obtain ⟨uw, iw, sd, iv, wf⟩ := d
  simp only at huw hiw hsd hivd
  subst huw hiw hsd hivd
  generalize hd : (⟨[1], [0], [0], 1, wf⟩ : ScatterDims ⟨2, ![N, C]⟩ ⟨2, ![R, 1]⟩ ⟨2, ![R, C]⟩) = d
  have hs0 : ∀ (r : Fin R) (c' : Fin C), d.start (ix2 r c') idx 0 = (idx (ix2 r (0 : Fin 1))).toInt := by
    intro r c'
    have hm : (0 : Fin 2) ∈ d.scatterDimsToOperandDims := by subst hd; exact List.mem_singleton.mpr rfl
    unfold ScatterDims.start
    rw [dif_pos hm]
    have hsi : d.siIdx (ix2 r c') ⟨List.idxOf (0 : Fin 2) d.scatterDimsToOperandDims, List.idxOf_lt_length_iff.2 hm⟩ = ix2 r 0 := by
      subst hd
      funext b; refine Fin.ext ?_
      match b with
      | ⟨0, _⟩ => rfl
      | ⟨1, _⟩ => rfl
    rw [hsi]
  have hs1 : ∀ (r : Fin R) (c' : Fin C), d.start (ix2 r c') idx 1 = 0 := by
    intro r c'
    have hm : (1 : Fin 2) ∉ d.scatterDimsToOperandDims := by subst hd; exact one_not_mem_zero
    unfold ScatterDims.start
    rw [dif_neg hm]
  have hw0 : ∀ (r : Fin R) (c' : Fin C), d.window (ix2 r c') 0 = 0 := by
    intro r c'
    have hk : (0 : Fin 2) ∉ d.sKept := by subst hd; exact zero_not_mem_one
    unfold ScatterDims.window
    rw [dif_neg hk]
  have hw1 : ∀ (r : Fin R) (c' : Fin C), d.window (ix2 r c') 1 = c'.val := by
    intro r c'
    have hk : (1 : Fin 2) ∈ d.sKept := by subst hd; exact List.mem_singleton.mpr rfl
    unfold ScatterDims.window
    rw [dif_pos hk]
    subst hd
    rfl
  have hiff : ∀ (r : Fin R) (c' : Fin C), d.resultIdx? (ix2 r c') idx = some (ix2 n c) ↔
      ((idx (ix2 r (0 : Fin 1))).toInt = (n.val : Int) ∧ c' = c) := by
    intro r c'
    have e0 := hs0 r c'
    have e1 := hs1 r c'
    have f0 := hw0 r c'
    have f1 := hw1 r c'
    have hn := n.isLt
    have hc' := c'.isLt
    unfold ScatterDims.resultIdx?
    constructor
    · intro h
      split at h
      · rename_i hh
        have hf := Option.some.inj h
        have h0 : (d.start (ix2 r c') idx 0 + (d.window (ix2 r c') 0 : Int)).toNat = n.val := congrArg (fun f => (f 0).val) hf
        have h1 : (d.start (ix2 r c') idx 1 + (d.window (ix2 r c') 1 : Int)).toNat = c.val := congrArg (fun f => (f 1).val) hf
        have hh0 := (hh 0).1
        rw [e0, f0] at h0 hh0
        rw [e1, f1] at h1
        exact ⟨by omega, Fin.ext (by omega)⟩
      · exact absurd h (by simp)
    · rintro ⟨hA, rfl⟩
      have hh : ∀ a : Fin 2, 0 ≤ d.start (ix2 r c') idx a + (d.window (ix2 r c') a : Int) ∧
          d.start (ix2 r c') idx a + (d.window (ix2 r c') a : Int) < ((⟨2, ![N, C]⟩ : Shape).size a : Int) := by
        intro a
        match a with
        | ⟨0, _⟩ =>
          show 0 ≤ d.start (ix2 r c') idx 0 + (d.window (ix2 r c') 0 : Int) ∧
            d.start (ix2 r c') idx 0 + (d.window (ix2 r c') 0 : Int) < (N : Int)
          rw [e0, f0, hA]; omega
        | ⟨1, _⟩ =>
          show 0 ≤ d.start (ix2 r c') idx 1 + (d.window (ix2 r c') 1 : Int) ∧
            d.start (ix2 r c') idx 1 + (d.window (ix2 r c') 1 : Int) < (C : Int)
          rw [e1, f1]; omega
      rw [dif_pos hh]
      refine congrArg some ?_
      funext a
      refine Fin.ext ?_
      match a with
      | ⟨0, _⟩ =>
        show (d.start (ix2 r c') idx 0 + (d.window (ix2 r c') 0 : Int)).toNat = n.val
        rw [e0, f0, hA]; omega
      | ⟨1, _⟩ =>
        show (d.start (ix2 r c') idx 1 + (d.window (ix2 r c') 1 : Int)).toNat = c'.val
        rw [e1, f1]; omega
  unfold Host.scatterAdd
  rw [Ideal.hostScatterAdd_def]
  unfold Ideal.hostScatterAdd
  congr 1
  rw [Finset.sum_filter, sum_idx2]
  refine Finset.sum_congr rfl fun r _ => ?_
  by_cases hA : (idx (ix2 r (0 : Fin 1))).toInt = (n.val : Int)
  · rw [if_pos hA, Finset.sum_eq_single c]
    · rw [if_pos ((hiff r c).2 ⟨hA, rfl⟩)]
    · intro c' _ hne
      rw [if_neg (fun h => hne ((hiff r c').1 h).2)]
    · intro h
      exact absurd (Finset.mem_univ c) h
  · rw [if_neg hA]
    refine Finset.sum_eq_zero fun c' _ => ?_
    rw [if_neg (fun h => hA ((hiff r c').1 h).1)]

end Cert.LibGatherScatter

end
-- ==== Proof.LibScatterReal.lean ====
import Idealize.ShloMosaic.PureOps.Ideal
import Idealize.ShloMosaic.PureOps.Ideal.Laws
import Idealize.ShloMosaic.PureOps.Contract
import Idealize.ShloMosaic.Lib.ValueIdx

noncomputable section

namespace Cert.LibScatterReal

open Idealize.ShloMosaic Idealize.ShloMosaic.ValueIdx

theorem sum_real {ι : Type} (S : Finset ι) (f : ι → EReal) (hf : ∀ k ∈ S, ∃ r : ℝ, f k = (r : EReal)) :
    ∃ r : ℝ, ∑ k ∈ S, f k = (r : EReal) := by
  refine Finset.sum_induction f (fun v => ∃ r : ℝ, v = (r : EReal)) ?_ ⟨0, by norm_cast⟩ hf
  rintro a b ⟨ra, rfl⟩ ⟨rb, rfl⟩
  exact ⟨ra + rb, (EReal.coe_add ra rb).symm⟩

theorem sum_nonneg_real {ι : Type} (S : Finset ι) (f : ι → EReal) (hf : ∀ k ∈ S, ∃ r : ℝ, 0 ≤ r ∧ f k = (r : EReal)) :
    ∃ r : ℝ, 0 ≤ r ∧ ∑ k ∈ S, f k = (r : EReal) := by
  refine Finset.sum_induction f (fun v => ∃ r : ℝ, 0 ≤ r ∧ v = (r : EReal)) ?_ ⟨0, le_refl _, by norm_cast⟩ hf
  rintro a b ⟨ra, ha, rfl⟩ ⟨rb, hb, rfl⟩
  exact ⟨ra + rb, add_nonneg ha hb, (EReal.coe_add ra rb).symm⟩

theorem sum_pos_real {ι : Type} [DecidableEq ι] (S : Finset ι) (f : ι → EReal)
    (hf : ∀ k ∈ S, ∃ r : ℝ, 0 ≤ r ∧ f k = (r : EReal)) (k0 : ι) (hk0 : k0 ∈ S) (hpos : ∃ r : ℝ, 0 < r ∧ f k0 = (r : EReal)) :
    ∃ r : ℝ, 0 < r ∧ ∑ k ∈ S, f k = (r : EReal) := by
  obtain ⟨r0, h0, e0⟩ := hpos
  obtain ⟨r1, h1, e1⟩ := sum_nonneg_real (S.erase k0) f (fun k hk => hf k (Finset.mem_of_mem_erase hk))
  refine ⟨r0 + r1, by linarith, ?_⟩
  rw [← Finset.add_sum_erase S f hk0, e0, e1]
  exact (EReal.coe_add r0 r1).symm

theorem scatterAdd_real {s si u : Shape} {w : Nat} {φ : FTy} (d : ScatterDims s si u) (x : FVec Ideal s φ) (idx : IVec si w)
    (upd : FVec Ideal u φ) (hx : ∀ i, ∃ r : ℝ, x i = (r : EReal)) (hu : ∀ k, ∃ r : ℝ, upd k = (r : EReal)) (i : s.Idx) :
    ∃ r : ℝ, Host.scatterAdd d x idx upd i = (r : EReal) := by
  unfold Host.scatterAdd
  rw [Ideal.hostScatterAdd_def]
  unfold Ideal.hostScatterAdd
  obtain ⟨r0, e0⟩ := hx i
  obtain ⟨r1, e1⟩ := sum_real (Finset.univ.filter (fun j => d.resultIdx? j idx = some i)) upd (fun k _ => hu k)
  exact ⟨r0 + r1, by rw [e0, e1]; exact (EReal.coe_add r0 r1).symm⟩

theorem gather_real {s si t : Shape} {w : Nat} (d : GatherDims s si t) (x : s.Idx → EReal) (idx : IVec si w)
    (hx : ∀ i, ∃ r : ℝ, x i = (r : EReal)) (j : t.Idx) : ∃ r : ℝ, Host.gather d x idx j = (r : EReal) := by
  unfold Host.gather
  exact hx _

theorem rsqrt_real_of_pos (v : EReal) (hv : ∃ r : ℝ, 0 < r ∧ v = (r : EReal)) : ∃ r : ℝ, Ideal.rsqrt v = (r : EReal) := by
  obtain ⟨r, hr, rfl⟩ := hv
  rw [Ideal.rsqrt_coe, if_neg (not_lt.2 hr.le), if_neg hr.ne']
  exact ⟨_, rfl⟩

theorem hostRsqrt_real {s : Shape} {φ : FTy} (x : FVec Ideal s φ) (i : s.Idx) (hx : ∃ r : ℝ, 0 < r ∧ x i = (r : EReal)) :
    ∃ r : ℝ, Host.rsqrt x i = (r : EReal) := by
  unfold Host.rsqrt
  rw [Ideal.hostUnary_rsqrt_def]
  exact rsqrt_real_of_pos _ hx

theorem vecScatter_resultIdx {N R w : Nat} (d : ScatterDims ⟨1, ![N]⟩ ⟨2, ![R, 1]⟩ ⟨1, ![R]⟩)
    (huw : d.updateWindowDims = []) (hiw : d.insertedWindowDims = [0]) (hsd : d.scatterDimsToOperandDims = [0])
    (hivd : d.indexVectorDim = 1) (idx : IVec ⟨2, ![R, 1]⟩ w) (r : Fin R) (n : Fin N)
    (hA : (idx (ix2 r (0 : Fin 1))).toInt = (n.val : Int)) : d.resultIdx? (ix1 r) idx = some (ix1 n) := by
  obtain ⟨uw, iw, sd, iv, wf⟩ := d
  simp only at huw hiw hsd hivd
  subst huw hiw hsd hivd
  generalize hd : (⟨[], [0], [0], 1, wf⟩ : ScatterDims ⟨1, ![N]⟩ ⟨2, ![R, 1]⟩ ⟨1, ![R]⟩) = d
  have e0 : d.start (ix1 r) idx 0 = (idx (ix2 r (0 : Fin 1))).toInt := by
    have hm : (0 : Fin 1) ∈ d.scatterDimsToOperandDims := by subst hd; exact List.mem_singleton.mpr rfl
    unfold ScatterDims.start
    rw [dif_pos hm]
    have hsi : d.siIdx (ix1 r) ⟨List.idxOf (0 : Fin 1) d.scatterDimsToOperandDims, List.idxOf_lt_length_iff.2 hm⟩ = ix2 r 0 := by
      subst hd
      funext b; refine Fin.ext ?_
      match b with
      | ⟨0, _⟩ => rfl
      | ⟨1, _⟩ => rfl
    rw [hsi]
  have f0 : d.window (ix1 r) 0 = 0 := by
    have hk : (0 : Fin 1) ∉ d.sKept := by
      subst hd
      intro hmem
      have h2 := (List.mem_filter.1 hmem).2
      simp at h2
    unfold ScatterDims.window
    rw [dif_neg hk]
  have hn := n.isLt
  have hh : ∀ a : Fin 1, 0 ≤ d.start (ix1 r) idx a + (d.window (ix1 r) a : Int) ∧
      d.start (ix1 r) idx a + (d.window (ix1 r) a : Int) < ((⟨1, ![N]⟩ : Shape).size a : Int) := by
    intro a
    match a with
    | ⟨0, _⟩ =>
      show 0 ≤ d.start (ix1 r) idx 0 + (d.window (ix1 r) 0 : Int) ∧
        d.start (ix1 r) idx 0 + (d.window (ix1 r) 0 : Int) < (N : Int)
      rw [e0, f0, hA]; omega
  unfold ScatterDims.resultIdx?
  rw [dif_pos hh]
  refine congrArg some ?_
  funext a
  refine Fin.ext ?_
  match a with
  | ⟨0, _⟩ =>
    show (d.start (ix1 r) idx 0 + (d.window (ix1 r) 0 : Int)).toNat = n.val
    rw [e0, f0, hA]; omega

theorem vecScatterAdd_pos {N R w : Nat} (d : ScatterDims ⟨1, ![N]⟩ ⟨2, ![R, 1]⟩ ⟨1, ![R]⟩)
    (huw : d.updateWindowDims = []) (hiw : d.insertedWindowDims = [0]) (hsd : d.scatterDimsToOperandDims = [0])
    (hivd : d.indexVectorDim = 1) (x : FVec Ideal ⟨1, ![N]⟩ .f32) (idx : IVec ⟨2, ![R, 1]⟩ w) (upd : FVec Ideal ⟨1, ![R]⟩ .f32)
    (hx : ∀ i, ∃ r : ℝ, 0 ≤ r ∧ x i = (r : EReal)) (hu : ∀ k, ∃ r : ℝ, 0 < r ∧ upd k = (r : EReal))
    (n : Fin N) (r : Fin R) (hA : (idx (ix2 r (0 : Fin 1))).toInt = (n.val : Int)) :
    ∃ t : ℝ, 0 < t ∧ Host.scatterAdd d x idx upd (ix1 n) = (t : EReal) := by
  classical
  unfold Host.scatterAdd
  rw [Ideal.hostScatterAdd_def]
  unfold Ideal.hostScatterAdd
  obtain ⟨r0, h0, e0⟩ := hx (ix1 n)
  obtain ⟨r1, h1, e1⟩ := sum_pos_real (Finset.univ.filter (fun j => d.resultIdx? j idx = some (ix1 n))) upd
    (fun k _ => by obtain ⟨t, ht, e⟩ := hu k; exact ⟨t, ht.le, e⟩) (ix1 r)
    (Finset.mem_filter.2 ⟨Finset.mem_univ _, vecScatter_resultIdx d huw hiw hsd hivd idx r n hA⟩) (hu _)
  exact ⟨r0 + r1, by linarith, by rw [e0, e1]; exact (EReal.coe_add r0 r1).symm⟩

end Cert.LibScatterReal

end
-- ==== Proof.RIdx.lean ====
import proofs.«103018_g28046136442917_fold_wed_c4_759_2_alg».proof.ReferenceIdeal
import proofs.«103018_g28046136442917_fold_wed_c4_759_2_alg».proof.Proof.Gen.ReferenceIdeal
import proofs.«103018_g28046136442917_fold_wed_c4_759_2_alg».proof.Proof.Spec
import proofs.«103018_g28046136442917_fold_wed_c4_759_2_alg».proof.Proof.LibScatterReal
import proofs.«103018_g28046136442917_fold_wed_c4_759_2_alg».proof.Proof.LibGatherScatter
import Idealize.ShloMosaic.Lib.StableHlo.Predicate
import Idealize.ShloMosaic.Lib.ValueIdx
import Idealize.ShloMosaic.Lib.Pipeline.Value
import Idealize.ShloMosaic.PureOps.Ideal
import Idealize.ShloMosaic.PureOps.Ideal.Laws
import Mathlib.Algebra.BigOperators.Fin

noncomputable section

namespace Cert.ReferenceIdeal.RIdx

open Idealize.ShloMosaic Idealize.ShloMosaic.ValueIdx Idealize.ShloMosaic.StableHlo.Predicate
open Cert.ReferenceIdeal Cert.GcnSpec

def edgePos (e : Fin 4194304) : Fin 4196352 := ⟨e.val, by omega⟩
def loopPos (n : Fin 2048) : Fin 4196352 := ⟨4194304 + n.val, by omega⟩

def withLoopsI (I : Fin 4194304 → Fin 2048) : Fin 4196352 → Fin 2048 := fun p =>
  if h : p.val < 4194304 then I ⟨p.val, h⟩ else ⟨p.val - 4194304, by omega⟩

theorem withLoopsI_edge (I : Fin 4194304 → Fin 2048) (e : Fin 4194304) : withLoopsI I (edgePos e) = I e := by
  have h : (edgePos e).val < 4194304 := e.isLt
  unfold withLoopsI
  rw [dif_pos h]
  rfl

theorem withLoopsI_loop (I : Fin 4194304 → Fin 2048) (n : Fin 2048) : withLoopsI I (loopPos n) = n := by
  have h : ¬ (loopPos n).val < 4194304 := by
    show ¬ (4194304 + n.val < 4194304)
    omega
  unfold withLoopsI
  rw [dif_neg h]
  exact Fin.ext (by show 4194304 + n.val - 4194304 = n.val; omega)

theorem pos_cases (p : Fin 4196352) : (∃ e, p = edgePos e) ∨ (∃ n, p = loopPos n) := by
  by_cases h : p.val < 4194304
  · exact Or.inl ⟨⟨p.val, h⟩, Fin.ext rfl⟩
  · have hp := p.isLt
    exact Or.inr ⟨⟨p.val - 4194304, by omega⟩, Fin.ext (by show p.val = 4194304 + (p.val - 4194304); omega)⟩

theorem ofFin_eq_ix1 {n : Nat} (p : Fin n) : Shape.Idx.ofFin p = ix1 p := by
  funext a
  match a with
  | ⟨0, _⟩ => exact Fin.ext rfl

theorem ixP_eq_ix2 {n : Nat} (p : Fin n) : ixP p = ix2 p (0 : Fin 1) := by
  funext a
  match a with
  | ⟨0, _⟩ => rfl
  | ⟨1, _⟩ => rfl

def idxEquiv1 {n : Nat} : (⟨1, ![n]⟩ : Shape).Idx ≃ Fin n where
  toFun i := i 0
  invFun a := ix1 a
  left_inv i := (eq_ix1 i).symm
  right_inv _ := rfl
theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

theorem cat_edge {α : Type} (a : S4194304.Idx → α) (b : S2048.Idx → α)
    (h : Shape.Concatenates [S4194304, S2048] S4196352 0) (e : Fin 4194304) :
    concatenate S4196352 0 [⟨S4194304, a⟩, ⟨S2048, b⟩] h (ix1 (edgePos e)) = a (ix1 e) := by
  refine concatenate_pair_apply_left (t := S4196352) (s₁ := S4194304) (s₂ := S2048) 0 a b h (ix1 (edgePos e)) rfl (ix1 e) ?_
  intro c
  match c with
  | ⟨0, _⟩ => rfl

theorem cat_loop {α : Type} (a : S4194304.Idx → α) (b : S2048.Idx → α)
    (h : Shape.Concatenates [S4194304, S2048] S4196352 0) (n : Fin 2048) :
    concatenate S4196352 0 [⟨S4194304, a⟩, ⟨S2048, b⟩] h (ix1 (loopPos n)) = b (ix1 n) := by
  refine concatenate_pair_apply_right (t := S4196352) (s₁ := S4194304) (s₂ := S2048) 0 a b h (ix1 (loopPos n)) rfl rfl
    (ix1 n) ?_ ?_
  · intro c hc
    exact absurd (Subsingleton.elim _ _) hc
  · show n.val + 4194304 = 4194304 + n.val
    omega

theorem cat_idx_toInt (idx : IVec S4194304 32) (I : Fin 4194304 → Fin 2048)
    (hI : ∀ e, (idx (ix1 e)).toInt = ((I e).val : Int))
    (h : Shape.Concatenates [S4194304, S2048] S4196352 0) (p : Fin 4196352) :
    (concatenate S4196352 0 [⟨S4194304, idx⟩, ⟨S2048, iotaInDim S2048 32 0⟩] h (ix1 p)).toInt
      = ((withLoopsI I p).val : Int) := by
  rcases pos_cases p with ⟨e, rfl⟩ | ⟨n, rfl⟩
  · rw [cat_edge, hI, withLoopsI_edge]
  · rw [cat_loop, withLoopsI_loop]
    show (BitVec.ofNat 32 n.val).toInt = (n.val : Int)
    have hn := n.isLt
    exact toInt_ofNat_small _ (by omega)

theorem ones_apply (h : S_.BroadcastsInDim S2048 (![] : Fin 0 → Fin S2048.rank)) (i : S2048.Idx) :
    broadcastInDim S2048 ![] h (constant (F := Ideal) S_ .f32 0x3F800000#32) i = f1 := rfl
theorem zeros_apply (h : S_.BroadcastsInDim S2048 (![] : Fin 0 → Fin S2048.rank)) (i : S2048.Idx) :
    broadcastInDim S2048 ![] h (constant (F := Ideal) S_ .f32 0x00000000#32) i = f0 := rfl
theorem zeros2_apply (h : S_.BroadcastsInDim S2048x32 (![] : Fin 0 → Fin S2048x32.rank)) (i : S2048x32.Idx) :
    broadcastInDim S2048x32 ![] h (constant (F := Ideal) S_ .f32 0x00000000#32) i = f0 := rfl

theorem cat_ew_edge (ew : FVec Ideal S4194304 .f32) (h : Shape.Concatenates [S4194304, S2048] S4196352 0)
    (hb : S_.BroadcastsInDim S2048 (![] : Fin 0 → Fin S2048.rank)) (e : Fin 4194304) :
    concatenate S4196352 0 [⟨S4194304, ew⟩,
      ⟨S2048, broadcastInDim S2048 ![] hb (constant (F := Ideal) S_ .f32 0x3F800000#32)⟩] h (ix1 (edgePos e))
      = ew (ix1 e) := cat_edge _ _ h e
theorem cat_ew_loop (ew : FVec Ideal S4194304 .f32) (h : Shape.Concatenates [S4194304, S2048] S4196352 0)
    (hb : S_.BroadcastsInDim S2048 (![] : Fin 0 → Fin S2048.rank)) (n : Fin 2048) :
    concatenate S4196352 0 [⟨S4194304, ew⟩,
      ⟨S2048, broadcastInDim S2048 ![] hb (constant (F := Ideal) S_ .f32 0x3F800000#32)⟩] h (ix1 (loopPos n))
      = f1 := by
  rw [cat_loop]
  rfl

theorem wrap_id (v : IVec S4196352 32) (hv : ∀ p : Fin 4196352, 0 ≤ (v (ix1 p)).toInt)
    (h : S_.BroadcastsInDim S4196352 (![] : Fin 0 → Fin S4196352.rank)) :
    select (cmpi .slt v (broadcastInDim S4196352 ![] h (constantI S_ 32 0#32)))
      (addi v (broadcastInDim S4196352 ![] h (constantI S_ 32 2048#32))) v = v := by
  funext j
  have hj : 0 ≤ (v j).toInt := by
    rw [eq_ix1 j]
    exact hv (j 0)
  have h0 : (0#32 : BitVec 32).toInt = 0 := by decide
  have hs : (v j).slt 0#32 = false := by
    simp only [BitVec.slt, h0, decide_eq_false_iff_not, not_lt]
    exact hj
  have hc : IntOp.cmpi .slt (v j) 0#32 = 0#1 := by
    unfold IntOp.cmpi
    rw [hs]
    rfl
  show Scalar.select (IntOp.cmpi .slt (v j) 0#32) (IntOp.addi (v j) 2048#32) (v j) = v j
  rw [hc, select_zero]

theorem idxCol_apply (v : IVec S4196352 32) (hb : S4196352.BroadcastsInDim S4196352x1 (![0] : Fin 1 → Fin S4196352x1.rank))
    (p : Fin 4196352) : broadcastInDim S4196352x1 ![0] hb v (ix2 p (0 : Fin 1)) = v (ix1 p) := by
  have := bcast_col1 hb v p
  rwa [ixP_eq_ix2, ofFin_eq_ix1] at this

theorem clamp_node (w : BitVec 32) (n : Fin 2048) (hw : w.toInt = (n.val : Int)) : min w.toInt.toNat (2048 - 1) = n.val := by
  have hn := n.isLt
  rw [hw]
  omega

theorem vecGather_apply {α : Type} (x : S2048.Idx → α) (v : IVec S4196352 32) (J : Fin 4196352 → Fin 2048)
    (hv : ∀ p, (v (ix1 p)).toInt = ((J p).val : Int))
    (hb : S4196352.BroadcastsInDim S4196352x1 (![0] : Fin 1 → Fin S4196352x1.rank)) (p : Fin 4196352) :
    Host.gather gather_S2048_S4196352x1_S4196352_n_0_n_n_0_1_1 x (broadcastInDim S4196352x1 ![0] hb v) (ix1 p)
      = x (ix1 (J p)) := by
  have hg := gather_take gather_S2048_S4196352x1_S4196352_n_0_n_n_0_1_1 rfl rfl rfl rfl x
    (broadcastInDim S4196352x1 ![0] hb v) p (by omega)
  rw [ofFin_eq_ix1] at hg
  rw [hg, ofFin_eq_ix1]
  refine congrArg x (congrArg ix1 (Fin.ext ?_))
  show min ((broadcastInDim S4196352x1 ![0] hb v) (ixP p)).toInt.toNat (2048 - 1) = (J p).val
  rw [ixP_eq_ix2, idxCol_apply]
  exact clamp_node _ _ (hv p)

theorem rowGather_apply_here {α : Type} (x : S2048x32.Idx → α) (v : IVec S4196352 32) (J : Fin 4196352 → Fin 2048)
    (hv : ∀ p, (v (ix1 p)).toInt = ((J p).val : Int))
    (hb : S4196352.BroadcastsInDim S4196352x1 (![0] : Fin 1 → Fin S4196352x1.rank)) (p : Fin 4196352) (k : Fin 32) :
    Host.gather gather_S2048x32_S4196352x1_S4196352x32_1_0_n_n_0_1_132 x (broadcastInDim S4196352x1 ![0] hb v) (ix2 p k)
      = x (ix2 (J p) k) := by
  rw [Cert.LibGatherScatter.rowGather_apply gather_S2048x32_S4196352x1_S4196352x32_1_0_n_n_0_1_132 rfl rfl rfl rfl rfl rfl x
    (broadcastInDim S4196352x1 ![0] hb v) p k (by omega)]
  refine congrArg x (congrArg (fun r => ix2 r k) (Fin.ext ?_))
  show min ((broadcastInDim S4196352x1 ![0] hb v) (ix2 p (0 : Fin 1))).toInt.toNat (2048 - 1) = (J p).val
  rw [idxCol_apply]
  exact clamp_node _ _ (hv p)

theorem vecScatterAdd_apply (x0 : FVec Ideal S2048 .f32) (v : IVec S4196352 32) (J : Fin 4196352 → Fin 2048)
    (hv : ∀ p, (v (ix1 p)).toInt = ((J p).val : Int)) (u : FVec Ideal S4196352 .f32)
    (hb : S4196352.BroadcastsInDim S4196352x1 (![0] : Fin 1 → Fin S4196352x1.rank)) (c : Fin 2048) :
    Host.scatterAdd scatter_S2048_S4196352x1_S4196352_n_0_0_1 x0 (broadcastInDim S4196352x1 ![0] hb v) u (ix1 c)
      = x0 (ix1 c) + ∑ p : Fin 4196352, if J p = c then u (ix1 p) else 0 := by
  classical
  unfold Host.scatterAdd
  rw [Ideal.hostScatterAdd_def]
  unfold Ideal.hostScatterAdd
  refine congrArg (x0 (ix1 c) + ·) ?_
  rw [Finset.sum_filter, sum_idx1]
  refine Finset.sum_congr rfl fun p _ => ?_
  have hres := Cert.LibScatterReal.vecScatter_resultIdx scatter_S2048_S4196352x1_S4196352_n_0_0_1 rfl rfl rfl rfl
    (broadcastInDim S4196352x1 ![0] hb v) p (J p) (by rw [idxCol_apply]; exact hv p)
  rw [hres]
  by_cases hc : J p = c
  · rw [if_pos hc, if_pos (by rw [hc])]
  · rw [if_neg hc, if_neg]
    intro hh
    exact hc (congrFun (Option.some.inj hh) 0)

theorem rowScatterAdd_apply_here (x0 : FVec Ideal S2048x32 .f32) (v : IVec S4196352 32) (J : Fin 4196352 → Fin 2048)
    (hv : ∀ p, (v (ix1 p)).toInt = ((J p).val : Int)) (u : FVec Ideal S4196352x32 .f32)
    (hb : S4196352.BroadcastsInDim S4196352x1 (![0] : Fin 1 → Fin S4196352x1.rank)) (c : Fin 2048) (k : Fin 32) :
    Host.scatterAdd scatter_S2048x32_S4196352x1_S4196352x32_1_0_0_1 x0 (broadcastInDim S4196352x1 ![0] hb v) u (ix2 c k)
      = x0 (ix2 c k) + ∑ p : Fin 4196352, if J p = c then u (ix2 p k) else 0 := by
  rw [Cert.LibGatherScatter.rowScatterAdd_apply scatter_S2048x32_S4196352x1_S4196352x32_1_0_0_1 rfl rfl rfl rfl x0
    (broadcastInDim S4196352x1 ![0] hb v) u c k]
  refine congrArg (x0 (ix2 c k) + ·) ?_
  refine Finset.sum_congr rfl fun p _ => ?_
  rw [idxCol_apply, hv p]
  by_cases hc : J p = c
  · rw [if_pos hc, if_pos (by rw [hc])]
  · rw [if_neg hc, if_neg]
    intro hh
    exact hc (Fin.ext (by exact_mod_cast hh))

theorem sum_split {M : Type} [AddCommMonoid M] (f : Fin 4196352 → M) :
    ∑ p : Fin 4196352, f p = (∑ e : Fin 4194304, f (edgePos e)) + ∑ n : Fin 2048, f (loopPos n) :=
  Fin.sum_univ_add (a := 4194304) (b := 2048) f

theorem sum_withLoops {M : Type} [AddCommMonoid M] (I : Fin 4194304 → Fin 2048) (c : Fin 2048) (g : Fin 4196352 → M) :
    (∑ p : Fin 4196352, if withLoopsI I p = c then g p else 0)
      = (∑ e : Fin 4194304, if I e = c then g (edgePos e) else 0) + g (loopPos c) := by
  rw [sum_split]
  have h1 : (∑ e : Fin 4194304, if withLoopsI I (edgePos e) = c then g (edgePos e) else 0)
      = ∑ e : Fin 4194304, if I e = c then g (edgePos e) else 0 :=
    Finset.sum_congr rfl fun e _ => by rw [withLoopsI_edge]
  have h2 : (∑ n : Fin 2048, if withLoopsI I (loopPos n) = c then g (loopPos n) else 0) = g (loopPos c) := by
    rw [Finset.sum_congr rfl (fun n _ => by rw [withLoopsI_loop] :
      ∀ n ∈ Finset.univ, (if withLoopsI I (loopPos n) = c then g (loopPos n) else 0) = if n = c then g (loopPos n) else 0)]
    rw [Finset.sum_ite_eq' Finset.univ c (fun n => g (loopPos n)), if_pos (Finset.mem_univ c)]
  rw [h1, h2]

end Cert.ReferenceIdeal.RIdx

end
-- ==== Proof.RConv.lean ====
import proofs.«103018_g28046136442917_fold_wed_c4_759_2_alg».proof.ReferenceIdeal
import proofs.«103018_g28046136442917_fold_wed_c4_759_2_alg».proof.Proof.Gen.ReferenceIdeal
import proofs.«103018_g28046136442917_fold_wed_c4_759_2_alg».proof.Proof.Spec
import proofs.«103018_g28046136442917_fold_wed_c4_759_2_alg».proof.Proof.Algebra
import proofs.«103018_g28046136442917_fold_wed_c4_759_2_alg».proof.Proof.LibGatherScatter
import proofs.«103018_g28046136442917_fold_wed_c4_759_2_alg».proof.Proof.LibScatterReal
import proofs.«103018_g28046136442917_fold_wed_c4_759_2_alg».proof.Proof.RIdx

noncomputable section

namespace Cert.ReferenceIdeal.RConv

open Idealize.ShloMosaic Idealize.ShloMosaic.ValueIdx
open Cert.ReferenceIdeal Cert.ReferenceIdeal.Facts₀

def nodeIota : IVec S2048 32 := iotaInDim S2048 32 0

def withLoops (v : IVec S4194304 32) : IVec S4196352 32 :=
  concatenate S4196352 0 [⟨S4194304, v⟩, ⟨S2048, nodeIota⟩] concatenates_S4194304_S2048_S4196352_d0

def loopOnes : FVec Ideal S2048 .f32 := broadcastInDim S2048 ![] bcast_S_S2048 (constant S_ .f32 0x3F800000#32)

def ewX (ew : FVec Ideal S4194304 .f32) : FVec Ideal S4196352 .f32 :=
  concatenate S4196352 0 [⟨S4194304, ew⟩, ⟨S2048, loopOnes⟩] concatenates_S4194304_S2048_S4196352_d0

def wrapIdx (v : IVec S4196352 32) : IVec S4196352 32 :=
  select (cmpi .slt v (broadcastInDim S4196352 ![] bcast_S_S4196352 (constantI S_ 32 0#32)))
    (addi v (broadcastInDim S4196352 ![] bcast_S_S4196352 (constantI S_ 32 2048#32))) v

def idxCol (v : IVec S4196352 32) : IVec S4196352x1 32 :=
  broadcastInDim S4196352x1 ![0] bcast_S4196352_S4196352x1_0 (wrapIdx v)

def degR (col : IVec S4194304 32) (ew : FVec Ideal S4194304 .f32) : FVec Ideal S2048 .f32 :=
  Host.scatterAdd scatter_S2048_S4196352x1_S4196352_n_0_0_1
    (broadcastInDim S2048 ![] bcast_S_S2048 (constant S_ .f32 0x00000000#32))
    (idxCol (withLoops col)) (ewX ew)

def whereS (m : IVec S2048 1) (a : FVec Ideal S2048 .f32) (s : FVec Ideal S_ .f32) : FVec Ideal S2048 .f32 :=
  select m a (broadcastInDim S2048 ![] bcast_S_S2048 (id s))

def disR (col : IVec S4194304 32) (ew : FVec Ideal S4194304 .f32) : FVec Ideal S2048 .f32 :=
  whereS
    (cmpf .ogt (degR col ew) (broadcastInDim S2048 ![] bcast_S_S2048 (constant S_ .f32 0x00000000#32)))
    (Host.divf (broadcastInDim S2048 ![] bcast_S_S2048 (constant S_ .f32 0x3F800000#32))
      (Host.sqrt
        (whereS
          (cmpf .ogt (degR col ew) (broadcastInDim S2048 ![] bcast_S_S2048 (constant S_ .f32 0x00000000#32)))
          (degR col ew) (constant S_ .f32 0x3F800000#32))))
    (constant S_ .f32 0x00000000#32)

def normR (row col : IVec S4194304 32) (ew : FVec Ideal S4194304 .f32) : FVec Ideal S4196352 .f32 :=
  mulf
    (mulf (Host.gather gather_S2048_S4196352x1_S4196352_n_0_n_n_0_1_1 (disR col ew) (idxCol (withLoops row))) (ewX ew))
    (Host.gather gather_S2048_S4196352x1_S4196352_n_0_n_n_0_1_1 (disR col ew) (idxCol (withLoops col)))

def msgR (row col : IVec S4194304 32) (ew : FVec Ideal S4194304 .f32) (H : FVec Ideal S2048x32 .f32) :
    FVec Ideal S4196352x32 .f32 :=
  mulf
    (broadcastInDim S4196352x32 ![0, 1] bcast_S4196352x1_S4196352x32_0_1
      (broadcastInDim S4196352x1 ![0] bcast_S4196352_S4196352x1_0 (normR row col ew)))
    (Host.gather gather_S2048x32_S4196352x1_S4196352x32_1_0_n_n_0_1_132 H (idxCol (withLoops row)))

def convR (row col : IVec S4194304 32) (ew : FVec Ideal S4194304 .f32) (H : FVec Ideal S2048x32 .f32)
    (b : FVec Ideal S32 .f32) : FVec Ideal S2048x32 .f32 :=
  addf
    (Host.scatterAdd scatter_S2048x32_S4196352x1_S4196352x32_1_0_0_1
      (broadcastInDim S2048x32 ![] bcast_S_S2048x32 (constant S_ .f32 0x00000000#32))
      (idxCol (withLoops col)) (msgR row col ew H))
    (broadcastInDim S2048x32 ![0, 1] bcast_S1x32_S2048x32_0_1 (broadcastInDim S1x32 ![1] bcast_S32_S1x32_1 b))

open Idealize.ShloMosaic.StableHlo.Predicate
open Cert.GcnSpec Cert.GcnAlgebra Cert.ReferenceIdeal.RIdx

theorem hostSqrt_apply (x : FVec Ideal S2048 .f32) (i : S2048.Idx) : Host.sqrt x i = Ideal.sqrt (x i) := rfl
theorem hostDivf_apply (a b : FVec Ideal S2048 .f32) (i : S2048.Idx) : Host.divf a b i = Ideal.div (a i) (b i) := rfl
theorem cmpf_ogt_apply (a b : FVec Ideal S2048 .f32) (i : S2048.Idx) :
    cmpf .ogt a b i = Ideal.cmp .ogt (a i) (b i) := rfl

theorem whereS_apply (m : IVec S2048 1) (a : FVec Ideal S2048 .f32) (w : BitVec 32) (i : S2048.Idx) :
    whereS m a (constant (F := Ideal) S_ .f32 w) i = Scalar.select (m i) (a i) (Ideal.ofBits .f32 w) := rfl

theorem withLoops_toInt (I : Fin 4194304 → Fin 2048) (v : IVec S4194304 32)
    (hI : ∀ e, (v (ix1 e)).toInt = ((I e).val : Int)) (p : Fin 4196352) :
    (withLoops v (ix1 p)).toInt = ((withLoopsI I p).val : Int) :=
  cat_idx_toInt v I hI _ p

theorem wrap_withLoops (I : Fin 4194304 → Fin 2048) (v : IVec S4194304 32)
    (hI : ∀ e, (v (ix1 e)).toInt = ((I e).val : Int)) : wrapIdx (withLoops v) = withLoops v :=
  wrap_id _ (fun p => by rw [withLoops_toInt I v hI p]; exact Int.natCast_nonneg _) _

theorem ewX_edge (ew : FVec Ideal S4194304 .f32) (e : Fin 4194304) : ewX ew (ix1 (edgePos e)) = ew (ix1 e) :=
  cat_ew_edge ew _ _ e
theorem ewX_loop (ew : FVec Ideal S4194304 .f32) (n : Fin 2048) : ewX ew (ix1 (loopPos n)) = f1 :=
  cat_ew_loop ew _ _ n

section
variable {row col : IVec S4194304 32} {ew : FVec Ideal S4194304 .f32} {adj : FVec Ideal S2048x2048 .f32}
  (rowI colI : Fin 4194304 → Fin 2048)
  (hrow : ∀ e, (row (ix1 e)).toInt = ((rowI e).val : Int))
  (hcol : ∀ e, (col (ix1 e)).toInt = ((colI e).val : Int))
  (hsum : ∀ (c : Fin 2048) (φ : Fin 2048 → EReal → EReal), (∀ r, φ r 0 = 0) →
      ∑ e : Fin 4194304, (if colI e = c then φ (rowI e) (ew (ix1 e)) else 0) = ∑ r : Fin 2048, φ r (adj (ix2 r c)))

include hcol hsum in
theorem degR_apply (c : Fin 2048) : degR col ew (ix1 c) = deg (mat adj) c := by
  unfold degR idxCol
  rw [wrap_withLoops colI col hcol,
    vecScatterAdd_apply _ (withLoops col) (withLoopsI colI) (withLoops_toInt colI col hcol) (ewX ew) _ c,
    zeros_apply, sum_withLoops colI c (fun p => ewX ew (ix1 p))]
  simp only [ewX_edge, ewX_loop]
  rw [hsum c (fun _ w => w) (fun _ => rfl), f0_eq, zero_add]
  rfl

include hcol hsum in
theorem disR_apply (hadj : IsReal adj) (c : Fin 2048) : disR col ew (ix1 c) = dis (mat adj) c := by
  have hd := degR_apply rowI colI hcol hsum c
  unfold disR
  rw [whereS_apply, hostDivf_apply, hostSqrt_apply, whereS_apply, cmpf_ogt_apply, zeros_apply, ones_apply, hd]
  exact dis_ref_eq _ (deg_real (mat_real hadj) c)

include hrow hcol hsum in
theorem normR_apply (hadj : IsReal adj) (p : Fin 4196352) :
    normR row col ew (ix1 p)
      = dis (mat adj) (withLoopsI rowI p) * ewX ew (ix1 p) * dis (mat adj) (withLoopsI colI p) := by
  unfold normR idxCol
  rw [wrap_withLoops rowI row hrow, wrap_withLoops colI col hcol, mulf_apply, mulf_apply,
    vecGather_apply _ (withLoops row) (withLoopsI rowI) (withLoops_toInt rowI row hrow) _ p,
    vecGather_apply _ (withLoops col) (withLoopsI colI) (withLoops_toInt colI col hcol) _ p,
    disR_apply rowI colI hcol hsum hadj, disR_apply rowI colI hcol hsum hadj]

theorem spreadRows_apply (v : FVec Ideal S4196352 .f32) (p : Fin 4196352) (j : Fin 32) :
    broadcastInDim S4196352x32 ![0, 1] bcast_S4196352x1_S4196352x32_0_1
      (broadcastInDim S4196352x1 ![0] bcast_S4196352_S4196352x1_0 v) (ix2 p j) = v (ix1 p) := by
  have h := bcast_rows bcast_S4196352_S4196352x1_0 bcast_S4196352x1_S4196352x32_0_1 v p j
  rw [ofFin_eq_ix1] at h
  exact h

theorem spreadBias_apply (b : FVec Ideal S32 .f32) (c : Fin 2048) (j : Fin 32) :
    broadcastInDim S2048x32 ![0, 1] bcast_S1x32_S2048x32_0_1 (broadcastInDim S1x32 ![1] bcast_S32_S1x32_1 b) (ix2 c j)
      = b (ix1 j) := by
  have h := bcast_cols bcast_S32_S1x32_1 bcast_S1x32_S2048x32_0_1 b c j
  rw [ofFin_eq_ix1] at h
  exact h

include hrow hcol hsum in
theorem msgR_apply (hadj : IsReal adj) (H : FVec Ideal S2048x32 .f32) (p : Fin 4196352) (j : Fin 32) :
    msgR row col ew H (ix2 p j)
      = (dis (mat adj) (withLoopsI rowI p) * ewX ew (ix1 p) * dis (mat adj) (withLoopsI colI p))
          * H (ix2 (withLoopsI rowI p) j) := by
  unfold msgR idxCol
  rw [wrap_withLoops rowI row hrow, mulf_apply, spreadRows_apply,
    rowGather_apply_here H (withLoops row) (withLoopsI rowI) (withLoops_toInt rowI row hrow) _ p j,
    normR_apply rowI colI hrow hcol hsum hadj]

include hrow hcol hsum in
theorem convR_apply {H : FVec Ideal S2048x32 .f32} {b : FVec Ideal S32 .f32}
    (hadj : IsReal adj) (hH : IsReal H) (hb : IsReal b) (c : Fin 2048) (j : Fin 32) :
    convR row col ew H b (ix2 c j) = conv (mat adj) (mat H) (vect b) c j := by
  unfold convR idxCol
  rw [wrap_withLoops colI col hcol, addf_apply, spreadBias_apply,
    rowScatterAdd_apply_here _ (withLoops col) (withLoopsI colI) (withLoops_toInt colI col hcol) _ _ c j,
    zeros2_apply, sum_withLoops colI c (fun p => msgR row col ew H (ix2 p j))]
  simp only [msgR_apply rowI colI hrow hcol hsum hadj, withLoopsI_edge, withLoopsI_loop, ewX_edge, ewX_loop]
  have hc : ∀ e : Fin 4194304,
      (if colI e = c then (dis (mat adj) (rowI e) * ew (ix1 e) * dis (mat adj) (colI e)) * H (ix2 (rowI e) j) else 0)
        = if colI e = c then (fun r w => (dis (mat adj) r * w * dis (mat adj) c) * mat H r j) (rowI e) (ew (ix1 e)) else 0 := by
    intro e
    by_cases h : colI e = c
    · rw [if_pos h, if_pos h, h]; rfl
    · rw [if_neg h, if_neg h]
  rw [Finset.sum_congr rfl (fun e _ => hc e),
    hsum c (fun r w => (dis (mat adj) r * w * dis (mat adj) c) * mat H r j)
      (fun r => by show (dis (mat adj) r * 0 * dis (mat adj) c) * mat H r j = 0; rw [mul_zero, zero_mul, zero_mul])]
  exact conv_ref_eq_zero (mat_real hadj) (mat_real hH) (vect_real hb) c j

end

end Cert.ReferenceIdeal.RConv

end
-- ==== Proof.LibWordScan.lean ====
import Idealize.ShloMosaic.PureOps.Ideal
import Idealize.ShloMosaic.PureOps.Contract
import Idealize.ShloMosaic.Lib.ValueIdx
import Idealize.ShloMosaic.Lib.StableHlo.Predicate
import Mathlib.Tactic.SplitIfs
import proofs.«103018_g28046136442917_fold_wed_c4_759_2_alg».proof.Proof.LibNonzero

namespace Cert.LibWordScan

open Idealize.ShloMosaic Idealize.ShloMosaic.ValueIdx

def signWord (w : BitVec 32) : BitVec 32 := if w = 0 then 0 else if w.msb then -1 else 1

def floorDivWord (w d : BitVec 32) : BitVec 32 :=
  Scalar.select
    (IntOp.andi (IntOp.cmpi .ne (signWord w) (signWord d)) (IntOp.cmpi .ne (IntOp.remsi .host w d) 0#32))
    (IntOp.subi (IntOp.divsi .host w d) 1#32) (IntOp.divsi .host w d)

def remDivisorWord (d : BitVec 32) : BitVec 32 := Scalar.select (IntOp.cmpi .eq d 0#32) 1#32 d

def remWord (w d : BitVec 32) : BitVec 32 :=
  Scalar.select
    (IntOp.andi
      (IntOp.cmpi .ne (IntOp.cmpi .slt (IntOp.remsi .host w (remDivisorWord d)) 0#32)
        (IntOp.cmpi .slt (remDivisorWord d) 0#32))
      (IntOp.cmpi .ne (IntOp.remsi .host w (remDivisorWord d)) 0#32))
    (IntOp.addi (IntOp.remsi .host w (remDivisorWord d)) (remDivisorWord d))
    (IntOp.remsi .host w (remDivisorWord d))

theorem msb_eq_false_of_lt {w : BitVec 32} (h : w.toNat < 2 ^ 31) : w.msb = false := by
  rw [BitVec.msb_eq_decide]
  exact decide_eq_false (by omega)

theorem not_sdivCorner {w d : BitVec 32} (hd0 : 0 < d.toNat) (hd : d.toNat < 2 ^ 31) : ¬ IntOp.SDivCorner w d := by
  rintro (h | ⟨_, h⟩)
  · rw [h] at hd0
    exact absurd hd0 (by decide)
  · rw [h] at hd
    exact absurd hd (by decide)

theorem divsi_host_eq {w d : BitVec 32} (hw : w.toNat < 2 ^ 31) (hd0 : 0 < d.toNat) (hd : d.toNat < 2 ^ 31) :
    IntOp.divsi .host w d = w / d := by
  unfold IntOp.divsi
  rw [if_neg (not_sdivCorner hd0 hd), BitVec.sdiv_eq, msb_eq_false_of_lt hw, msb_eq_false_of_lt hd]
  rfl

theorem remsi_host_eq {w d : BitVec 32} (hw : w.toNat < 2 ^ 31) (hd0 : 0 < d.toNat) (hd : d.toNat < 2 ^ 31) :
    IntOp.remsi .host w d = w % d := by
  unfold IntOp.remsi
  rw [if_neg (not_sdivCorner hd0 hd), BitVec.srem_eq, msb_eq_false_of_lt hw, msb_eq_false_of_lt hd]

theorem cmpi_ne_self {n : ℕ} (x : BitVec n) : IntOp.cmpi .ne x x = 0#1 := by
  simp [IntOp.cmpi]

theorem signWord_of_pos {w : BitVec 32} (h0 : 0 < w.toNat) (h : w.toNat < 2 ^ 31) : signWord w = 1 := by
  unfold signWord
  have hne : w ≠ 0 := by
    intro e
    rw [e] at h0
    exact absurd h0 (by decide)
  rw [if_neg hne, msb_eq_false_of_lt h]
  rfl

theorem floorDivWord_eq {w d : BitVec 32} (hw : w.toNat < 2 ^ 31) (hd0 : 0 < d.toNat) (hd : d.toNat < 2 ^ 31) :
    floorDivWord w d = BitVec.ofNat 32 (w.toNat / d.toNat) := by
  have hcond : IntOp.andi (IntOp.cmpi .ne (signWord w) (signWord d)) (IntOp.cmpi .ne (IntOp.remsi .host w d) 0#32) = 0#1 := by
    rcases Nat.eq_zero_or_pos w.toNat with h0 | h0
    · have hw0 : w = 0#32 := BitVec.eq_of_toNat_eq h0
      rw [remsi_host_eq hw hd0 hd, hw0, BitVec.zero_umod, cmpi_ne_self]
      exact BitVec.and_zero
    · rw [signWord_of_pos h0 hw, signWord_of_pos hd0 hd, cmpi_ne_self]
      exact BitVec.zero_and
  unfold floorDivWord
  rw [hcond, select_zero, divsi_host_eq hw hd0 hd]
  apply BitVec.eq_of_toNat_eq
  rw [BitVec.toNat_udiv, BitVec.toNat_ofNat]
  have : w.toNat / d.toNat ≤ w.toNat := Nat.div_le_self _ _
  exact (Nat.mod_eq_of_lt (by omega)).symm

theorem toNat_floorDivWord {w d : BitVec 32} (hw : w.toNat < 2 ^ 31) (hd0 : 0 < d.toNat) (hd : d.toNat < 2 ^ 31) :
    (floorDivWord w d).toNat = w.toNat / d.toNat := by
  rw [floorDivWord_eq hw hd0 hd, BitVec.toNat_ofNat]
  have : w.toNat / d.toNat ≤ w.toNat := Nat.div_le_self _ _
  exact Nat.mod_eq_of_lt (by omega)

theorem cmpi_slt_zero_of_lt {w : BitVec 32} (h : w.toNat < 2 ^ 31) : IntOp.cmpi .slt w 0#32 = 0#1 := by
  have : w.slt 0#32 = false := by
    rw [BitVec.slt_eq_decide, BitVec.toInt_eq_toNat_of_lt (by omega)]
    exact decide_eq_false (by simp)
  simp [IntOp.cmpi, this]

theorem remDivisorWord_of_pos {d : BitVec 32} (hd0 : 0 < d.toNat) : remDivisorWord d = d := by
  have hne : d ≠ 0#32 := by
    intro e
    rw [e] at hd0
    exact absurd hd0 (by decide)
  have : IntOp.cmpi .eq d 0#32 = 0#1 := by
    show BitVec.ofBool (d == 0#32) = 0#1
    rw [beq_eq_false_iff_ne.2 hne]
    rfl
  unfold remDivisorWord
  rw [this, select_zero]

theorem remWord_eq {w d : BitVec 32} (hw : w.toNat < 2 ^ 31) (hd0 : 0 < d.toNat) (hd : d.toNat < 2 ^ 31) :
    remWord w d = BitVec.ofNat 32 (w.toNat % d.toNat) := by
  have hr : (w % d).toNat < 2 ^ 31 := by
    rw [BitVec.toNat_umod]
    exact lt_of_lt_of_le (Nat.mod_lt _ hd0) (by omega)
  unfold remWord
  rw [remDivisorWord_of_pos hd0, remsi_host_eq hw hd0 hd, cmpi_slt_zero_of_lt hr, cmpi_slt_zero_of_lt hd, cmpi_ne_self,
    show IntOp.andi 0#1 (IntOp.cmpi .ne (w % d) 0#32) = 0#1 from BitVec.zero_and, select_zero]
  apply BitVec.eq_of_toNat_eq
  rw [BitVec.toNat_umod, BitVec.toNat_ofNat]
  have : w.toNat % d.toNat < d.toNat := Nat.mod_lt _ hd0
  exact (Nat.mod_eq_of_lt (by omega)).symm

theorem toNat_remWord {w d : BitVec 32} (hw : w.toNat < 2 ^ 31) (hd0 : 0 < d.toNat) (hd : d.toNat < 2 ^ 31) :
    (remWord w d).toNat = w.toNat % d.toNat := by
  rw [remWord_eq hw hd0 hd, BitVec.toNat_ofNat]
  have : w.toNat % d.toNat < d.toNat := Nat.mod_lt _ hd0
  exact Nat.mod_eq_of_lt (by omega)

theorem toNat_floorDivWord_2048 {w : BitVec 32} (hw : w.toNat < 2 ^ 31) :
    (floorDivWord w 2048#32).toNat = w.toNat / 2048 :=
  toNat_floorDivWord hw (by decide) (by decide)

theorem floorDivWord_one {w : BitVec 32} (hw : w.toNat < 2 ^ 31) : floorDivWord w 1#32 = w := by
  apply BitVec.eq_of_toNat_eq
  rw [toNat_floorDivWord hw (by decide) (by decide)]
  exact Nat.div_one _

theorem toNat_remWord_2048 {w : BitVec 32} (hw : w.toNat < 2 ^ 31) :
    (remWord w 2048#32).toNat = w.toNat % 2048 :=
  toNat_remWord hw (by decide) (by decide)

theorem bcast0_apply {α : Type} {t : Shape} (hb : (⟨0, ![]⟩ : Shape).BroadcastsInDim t ![])
    (c : (⟨0, ![]⟩ : Shape).Idx → α) (i : t.Idx) : broadcastInDim t ![] hb c i = c ix0 := by
  show c _ = c ix0
  congr 1
  funext a
  exact a.elim0

theorem floorDivVec_apply {t : Shape} (hb : (⟨0, ![]⟩ : Shape).BroadcastsInDim t ![]) (x : IVec t 32)
    (d : IVec ⟨0, ![]⟩ 32) (i : t.Idx) :
    select
      (andi (cmpi .ne (signi x) (broadcastInDim t ![] hb (signi d)))
        (cmpi .ne (Host.remsi x (broadcastInDim t ![] hb d)) (broadcastInDim t ![] hb (constantI ⟨0, ![]⟩ 32 0#32))))
      (subi (Host.divsi x (broadcastInDim t ![] hb d)) (broadcastInDim t ![] hb (constantI ⟨0, ![]⟩ 32 1#32)))
      (Host.divsi x (broadcastInDim t ![] hb d)) i = floorDivWord (x i) (d ix0) := by
  have e : ∀ c : IVec ⟨0, ![]⟩ 32, broadcastInDim t ![] hb c i = c ix0 := fun c => bcast0_apply hb c i
  show Scalar.select
      (IntOp.andi (IntOp.cmpi .ne (signi x i) (broadcastInDim t ![] hb (signi d) i))
        (IntOp.cmpi .ne (IntOp.remsi .host (x i) (broadcastInDim t ![] hb d i))
          (broadcastInDim t ![] hb (constantI ⟨0, ![]⟩ 32 0#32) i)))
      (IntOp.subi (IntOp.divsi .host (x i) (broadcastInDim t ![] hb d i))
        (broadcastInDim t ![] hb (constantI ⟨0, ![]⟩ 32 1#32) i))
      (IntOp.divsi .host (x i) (broadcastInDim t ![] hb d i)) = _
  rw [e (signi d), e d, e (constantI ⟨0, ![]⟩ 32 0#32), e (constantI ⟨0, ![]⟩ 32 1#32)]
  rfl

theorem remDivisorVec_apply (d : IVec ⟨0, ![]⟩ 32) :
    select (cmpi .eq (id d) (constantI ⟨0, ![]⟩ 32 0#32)) (constantI ⟨0, ![]⟩ 32 1#32) (id d) ix0
      = remDivisorWord (d ix0) := rfl

theorem remainderVec_apply {t : Shape} (hb : (⟨0, ![]⟩ : Shape).BroadcastsInDim t ![]) (x : IVec t 32)
    (d' : IVec ⟨0, ![]⟩ 32) (i : t.Idx) :
    select
      (andi
        (cmpi .ne (cmpi .slt (Host.remsi x (broadcastInDim t ![] hb d')) (broadcastInDim t ![] hb (constantI ⟨0, ![]⟩ 32 0#32)))
          (broadcastInDim t ![] hb (cmpi .slt d' (constantI ⟨0, ![]⟩ 32 0#32))))
        (cmpi .ne (Host.remsi x (broadcastInDim t ![] hb d')) (broadcastInDim t ![] hb (constantI ⟨0, ![]⟩ 32 0#32))))
      (addi (Host.remsi x (broadcastInDim t ![] hb d')) (broadcastInDim t ![] hb d'))
      (Host.remsi x (broadcastInDim t ![] hb d')) i
      = Scalar.select
          (IntOp.andi
            (IntOp.cmpi .ne (IntOp.cmpi .slt (IntOp.remsi .host (x i) (d' ix0)) 0#32) (IntOp.cmpi .slt (d' ix0) 0#32))
            (IntOp.cmpi .ne (IntOp.remsi .host (x i) (d' ix0)) 0#32))
          (IntOp.addi (IntOp.remsi .host (x i) (d' ix0)) (d' ix0))
          (IntOp.remsi .host (x i) (d' ix0)) := by
  have e : ∀ c : IVec ⟨0, ![]⟩ 32, broadcastInDim t ![] hb c i = c ix0 := fun c => bcast0_apply hb c i
  have e1 : ∀ c : IVec ⟨0, ![]⟩ 1, broadcastInDim t ![] hb c i = c ix0 := fun c => bcast0_apply hb c i
  show Scalar.select
      (IntOp.andi
        (IntOp.cmpi .ne
          (IntOp.cmpi .slt (IntOp.remsi .host (x i) (broadcastInDim t ![] hb d' i))
            (broadcastInDim t ![] hb (constantI ⟨0, ![]⟩ 32 0#32) i))
          (broadcastInDim t ![] hb (cmpi .slt d' (constantI ⟨0, ![]⟩ 32 0#32)) i))
        (IntOp.cmpi .ne (IntOp.remsi .host (x i) (broadcastInDim t ![] hb d' i))
          (broadcastInDim t ![] hb (constantI ⟨0, ![]⟩ 32 0#32) i)))
      (IntOp.addi (IntOp.remsi .host (x i) (broadcastInDim t ![] hb d' i)) (broadcastInDim t ![] hb d' i))
      (IntOp.remsi .host (x i) (broadcastInDim t ![] hb d' i)) = _
  rw [e d', e (constantI ⟨0, ![]⟩ 32 0#32), e1 (cmpi .slt d' (constantI ⟨0, ![]⟩ 32 0#32))]
  rfl

theorem remainderVec_apply' {t : Shape} (hb : (⟨0, ![]⟩ : Shape).BroadcastsInDim t ![]) (x : IVec t 32)
    (d d' : IVec ⟨0, ![]⟩ 32) (hd' : d' ix0 = remDivisorWord (d ix0)) (i : t.Idx) :
    select
      (andi
        (cmpi .ne (cmpi .slt (Host.remsi x (broadcastInDim t ![] hb d')) (broadcastInDim t ![] hb (constantI ⟨0, ![]⟩ 32 0#32)))
          (broadcastInDim t ![] hb (cmpi .slt d' (constantI ⟨0, ![]⟩ 32 0#32))))
        (cmpi .ne (Host.remsi x (broadcastInDim t ![] hb d')) (broadcastInDim t ![] hb (constantI ⟨0, ![]⟩ 32 0#32))))
      (addi (Host.remsi x (broadcastInDim t ![] hb d')) (broadcastInDim t ![] hb d'))
      (Host.remsi x (broadcastInDim t ![] hb d')) i = remWord (x i) (d ix0) := by
  rw [remainderVec_apply hb x d' i, hd']
  rfl

def natAt {n : ℕ} (x : IVec ⟨1, ![n]⟩ 32) (j : ℕ) : ℕ := if h : j < n then (x (ix1 ⟨j, h⟩)).toNat else 0

def maskOf {n : ℕ} (x : IVec ⟨1, ![n]⟩ 32) (j : ℕ) : Bool :=
  if h : j < n then decide (x (ix1 ⟨j, h⟩) = 1#32) else false

theorem foldl_addi_eq {ι : Type} (l : List ι) (g : ι → BitVec 32) (v : BitVec 32) :
    l.foldl (fun r m => IntOp.addi r (g m)) v = v + BitVec.ofNat 32 ((l.map fun m => (g m).toNat).sum) := by
  induction l generalizing v with
  | nil => simp
  | cons a l ih =>
    rw [List.foldl_cons, ih, List.map_cons, List.sum_cons, BitVec.ofNat_add, BitVec.ofNat_toNat, BitVec.setWidth_eq]
    show v + g a + _ = v + (g a + _)
    rw [BitVec.add_assoc]

theorem sum_window {lo i : ℕ} (hi : i ≤ lo) (f : ℕ → ℕ) :
    ∑ m ∈ Finset.range (lo + 1), (if lo ≤ i + m then f (i + m - lo) else 0) = ∑ j ∈ Finset.range (i + 1), f j := by
  rw [← Finset.sum_filter]
  apply Finset.sum_nbij' (fun m => i + m - lo) (fun j => j + lo - i)
  · intro m hm
    simp only [Finset.mem_filter, Finset.mem_range] at hm ⊢
    omega
  · intro j hj
    simp only [Finset.mem_filter, Finset.mem_range] at hj ⊢
    omega
  · intro m hm
    simp only [Finset.mem_filter, Finset.mem_range] at hm
    omega
  · intro j hj
    simp only [Finset.mem_range] at hj
    omega
  · intro m _
    rfl

theorem window_term {lo : ℕ} (x : IVec ⟨1, ![lo + 1]⟩ 32) (v : BitVec 32) (hv : v = 0#32) (q : Fin 1 → ℕ) (c : ℕ)
    (hq : q 0 = c) :
    (if hin : ∀ a : Fin 1, (![lo] : Fin 1 → ℕ) a ≤ q a ∧ q a - (![lo] : Fin 1 → ℕ) a < (⟨1, ![lo + 1]⟩ : Shape).size a
      then x (fun a => ⟨q a - (![lo] : Fin 1 → ℕ) a, (hin a).2⟩) else v).toNat
      = if lo ≤ c then natAt x (c - lo) else 0 := by
  by_cases hin : ∀ a : Fin 1, (![lo] : Fin 1 → ℕ) a ≤ q a ∧ q a - (![lo] : Fin 1 → ℕ) a < (⟨1, ![lo + 1]⟩ : Shape).size a
  · have h0 := hin 0
    have h1 : lo ≤ c := by rw [← hq]; exact h0.1
    have h2 : c - lo < lo + 1 := by rw [← hq]; exact h0.2
    rw [dif_pos hin, if_pos h1]
    unfold natAt
    rw [dif_pos h2]
    congr 2
    funext a
    match a with
    | ⟨0, _⟩ => exact Fin.ext (by show q 0 - lo = c - lo; rw [hq])
  · rw [dif_neg hin, hv]
    by_cases h1 : lo ≤ c
    · rw [if_pos h1]
      unfold natAt
      rw [dif_neg]
      · rfl
      · intro h2
        apply hin
        intro a
        match a with
        | ⟨0, _⟩ =>
          show lo ≤ q 0 ∧ q 0 - lo < lo + 1
          rw [hq]
          exact ⟨h1, h2⟩
    · rw [if_neg h1]
      rfl

theorem sum_fin_le_eq_range {n : ℕ} (i : Fin n) (f : ℕ → ℕ) :
    ∑ j ∈ Finset.univ.filter (fun j : Fin n => j.val ≤ i.val), f j.val = ∑ j ∈ Finset.range (i.val + 1), f j := by
  rw [Finset.sum_filter, Fin.sum_univ_eq_sum_range (fun j => if j ≤ i.val then f j else 0) n, ← Finset.sum_filter]
  apply Finset.sum_congr _ (fun _ _ => rfl)
  ext j
  simp only [Finset.mem_filter, Finset.mem_range]
  have := i.isLt
  omega

theorem card_fin_filter_eq_range (n : ℕ) (p : ℕ → Prop) [DecidablePred p] :
    (Finset.univ.filter (fun r : Fin n => p r.val)).card = ((Finset.range n).filter p).card := by
  rw [Finset.card_filter, Finset.card_filter, Fin.sum_univ_eq_sum_range (fun r => if p r then 1 else 0) n]

theorem scan_apply {n lo : ℕ} (hlo : lo + 1 = n) {u : Shape} (x : IVec ⟨1, ![n]⟩ 32) (init : IVec u 32)
    (h : (⟨1, ![n]⟩ : Shape).ReduceWindows ![n] ![1] ![lo] ![0] ⟨1, ![n]⟩) (hu : 0 < u.numel)
    (hinit : init (Shape.Idx.first hu) = 0#32) (i : Fin n) :
    Host.reduceWindow IntOp.addi ![n] ![1] ![lo] ![0] x init h hu (ix1 i)
      = BitVec.ofNat 32 (∑ j ∈ Finset.range (i.val + 1), natAt x j) := by
  subst hlo
  let W : Shape := ⟨1, ![lo + 1]⟩
  let P : Fin W.numel → Fin 1 → ℕ := fun m a =>
    (ix1 i (a.cast h.1.symm)).val * (![1] : Fin 1 → ℕ) a + (W.rowMajor.symm m a).val
  have hP : ∀ m, P m 0 = i.val + m.val := by
    intro m
    have hm := Shape.rowMajor_val_one (W.rowMajor.symm m)
    rw [Equiv.apply_symm_apply] at hm
    show i.val * 1 + (W.rowMajor.symm m 0).val = _
    rw [← hm, Nat.mul_one]
  have key : Host.reduceWindow IntOp.addi ![lo + 1] ![1] ![lo] ![0] x init h hu (ix1 i)
      = (List.finRange W.numel).foldl (fun r m => IntOp.addi r
          (if hin : ∀ a : Fin 1, (![lo] : Fin 1 → ℕ) a ≤ P m a ∧
              P m a - (![lo] : Fin 1 → ℕ) a < (⟨1, ![lo + 1]⟩ : Shape).size a
            then x (fun a => ⟨P m a - (![lo] : Fin 1 → ℕ) a, (hin a).2⟩) else init (Shape.Idx.first hu)))
          (init (Shape.Idx.first hu)) := rfl
  rw [key, foldl_addi_eq, hinit, BitVec.zero_add]
  congr 1
  rw [← Fin.sum_univ_def]
  rw [Finset.sum_congr rfl (fun m _ => window_term x 0#32 rfl (P m) (i.val + m.val) (hP m))]
  rw [Fin.sum_univ_eq_sum_range (fun m => if lo ≤ i.val + m then natAt x (i.val + m - lo) else 0) W.numel]
  have hW : W.numel = lo + 1 := Shape.numel_rank1 _
  rw [hW]
  exact sum_window (by have := i.isLt; omega) (natAt x)

theorem toNat_scan_apply {n lo : ℕ} (hlo : lo + 1 = n) {u : Shape} (x : IVec ⟨1, ![n]⟩ 32) (init : IVec u 32)
    (h : (⟨1, ![n]⟩ : Shape).ReduceWindows ![n] ![1] ![lo] ![0] ⟨1, ![n]⟩) (hu : 0 < u.numel)
    (hinit : init (Shape.Idx.first hu) = 0#32) (i : Fin n)
    (hsum : ∑ j ∈ Finset.range (i.val + 1), natAt x j < 2 ^ 32) :
    (Host.reduceWindow IntOp.addi ![n] ![1] ![lo] ![0] x init h hu (ix1 i)).toNat
      = ∑ j ∈ Finset.range (i.val + 1), natAt x j := by
  rw [scan_apply hlo x init h hu hinit i, BitVec.toNat_ofNat]
  exact Nat.mod_eq_of_lt hsum

theorem sum_natAt_eq_cnt {n : ℕ} (x : IVec ⟨1, ![n]⟩ 32) (hx : ∀ j, x j = 0#32 ∨ x j = 1#32) (i : ℕ) :
    ∑ j ∈ Finset.range (i + 1), natAt x j = LibNonzero.cnt (maskOf x) i := by
  unfold LibNonzero.cnt
  rw [Finset.card_filter]
  apply Finset.sum_congr rfl
  intro j _
  unfold natAt maskOf
  by_cases h : j < n
  · rw [dif_pos h, dif_pos h]
    rcases hx (ix1 ⟨j, h⟩) with e | e
    · rw [e]
      rfl
    · rw [e]
      rfl
  · rw [dif_neg h, dif_neg h]
    rfl

theorem toNat_scan_bits_apply {n lo : ℕ} (hlo : lo + 1 = n) (hn : n < 2 ^ 32) {u : Shape} (x : IVec ⟨1, ![n]⟩ 32)
    (init : IVec u 32) (h : (⟨1, ![n]⟩ : Shape).ReduceWindows ![n] ![1] ![lo] ![0] ⟨1, ![n]⟩) (hu : 0 < u.numel)
    (hinit : init (Shape.Idx.first hu) = 0#32) (hx : ∀ j, x j = 0#32 ∨ x j = 1#32) (i : Fin n) :
    (Host.reduceWindow IntOp.addi ![n] ![1] ![lo] ![0] x init h hu (ix1 i)).toNat
      = LibNonzero.cnt (maskOf x) i.val := by
  have hs := sum_natAt_eq_cnt x hx i.val
  rw [toNat_scan_apply hlo x init h hu hinit i, hs]
  rw [hs]
  have h1 := LibNonzero.cnt_le (maskOf x) i.val
  have h2 := i.isLt
  omega

def landing {R w : ℕ} (N : ℕ) (idx : IVec ⟨2, ![R, 1]⟩ w) (r : Fin R) : Option (Fin N) :=
  if h : 0 ≤ (idx (ix2 r (0 : Fin 1))).toInt ∧ (idx (ix2 r (0 : Fin 1))).toInt < (N : ℤ) then
    some ⟨(idx (ix2 r (0 : Fin 1))).toInt.toNat, by omega⟩
  else none

theorem landing_eq_some_iff {R w N : ℕ} (idx : IVec ⟨2, ![R, 1]⟩ w) (r : Fin R) (k : Fin N) :
    landing N idx r = some k ↔ (idx (ix2 r (0 : Fin 1))).toInt = (k.val : ℤ) := by
  unfold landing
  have hk := k.isLt
  constructor
  · intro h
    split_ifs at h with hc
    · have hv := congrArg Fin.val (Option.some.inj h)
      simp only at hv
      omega
  · intro h
    have hc : 0 ≤ (idx (ix2 r (0 : Fin 1))).toInt ∧ (idx (ix2 r (0 : Fin 1))).toInt < (N : ℤ) := by
      rw [h]
      omega
    rw [dif_pos hc]
    refine congrArg some (Fin.ext ?_)
    show (idx (ix2 r (0 : Fin 1))).toInt.toNat = k.val
    rw [h]
    omega

def idxEquiv1 {n : ℕ} : (⟨1, ![n]⟩ : Shape).Idx ≃ Fin n where
  toFun j := j 0
  invFun r := ix1 r
  left_inv j := (eq_ix1 j).symm
  right_inv _ := rfl

theorem resultIdx?_eq_landing {N R w : ℕ} (d : ScatterDims ⟨1, ![N]⟩ ⟨2, ![R, 1]⟩ ⟨1, ![R]⟩)
    (huw : d.updateWindowDims = []) (hiw : d.insertedWindowDims = [0]) (hsd : d.scatterDimsToOperandDims = [0])
    (hivd : d.indexVectorDim = 1) (idx : IVec ⟨2, ![R, 1]⟩ w) (r : Fin R) :
    d.resultIdx? (ix1 r) idx = (landing N idx r).map ix1 := by
  obtain ⟨uw, iw, sd, iv, wf⟩ := d
  simp only at huw hiw hsd hivd
  subst huw hiw hsd hivd
  have hstart : (⟨[], [0], [0], 1, wf⟩ : ScatterDims ⟨1, ![N]⟩ ⟨2, ![R, 1]⟩ ⟨1, ![R]⟩).start (ix1 r) idx 0
      = (idx (ix2 r (0 : Fin 1))).toInt := by
    have hm : (0 : Fin 1) ∈ [(0 : Fin 1)] := List.mem_singleton.2 rfl
    unfold ScatterDims.start
    rw [dif_pos hm]
    congr 2
    funext b
    match b with
    | ⟨0, _⟩ => rfl
    | ⟨1, _⟩ => rfl
  have hwin : (⟨[], [0], [0], 1, wf⟩ : ScatterDims ⟨1, ![N]⟩ ⟨2, ![R, 1]⟩ ⟨1, ![R]⟩).window (ix1 r) 0 = 0 := by
    unfold ScatterDims.window
    rw [dif_neg]
    intro hmem
    have h2 := (List.mem_filter.1 hmem).2
    simp at h2
  unfold ScatterDims.resultIdx? landing
  by_cases hc : 0 ≤ (idx (ix2 r (0 : Fin 1))).toInt ∧ (idx (ix2 r (0 : Fin 1))).toInt < (N : ℤ)
  · have hall : ∀ a : Fin 1,
        0 ≤ (⟨[], [0], [0], 1, wf⟩ : ScatterDims ⟨1, ![N]⟩ ⟨2, ![R, 1]⟩ ⟨1, ![R]⟩).start (ix1 r) idx a
            + ((⟨[], [0], [0], 1, wf⟩ : ScatterDims ⟨1, ![N]⟩ ⟨2, ![R, 1]⟩ ⟨1, ![R]⟩).window (ix1 r) a : ℤ) ∧
        (⟨[], [0], [0], 1, wf⟩ : ScatterDims ⟨1, ![N]⟩ ⟨2, ![R, 1]⟩ ⟨1, ![R]⟩).start (ix1 r) idx a
            + ((⟨[], [0], [0], 1, wf⟩ : ScatterDims ⟨1, ![N]⟩ ⟨2, ![R, 1]⟩ ⟨1, ![R]⟩).window (ix1 r) a : ℤ)
          < ((⟨1, ![N]⟩ : Shape).size a : ℤ) := by
      intro a
      have ha : a = (0 : Fin 1) := Subsingleton.elim _ _
      subst ha
      show 0 ≤ _ + ((_ : ℕ) : ℤ) ∧ _ + ((_ : ℕ) : ℤ) < (N : ℤ)
      rw [hstart, hwin]
      omega
    rw [dif_pos hall, dif_pos hc]
    refine congrArg some ?_
    funext a
    have ha : a = (0 : Fin 1) := Subsingleton.elim _ _
    subst ha
    refine Fin.ext ?_
    show (_ + ((_ : ℕ) : ℤ)).toNat = (idx (ix2 r (0 : Fin 1))).toInt.toNat
    rw [hstart, hwin]
    omega
  · rw [dif_neg hc, dif_neg]
    · rfl
    · intro hall
      have h0 := hall 0
      rw [hstart, hwin] at h0
      apply hc
      have h1 : ((⟨1, ![N]⟩ : Shape).size 0 : ℤ) = (N : ℤ) := rfl
      rw [h1] at h0
      omega

theorem scatterAdd_apply {N R w : ℕ} (d : ScatterDims ⟨1, ![N]⟩ ⟨2, ![R, 1]⟩ ⟨1, ![R]⟩)
    (huw : d.updateWindowDims = []) (hiw : d.insertedWindowDims = [0]) (hsd : d.scatterDimsToOperandDims = [0])
    (hivd : d.indexVectorDim = 1) (x : IVec ⟨1, ![N]⟩ 32) (idx : IVec ⟨2, ![R, 1]⟩ w) (upd : IVec ⟨1, ![R]⟩ 32)
    (k : Fin N) :
    Host.scatter d IntOp.addi x idx upd (ix1 k)
      = x (ix1 k) + BitVec.ofNat 32
          (∑ r ∈ Finset.univ.filter (fun r : Fin R => (idx (ix2 r (0 : Fin 1))).toInt = (k.val : ℤ)), (upd (ix1 r)).toNat) := by
  let g : (⟨1, ![R]⟩ : Shape).Idx → ℕ := fun j => if landing N idx (j 0) = some k then (upd j).toNat else 0
  have hsum : ∑ r ∈ Finset.univ.filter (fun r : Fin R => (idx (ix2 r (0 : Fin 1))).toInt = (k.val : ℤ)), (upd (ix1 r)).toNat
      = ((List.finRange (⟨1, ![R]⟩ : Shape).numel).map fun n => g ((⟨1, ![R]⟩ : Shape).rowMajor.symm n)).sum := by
    rw [← Fin.sum_univ_def, Equiv.sum_comp (⟨1, ![R]⟩ : Shape).rowMajor.symm g, ← Equiv.sum_comp (idxEquiv1 (n := R)).symm g,
      Finset.sum_filter]
    apply Finset.sum_congr rfl
    intro r _
    show _ = (if landing N idx r = some k then (upd (ix1 r)).toNat else 0)
    by_cases hl : landing N idx r = some k
    · rw [if_pos hl, if_pos ((landing_eq_some_iff idx r k).1 hl)]
    · rw [if_neg hl, if_neg (fun e => hl ((landing_eq_some_iff idx r k).2 e))]
  rw [hsum]
  unfold Host.scatter
  generalize List.finRange (⟨1, ![R]⟩ : Shape).numel = l
  induction l generalizing x with
  | nil => simp
  | cons a l ih =>
    rw [List.foldl_cons, ih, List.map_cons, List.sum_cons, BitVec.ofNat_add, ← BitVec.add_assoc]
    congr 1
    obtain ⟨c, hc⟩ : ∃ c, (⟨1, ![R]⟩ : Shape).rowMajor.symm a = ix1 c := ⟨_, eq_ix1 _⟩
    rw [hc, resultIdx?_eq_landing d huw hiw hsd hivd idx c]
    have hg : g (ix1 c) = if landing N idx c = some k then (upd (ix1 c)).toNat else 0 := rfl
    rw [hg]
    cases landing N idx c with
    | none => simp
    | some k' =>
      simp only [Option.map_some]
      by_cases hk : k' = k
      · subst hk
        rw [if_pos rfl, if_pos rfl, BitVec.ofNat_toNat, BitVec.setWidth_eq]
        rfl
      · rw [if_neg, if_neg]
        · simp
        · intro e
          exact hk (Option.some.inj e)
        · intro e
          exact hk (congrFun e 0).symm

theorem bincount_apply {N R w : ℕ} (d : ScatterDims ⟨1, ![N]⟩ ⟨2, ![R, 1]⟩ ⟨1, ![R]⟩)
    (huw : d.updateWindowDims = []) (hiw : d.insertedWindowDims = [0]) (hsd : d.scatterDimsToOperandDims = [0])
    (hivd : d.indexVectorDim = 1) (x : IVec ⟨1, ![N]⟩ 32) (idx : IVec ⟨2, ![R, 1]⟩ w) (upd : IVec ⟨1, ![R]⟩ 32)
    (hx : ∀ i, x i = 0#32) (hupd : ∀ r, upd r = 1#32) (k : Fin N) :
    Host.scatter d IntOp.addi x idx upd (ix1 k)
      = BitVec.ofNat 32 (Finset.univ.filter (fun r : Fin R => (idx (ix2 r (0 : Fin 1))).toInt = (k.val : ℤ))).card := by
  rw [scatterAdd_apply d huw hiw hsd hivd x idx upd k, hx, BitVec.zero_add, Finset.card_eq_sum_ones]
  congr 1
  apply Finset.sum_congr rfl
  intro r _
  rw [hupd]
  rfl

theorem toNat_bincount_apply {N R : ℕ} (hR : R < 2 ^ 32) (d : ScatterDims ⟨1, ![N]⟩ ⟨2, ![R, 1]⟩ ⟨1, ![R]⟩)
    (huw : d.updateWindowDims = []) (hiw : d.insertedWindowDims = [0]) (hsd : d.scatterDimsToOperandDims = [0])
    (hivd : d.indexVectorDim = 1) (x : IVec ⟨1, ![N]⟩ 32) (idx : IVec ⟨2, ![R, 1]⟩ 32) (upd : IVec ⟨1, ![R]⟩ 32)
    (hx : ∀ i, x i = 0#32) (hupd : ∀ r, upd r = 1#32) (hidx : ∀ r, (idx (ix2 r (0 : Fin 1))).toNat < 2 ^ 31)
    (k : Fin N) :
    (Host.scatter d IntOp.addi x idx upd (ix1 k)).toNat
      = (Finset.univ.filter (fun r : Fin R => (idx (ix2 r (0 : Fin 1))).toNat = k.val)).card := by
  have hfilter : Finset.univ.filter (fun r : Fin R => (idx (ix2 r (0 : Fin 1))).toInt = (k.val : ℤ))
      = Finset.univ.filter (fun r : Fin R => (idx (ix2 r (0 : Fin 1))).toNat = k.val) := by
    apply Finset.filter_congr
    intro r _
    rw [BitVec.toInt_eq_toNat_of_lt (by have := hidx r; omega)]
    omega
  rw [bincount_apply d huw hiw hsd hivd x idx upd hx hupd k, hfilter, BitVec.toNat_ofNat]
  apply Nat.mod_eq_of_lt
  have hle := Finset.card_le_univ (Finset.univ.filter (fun r : Fin R => (idx (ix2 r (0 : Fin 1))).toNat = k.val))
  rw [Fintype.card_fin] at hle
  omega

end Cert.LibWordScan
-- ==== Proof.RNzWeights.lean ====
import proofs.«103018_g28046136442917_fold_wed_c4_759_2_alg».proof.Proof.RNz
import proofs.«103018_g28046136442917_fold_wed_c4_759_2_alg».proof.Proof.Spec
import proofs.«103018_g28046136442917_fold_wed_c4_759_2_alg».proof.Proof.Algebra
import Idealize.ShloMosaic.Lib.StableHlo.Predicate
import Idealize.ShloMosaic.Lib.ValueIdx
import Idealize.ShloMosaic.Lib.Pipeline.Value
import Idealize.ShloMosaic.PureOps.Ideal

noncomputable section

namespace Cert.ReferenceIdeal.RNz

open Idealize.ShloMosaic Idealize.ShloMosaic.ValueIdx Idealize.ShloMosaic.StableHlo.Predicate
open Cert.ReferenceIdeal Cert.ReferenceIdeal.Facts₀ Cert.GcnSpec

theorem splat_apply (c : IVec S_ 32) (j : S4194304.Idx) : splat c j = c ix0 := by
  show c _ = c ix0
  exact congrArg c (eq_ix0 _)

theorem col_apply (v : IVec S4194304 32) (hb : S4194304.BroadcastsInDim S4194304x1 (![0] : Fin 1 → Fin S4194304x1.rank))
    (e : Fin 4194304) : broadcastInDim S4194304x1 ![0] hb v (ix2 e (0 : Fin 1)) = v (ix1 e) := by
  have h1 : ixP e = ix2 e (0 : Fin 1) := by
    funext a
    match a with
    | ⟨0, _⟩ => rfl
    | ⟨1, _⟩ => rfl
  have h2 : Shape.Idx.ofFin e = ix1 e := by
    funext a
    match a with
    | ⟨0, _⟩ => exact Fin.ext rfl
  have := bcast_col1 hb v e
  rwa [h1, h2] at this

theorem wrap2048_id (x : IVec S4194304 32) (hx : ∀ e : Fin 4194304, 0 ≤ (x (ix1 e)).toInt) : wrap2048 x = x := by
  funext j
  have hj : 0 ≤ (x j).toInt := by
    rw [eq_ix1 j]
    exact hx (j 0)
  have h0 : (0#32 : BitVec 32).toInt = 0 := by decide
  have hs : (x j).slt 0#32 = false := by
    simp only [BitVec.slt, h0, decide_eq_false_iff_not, not_lt]
    exact hj
  have hc : IntOp.cmpi .slt (x j) 0#32 = 0#1 := by
    unfold IntOp.cmpi
    rw [hs]
    rfl
  show Scalar.select (IntOp.cmpi .slt (x j) 0#32) (IntOp.addi (x j) 2048#32) (x j) = x j
  rw [hc, select_zero]

theorem pair_apply0 (r c : IVec S4194304 32) (hb : S4194304.BroadcastsInDim S4194304x1 (![0] : Fin 1 → Fin S4194304x1.rank))
    (hcat : Shape.Concatenates [S4194304x1, S4194304x1] S4194304x2 1) (e : Fin 4194304) :
    concatenate S4194304x2 1 [⟨S4194304x1, broadcastInDim S4194304x1 ![0] hb r⟩,
      ⟨S4194304x1, broadcastInDim S4194304x1 ![0] hb c⟩] hcat (ix2 e (0 : Fin 2)) = r (ix1 e) := by
  rw [concatenate_pair_apply_left (t := S4194304x2) (s₁ := S4194304x1) (s₂ := S4194304x1) 1 _ _ hcat (ix2 e (0 : Fin 2)) rfl
    (ix2 e (0 : Fin 1)) (fun b => by
      match b with
      | ⟨0, _⟩ => rfl
      | ⟨1, _⟩ => rfl)]
  exact col_apply r hb e

theorem pair_apply1 (r c : IVec S4194304 32) (hb : S4194304.BroadcastsInDim S4194304x1 (![0] : Fin 1 → Fin S4194304x1.rank))
    (hcat : Shape.Concatenates [S4194304x1, S4194304x1] S4194304x2 1) (e : Fin 4194304) :
    concatenate S4194304x2 1 [⟨S4194304x1, broadcastInDim S4194304x1 ![0] hb r⟩,
      ⟨S4194304x1, broadcastInDim S4194304x1 ![0] hb c⟩] hcat (ix2 e (1 : Fin 2)) = c (ix1 e) := by
  rw [concatenate_pair_apply_right (t := S4194304x2) (s₁ := S4194304x1) (s₂ := S4194304x1) 1 _ _ hcat (ix2 e (1 : Fin 2)) rfl rfl
    (ix2 e (0 : Fin 1)) (fun b hb' => by
      match b with
      | ⟨0, _⟩ => rfl
      | ⟨1, _⟩ => exact absurd (Fin.ext rfl) hb') rfl]
  exact col_apply c hb e

theorem pairGather_apply {α : Type} (x : S2048x2048.Idx → α) (idx : IVec S4194304x2 32) (e : Fin 4194304)
    (r c : Fin 2048) (hr : (idx (ix2 e (0 : Fin 2))).toInt = (r.val : Int))
    (hc : (idx (ix2 e (1 : Fin 2))).toInt = (c.val : Int)) :
    Host.gather gather_S2048x2048_S4194304x2_S4194304_n_01_n_n_01_1_11 x idx (ix1 e) = x (ix2 r c) := by
  unfold Host.gather
  refine congrArg x ?_
  funext a
  refine Fin.ext ?_
  match a with
  | ⟨0, _⟩ =>
    show gather_S2048x2048_S4194304x2_S4194304_n_01_n_n_01_1_11.start (ix1 e) idx 0 + gather_S2048x2048_S4194304x2_S4194304_n_01_n_n_01_1_11.batchCoord (ix1 e) 0 + gather_S2048x2048_S4194304x2_S4194304_n_01_n_n_01_1_11.offCoord (ix1 e) 0 = r.val
    have hc0 : (0 : Fin 2) ∈ gather_S2048x2048_S4194304x2_S4194304_n_01_n_n_01_1_11.collapsedSliceDims := by
      show (0 : Fin 2) ∈ [0, 1]
      decide
    have hm : (0 : Fin 2) ∈ gather_S2048x2048_S4194304x2_S4194304_n_01_n_n_01_1_11.startIndexMap := by
      show (0 : Fin 2) ∈ [0, 1]
      decide
    rw [gather_S2048x2048_S4194304x2_S4194304_n_01_n_n_01_1_11.batchCoord_eq_zero _ _ List.not_mem_nil,
      gather_S2048x2048_S4194304x2_S4194304_n_01_n_n_01_1_11.offCoord_eq_zero _ _ (fun h => ((gather_S2048x2048_S4194304x2_S4194304_n_01_n_n_01_1_11.mem_sKept _).mp h).1 hc0), Nat.add_zero]
    unfold GatherDims.start
    rw [dif_pos hm, gather_S2048x2048_S4194304x2_S4194304_n_01_n_n_01_1_11.slice_collapsed 0 hc0]
    have hsi : gather_S2048x2048_S4194304x2_S4194304_n_01_n_n_01_1_11.siIdx (ix1 e) ⟨List.idxOf (0 : Fin 2) gather_S2048x2048_S4194304x2_S4194304_n_01_n_n_01_1_11.startIndexMap, List.idxOf_lt_length_iff.2 hm⟩
        = ix2 e (0 : Fin 2) := by
      funext b
      refine Fin.ext ?_
      match b with
      | ⟨0, _⟩ => rfl
      | ⟨1, _⟩ => rfl
    rw [hsi]
    show min (idx (ix2 e (0 : Fin 2))).toInt.toNat (2048 - 1) = r.val
    rw [hr]
    have := r.isLt
    omega
  | ⟨1, _⟩ =>
    show gather_S2048x2048_S4194304x2_S4194304_n_01_n_n_01_1_11.start (ix1 e) idx 1 + gather_S2048x2048_S4194304x2_S4194304_n_01_n_n_01_1_11.batchCoord (ix1 e) 1 + gather_S2048x2048_S4194304x2_S4194304_n_01_n_n_01_1_11.offCoord (ix1 e) 1 = c.val
    have hc1 : (1 : Fin 2) ∈ gather_S2048x2048_S4194304x2_S4194304_n_01_n_n_01_1_11.collapsedSliceDims := by
      show (1 : Fin 2) ∈ [0, 1]
      decide
    have hm : (1 : Fin 2) ∈ gather_S2048x2048_S4194304x2_S4194304_n_01_n_n_01_1_11.startIndexMap := by
      show (1 : Fin 2) ∈ [0, 1]
      decide
    rw [gather_S2048x2048_S4194304x2_S4194304_n_01_n_n_01_1_11.batchCoord_eq_zero _ _ List.not_mem_nil,
      gather_S2048x2048_S4194304x2_S4194304_n_01_n_n_01_1_11.offCoord_eq_zero _ _ (fun h => ((gather_S2048x2048_S4194304x2_S4194304_n_01_n_n_01_1_11.mem_sKept _).mp h).1 hc1), Nat.add_zero]
    unfold GatherDims.start
    rw [dif_pos hm, gather_S2048x2048_S4194304x2_S4194304_n_01_n_n_01_1_11.slice_collapsed 1 hc1]
    have hsi : gather_S2048x2048_S4194304x2_S4194304_n_01_n_n_01_1_11.siIdx (ix1 e) ⟨List.idxOf (1 : Fin 2) gather_S2048x2048_S4194304x2_S4194304_n_01_n_n_01_1_11.startIndexMap, List.idxOf_lt_length_iff.2 hm⟩
        = ix2 e (1 : Fin 2) := by
      funext b
      refine Fin.ext ?_
      match b with
      | ⟨0, _⟩ => rfl
      | ⟨1, _⟩ => rfl
    rw [hsi]
    show min (idx (ix2 e (1 : Fin 2))).toInt.toNat (2048 - 1) = c.val
    rw [hc]
    have := c.isLt
    omega

theorem gatherV_apply (adj : FVec Ideal S2048x2048 .f32) (R C : Fin 4194304 → Fin 2048)
    (hR : ∀ e, (rowW adj (ix1 e)).toInt = ((R e).val : Int)) (hC : ∀ e, (colW adj (ix1 e)).toInt = ((C e).val : Int))
    (e : Fin 4194304) : gatherV adj (ix1 e) = adj (ix2 (R e) (C e)) := by
  have hwr : wrap2048 (rowW adj) = rowW adj := wrap2048_id _ fun e => by rw [hR e]; exact Int.natCast_nonneg _
  have hwc : wrap2048 (colW adj) = colW adj := wrap2048_id _ fun e => by rw [hC e]; exact Int.natCast_nonneg _
  unfold gatherV pairV
  rw [hwr, hwc]
  exact pairGather_apply adj _ e (R e) (C e) (by rw [pair_apply0]; exact hR e) (by rw [pair_apply1]; exact hC e)

theorem validV_apply (adj : FVec Ideal S2048x2048 .f32) (T : Nat) (hT : (cnt2V adj ix0).toNat = T) (hT' : T ≤ 4194304)
    (e : Fin 4194304) : validV adj (ix1 e) = if e.val < T then f1 else f0 := by
  have he := e.isLt
  have hcnt : splat (cnt2V adj) (ix1 e) = cnt2V adj ix0 := splat_apply _ _
  have hbit : IntOp.cmpi .slt (BitVec.ofNat 32 e.val) (cnt2V adj ix0) = if e.val < T then 1#1 else 0#1 := by
    have hmod : e.val % 2 ^ 32 = e.val := Nat.mod_eq_of_lt (by omega)
    have ha : (BitVec.ofNat 32 e.val).toNat < 2 ^ 31 := by
      rw [BitVec.toNat_ofNat, hmod]
      omega
    have hb : (cnt2V adj ix0).toNat < 2 ^ 31 := by
      rw [hT]
      omega
    have hiff := slt_iff_toNat ha hb
    rw [BitVec.toNat_ofNat, hmod, hT] at hiff
    by_cases h : e.val < T
    · rw [if_pos h]
      exact hiff.2 h
    · rw [if_neg h]
      exact eq_zero_of_ne_one fun h1 => h (hiff.1 h1)
  show (((IntOp.cmpi .slt (BitVec.ofNat 32 e.val) (splat (cnt2V adj) (ix1 e))).toNat : ℝ) : EReal) = _
  rw [hcnt, hbit]
  by_cases h : e.val < T
  · rw [if_pos h, if_pos h, Cert.GcnAlgebra.f1_eq]
    simp
  · rw [if_neg h, if_neg h, Cert.GcnAlgebra.f0_eq]
    simp

theorem ewV_apply (adj : FVec Ideal S2048x2048 .f32) (R C : Fin 4194304 → Fin 2048)
    (hR : ∀ e, (rowW adj (ix1 e)).toInt = ((R e).val : Int)) (hC : ∀ e, (colW adj (ix1 e)).toInt = ((C e).val : Int))
    (T : Nat) (hT : (cnt2V adj ix0).toNat = T) (hT' : T ≤ 4194304) (e : Fin 4194304) :
    ewV adj (ix1 e) = adj (ix2 (R e) (C e)) * (if e.val < T then f1 else f0) := by
  show gatherV adj (ix1 e) * validV adj (ix1 e) = _
  rw [gatherV_apply adj R C hR hC e, validV_apply adj T hT hT' e]

end Cert.ReferenceIdeal.RNz

end
-- ==== Proof.RNzRead.lean ====
import proofs.«103018_g28046136442917_fold_wed_c4_759_2_alg».proof.Proof.RNz
import proofs.«103018_g28046136442917_fold_wed_c4_759_2_alg».proof.Proof.LibWordScan
import proofs.«103018_g28046136442917_fold_wed_c4_759_2_alg».proof.Proof.RNzWeights
import Idealize.ShloMosaic.PureOps.Reduce
import Idealize.ShloMosaic.PureOps.Ideal.Laws
import Idealize.ShloMosaic.Lib.Pipeline.Value
import Mathlib.Algebra.BigOperators.Fin
import Mathlib.Logic.Equiv.Fin.Basic

noncomputable section

namespace Cert.ReferenceIdeal.RNz

open Idealize.ShloMosaic Idealize.SL.Sem Idealize.ShloMosaic.ValueIdx Idealize.ShloMosaic.StableHlo.Predicate
open Cert.ReferenceIdeal Cert.ReferenceIdeal.Facts₀
open Cert.LibNonzero Cert.LibWordScan

abbrev nE : ℕ := 4194304

def entry (adj : FVec Ideal S2048x2048 .f32) (p : ℕ) : EReal :=
  if h : p < nE then adj (ix2 ⟨p / 2048, by unfold nE at h; omega⟩ ⟨p % 2048, Nat.mod_lt _ (by norm_num)⟩) else 0

def nz (adj : FVec Ideal S2048x2048 .f32) (p : ℕ) : Bool := decide (entry adj p ≠ 0)

abbrev tot (adj : FVec Ideal S2048x2048 .f32) : ℕ := total (nz adj) nE

theorem splat_at (c : IVec S_ 32) (i : S4194304.Idx) : splat c i = c ix0 := bcast0_apply bcast_S_S4194304 c i

theorem col_at (v : IVec S4194304 32) (r : Fin nE) :
    broadcastInDim S4194304x1 ![0] bcast_S4194304_S4194304x1_0 v (ix2 r (0 : Fin 1)) = v (ix1 r) := by
  simp only [broadcastInDim]
  congr 1
  funext a
  match a with
  | ⟨0, _⟩ =>
    apply Fin.ext
    split
    · next h1 => change (4194304 : ℕ) = 1 at h1; omega
    · rfl

theorem maxsi_zero_left {w : BitVec 32} (hw : w.toNat < 2 ^ 31) : IntOp.maxsi 0#32 w = w := by
  unfold IntOp.maxsi
  have h : ¬ (IntOp.cmpi .slt w 0#32 = 1#1) := by
    rw [slt_iff_toNat hw (by decide)]
    exact Nat.not_lt_zero _
  unfold IntOp.cmpi at h
  rw [ofBool_eq_one_iff] at h
  rw [if_neg h]

theorem slt_zero_eq {w : BitVec 32} (hw : w.toNat < 2 ^ 31) : IntOp.cmpi .slt w 0#32 = 0#1 := by
  apply eq_zero_of_ne_one
  rw [slt_iff_toNat hw (by decide)]
  exact Nat.not_lt_zero _

theorem reshape_ix1 (p : Fin nE) :
    Shape.reshapeEquiv shapeCasts_S2048x2048_S4194304 (ix1 p : S4194304.Idx)
      = (ix2 ⟨p.val / 2048, by have := p.isLt; unfold nE at this; omega⟩ ⟨p.val % 2048, Nat.mod_lt _ (by norm_num)⟩ : S2048x2048.Idx) := by
  apply Shape.reshapeEquiv_eq_of_rowMajor
  rw [Shape.rowMajor_val_two, Shape.rowMajor_val_one]
  show p.val / 2048 * 2048 + p.val % 2048 = p.val
  exact Nat.div_add_mod' _ _

theorem maskV_apply (adj : FVec Ideal S2048x2048 .f32) (i : S2048x2048.Idx) :
    maskV adj i = BitVec.ofBool (decide (adj i ≠ 0)) := by
  unfold maskV
  rw [cmpf_apply, bcast0_apply]
  show Ideal.cmp .une (adj i) (Ideal.ofBits .f32 0x00000000#32) = _
  rw [Ideal.ofBits_zero_f32]
  rfl

theorem flatV_apply (adj : FVec Ideal S2048x2048 .f32) (p : Fin nE) :
    flatV adj (ix1 p) = if nz adj p.val = true then 1#32 else 0#32 := by
  have hp := p.isLt
  unfold flatV
  rw [extui_apply]
  unfold shapeCast
  rw [reshape_ix1, maskV_apply]
  unfold nz entry
  rw [dif_pos hp]
  generalize decide (adj _ ≠ 0) = b
  cases b <;> rfl

theorem flatV_bit (adj : FVec Ideal S2048x2048 .f32) (j : S4194304.Idx) : flatV adj j = 0#32 ∨ flatV adj j = 1#32 := by
  have hj : j = ix1 (⟨(j 0).val, (j 0).isLt⟩ : Fin nE) := by
    funext d
    match d with
    | ⟨0, _⟩ => rfl
  rw [hj, flatV_apply]
  split
  · exact Or.inr rfl
  · exact Or.inl rfl

theorem maskOf_flatV (adj : FVec Ideal S2048x2048 .f32) : maskOf (flatV adj) = nz adj := by
  funext j
  unfold maskOf
  split
  · next h =>
    rw [flatV_apply adj ⟨j, h⟩]
    show decide ((if nz adj j = true then 1#32 else 0#32) = 1#32) = nz adj j
    cases nz adj j <;> rfl
  · next h =>
    unfold nz entry
    rw [dif_neg h]
    simp

theorem cumV_toNat (adj : FVec Ideal S2048x2048 .f32) (p : Fin nE) :
    (cumV adj (ix1 p)).toNat = cnt (nz adj) p.val := by
  have h := toNat_scan_bits_apply (n := 4194304) (lo := 4194303) (by norm_num) (by norm_num) (flatV adj)
    (broadcastInDim S_ ![] bcast_S_S_ (lit 0#32)) reduceWindows_S4194304_S4194304_w4194304s1p4194303_0 h_S_ rfl
    (flatV_bit adj) p
  rw [maskOf_flatV] at h
  exact h

theorem cumV_lt (adj : FVec Ideal S2048x2048 .f32) (p : Fin nE) : (cumV adj (ix1 p)).toNat < 2 ^ 31 := by
  rw [cumV_toNat]
  have h1 := cnt_le (nz adj) p.val
  have h2 := p.isLt
  unfold nE at h2
  omega

theorem clipV_apply (adj : FVec Ideal S2048x2048 .f32) (p : Fin nE) : clipV adj (ix1 p) = cumV adj (ix1 p) := by
  unfold clipV
  show IntOp.maxsi (splat (id (lit 0#32)) (ix1 p)) (cumV adj (ix1 p)) = _
  rw [splat_at]
  exact maxsi_zero_left (cumV_lt adj p)

theorem wrapV_apply (adj : FVec Ideal S2048x2048 .f32) (p : Fin nE) : wrapV adj (ix1 p) = cumV adj (ix1 p) := by
  unfold wrapV
  rw [select_apply]
  show Scalar.select (IntOp.cmpi .slt (clipV adj (ix1 p)) (splat (lit 0#32) (ix1 p))) _ _ = _
  rw [splat_at, clipV_apply]
  show Scalar.select (IntOp.cmpi .slt (cumV adj (ix1 p)) 0#32) _ _ = _
  rw [slt_zero_eq (cumV_lt adj p), select_zero]

theorem binV_toNat (adj : FVec Ideal S2048x2048 .f32) (k : Fin nE) :
    (binV adj (ix1 k)).toNat = bin (nz adj) nE k.val := by
  have hf : ∀ r : Fin 4194304,
      ((broadcastInDim S4194304x1 ![0] bcast_S4194304_S4194304x1_0 (wrapV adj)) (ix2 r (0 : Fin 1))).toNat = k.val
        ↔ cnt (nz adj) r.val = k.val := fun r => by rw [col_at, wrapV_apply, cumV_toNat]
  unfold binV
  refine (toNat_bincount_apply (N := 4194304) (R := 4194304) (by norm_num)
    scatter_S4194304_S4194304x1_S4194304_n_0_0_1 rfl rfl rfl rfl _ _ _
    (by intro i; exact splat_at _ i) (by intro i; exact splat_at _ i)
    (by intro r; rw [col_at, wrapV_apply]; exact cumV_lt adj r) k).trans ?_
  rw [Finset.filter_congr (fun r _ => hf r)]
  exact card_fin_filter_eq_range 4194304 (fun i => cnt (nz adj) i = k.val)

theorem natAt_binV (adj : FVec Ideal S2048x2048 .f32) {j : ℕ} (hj : j < nE) :
    natAt (binV adj) j = bin (nz adj) nE j := by
  unfold natAt
  rw [dif_pos hj]
  exact binV_toNat adj ⟨j, hj⟩

theorem posV_apply (adj : FVec Ideal S2048x2048 .f32) (k : Fin nE) :
    posV adj (ix1 k) = BitVec.ofNat 32 (pos (nz adj) nE k.val) := by
  have h := scan_apply (n := 4194304) (lo := 4194303) (by norm_num) (binV adj)
    (broadcastInDim S_ ![] bcast_S_S_ (lit 0#32)) reduceWindows_S4194304_S4194304_w4194304s1p4194303_0 h_S_ rfl k
  have hs : ∑ j ∈ Finset.range (k.val + 1), natAt (binV adj) j = pos (nz adj) nE k.val := by
    rw [pos_eq_sum_bin]
    apply Finset.sum_congr rfl
    intro j hj
    rw [Finset.mem_range] at hj
    have := k.isLt
    exact natAt_binV adj (by omega)
  rw [hs] at h
  exact h

theorem posV_toNat (adj : FVec Ideal S2048x2048 .f32) (k : Fin nE) :
    (posV adj (ix1 k)).toNat = pos (nz adj) nE k.val := by
  rw [posV_apply, BitVec.toNat_ofNat]
  have : pos (nz adj) nE k.val ≤ 4194304 := pos_le (nz adj) nE k.val
  exact Nat.mod_eq_of_lt (by omega)

theorem posV_lt (adj : FVec Ideal S2048x2048 .f32) (k : Fin nE) : (posV adj (ix1 k)).toNat < 2 ^ 31 := by
  rw [posV_toNat]
  have : pos (nz adj) nE k.val ≤ 4194304 := pos_le (nz adj) nE k.val
  omega

theorem floorDivV_apply (x : IVec S4194304 32) (d : IVec S_ 32) (i : S4194304.Idx) :
    floorDivV x d i = floorDivWord (x i) (d ix0) :=
  floorDivVec_apply bcast_S_S4194304 x d i

theorem remainderV_apply (x : IVec S4194304 32) (d : IVec S_ 32) (i : S4194304.Idx) :
    remainderV x d i = remWord (x i) (d ix0) := by
  refine (remainderVec_apply bcast_S_S4194304 x (remDivisor d) i).trans ?_
  have hd : remDivisor d ix0 = remDivisorWord (d ix0) := remDivisorVec_apply d
  rw [hd]
  rfl

theorem rowRawV_toNat (adj : FVec Ideal S2048x2048 .f32) (k : Fin nE) :
    (rowRawV adj (ix1 k)).toNat = pos (nz adj) nE k.val / 2048 % 2048 := by
  unfold rowRawV
  rw [remainderV_apply, floorDivV_apply]
  show (remWord (floorDivWord (posV adj (ix1 k)) 2048#32) 2048#32).toNat = _
  have h1 := toNat_floorDivWord_2048 (posV_lt adj k)
  have h2 := posV_lt adj k
  rw [toNat_remWord_2048 (by rw [h1]; omega), h1, posV_toNat]

theorem colRawV_toNat (adj : FVec Ideal S2048x2048 .f32) (k : Fin nE) :
    (colRawV adj (ix1 k)).toNat = pos (nz adj) nE k.val % 2048 := by
  unfold colRawV
  rw [remainderV_apply, floorDivV_apply]
  show (remWord (floorDivWord (posV adj (ix1 k)) 1#32) 2048#32).toNat = _
  rw [floorDivWord_one (posV_lt adj k), toNat_remWord_2048 (posV_lt adj k), posV_toNat]

theorem sum_rows_cols {M : Type*} [AddCommMonoid M] (f : Fin 2048 → Fin 2048 → M) :
    ∑ r : Fin 2048, ∑ c : Fin 2048, f r c
      = ∑ p ∈ Finset.range nE, if h : p < nE then
          f ⟨p / 2048, by unfold nE at h; omega⟩ ⟨p % 2048, Nat.mod_lt _ (by norm_num)⟩ else 0 := by
  rw [← Fin.sum_univ_eq_sum_range (fun p => if h : p < nE then
      f ⟨p / 2048, by unfold nE at h; omega⟩ ⟨p % 2048, Nat.mod_lt _ (by norm_num)⟩ else 0) nE]
  rw [← Fintype.sum_prod_type']
  rw [← Equiv.sum_comp (finProdFinEquiv (m := 2048) (n := 2048)).symm (fun x : Fin 2048 × Fin 2048 => f x.1 x.2)]
  apply Finset.sum_congr rfl
  intro p _
  rw [dif_pos p.isLt]
  rfl

theorem nz_iff (adj : FVec Ideal S2048x2048 .f32) {p : ℕ} (hp : p < nE) :
    nz adj p = true
      ↔ adj (ix2 ⟨p / 2048, by unfold nE at hp; omega⟩ ⟨p % 2048, Nat.mod_lt _ (by norm_num)⟩) ≠ 0 := by
  unfold nz
  rw [decide_eq_true_eq]
  unfold entry
  rw [dif_pos hp]

theorem cntV_toNat (adj : FVec Ideal S2048x2048 .f32) : (cntV adj ix0).toNat = tot adj := by
  unfold cntV
  rw [Host.reduce_eq_fold]
  have hf : (Finset.univ.filter fun i : S2048x2048.Idx => reducesTo_S2048x2048_S_d0_1.drop i = (ix0 : S_.Idx))
      = Finset.univ := by
    apply Finset.filter_true_of_mem
    intro i _
    funext a
    exact a.elim0
  rw [hf]
  show (Finset.univ.fold IntOp.addi 0#32 (extui 32 (maskV adj) natLt_1_32)).toNat = _
  have hterm : ∀ i : S2048x2048.Idx, (extui 32 (maskV adj) natLt_1_32 i).toNat = if adj i ≠ 0 then 1 else 0 := by
    intro i
    rw [extui_apply, maskV_apply, toNat_setWidth_bit]
    by_cases h : adj i ≠ 0
    · rw [if_pos h, if_pos ((ofBool_eq_one_iff _).2 (decide_eq_true h))]
    · rw [if_neg h, if_neg (fun hc => h (of_decide_eq_true ((ofBool_eq_one_iff _).1 hc)))]
  have hsum : ∑ i : S2048x2048.Idx, (extui 32 (maskV adj) natLt_1_32 i).toNat = tot adj := by
    rw [Finset.sum_congr rfl (fun i _ => hterm i), sum_idx2,
      sum_rows_cols (fun r c => if adj (ix2 r c) ≠ 0 then 1 else 0)]
    show _ = ((Finset.range nE).filter (fun j => nz adj j = true)).card
    rw [Finset.card_filter]
    apply Finset.sum_congr rfl
    intro p hp
    rw [Finset.mem_range] at hp
    rw [dif_pos hp]
    have hiff := nz_iff adj hp
    by_cases h : nz adj p = true
    · rw [if_pos h, if_pos (hiff.1 h)]
    · rw [if_neg h, if_neg (fun hc => h (hiff.2 hc))]
  have hlt : ∑ i : S2048x2048.Idx, (extui 32 (maskV adj) natLt_1_32 i).toNat < 2 ^ 32 := by
    rw [hsum]
    have : tot adj ≤ 4194304 := total_le (nz adj) nE
    omega
  rw [toNat_fold_addi Finset.univ _ hlt, hsum]

theorem cnt2V_eq (adj : FVec Ideal S2048x2048 .f32) : cnt2V adj = cntV adj := rfl

theorem cnt2V_toNat (adj : FVec Ideal S2048x2048 .f32) : (cnt2V adj ix0).toNat = tot adj := by
  rw [cnt2V_eq, cntV_toNat]

theorem tot_le (adj : FVec Ideal S2048x2048 .f32) : tot adj ≤ nE := total_le (nz adj) nE

def flatPos (adj : FVec Ideal S2048x2048 .f32) (e : Fin nE) : ℕ :=
  if e.val < tot adj then pos (nz adj) nE e.val else 0

theorem flatPos_of_lt (adj : FVec Ideal S2048x2048 .f32) {e : Fin nE} (h : e.val < tot adj) :
    flatPos adj e = pos (nz adj) nE e.val := if_pos h

theorem flatPos_of_ge (adj : FVec Ideal S2048x2048 .f32) {e : Fin nE} (h : ¬ e.val < tot adj) :
    flatPos adj e = 0 := if_neg h

theorem flatPos_lt (adj : FVec Ideal S2048x2048 .f32) (e : Fin nE) : flatPos adj e < nE := by
  unfold flatPos
  split
  · next h => exact pos_lt h
  · norm_num

def rowI (adj : FVec Ideal S2048x2048 .f32) (e : Fin nE) : Fin 2048 :=
  ⟨flatPos adj e / 2048, by have := flatPos_lt adj e; unfold nE at this; omega⟩

def colI (adj : FVec Ideal S2048x2048 .f32) (e : Fin nE) : Fin 2048 :=
  ⟨flatPos adj e % 2048, Nat.mod_lt _ (by norm_num)⟩

theorem beyondV_apply (adj : FVec Ideal S2048x2048 .f32) (e : Fin nE) :
    beyondV adj (ix1 e) = 1#1 ↔ tot adj ≤ e.val := by
  unfold beyondV
  show IntOp.cmpi .sge (BitVec.ofNat 32 e.val) (splat (cntV adj) (ix1 e)) = 1#1 ↔ _
  rw [splat_at]
  have he := e.isLt
  unfold nE at he
  have ht := tot_le adj
  unfold nE at ht
  have h1 : (BitVec.ofNat 32 e.val).toNat = e.val := by
    rw [BitVec.toNat_ofNat]; exact Nat.mod_eq_of_lt (by omega)
  rw [sge_iff_toNat (by rw [h1]; omega) (by rw [cntV_toNat]; omega), h1, cntV_toNat]

theorem where3V_zero_apply (adj : FVec Ideal S2048x2048 .f32) (x : IVec S4194304 32) (e : Fin nE) :
    where3V (beyondV adj) (lit 0#32) x (ix1 e) = if e.val < tot adj then x (ix1 e) else 0#32 := by
  unfold where3V
  rw [select_apply, splat_at]
  show Scalar.select (beyondV adj (ix1 e)) 0#32 (x (ix1 e)) = _
  by_cases h : e.val < tot adj
  · rw [if_pos h]
    have hb : beyondV adj (ix1 e) = 0#1 := eq_zero_of_ne_one (fun hc => by
      have := (beyondV_apply adj e).1 hc
      omega)
    rw [hb, select_zero]
  · rw [if_neg h]
    have hb : beyondV adj (ix1 e) = 1#1 := (beyondV_apply adj e).2 (by omega)
    rw [hb, select_one]

theorem rowW_toNat (adj : FVec Ideal S2048x2048 .f32) (e : Fin nE) : (rowW adj (ix1 e)).toNat = (rowI adj e).val := by
  show _ = flatPos adj e / 2048
  unfold rowW
  rw [where3V_zero_apply]
  by_cases h : e.val < tot adj
  · rw [if_pos h, flatPos_of_lt adj h, rowRawV_toNat]
    have : pos (nz adj) nE e.val < 4194304 := pos_lt h
    exact Nat.mod_eq_of_lt (by omega)
  · rw [if_neg h, flatPos_of_ge adj h]
    rfl

theorem colW_toNat (adj : FVec Ideal S2048x2048 .f32) (e : Fin nE) : (colW adj (ix1 e)).toNat = (colI adj e).val := by
  show _ = flatPos adj e % 2048
  unfold colW
  rw [where3V_zero_apply]
  by_cases h : e.val < tot adj
  · rw [if_pos h, flatPos_of_lt adj h, colRawV_toNat]
  · rw [if_neg h, flatPos_of_ge adj h]
    rfl

theorem rowW_toInt (adj : FVec Ideal S2048x2048 .f32) (e : Fin nE) :
    (rowW adj (ix1 e)).toInt = ((rowI adj e).val : Int) := by
  have h := rowW_toNat adj e
  have hlt := (rowI adj e).isLt
  rw [toInt_eq_toNat_of_lt (by omega), h]

theorem colW_toInt (adj : FVec Ideal S2048x2048 .f32) (e : Fin nE) :
    (colW adj (ix1 e)).toInt = ((colI adj e).val : Int) := by
  have h := colW_toNat adj e
  have hlt := (colI adj e).isLt
  rw [toInt_eq_toNat_of_lt (by omega), h]

def atPos {M : Type*} [AddCommMonoid M] (adj : FVec Ideal S2048x2048 .f32) (c : Fin 2048) (φ : Fin 2048 → EReal → M)
    (p : ℕ) : M :=
  if h : p < nE then
    (if (⟨p % 2048, Nat.mod_lt _ (by norm_num)⟩ : Fin 2048) = c then
      φ ⟨p / 2048, by unfold nE at h; omega⟩
        (adj (ix2 ⟨p / 2048, by unfold nE at h; omega⟩ ⟨p % 2048, Nat.mod_lt _ (by norm_num)⟩))
    else 0)
  else 0

theorem term_eq_atPos {M : Type*} [AddCommMonoid M] (adj : FVec Ideal S2048x2048 .f32) (c : Fin 2048)
    (φ : Fin 2048 → EReal → M) (e : Fin nE) :
    (if colI adj e = c then φ (rowI adj e) (adj (ix2 (rowI adj e) (colI adj e))) else 0)
      = atPos adj c φ (flatPos adj e) := by
  unfold atPos
  rw [dif_pos (flatPos_lt adj e)]
  rfl

theorem atPos_of_not_nz {M : Type*} [AddCommMonoid M] (adj : FVec Ideal S2048x2048 .f32) (c : Fin 2048)
    (φ : Fin 2048 → EReal → M) (hφ : ∀ r, φ r 0 = 0) {p : ℕ} (hp : nz adj p = false) : atPos adj c φ p = 0 := by
  unfold atPos
  split
  · next h =>
    have h0 : entry adj p = 0 := by
      unfold nz at hp
      rw [decide_eq_false_iff_not, not_not] at hp
      exact hp
    unfold entry at h0
    rw [dif_pos h] at h0
    rw [h0]
    split
    · exact hφ _
    · rfl
  · rfl

theorem sum_edges_of {M : Type*} [AddCommMonoid M] (adj : FVec Ideal S2048x2048 .f32) (c : Fin 2048)
    (φ : Fin 2048 → EReal → M) (hφ : ∀ r, φ r 0 = 0) (ew : Fin nE → EReal)
    (hew : ∀ e, ew e = adj (ix2 (rowI adj e) (colI adj e)) * (if e.val < tot adj then (1 : EReal) else 0)) :
    ∑ e : Fin nE, (if colI adj e = c then φ (rowI adj e) (ew e) else 0) = ∑ r : Fin 2048, φ r (adj (ix2 r c)) := by
  have hterm : ∀ e : Fin nE, (if colI adj e = c then φ (rowI adj e) (ew e) else 0)
      = if e.val < tot adj then atPos adj c φ (pos (nz adj) nE e.val) else 0 := by
    intro e
    rw [hew e]
    by_cases h : e.val < tot adj
    · rw [if_pos h, if_pos h, mul_one, term_eq_atPos, flatPos_of_lt adj h]
    · rw [if_neg h, if_neg h, mul_zero]
      split
      · exact hφ _
      · rfl
  rw [Finset.sum_congr rfl (fun e _ => hterm e)]
  rw [Fin.sum_univ_eq_sum_range (fun e => if e < tot adj then atPos adj c φ (pos (nz adj) nE e) else 0) nE,
    ← Finset.sum_filter]
  have hrange : (Finset.range nE).filter (fun e => e < tot adj) = Finset.range (tot adj) := by
    ext e
    rw [Finset.mem_filter, Finset.mem_range, Finset.mem_range]
    have := tot_le adj
    omega
  rw [hrange]
  rw [sum_pos (nz adj) nE (atPos adj c φ), Finset.sum_filter]
  have hall : ∀ p ∈ Finset.range nE, (if nz adj p = true then atPos adj c φ p else 0) = atPos adj c φ p := by
    intro p _
    split
    · rfl
    · next h => exact (atPos_of_not_nz adj c φ hφ (Bool.eq_false_iff.2 h)).symm
  rw [Finset.sum_congr rfl hall]
  have hrc := sum_rows_cols (fun r c' => if c' = c then φ r (adj (ix2 r c')) else 0)
  have hat : ∀ p ∈ Finset.range nE, atPos adj c φ p
      = if h : p < nE then
          (fun r c' => if c' = c then φ r (adj (ix2 r c')) else 0)
            ⟨p / 2048, by unfold nE at h; omega⟩ ⟨p % 2048, Nat.mod_lt _ (by norm_num)⟩ else 0 := by
    intro p _
    rfl
  rw [Finset.sum_congr rfl hat, ← hrc]
  apply Finset.sum_congr rfl
  intro r _
  rw [Finset.sum_ite_eq' Finset.univ c (fun c' => φ r (adj (ix2 r c'))), if_pos (Finset.mem_univ c)]

theorem sum_edges {M : Type*} [AddCommMonoid M] (adj : FVec Ideal S2048x2048 .f32) (hreal : GcnSpec.IsReal adj)
    (c : Fin 2048) (φ : Fin 2048 → EReal → M) (hφ : ∀ r, φ r 0 = 0) :
    ∑ e : Fin 4194304, (if colI adj e = c then φ (rowI adj e) (ewV adj (ix1 e)) else 0)
      = ∑ r : Fin 2048, φ r (adj (ix2 r c)) := by
  have _ := hreal
  refine sum_edges_of adj c φ hφ (fun e => ewV adj (ix1 e)) (fun e => ?_)
  rw [ewV_apply adj (rowI adj) (colI adj) (rowW_toInt adj) (colW_toInt adj) (tot adj) (cnt2V_toNat adj) (tot_le adj) e,
    Cert.GcnAlgebra.f1_eq, Cert.GcnAlgebra.f0_eq]

end Cert.ReferenceIdeal.RNz

end
-- ==== Proof.RTerm.lean ====
import proofs.«103018_g28046136442917_fold_wed_c4_759_2_alg».proof.Proof.RBn
import proofs.«103018_g28046136442917_fold_wed_c4_759_2_alg».proof.Proof.RNz
import proofs.«103018_g28046136442917_fold_wed_c4_759_2_alg».proof.Proof.RConv
import proofs.«103018_g28046136442917_fold_wed_c4_759_2_alg».proof.Proof.RNzRead

noncomputable section

namespace Cert.ReferenceIdeal.RTerm

open Idealize.ShloMosaic Idealize.ShloMosaic.ValueIdx
open Cert.GcnSpec Cert.GcnAlgebra
open Cert.ReferenceIdeal.RBn Cert.ReferenceIdeal.RNz Cert.ReferenceIdeal.RConv

def refTerm (x : FVec Ideal S2048x64 .f32) (adj : FVec Ideal S2048x2048 .f32) (w1 : FVec Ideal S64x32 .f32)
    (b1 g1 be1 : FVec Ideal S32 .f32) (w2 : FVec Ideal S32x32 .f32) (b2 g2 be2 : FVec Ideal S32 .f32) :
    FVec Ideal S2048x32 .f32 :=
  bnR (convR (rowW adj) (colW adj) (ewV adj)
    (dotR2 (reluR (bnR (convR (rowW adj) (colW adj) (ewV adj) (dotR1 x w1) b1) g1 be1)) w2) b2) g2 be2

theorem arr_ext {a b : Nat} {u : (⟨2, ![a, b]⟩ : Shape).Idx → EReal} {f : Mat a b}
    (h : ∀ r k, u (ix2 r k) = f r k) : u = toArr f :=
  funext fun i => by
    obtain ⟨r, k, rfl⟩ : ∃ (r : Fin a) (k : Fin b), i = ix2 r k := ⟨i 0, i 1, eq_ix2 i⟩
    exact h r k

theorem mat_toArr {a b : Nat} (f : Mat a b) : mat (toArr f) = f := rfl

theorem isReal_toArr {a b : Nat} {f : Mat a b} (h : MatReal f) : IsReal (toArr f) := fun i => h (i 0) (i 1)

theorem convW_apply (adj : FVec Ideal S2048x2048 .f32) (H : FVec Ideal S2048x32 .f32) (b : FVec Ideal S32 .f32)
    (hadj : IsReal adj) (hH : IsReal H) (hb : IsReal b) (c : Fin 2048) (j : Fin 32) :
    convR (rowW adj) (colW adj) (ewV adj) H b (ix2 c j) = conv (mat adj) (mat H) (vect b) c j :=
  convR_apply (rowI adj) (colI adj) (rowW_toInt adj) (colW_toInt adj)
    (fun c φ hφ => sum_edges adj hadj c φ hφ) hadj hH hb c j

theorem refTerm_eq (x : FVec Ideal S2048x64 .f32) (adj : FVec Ideal S2048x2048 .f32) (w1 : FVec Ideal S64x32 .f32)
    (b1 g1 be1 : FVec Ideal S32 .f32) (w2 : FVec Ideal S32x32 .f32) (b2 g2 be2 : FVec Ideal S32 .f32)
    (hx : IsReal x) (hadj : IsReal adj) (hw1 : IsReal w1) (hb1 : IsReal b1) (hg1 : IsReal g1) (hbe1 : IsReal be1)
    (hw2 : IsReal w2) (hb2 : IsReal b2) (hg2 : IsReal g2) (hbe2 : IsReal be2) :
    refTerm x adj w1 b1 g1 be1 w2 b2 g2 be2 = result x adj w1 b1 g1 be1 w2 b2 g2 be2 := by
  have hX := mat_real hx
  have hA := mat_real hadj
  have hW1 := mat_real hw1
  have hB1 := vect_real hb1
  have hG1 := vect_real hg1
  have hBE1 := vect_real hbe1
  have hW2 := mat_real hw2
  have hB2 := vect_real hb2
  have hG2 := vect_real hg2
  have hBE2 := vect_real hbe2
  have e1 : dotR1 x w1 = toArr (lin (mat x) (mat w1)) := arr_ext fun r k => dotR1_apply x w1 r k
  have e2 : convR (rowW adj) (colW adj) (ewV adj) (toArr (lin (mat x) (mat w1))) b1
      = toArr (y1 (mat x) (mat adj) (mat w1) (vect b1)) :=
    arr_ext fun c j => convW_apply adj _ b1 hadj (isReal_toArr (lin_real hX hW1)) hb1 c j
  have e3 : bnR (toArr (y1 (mat x) (mat adj) (mat w1) (vect b1))) g1 be1
      = toArr (bn (y1 (mat x) (mat adj) (mat w1) (vect b1)) (vect g1) (vect be1)) :=
    arr_ext fun r k => bnR_apply _ g1 be1 (isReal_toArr (y1_real hX hA hW1 hB1)) hg1 hbe1 r k
  have e4 : reluR (toArr (bn (y1 (mat x) (mat adj) (mat w1) (vect b1)) (vect g1) (vect be1)))
      = toArr (a1 (mat x) (mat adj) (mat w1) (vect b1) (vect g1) (vect be1)) :=
    arr_ext fun r k => reluR_apply _ r k
  have e5 : dotR2 (toArr (a1 (mat x) (mat adj) (mat w1) (vect b1) (vect g1) (vect be1))) w2
      = toArr (lin (a1 (mat x) (mat adj) (mat w1) (vect b1) (vect g1) (vect be1)) (mat w2)) :=
    arr_ext fun r k => dotR2_apply _ w2 r k
  have e6 : convR (rowW adj) (colW adj) (ewV adj)
        (toArr (lin (a1 (mat x) (mat adj) (mat w1) (vect b1) (vect g1) (vect be1)) (mat w2))) b2
      = toArr (y2 (mat x) (mat adj) (mat w1) (vect b1) (vect g1) (vect be1) (mat w2) (vect b2)) :=
    arr_ext fun c j => convW_apply adj _ b2 hadj
      (isReal_toArr (lin_real (a1_real hX hA hW1 hB1 hG1 hBE1) hW2)) hb2 c j
  have e7 : bnR (toArr (y2 (mat x) (mat adj) (mat w1) (vect b1) (vect g1) (vect be1) (mat w2) (vect b2))) g2 be2
      = toArr (out (mat x) (mat adj) (mat w1) (vect b1) (vect g1) (vect be1) (mat w2) (vect b2) (vect g2) (vect be2)) :=
    arr_ext fun r k => bnR_apply _ g2 be2 (isReal_toArr (y2_real hX hA hW1 hB1 hG1 hBE1 hW2 hB2)) hg2 hbe2 r k
  unfold refTerm result
  rw [e1, e2, e3, e4, e5, e6, e7]

end Cert.ReferenceIdeal.RTerm

end
-- ==== Proof.RRunFlat.lean ====
import proofs.«103018_g28046136442917_fold_wed_c4_759_2_alg».proof.ReferenceIdeal
import proofs.«103018_g28046136442917_fold_wed_c4_759_2_alg».proof.Proof.Gen.ReferenceIdeal
import Idealize.ShloMosaic.Lib.StableHlo.Run

noncomputable section

namespace Cert.ReferenceIdeal.RRunFlat

open Cert.ReferenceIdeal Cert.ReferenceIdeal.Facts₀ Idealize.ShloMosaic Idealize.ShloMosaic.TcCoe Idealize.SL.Sem Idealize.ShloMosaic.StableHlo

variable {F : FTy → Type} [FloatOps F]

abbrev flat0 : List (HloOp τ sig (Elt F)) :=
  [ StableHlo.nullary main_cst (constant S_ .f32 0x00000000#32),
    StableHlo.unary main_cst main_v0 (broadcastInDim S2048x2048 ![] bcast_S_S2048x2048),
    StableHlo.binary main_arg1 main_v0 main_v1 (cmpf .une),
    StableHlo.reshape main_v1 main_call0_v0 rfl shapeCasts_S2048x2048_S4194304,
    StableHlo.unary main_call0_v0 main_call0_v1 (extui 32 · natLt_1_32),
    StableHlo.nullary main_call0_call0_c (constantI S_ 32 0#32),
    StableHlo.unary main_call0_call0_c main_call0_call0_v0 (broadcastInDim S_ ![] bcast_S_S_),
    StableHlo.binary main_call0_v1 main_call0_call0_v0 main_v2 (fun x v => Host.reduceWindow IntOp.addi ![4194304] ![1] ![4194303] ![0] x v reduceWindows_S4194304_S4194304_w4194304s1p4194303_0 h_S_),
    StableHlo.nullary main_c (constantI S_ 32 0#32),
    StableHlo.unary main_c main_v3 (broadcastInDim S4194304 ![] bcast_S_S4194304),
    StableHlo.nullary main_c_0 (constantI S_ 32 0#32),
    StableHlo.unary main_c_0 main_call1_v0 id,
    StableHlo.unary main_call1_v0 main_call1_v1 (broadcastInDim S4194304 ![] bcast_S_S4194304),
    StableHlo.binary main_call1_v1 main_v2 main_v4 maxsi,
    StableHlo.nullary main_c_1 (constantI S_ 32 0#32),
    StableHlo.unary main_c_1 main_v5 (broadcastInDim S4194304 ![] bcast_S_S4194304),
    StableHlo.binary main_v4 main_v5 main_v6 (cmpi .slt),
    StableHlo.nullary main_c_2 (constantI S_ 32 4194304#32),
    StableHlo.unary main_c_2 main_v7 (broadcastInDim S4194304 ![] bcast_S_S4194304),
    StableHlo.binary main_v4 main_v7 main_v8 addi,
    StableHlo.ternary main_v6 main_v8 main_v4 main_v9 select,
    StableHlo.unary main_v9 main_v10 (broadcastInDim S4194304x1 ![0] bcast_S4194304_S4194304x1_0),
    StableHlo.nullary main_c_3 (constantI S_ 32 1#32),
    StableHlo.unary main_c_3 main_v11 (broadcastInDim S4194304 ![] bcast_S_S4194304),
    StableHlo.ternary main_v3 main_v10 main_v11 main_v12 (fun x i u => Host.scatter scatter_S4194304_S4194304x1_S4194304_n_0_0_1 IntOp.addi x i u),
    StableHlo.nullary main_call2_call0_c (constantI S_ 32 0#32),
    StableHlo.unary main_call2_call0_c main_call2_call0_v0 (broadcastInDim S_ ![] bcast_S_S_),
    StableHlo.binary main_v12 main_call2_call0_v0 main_v13 (fun x v => Host.reduceWindow IntOp.addi ![4194304] ![1] ![4194303] ![0] x v reduceWindows_S4194304_S4194304_w4194304s1p4194303_0 h_S_),
    StableHlo.nullary main_c_4 (constantI S_ 32 2048#32),
    StableHlo.unary main_c_4 main_call3_v0 (broadcastInDim S4194304 ![] bcast_S_S4194304),
    StableHlo.binary main_v13 main_call3_v0 main_call3_v1 Host.divsi,
    StableHlo.unary main_v13 main_call3_v2 signi,
    StableHlo.unary main_c_4 main_call3_v3 signi,
    StableHlo.unary main_call3_v3 main_call3_v4 (broadcastInDim S4194304 ![] bcast_S_S4194304),
    StableHlo.binary main_call3_v2 main_call3_v4 main_call3_v5 (cmpi .ne),
    StableHlo.unary main_c_4 main_call3_v6 (broadcastInDim S4194304 ![] bcast_S_S4194304),
    StableHlo.binary main_v13 main_call3_v6 main_call3_v7 Host.remsi,
    StableHlo.nullary main_call3_c (constantI S_ 32 0#32),
    StableHlo.unary main_call3_c main_call3_v8 (broadcastInDim S4194304 ![] bcast_S_S4194304),
    StableHlo.binary main_call3_v7 main_call3_v8 main_call3_v9 (cmpi .ne),
    StableHlo.binary main_call3_v5 main_call3_v9 main_call3_v10 andi,
    StableHlo.nullary main_call3_c_0 (constantI S_ 32 1#32),
    StableHlo.unary main_call3_c_0 main_call3_v11 (broadcastInDim S4194304 ![] bcast_S_S4194304),
    StableHlo.binary main_call3_v1 main_call3_v11 main_call3_v12 subi,
    StableHlo.ternary main_call3_v10 main_call3_v12 main_call3_v1 main_v14 select,
    StableHlo.nullary main_c_5 (constantI S_ 32 2048#32),
    StableHlo.unary main_c_5 main_call4_v0 id,
    StableHlo.nullary main_call4_c (constantI S_ 32 0#32),
    StableHlo.binary main_call4_v0 main_call4_c main_call4_v1 (cmpi .eq),
    StableHlo.nullary main_call4_c_0 (constantI S_ 32 1#32),
    StableHlo.ternary main_call4_v1 main_call4_c_0 main_call4_v0 main_call4_v2 select,
    StableHlo.unary main_call4_v2 main_call4_v3 (broadcastInDim S4194304 ![] bcast_S_S4194304),
    StableHlo.binary main_v14 main_call4_v3 main_call4_v4 Host.remsi,
    StableHlo.nullary main_call4_c_1 (constantI S_ 32 0#32),
    StableHlo.unary main_call4_c_1 main_call4_v5 (broadcastInDim S4194304 ![] bcast_S_S4194304),
    StableHlo.binary main_call4_v4 main_call4_v5 main_call4_v6 (cmpi .ne),
    StableHlo.nullary main_call4_c_2 (constantI S_ 32 0#32),
    StableHlo.unary main_call4_c_2 main_call4_v7 (broadcastInDim S4194304 ![] bcast_S_S4194304),
    StableHlo.binary main_call4_v4 main_call4_v7 main_call4_v8 (cmpi .slt),
    StableHlo.nullary main_call4_c_3 (constantI S_ 32 0#32),
    StableHlo.binary main_call4_v2 main_call4_c_3 main_call4_v9 (cmpi .slt),
    StableHlo.unary main_call4_v9 main_call4_v10 (broadcastInDim S4194304 ![] bcast_S_S4194304),
    StableHlo.binary main_call4_v8 main_call4_v10 main_call4_v11 (cmpi .ne),
    StableHlo.binary main_call4_v11 main_call4_v6 main_call4_v12 andi,
    StableHlo.unary main_call4_v2 main_call4_v13 (broadcastInDim S4194304 ![] bcast_S_S4194304),
    StableHlo.binary main_call4_v4 main_call4_v13 main_call4_v14 addi,
    StableHlo.ternary main_call4_v12 main_call4_v14 main_call4_v4 main_v15 select,
    StableHlo.nullary main_c_6 (constantI S_ 32 1#32),
    StableHlo.unary main_c_6 main_call5_v0 (broadcastInDim S4194304 ![] bcast_S_S4194304),
    StableHlo.binary main_v13 main_call5_v0 main_call5_v1 Host.divsi,
    StableHlo.unary main_v13 main_call5_v2 signi,
    StableHlo.unary main_c_6 main_call5_v3 signi,
    StableHlo.unary main_call5_v3 main_call5_v4 (broadcastInDim S4194304 ![] bcast_S_S4194304),
    StableHlo.binary main_call5_v2 main_call5_v4 main_call5_v5 (cmpi .ne),
    StableHlo.unary main_c_6 main_call5_v6 (broadcastInDim S4194304 ![] bcast_S_S4194304),
    StableHlo.binary main_v13 main_call5_v6 main_call5_v7 Host.remsi,
    StableHlo.nullary main_call5_c (constantI S_ 32 0#32),
    StableHlo.unary main_call5_c main_call5_v8 (broadcastInDim S4194304 ![] bcast_S_S4194304),
    StableHlo.binary main_call5_v7 main_call5_v8 main_call5_v9 (cmpi .ne),
    StableHlo.binary main_call5_v5 main_call5_v9 main_call5_v10 andi,
    StableHlo.nullary main_call5_c_0 (constantI S_ 32 1#32),
    StableHlo.unary main_call5_c_0 main_call5_v11 (broadcastInDim S4194304 ![] bcast_S_S4194304),
    StableHlo.binary main_call5_v1 main_call5_v11 main_call5_v12 subi,
    StableHlo.ternary main_call5_v10 main_call5_v12 main_call5_v1 main_v16 select,
    StableHlo.nullary main_c_7 (constantI S_ 32 2048#32),
    StableHlo.unary main_c_7 main_call6_v0 id,
    StableHlo.nullary main_call6_c (constantI S_ 32 0#32),
    StableHlo.binary main_call6_v0 main_call6_c main_call6_v1 (cmpi .eq),
    StableHlo.nullary main_call6_c_0 (constantI S_ 32 1#32),
    StableHlo.ternary main_call6_v1 main_call6_c_0 main_call6_v0 main_call6_v2 select,
    StableHlo.unary main_call6_v2 main_call6_v3 (broadcastInDim S4194304 ![] bcast_S_S4194304),
    StableHlo.binary main_v16 main_call6_v3 main_call6_v4 Host.remsi,
    StableHlo.nullary main_call6_c_1 (constantI S_ 32 0#32),
    StableHlo.unary main_call6_c_1 main_call6_v5 (broadcastInDim S4194304 ![] bcast_S_S4194304),
    StableHlo.binary main_call6_v4 main_call6_v5 main_call6_v6 (cmpi .ne),
    StableHlo.nullary main_call6_c_2 (constantI S_ 32 0#32),
    StableHlo.unary main_call6_c_2 main_call6_v7 (broadcastInDim S4194304 ![] bcast_S_S4194304),
    StableHlo.binary main_call6_v4 main_call6_v7 main_call6_v8 (cmpi .slt),
    StableHlo.nullary main_call6_c_3 (constantI S_ 32 0#32),
    StableHlo.binary main_call6_v2 main_call6_c_3 main_call6_v9 (cmpi .slt),
    StableHlo.unary main_call6_v9 main_call6_v10 (broadcastInDim S4194304 ![] bcast_S_S4194304),
    StableHlo.binary main_call6_v8 main_call6_v10 main_call6_v11 (cmpi .ne),
    StableHlo.binary main_call6_v11 main_call6_v6 main_call6_v12 andi,
    StableHlo.unary main_call6_v2 main_call6_v13 (broadcastInDim S4194304 ![] bcast_S_S4194304),
    StableHlo.binary main_call6_v4 main_call6_v13 main_call6_v14 addi,
    StableHlo.ternary main_call6_v12 main_call6_v14 main_call6_v4 main_v17 select,
    StableHlo.nullary main_v18 (iotaInDim S4194304 32 0),
    StableHlo.unary main_v1 main_v19 (extui 32 · natLt_1_32),
    StableHlo.nullary main_c_8 (constantI S_ 32 0#32),
    StableHlo.binary main_v19 main_c_8 main_v20 (fun x v => Host.reduce IntOp.addi x v reducesTo_S2048x2048_S_d0_1 h_S_),
    StableHlo.unary main_v20 main_v21 (broadcastInDim S4194304 ![] bcast_S_S4194304),
    StableHlo.binary main_v18 main_v21 main_v22 (cmpi .sge),
    StableHlo.nullary main_c_9 (constantI S_ 32 0#32),
    StableHlo.unary main_c_9 main_call7_v0 id,
    StableHlo.unary main_call7_v0 main_call7_v1 (broadcastInDim S4194304 ![] bcast_S_S4194304),
    StableHlo.ternary main_v22 main_call7_v1 main_v15 main_v23 select,
    StableHlo.nullary main_c_10 (constantI S_ 32 0#32),
    StableHlo.unary main_c_10 main_call8_v0 id,
    StableHlo.unary main_call8_v0 main_call8_v1 (broadcastInDim S4194304 ![] bcast_S_S4194304),
    StableHlo.ternary main_v22 main_call8_v1 main_v17 main_v24 select ]

abbrev flat1 : List (HloOp τ sig (Elt F)) :=
  [ StableHlo.nullary main_v25 (iotaInDim S4194304 32 0),
    StableHlo.nullary main_call9_cst (constant S_ .f32 0x00000000#32),
    StableHlo.unary main_call9_cst main_call9_v0 (broadcastInDim S2048x2048 ![] bcast_S_S2048x2048),
    StableHlo.binary main_arg1 main_call9_v0 main_call9_v1 (cmpf .une),
    StableHlo.unary main_call9_v1 main_call9_v2 (extui 32 · natLt_1_32),
    StableHlo.nullary main_call9_c (constantI S_ 32 0#32),
    StableHlo.binary main_call9_v2 main_call9_c main_v26 (fun x v => Host.reduce IntOp.addi x v reducesTo_S2048x2048_S_d0_1 h_S_),
    StableHlo.unary main_v26 main_v27 (broadcastInDim S4194304 ![] bcast_S_S4194304),
    StableHlo.binary main_v25 main_v27 main_v28 (cmpi .slt),
    StableHlo.unary main_v28 main_v29 (uitofp .f32),
    StableHlo.nullary main_c_11 (constantI S_ 32 0#32),
    StableHlo.unary main_c_11 main_v30 (broadcastInDim S4194304 ![] bcast_S_S4194304),
    StableHlo.binary main_v23 main_v30 main_v31 (cmpi .slt),
    StableHlo.nullary main_c_12 (constantI S_ 32 2048#32),
    StableHlo.unary main_c_12 main_v32 (broadcastInDim S4194304 ![] bcast_S_S4194304),
    StableHlo.binary main_v23 main_v32 main_v33 addi,
    StableHlo.ternary main_v31 main_v33 main_v23 main_v34 select,
    StableHlo.nullary main_c_13 (constantI S_ 32 0#32),
    StableHlo.unary main_c_13 main_v35 (broadcastInDim S4194304 ![] bcast_S_S4194304),
    StableHlo.binary main_v24 main_v35 main_v36 (cmpi .slt),
    StableHlo.nullary main_c_14 (constantI S_ 32 2048#32),
    StableHlo.unary main_c_14 main_v37 (broadcastInDim S4194304 ![] bcast_S_S4194304),
    StableHlo.binary main_v24 main_v37 main_v38 addi,
    StableHlo.ternary main_v36 main_v38 main_v24 main_v39 select,
    StableHlo.unary main_v34 main_v40 (broadcastInDim S4194304x1 ![0] bcast_S4194304_S4194304x1_0),
    StableHlo.unary main_v39 main_v41 (broadcastInDim S4194304x1 ![0] bcast_S4194304_S4194304x1_0),
    StableHlo.binary main_v40 main_v41 main_v42 (fun a b => concatenate S4194304x2 1 [⟨S4194304x1, a⟩, ⟨S4194304x1, b⟩] concatenates_S4194304x1_S4194304x1_S4194304x2_d1) ]

abbrev flat2 : List (HloOp τ sig (Elt F)) :=
  [ StableHlo.binary main_arg1 main_v42 main_v43 (fun x i => Host.gather gather_S2048x2048_S4194304x2_S4194304_n_01_n_n_01_1_11 x i),
    StableHlo.binary main_v43 main_v29 main_v44 mulf ]

abbrev flat3 : List (HloOp τ sig (Elt F)) :=
  [ StableHlo.nullary main_v45 (iotaInDim S2048 32 0),
    StableHlo.binary main_v23 main_v45 main_v46 (fun a b => concatenate S4196352 0 [⟨S4194304, a⟩, ⟨S2048, b⟩] concatenates_S4194304_S2048_S4196352_d0),
    StableHlo.binary main_v24 main_v45 main_v47 (fun a b => concatenate S4196352 0 [⟨S4194304, a⟩, ⟨S2048, b⟩] concatenates_S4194304_S2048_S4196352_d0),
    StableHlo.nullary main_cst_15 (constant S_ .f32 0x3F800000#32),
    StableHlo.unary main_cst_15 main_v48 (broadcastInDim S2048 ![] bcast_S_S2048),
    StableHlo.binary main_v44 main_v48 main_v49 (fun a b => concatenate S4196352 0 [⟨S4194304, a⟩, ⟨S2048, b⟩] concatenates_S4194304_S2048_S4196352_d0),
    StableHlo.nullary main_cst_16 (constant S_ .f32 0x00000000#32),
    StableHlo.unary main_cst_16 main_v50 (broadcastInDim S2048 ![] bcast_S_S2048),
    StableHlo.nullary main_c_17 (constantI S_ 32 0#32),
    StableHlo.unary main_c_17 main_v51 (broadcastInDim S4196352 ![] bcast_S_S4196352),
    StableHlo.binary main_v47 main_v51 main_v52 (cmpi .slt),
    StableHlo.nullary main_c_18 (constantI S_ 32 2048#32),
    StableHlo.unary main_c_18 main_v53 (broadcastInDim S4196352 ![] bcast_S_S4196352),
    StableHlo.binary main_v47 main_v53 main_v54 addi,
    StableHlo.ternary main_v52 main_v54 main_v47 main_v55 select,
    StableHlo.unary main_v55 main_v56 (broadcastInDim S4196352x1 ![0] bcast_S4196352_S4196352x1_0),
    StableHlo.ternary main_v50 main_v56 main_v49 main_v57 (fun x i u => Host.scatterAdd scatter_S2048_S4196352x1_S4196352_n_0_0_1 x i u),
    StableHlo.nullary main_cst_19 (constant S_ .f32 0x00000000#32),
    StableHlo.unary main_cst_19 main_v58 (broadcastInDim S2048 ![] bcast_S_S2048),
    StableHlo.binary main_v57 main_v58 main_v59 (cmpf .ogt),
    StableHlo.nullary main_cst_20 (constant S_ .f32 0x3F800000#32),
    StableHlo.unary main_cst_20 main_call10_v0 id,
    StableHlo.unary main_call10_v0 main_call10_v1 (broadcastInDim S2048 ![] bcast_S_S2048),
    StableHlo.ternary main_v59 main_v57 main_call10_v1 main_v60 select,
    StableHlo.nullary main_cst_21 (constant S_ .f32 0x00000000#32),
    StableHlo.unary main_cst_21 main_v61 (broadcastInDim S2048 ![] bcast_S_S2048),
    StableHlo.binary main_v57 main_v61 main_v62 (cmpf .ogt),
    StableHlo.unary main_v60 main_v63 Host.sqrt,
    StableHlo.nullary main_cst_22 (constant S_ .f32 0x3F800000#32),
    StableHlo.unary main_cst_22 main_v64 (broadcastInDim S2048 ![] bcast_S_S2048),
    StableHlo.binary main_v64 main_v63 main_v65 Host.divf,
    StableHlo.nullary main_cst_23 (constant S_ .f32 0x00000000#32),
    StableHlo.unary main_cst_23 main_call11_v0 id,
    StableHlo.unary main_call11_v0 main_call11_v1 (broadcastInDim S2048 ![] bcast_S_S2048),
    StableHlo.ternary main_v62 main_v65 main_call11_v1 main_v66 select,
    StableHlo.nullary main_c_24 (constantI S_ 32 0#32),
    StableHlo.unary main_c_24 main_v67 (broadcastInDim S4196352 ![] bcast_S_S4196352),
    StableHlo.binary main_v46 main_v67 main_v68 (cmpi .slt),
    StableHlo.nullary main_c_25 (constantI S_ 32 2048#32),
    StableHlo.unary main_c_25 main_v69 (broadcastInDim S4196352 ![] bcast_S_S4196352),
    StableHlo.binary main_v46 main_v69 main_v70 addi,
    StableHlo.ternary main_v68 main_v70 main_v46 main_v71 select,
    StableHlo.unary main_v71 main_v72 (broadcastInDim S4196352x1 ![0] bcast_S4196352_S4196352x1_0),
    StableHlo.binary main_v66 main_v72 main_v73 (fun x i => Host.gather gather_S2048_S4196352x1_S4196352_n_0_n_n_0_1_1 x i),
    StableHlo.binary main_v73 main_v49 main_v74 mulf,
    StableHlo.nullary main_c_26 (constantI S_ 32 0#32),
    StableHlo.unary main_c_26 main_v75 (broadcastInDim S4196352 ![] bcast_S_S4196352),
    StableHlo.binary main_v47 main_v75 main_v76 (cmpi .slt),
    StableHlo.nullary main_c_27 (constantI S_ 32 2048#32),
    StableHlo.unary main_c_27 main_v77 (broadcastInDim S4196352 ![] bcast_S_S4196352),
    StableHlo.binary main_v47 main_v77 main_v78 addi,
    StableHlo.ternary main_v76 main_v78 main_v47 main_v79 select,
    StableHlo.unary main_v79 main_v80 (broadcastInDim S4196352x1 ![0] bcast_S4196352_S4196352x1_0),
    StableHlo.binary main_v66 main_v80 main_v81 (fun x i => Host.gather gather_S2048_S4196352x1_S4196352_n_0_n_n_0_1_1 x i),
    StableHlo.binary main_v74 main_v81 main_v82 mulf,
    StableHlo.binary main_arg0 main_arg2 main_v83 (fun l r => Host.dotGeneral dot_S2048x64_S64x32_S2048x32_1_0_0_1_n_n none l r),
    StableHlo.unary main_v82 main_v84 (broadcastInDim S4196352x1 ![0] bcast_S4196352_S4196352x1_0),
    StableHlo.nullary main_c_28 (constantI S_ 32 0#32),
    StableHlo.unary main_c_28 main_v85 (broadcastInDim S4196352 ![] bcast_S_S4196352),
    StableHlo.binary main_v46 main_v85 main_v86 (cmpi .slt),
    StableHlo.nullary main_c_29 (constantI S_ 32 2048#32),
    StableHlo.unary main_c_29 main_v87 (broadcastInDim S4196352 ![] bcast_S_S4196352) ]

abbrev flat4 : List (HloOp τ sig (Elt F)) :=
  [ StableHlo.binary main_v46 main_v87 main_v88 addi,
    StableHlo.ternary main_v86 main_v88 main_v46 main_v89 select,
    StableHlo.unary main_v89 main_v90 (broadcastInDim S4196352x1 ![0] bcast_S4196352_S4196352x1_0),
    StableHlo.binary main_v83 main_v90 main_v91 (fun x i => Host.gather gather_S2048x32_S4196352x1_S4196352x32_1_0_n_n_0_1_132 x i),
    StableHlo.unary main_v84 main_v92 (broadcastInDim S4196352x32 ![0, 1] bcast_S4196352x1_S4196352x32_0_1),
    StableHlo.binary main_v92 main_v91 main_v93 mulf,
    StableHlo.nullary main_cst_30 (constant S_ .f32 0x00000000#32),
    StableHlo.unary main_cst_30 main_v94 (broadcastInDim S2048x32 ![] bcast_S_S2048x32),
    StableHlo.nullary main_c_31 (constantI S_ 32 0#32),
    StableHlo.unary main_c_31 main_v95 (broadcastInDim S4196352 ![] bcast_S_S4196352),
    StableHlo.binary main_v47 main_v95 main_v96 (cmpi .slt),
    StableHlo.nullary main_c_32 (constantI S_ 32 2048#32),
    StableHlo.unary main_c_32 main_v97 (broadcastInDim S4196352 ![] bcast_S_S4196352),
    StableHlo.binary main_v47 main_v97 main_v98 addi,
    StableHlo.ternary main_v96 main_v98 main_v47 main_v99 select,
    StableHlo.unary main_v99 main_v100 (broadcastInDim S4196352x1 ![0] bcast_S4196352_S4196352x1_0),
    StableHlo.ternary main_v94 main_v100 main_v93 main_v101 (fun x i u => Host.scatterAdd scatter_S2048x32_S4196352x1_S4196352x32_1_0_0_1 x i u),
    StableHlo.unary main_arg3 main_v102 (broadcastInDim S1x32 ![1] bcast_S32_S1x32_1),
    StableHlo.unary main_v102 main_v103 (broadcastInDim S2048x32 ![0, 1] bcast_S1x32_S2048x32_0_1),
    StableHlo.binary main_v101 main_v103 main_v104 addf ]

abbrev flat5 : List (HloOp τ sig (Elt F)) :=
  [ StableHlo.nullary main_cst_33 (constant S_ .f32 0x00000000#32),
    StableHlo.binary main_v104 main_cst_33 main_v105 (fun x v => Host.reduceAdd x v reducesTo_S2048x32_S32_d0 h_S_),
    StableHlo.nullary main_cst_34 (constant S_ .f32 0x45000000#32),
    StableHlo.unary main_cst_34 main_v106 (broadcastInDim S32 ![] bcast_S_S32),
    StableHlo.binary main_v105 main_v106 main_v107 Host.divf,
    StableHlo.nullary main_c_35 (constantI S_ 32 0#32),
    StableHlo.nullary main_call12_cst (constant S_ .f32 0x00000000#32),
    StableHlo.binary main_v104 main_call12_cst main_call12_v0 (fun x v => Host.reduceAdd x v reducesTo_S2048x32_S32_d0 h_S_),
    StableHlo.unary main_call12_v0 main_call12_v1 (broadcastInDim S1x32 ![1] bcast_S32_S1x32_1),
    StableHlo.nullary main_call12_cst_0 (constant S_ .f32 0x45000000#32),
    StableHlo.unary main_call12_cst_0 main_call12_v2 (broadcastInDim S1x32 ![] bcast_S_S1x32),
    StableHlo.binary main_call12_v1 main_call12_v2 main_call12_v3 Host.divf,
    StableHlo.unary main_call12_v3 main_call12_v4 (broadcastInDim S2048x32 ![0, 1] bcast_S1x32_S2048x32_0_1),
    StableHlo.binary main_v104 main_call12_v4 main_call12_v5 subf,
    StableHlo.binary main_call12_v5 main_call12_v5 main_call12_v6 mulf,
    StableHlo.unary main_c_35 main_call12_v7 (sitofp .f32),
    StableHlo.nullary main_call12_cst_1 (constant S_ .f32 0x45000000#32),
    StableHlo.binary main_call12_cst_1 main_call12_v7 main_call12_v8 subf,
    StableHlo.nullary main_call12_cst_2 (constant S_ .f32 0x00000000#32),
    StableHlo.binary main_call12_v6 main_call12_cst_2 main_call12_v9 (fun x v => Host.reduceAdd x v reducesTo_S2048x32_S32_d0 h_S_),
    StableHlo.unary main_call12_v8 main_call12_v10 (broadcastInDim S32 ![] bcast_S_S32),
    StableHlo.binary main_call12_v9 main_call12_v10 main_call12_v11 Host.divf,
    StableHlo.nullary main_call12_cst_3 (constant S_ .f32 0x00000000#32),
    StableHlo.binary main_call12_v8 main_call12_cst_3 main_call12_v12 (cmpf .ogt),
    StableHlo.nullary main_call12_cst_4 (constant S_ .f32 0x7FC00000#32),
    StableHlo.unary main_call12_cst_4 main_call12_call0_v0 id,
    StableHlo.unary main_call12_call0_v0 main_call12_call0_v1 (broadcastInDim S32 ![] bcast_S_S32),
    StableHlo.ternary main_call12_v12 main_call12_v11 main_call12_call0_v1 main_v108 (fun p a b => select (broadcastInDim S32 ![] bcast_S_S32 p) a b),
    StableHlo.unary main_v107 main_v109 (broadcastInDim S1x32 ![1] bcast_S32_S1x32_1),
    StableHlo.unary main_v109 main_v110 (broadcastInDim S2048x32 ![0, 1] bcast_S1x32_S2048x32_0_1),
    StableHlo.binary main_v104 main_v110 main_v111 subf,
    StableHlo.nullary main_cst_36 (constant S_ .f32 0x3727C5AC#32),
    StableHlo.unary main_cst_36 main_v112 (broadcastInDim S32 ![] bcast_S_S32),
    StableHlo.binary main_v108 main_v112 main_v113 addf,
    StableHlo.unary main_v113 main_v114 Host.sqrt,
    StableHlo.unary main_v114 main_v115 (broadcastInDim S1x32 ![1] bcast_S32_S1x32_1),
    StableHlo.unary main_v115 main_v116 (broadcastInDim S2048x32 ![0, 1] bcast_S1x32_S2048x32_0_1),
    StableHlo.binary main_v111 main_v116 main_v117 Host.divf,
    StableHlo.unary main_arg4 main_v118 (broadcastInDim S1x32 ![1] bcast_S32_S1x32_1),
    StableHlo.unary main_v118 main_v119 (broadcastInDim S2048x32 ![0, 1] bcast_S1x32_S2048x32_0_1),
    StableHlo.binary main_v117 main_v119 main_v120 mulf,
    StableHlo.unary main_arg5 main_v121 (broadcastInDim S1x32 ![1] bcast_S32_S1x32_1),
    StableHlo.unary main_v121 main_v122 (broadcastInDim S2048x32 ![0, 1] bcast_S1x32_S2048x32_0_1),
    StableHlo.binary main_v120 main_v122 main_v123 addf ]

abbrev flat6 : List (HloOp τ sig (Elt F)) :=
  [ StableHlo.nullary main_call13_cst (constant S_ .f32 0x00000000#32),
    StableHlo.unary main_call13_cst main_call13_v0 (broadcastInDim S2048x32 ![] bcast_S_S2048x32),
    StableHlo.binary main_v123 main_call13_v0 main_v124 maximumf ]

abbrev flat7 : List (HloOp τ sig (Elt F)) :=
  [ StableHlo.nullary main_v125 (iotaInDim S2048 32 0),
    StableHlo.binary main_v23 main_v125 main_v126 (fun a b => concatenate S4196352 0 [⟨S4194304, a⟩, ⟨S2048, b⟩] concatenates_S4194304_S2048_S4196352_d0),
    StableHlo.binary main_v24 main_v125 main_v127 (fun a b => concatenate S4196352 0 [⟨S4194304, a⟩, ⟨S2048, b⟩] concatenates_S4194304_S2048_S4196352_d0),
    StableHlo.nullary main_cst_37 (constant S_ .f32 0x3F800000#32),
    StableHlo.unary main_cst_37 main_v128 (broadcastInDim S2048 ![] bcast_S_S2048),
    StableHlo.binary main_v44 main_v128 main_v129 (fun a b => concatenate S4196352 0 [⟨S4194304, a⟩, ⟨S2048, b⟩] concatenates_S4194304_S2048_S4196352_d0),
    StableHlo.nullary main_cst_38 (constant S_ .f32 0x00000000#32),
    StableHlo.unary main_cst_38 main_v130 (broadcastInDim S2048 ![] bcast_S_S2048),
    StableHlo.nullary main_c_39 (constantI S_ 32 0#32),
    StableHlo.unary main_c_39 main_v131 (broadcastInDim S4196352 ![] bcast_S_S4196352),
    StableHlo.binary main_v127 main_v131 main_v132 (cmpi .slt),
    StableHlo.nullary main_c_40 (constantI S_ 32 2048#32),
    StableHlo.unary main_c_40 main_v133 (broadcastInDim S4196352 ![] bcast_S_S4196352),
    StableHlo.binary main_v127 main_v133 main_v134 addi,
    StableHlo.ternary main_v132 main_v134 main_v127 main_v135 select,
    StableHlo.unary main_v135 main_v136 (broadcastInDim S4196352x1 ![0] bcast_S4196352_S4196352x1_0) ]

abbrev flat8 : List (HloOp τ sig (Elt F)) :=
  [ StableHlo.ternary main_v130 main_v136 main_v129 main_v137 (fun x i u => Host.scatterAdd scatter_S2048_S4196352x1_S4196352_n_0_0_1 x i u),
    StableHlo.nullary main_cst_41 (constant S_ .f32 0x00000000#32),
    StableHlo.unary main_cst_41 main_v138 (broadcastInDim S2048 ![] bcast_S_S2048),
    StableHlo.binary main_v137 main_v138 main_v139 (cmpf .ogt),
    StableHlo.nullary main_cst_42 (constant S_ .f32 0x3F800000#32),
    StableHlo.unary main_cst_42 main_call14_v0 id,
    StableHlo.unary main_call14_v0 main_call14_v1 (broadcastInDim S2048 ![] bcast_S_S2048),
    StableHlo.ternary main_v139 main_v137 main_call14_v1 main_v140 select,
    StableHlo.nullary main_cst_43 (constant S_ .f32 0x00000000#32),
    StableHlo.unary main_cst_43 main_v141 (broadcastInDim S2048 ![] bcast_S_S2048),
    StableHlo.binary main_v137 main_v141 main_v142 (cmpf .ogt),
    StableHlo.unary main_v140 main_v143 Host.sqrt,
    StableHlo.nullary main_cst_44 (constant S_ .f32 0x3F800000#32),
    StableHlo.unary main_cst_44 main_v144 (broadcastInDim S2048 ![] bcast_S_S2048),
    StableHlo.binary main_v144 main_v143 main_v145 Host.divf,
    StableHlo.nullary main_cst_45 (constant S_ .f32 0x00000000#32),
    StableHlo.unary main_cst_45 main_call15_v0 id,
    StableHlo.unary main_call15_v0 main_call15_v1 (broadcastInDim S2048 ![] bcast_S_S2048),
    StableHlo.ternary main_v142 main_v145 main_call15_v1 main_v146 select,
    StableHlo.nullary main_c_46 (constantI S_ 32 0#32),
    StableHlo.unary main_c_46 main_v147 (broadcastInDim S4196352 ![] bcast_S_S4196352),
    StableHlo.binary main_v126 main_v147 main_v148 (cmpi .slt),
    StableHlo.nullary main_c_47 (constantI S_ 32 2048#32),
    StableHlo.unary main_c_47 main_v149 (broadcastInDim S4196352 ![] bcast_S_S4196352),
    StableHlo.binary main_v126 main_v149 main_v150 addi,
    StableHlo.ternary main_v148 main_v150 main_v126 main_v151 select,
    StableHlo.unary main_v151 main_v152 (broadcastInDim S4196352x1 ![0] bcast_S4196352_S4196352x1_0),
    StableHlo.binary main_v146 main_v152 main_v153 (fun x i => Host.gather gather_S2048_S4196352x1_S4196352_n_0_n_n_0_1_1 x i),
    StableHlo.binary main_v153 main_v129 main_v154 mulf,
    StableHlo.nullary main_c_48 (constantI S_ 32 0#32),
    StableHlo.unary main_c_48 main_v155 (broadcastInDim S4196352 ![] bcast_S_S4196352),
    StableHlo.binary main_v127 main_v155 main_v156 (cmpi .slt),
    StableHlo.nullary main_c_49 (constantI S_ 32 2048#32),
    StableHlo.unary main_c_49 main_v157 (broadcastInDim S4196352 ![] bcast_S_S4196352),
    StableHlo.binary main_v127 main_v157 main_v158 addi,
    StableHlo.ternary main_v156 main_v158 main_v127 main_v159 select,
    StableHlo.unary main_v159 main_v160 (broadcastInDim S4196352x1 ![0] bcast_S4196352_S4196352x1_0),
    StableHlo.binary main_v146 main_v160 main_v161 (fun x i => Host.gather gather_S2048_S4196352x1_S4196352_n_0_n_n_0_1_1 x i),
    StableHlo.binary main_v154 main_v161 main_v162 mulf,
    StableHlo.binary main_v124 main_arg6 main_v163 (fun l r => Host.dotGeneral dot_S2048x32_S32x32_S2048x32_1_0_0_1_n_n none l r),
    StableHlo.unary main_v162 main_v164 (broadcastInDim S4196352x1 ![0] bcast_S4196352_S4196352x1_0),
    StableHlo.nullary main_c_50 (constantI S_ 32 0#32),
    StableHlo.unary main_c_50 main_v165 (broadcastInDim S4196352 ![] bcast_S_S4196352),
    StableHlo.binary main_v126 main_v165 main_v166 (cmpi .slt),
    StableHlo.nullary main_c_51 (constantI S_ 32 2048#32),
    StableHlo.unary main_c_51 main_v167 (broadcastInDim S4196352 ![] bcast_S_S4196352),
    StableHlo.binary main_v126 main_v167 main_v168 addi,
    StableHlo.ternary main_v166 main_v168 main_v126 main_v169 select,
    StableHlo.unary main_v169 main_v170 (broadcastInDim S4196352x1 ![0] bcast_S4196352_S4196352x1_0),
    StableHlo.binary main_v163 main_v170 main_v171 (fun x i => Host.gather gather_S2048x32_S4196352x1_S4196352x32_1_0_n_n_0_1_132 x i),
    StableHlo.unary main_v164 main_v172 (broadcastInDim S4196352x32 ![0, 1] bcast_S4196352x1_S4196352x32_0_1),
    StableHlo.binary main_v172 main_v171 main_v173 mulf,
    StableHlo.nullary main_cst_52 (constant S_ .f32 0x00000000#32),
    StableHlo.unary main_cst_52 main_v174 (broadcastInDim S2048x32 ![] bcast_S_S2048x32),
    StableHlo.nullary main_c_53 (constantI S_ 32 0#32),
    StableHlo.unary main_c_53 main_v175 (broadcastInDim S4196352 ![] bcast_S_S4196352),
    StableHlo.binary main_v127 main_v175 main_v176 (cmpi .slt),
    StableHlo.nullary main_c_54 (constantI S_ 32 2048#32),
    StableHlo.unary main_c_54 main_v177 (broadcastInDim S4196352 ![] bcast_S_S4196352),
    StableHlo.binary main_v127 main_v177 main_v178 addi,
    StableHlo.ternary main_v176 main_v178 main_v127 main_v179 select,
    StableHlo.unary main_v179 main_v180 (broadcastInDim S4196352x1 ![0] bcast_S4196352_S4196352x1_0),
    StableHlo.ternary main_v174 main_v180 main_v173 main_v181 (fun x i u => Host.scatterAdd scatter_S2048x32_S4196352x1_S4196352x32_1_0_0_1 x i u),
    StableHlo.unary main_arg7 main_v182 (broadcastInDim S1x32 ![1] bcast_S32_S1x32_1) ]

abbrev flat9 : List (HloOp τ sig (Elt F)) :=
  [ StableHlo.unary main_v182 main_v183 (broadcastInDim S2048x32 ![0, 1] bcast_S1x32_S2048x32_0_1),
    StableHlo.binary main_v181 main_v183 main_v184 addf ]

abbrev flat10 : List (HloOp τ sig (Elt F)) :=
  [ StableHlo.nullary main_cst_55 (constant S_ .f32 0x00000000#32),
    StableHlo.binary main_v184 main_cst_55 main_v185 (fun x v => Host.reduceAdd x v reducesTo_S2048x32_S32_d0 h_S_),
    StableHlo.nullary main_cst_56 (constant S_ .f32 0x45000000#32),
    StableHlo.unary main_cst_56 main_v186 (broadcastInDim S32 ![] bcast_S_S32),
    StableHlo.binary main_v185 main_v186 main_v187 Host.divf,
    StableHlo.nullary main_c_57 (constantI S_ 32 0#32),
    StableHlo.nullary main_call16_cst (constant S_ .f32 0x00000000#32),
    StableHlo.binary main_v184 main_call16_cst main_call16_v0 (fun x v => Host.reduceAdd x v reducesTo_S2048x32_S32_d0 h_S_),
    StableHlo.unary main_call16_v0 main_call16_v1 (broadcastInDim S1x32 ![1] bcast_S32_S1x32_1),
    StableHlo.nullary main_call16_cst_0 (constant S_ .f32 0x45000000#32),
    StableHlo.unary main_call16_cst_0 main_call16_v2 (broadcastInDim S1x32 ![] bcast_S_S1x32),
    StableHlo.binary main_call16_v1 main_call16_v2 main_call16_v3 Host.divf,
    StableHlo.unary main_call16_v3 main_call16_v4 (broadcastInDim S2048x32 ![0, 1] bcast_S1x32_S2048x32_0_1),
    StableHlo.binary main_v184 main_call16_v4 main_call16_v5 subf,
    StableHlo.binary main_call16_v5 main_call16_v5 main_call16_v6 mulf,
    StableHlo.unary main_c_57 main_call16_v7 (sitofp .f32),
    StableHlo.nullary main_call16_cst_1 (constant S_ .f32 0x45000000#32),
    StableHlo.binary main_call16_cst_1 main_call16_v7 main_call16_v8 subf,
    StableHlo.nullary main_call16_cst_2 (constant S_ .f32 0x00000000#32),
    StableHlo.binary main_call16_v6 main_call16_cst_2 main_call16_v9 (fun x v => Host.reduceAdd x v reducesTo_S2048x32_S32_d0 h_S_),
    StableHlo.unary main_call16_v8 main_call16_v10 (broadcastInDim S32 ![] bcast_S_S32),
    StableHlo.binary main_call16_v9 main_call16_v10 main_call16_v11 Host.divf,
    StableHlo.nullary main_call16_cst_3 (constant S_ .f32 0x00000000#32),
    StableHlo.binary main_call16_v8 main_call16_cst_3 main_call16_v12 (cmpf .ogt),
    StableHlo.nullary main_call16_cst_4 (constant S_ .f32 0x7FC00000#32),
    StableHlo.unary main_call16_cst_4 main_call16_call0_v0 id,
    StableHlo.unary main_call16_call0_v0 main_call16_call0_v1 (broadcastInDim S32 ![] bcast_S_S32),
    StableHlo.ternary main_call16_v12 main_call16_v11 main_call16_call0_v1 main_v188 (fun p a b => select (broadcastInDim S32 ![] bcast_S_S32 p) a b),
    StableHlo.unary main_v187 main_v189 (broadcastInDim S1x32 ![1] bcast_S32_S1x32_1),
    StableHlo.unary main_v189 main_v190 (broadcastInDim S2048x32 ![0, 1] bcast_S1x32_S2048x32_0_1),
    StableHlo.binary main_v184 main_v190 main_v191 subf,
    StableHlo.nullary main_cst_58 (constant S_ .f32 0x3727C5AC#32),
    StableHlo.unary main_cst_58 main_v192 (broadcastInDim S32 ![] bcast_S_S32),
    StableHlo.binary main_v188 main_v192 main_v193 addf,
    StableHlo.unary main_v193 main_v194 Host.sqrt,
    StableHlo.unary main_v194 main_v195 (broadcastInDim S1x32 ![1] bcast_S32_S1x32_1),
    StableHlo.unary main_v195 main_v196 (broadcastInDim S2048x32 ![0, 1] bcast_S1x32_S2048x32_0_1),
    StableHlo.binary main_v191 main_v196 main_v197 Host.divf,
    StableHlo.unary main_arg8 main_v198 (broadcastInDim S1x32 ![1] bcast_S32_S1x32_1),
    StableHlo.unary main_v198 main_v199 (broadcastInDim S2048x32 ![0, 1] bcast_S1x32_S2048x32_0_1),
    StableHlo.binary main_v197 main_v199 main_v200 mulf,
    StableHlo.unary main_arg9 main_v201 (broadcastInDim S1x32 ![1] bcast_S32_S1x32_1),
    StableHlo.unary main_v201 main_v202 (broadcastInDim S2048x32 ![0, 1] bcast_S1x32_S2048x32_0_1),
    StableHlo.binary main_v200 main_v202 main_v203 addf ]

end Cert.ReferenceIdeal.RRunFlat

end
-- ==== Proof.RRunKeep.lean ====
import proofs.«103018_g28046136442917_fold_wed_c4_759_2_alg».proof.Proof.RRunFlat
import Idealize.ShloMosaic.Lib.StableHlo.Run

noncomputable section

namespace Cert.ReferenceIdeal.RRunKeep

open Cert.ReferenceIdeal Idealize.ShloMosaic Idealize.ShloMosaic.TcCoe Idealize.SL.Sem Idealize.ShloMosaic.StableHlo

variable {F : FTy → Type} [FloatOps F]

def keptArgs : List (Ref sig .tc) :=
  [main_arg0, main_arg1, main_arg2, main_arg3, main_arg4, main_arg5, main_arg6, main_arg7, main_arg8, main_arg9]

def keptMid : List (Ref sig .tc) := keptArgs ++ [main_v23, main_v24, main_v44]

theorem not_mem_writes {K : List (Ref sig .tc)} {y : Ref sig .tc} (hy : y ∉ K) :
    ∀ r ∈ K, Proc.devRef (τ := τ) .tc r ∉ ({Proc.devRef .tc y} : Finset (DevRef τ sig)) :=
  fun r hr h => hy (Proc.devRef_injective _ (Finset.mem_singleton.mp h) ▸ hr)

theorem keep_of_forall {K : List (Ref sig .tc)} (ops : List (HloOp τ sig (Elt F))) (V : Valuation τ sig (Elt F))
    (h : ops.Forall fun op => ∀ r ∈ K, Proc.devRef (τ := τ) .tc r ∉ op.writes) {r : Ref sig .tc} (hr : r ∈ K) :
    after ops V (Proc.devRef .tc r) = V (Proc.devRef .tc r) :=
  after_of_forall_not_mem ops V fun op hop => (List.forall_iff_forall_mem.mp h op hop) r hr

theorem flat0_keep (V : Valuation τ sig (Elt F)) {r : Ref sig .tc} (hr : r ∈ keptArgs) :
    after (RRunFlat.flat0 (F := F)) V (no_index (Proc.devRef .tc r)) = V (Proc.devRef .tc r) := by
  refine keep_of_forall _ V ?_ hr
  simp only [RRunFlat.flat0, List.Forall, StableHlo.nullary_writes, StableHlo.unary_writes, StableHlo.binary_writes,
    StableHlo.ternary_writes, StableHlo.reshape_writes]
  repeat' apply And.intro
  all_goals exact not_mem_writes (by decide)

theorem flat1_keep (V : Valuation τ sig (Elt F)) {r : Ref sig .tc} (hr : r ∈ keptArgs) :
    after (RRunFlat.flat1 (F := F)) V (no_index (Proc.devRef .tc r)) = V (Proc.devRef .tc r) := by
  refine keep_of_forall _ V ?_ hr
  simp only [RRunFlat.flat1, List.Forall, StableHlo.nullary_writes, StableHlo.unary_writes, StableHlo.binary_writes,
    StableHlo.ternary_writes, StableHlo.reshape_writes]
  repeat' apply And.intro
  all_goals exact not_mem_writes (by decide)

theorem flat2_keep (V : Valuation τ sig (Elt F)) {r : Ref sig .tc} (hr : r ∈ keptArgs) :
    after (RRunFlat.flat2 (F := F)) V (no_index (Proc.devRef .tc r)) = V (Proc.devRef .tc r) := by
  refine keep_of_forall _ V ?_ hr
  simp only [RRunFlat.flat2, List.Forall, StableHlo.nullary_writes, StableHlo.unary_writes, StableHlo.binary_writes,
    StableHlo.ternary_writes, StableHlo.reshape_writes]
  repeat' apply And.intro
  all_goals exact not_mem_writes (by decide)

theorem flat3_keep (V : Valuation τ sig (Elt F)) {r : Ref sig .tc} (hr : r ∈ keptMid) :
    after (RRunFlat.flat3 (F := F)) V (no_index (Proc.devRef .tc r)) = V (Proc.devRef .tc r) := by
  refine keep_of_forall _ V ?_ hr
  simp only [RRunFlat.flat3, List.Forall, StableHlo.nullary_writes, StableHlo.unary_writes, StableHlo.binary_writes,
    StableHlo.ternary_writes, StableHlo.reshape_writes]
  repeat' apply And.intro
  all_goals exact not_mem_writes (by decide)

theorem flat4_keep (V : Valuation τ sig (Elt F)) {r : Ref sig .tc} (hr : r ∈ keptMid) :
    after (RRunFlat.flat4 (F := F)) V (no_index (Proc.devRef .tc r)) = V (Proc.devRef .tc r) := by
  refine keep_of_forall _ V ?_ hr
  simp only [RRunFlat.flat4, List.Forall, StableHlo.nullary_writes, StableHlo.unary_writes, StableHlo.binary_writes,
    StableHlo.ternary_writes, StableHlo.reshape_writes]
  repeat' apply And.intro
  all_goals exact not_mem_writes (by decide)

theorem flat5_keep (V : Valuation τ sig (Elt F)) {r : Ref sig .tc} (hr : r ∈ keptMid) :
    after (RRunFlat.flat5 (F := F)) V (no_index (Proc.devRef .tc r)) = V (Proc.devRef .tc r) := by
  refine keep_of_forall _ V ?_ hr
  simp only [RRunFlat.flat5, List.Forall, StableHlo.nullary_writes, StableHlo.unary_writes, StableHlo.binary_writes,
    StableHlo.ternary_writes, StableHlo.reshape_writes]
  repeat' apply And.intro
  all_goals exact not_mem_writes (by decide)

theorem flat6_keep (V : Valuation τ sig (Elt F)) {r : Ref sig .tc} (hr : r ∈ keptMid) :
    after (RRunFlat.flat6 (F := F)) V (no_index (Proc.devRef .tc r)) = V (Proc.devRef .tc r) := by
  refine keep_of_forall _ V ?_ hr
  simp only [RRunFlat.flat6, List.Forall, StableHlo.nullary_writes, StableHlo.unary_writes, StableHlo.binary_writes,
    StableHlo.ternary_writes, StableHlo.reshape_writes]
  repeat' apply And.intro
  all_goals exact not_mem_writes (by decide)

theorem flat7_keep (V : Valuation τ sig (Elt F)) {r : Ref sig .tc} (hr : r ∈ keptMid) :
    after (RRunFlat.flat7 (F := F)) V (no_index (Proc.devRef .tc r)) = V (Proc.devRef .tc r) := by
  refine keep_of_forall _ V ?_ hr
  simp only [RRunFlat.flat7, List.Forall, StableHlo.nullary_writes, StableHlo.unary_writes, StableHlo.binary_writes,
    StableHlo.ternary_writes, StableHlo.reshape_writes]
  repeat' apply And.intro
  all_goals exact not_mem_writes (by decide)

theorem flat8_keep (V : Valuation τ sig (Elt F)) {r : Ref sig .tc} (hr : r ∈ keptMid) :
    after (RRunFlat.flat8 (F := F)) V (no_index (Proc.devRef .tc r)) = V (Proc.devRef .tc r) := by
  refine keep_of_forall _ V ?_ hr
  simp only [RRunFlat.flat8, List.Forall, StableHlo.nullary_writes, StableHlo.unary_writes, StableHlo.binary_writes,
    StableHlo.ternary_writes, StableHlo.reshape_writes]
  repeat' apply And.intro
  all_goals exact not_mem_writes (by decide)

theorem flat9_keep (V : Valuation τ sig (Elt F)) {r : Ref sig .tc} (hr : r ∈ keptMid) :
    after (RRunFlat.flat9 (F := F)) V (no_index (Proc.devRef .tc r)) = V (Proc.devRef .tc r) := by
  refine keep_of_forall _ V ?_ hr
  simp only [RRunFlat.flat9, List.Forall, StableHlo.nullary_writes, StableHlo.unary_writes, StableHlo.binary_writes,
    StableHlo.ternary_writes, StableHlo.reshape_writes]
  repeat' apply And.intro
  all_goals exact not_mem_writes (by decide)

theorem flat10_keep (V : Valuation τ sig (Elt F)) {r : Ref sig .tc} (hr : r ∈ keptMid) :
    after (RRunFlat.flat10 (F := F)) V (no_index (Proc.devRef .tc r)) = V (Proc.devRef .tc r) := by
  refine keep_of_forall _ V ?_ hr
  simp only [RRunFlat.flat10, List.Forall, StableHlo.nullary_writes, StableHlo.unary_writes, StableHlo.binary_writes,
    StableHlo.ternary_writes, StableHlo.reshape_writes]
  repeat' apply And.intro
  all_goals exact not_mem_writes (by decide)

end Cert.ReferenceIdeal.RRunKeep

end
-- ==== Proof.RRun.lean ====
import proofs.«103018_g28046136442917_fold_wed_c4_759_2_alg».proof.ReferenceIdeal
import proofs.«103018_g28046136442917_fold_wed_c4_759_2_alg».proof.Proof.Gen.ReferenceIdeal
import proofs.«103018_g28046136442917_fold_wed_c4_759_2_alg».proof.Proof.RRunFlat
import proofs.«103018_g28046136442917_fold_wed_c4_759_2_alg».proof.Proof.RRunKeep
import proofs.«103018_g28046136442917_fold_wed_c4_759_2_alg».proof.Proof.RNz
import proofs.«103018_g28046136442917_fold_wed_c4_759_2_alg».proof.Proof.RConv
import proofs.«103018_g28046136442917_fold_wed_c4_759_2_alg».proof.Proof.RBn
import proofs.«103018_g28046136442917_fold_wed_c4_759_2_alg».proof.Proof.RTerm
import Idealize.ShloMosaic.Lib.StableHlo.Run

noncomputable section

namespace Cert.ReferenceIdeal.RRun

open Cert.ReferenceIdeal Cert.ReferenceIdeal.Facts₀ Cert.ReferenceIdeal.RRunFlat
open Idealize.ShloMosaic Idealize.ShloMosaic.TcCoe Idealize.SL.Sem Idealize.ShloMosaic.StableHlo

variable {F : FTy → Type} [FloatOps F]

abbrev win0 : List (HloOp τ sig (Elt F)) := flat0 (F := F) ++ flat1 (F := F)
abbrev win1 : List (HloOp τ sig (Elt F)) := flat2 (F := F) ++ flat3 (F := F)
abbrev win2 : List (HloOp τ sig (Elt F)) := flat4 (F := F) ++ flat5 (F := F) ++ flat6 (F := F) ++ flat7 (F := F)
abbrev win3 : List (HloOp τ sig (Elt F)) := flat8 (F := F)
abbrev win4 : List (HloOp τ sig (Elt F)) := flat9 (F := F) ++ flat10 (F := F)

abbrev ops : List (HloOp τ sig (Elt F)) :=
  win0 (F := F) ++ (win1 (F := F) ++ (win2 (F := F) ++ (win3 (F := F) ++ win4 (F := F))))

section
attribute [local irreducible] Host.reduce Host.reduceWindow Host.scatter Host.gather
set_option maxRecDepth 100000
set_option maxHeartbeats 4000000
/-- Each printed window is its operations run in order: a called function's operations stand in its call's place. -/
theorem main_part0_eq (c : Dev nD) : main_part0 (F := F) c = seq (win0 (F := F)) := rfl
theorem main_part1_eq (c : Dev nD) : main_part1 (F := F) c = seq (win1 (F := F)) := rfl
theorem main_part2_eq (c : Dev nD) : main_part2 (F := F) c = seq (win2 (F := F)) := rfl
theorem main_part3_eq (c : Dev nD) : main_part3 (F := F) c = seq (win3 (F := F)) := rfl
theorem main_part4_eq (c : Dev nD) : main_part4 (F := F) c = seq (win4 (F := F)) := rfl
end

theorem main_eq (c : Dev nD) : main (F := F) c = seq (ops (F := F)) := by
  simp only [ops, seq_append, ← main_part0_eq c, ← main_part1_eq c, ← main_part2_eq c, ← main_part3_eq c,
    ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

theorem flat0_sub : (flat0 (F := F)).Forall fun op => op.bufs ⊆ tcRefs τ sig := by
  simp only [flat0, List.Forall, nullary_bufs_sub, unary_bufs_sub, binary_bufs_sub, ternary_bufs_sub, reshape_bufs_sub, and_self]
set_option maxRecDepth 8192 in
theorem flat0_fresh : (flat0 (F := F)).Forall fun op => op.fresh = ∅ := by
  repeat' (first | rfl | refine ⟨?_, ?_⟩)
theorem flat1_sub : (flat1 (F := F)).Forall fun op => op.bufs ⊆ tcRefs τ sig := by
  simp only [flat1, List.Forall, nullary_bufs_sub, unary_bufs_sub, binary_bufs_sub, ternary_bufs_sub, reshape_bufs_sub, and_self]
set_option maxRecDepth 8192 in
theorem flat1_fresh : (flat1 (F := F)).Forall fun op => op.fresh = ∅ := by
  repeat' (first | rfl | refine ⟨?_, ?_⟩)
theorem flat2_sub : (flat2 (F := F)).Forall fun op => op.bufs ⊆ tcRefs τ sig := by
  simp only [flat2, List.Forall, nullary_bufs_sub, unary_bufs_sub, binary_bufs_sub, ternary_bufs_sub, reshape_bufs_sub, and_self]
set_option maxRecDepth 8192 in
theorem flat2_fresh : (flat2 (F := F)).Forall fun op => op.fresh = ∅ := by
  repeat' (first | rfl | refine ⟨?_, ?_⟩)
theorem flat3_sub : (flat3 (F := F)).Forall fun op => op.bufs ⊆ tcRefs τ sig := by
  simp only [flat3, List.Forall, nullary_bufs_sub, unary_bufs_sub, binary_bufs_sub, ternary_bufs_sub, reshape_bufs_sub, and_self]
set_option maxRecDepth 8192 in
theorem flat3_fresh : (flat3 (F := F)).Forall fun op => op.fresh = ∅ := by
  repeat' (first | rfl | refine ⟨?_, ?_⟩)
theorem flat4_sub : (flat4 (F := F)).Forall fun op => op.bufs ⊆ tcRefs τ sig := by
  simp only [flat4, List.Forall, nullary_bufs_sub, unary_bufs_sub, binary_bufs_sub, ternary_bufs_sub, reshape_bufs_sub, and_self]
set_option maxRecDepth 8192 in
theorem flat4_fresh : (flat4 (F := F)).Forall fun op => op.fresh = ∅ := by
  repeat' (first | rfl | refine ⟨?_, ?_⟩)
theorem flat5_sub : (flat5 (F := F)).Forall fun op => op.bufs ⊆ tcRefs τ sig := by
  simp only [flat5, List.Forall, nullary_bufs_sub, unary_bufs_sub, binary_bufs_sub, ternary_bufs_sub, reshape_bufs_sub, and_self]
set_option maxRecDepth 8192 in
theorem flat5_fresh : (flat5 (F := F)).Forall fun op => op.fresh = ∅ := by
  repeat' (first | rfl | refine ⟨?_, ?_⟩)
theorem flat6_sub : (flat6 (F := F)).Forall fun op => op.bufs ⊆ tcRefs τ sig := by
  simp only [flat6, List.Forall, nullary_bufs_sub, unary_bufs_sub, binary_bufs_sub, ternary_bufs_sub, reshape_bufs_sub, and_self]
set_option maxRecDepth 8192 in
theorem flat6_fresh : (flat6 (F := F)).Forall fun op => op.fresh = ∅ := by
  repeat' (first | rfl | refine ⟨?_, ?_⟩)
theorem flat7_sub : (flat7 (F := F)).Forall fun op => op.bufs ⊆ tcRefs τ sig := by
  simp only [flat7, List.Forall, nullary_bufs_sub, unary_bufs_sub, binary_bufs_sub, ternary_bufs_sub, reshape_bufs_sub, and_self]
set_option maxRecDepth 8192 in
theorem flat7_fresh : (flat7 (F := F)).Forall fun op => op.fresh = ∅ := by
  repeat' (first | rfl | refine ⟨?_, ?_⟩)
theorem flat8_sub : (flat8 (F := F)).Forall fun op => op.bufs ⊆ tcRefs τ sig := by
  simp only [flat8, List.Forall, nullary_bufs_sub, unary_bufs_sub, binary_bufs_sub, ternary_bufs_sub, reshape_bufs_sub, and_self]
set_option maxRecDepth 8192 in
theorem flat8_fresh : (flat8 (F := F)).Forall fun op => op.fresh = ∅ := by
  repeat' (first | rfl | refine ⟨?_, ?_⟩)
theorem flat9_sub : (flat9 (F := F)).Forall fun op => op.bufs ⊆ tcRefs τ sig := by
  simp only [flat9, List.Forall, nullary_bufs_sub, unary_bufs_sub, binary_bufs_sub, ternary_bufs_sub, reshape_bufs_sub, and_self]
set_option maxRecDepth 8192 in
theorem flat9_fresh : (flat9 (F := F)).Forall fun op => op.fresh = ∅ := by
  repeat' (first | rfl | refine ⟨?_, ?_⟩)
theorem flat10_sub : (flat10 (F := F)).Forall fun op => op.bufs ⊆ tcRefs τ sig := by
  simp only [flat10, List.Forall, nullary_bufs_sub, unary_bufs_sub, binary_bufs_sub, ternary_bufs_sub, reshape_bufs_sub, and_self]
set_option maxRecDepth 8192 in
theorem flat10_fresh : (flat10 (F := F)).Forall fun op => op.fresh = ∅ := by
  repeat' (first | rfl | refine ⟨?_, ?_⟩)

theorem forall_append {α : Type} {p : α → Prop} {l₁ l₂ : List α} (h₁ : l₁.Forall p) (h₂ : l₂.Forall p) :
    (l₁ ++ l₂).Forall p :=
  List.forall_iff_forall_mem.mpr fun a ha => (List.mem_append.mp ha).elim
    (List.forall_iff_forall_mem.mp h₁ a) (List.forall_iff_forall_mem.mp h₂ a)

theorem ops_sub : (ops (F := F)).Forall fun op => op.bufs ⊆ tcRefs τ sig :=
  forall_append (forall_append flat0_sub flat1_sub)
    (forall_append (forall_append flat2_sub flat3_sub)
      (forall_append (forall_append (forall_append (forall_append flat4_sub flat5_sub) flat6_sub) flat7_sub)
        (forall_append flat8_sub (forall_append flat9_sub flat10_sub))))

theorem ops_fresh : ∀ op ∈ ops (F := F), op.fresh = ∅ :=
  List.forall_iff_forall_mem.mp
    (forall_append (forall_append flat0_fresh flat1_fresh)
      (forall_append (forall_append flat2_fresh flat3_fresh)
        (forall_append (forall_append (forall_append (forall_append flat4_fresh flat5_fresh) flat6_fresh) flat7_fresh)
          (forall_append flat8_fresh (forall_append flat9_fresh flat10_fresh)))))

theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after (ops (F := F)) (launchContents m d) (Proc.devRef .tc b) :=
  run_seq scopedRefs_eq scopedSems_eq defs main (fun _ => ops) main_eq (fun _ => ops_sub) m ρ (fun _ => ops_fresh)

def ewOf (adj : FVec Ideal S2048x2048 .f32) (row col : IVec S4194304 32) : FVec Ideal S4194304 .f32 :=
  mulf
    (Host.gather gather_S2048x2048_S4194304x2_S4194304_n_01_n_n_01_1_11 adj
      (concatenate S4194304x2 1
        [⟨S4194304x1, broadcastInDim S4194304x1 ![0] bcast_S4194304_S4194304x1_0 (RNz.wrap2048 row)⟩,
         ⟨S4194304x1, broadcastInDim S4194304x1 ![0] bcast_S4194304_S4194304x1_0 (RNz.wrap2048 col)⟩]
        concatenates_S4194304x1_S4194304x1_S4194304x2_d1))
    (RNz.validV adj)

theorem ewV_eq (adj : FVec Ideal S2048x2048 .f32) : RNz.ewV adj = ewOf adj (RNz.rowW adj) (RNz.colW adj) := rfl

set_option maxRecDepth 100000 in
set_option maxHeartbeats 16000000 in
theorem v23_eq (V : Valuation τ sig (Elt Ideal)) :
    after (flat0 (F := Ideal)) V (Proc.devRef .tc main_v23) = RNz.rowW (V (Proc.devRef .tc main_arg1)) := by
  after_results_simp
  rfl

set_option maxRecDepth 100000 in
set_option maxHeartbeats 16000000 in
theorem v24_eq (V : Valuation τ sig (Elt Ideal)) :
    after (flat0 (F := Ideal)) V (Proc.devRef .tc main_v24) = RNz.colW (V (Proc.devRef .tc main_arg1)) := by
  after_results_simp
  rfl

set_option maxRecDepth 100000 in
set_option maxHeartbeats 16000000 in
theorem v44_eq (V : Valuation τ sig (Elt Ideal)) :
    after (flat2 (F := Ideal)) (after (flat1 (F := Ideal)) V) (Proc.devRef .tc main_v44)
      = ewOf (V (Proc.devRef .tc main_arg1)) (V (Proc.devRef .tc main_v23)) (V (Proc.devRef .tc main_v24)) := by
  after_results_simp
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  rfl

set_option maxRecDepth 100000 in
theorem flat12_keep (V : Valuation τ sig (Elt Ideal)) {r : Ref sig .tc} (hr : r ∈ [main_v23, main_v24]) :
    after (flat2 (F := Ideal)) (after (flat1 (F := Ideal)) V) (Proc.devRef .tc r) = V (Proc.devRef .tc r) := by
  simp only [List.mem_cons, List.mem_nil_iff, or_false] at hr
  rcases hr with rfl | rfl <;> after_results_simp

set_option maxRecDepth 100000 in
set_option maxHeartbeats 16000000 in
theorem v104_eq (V : Valuation τ sig (Elt Ideal)) :
    after (flat4 (F := Ideal)) (after (flat3 (F := Ideal)) V) (Proc.devRef .tc main_v104)
      = RConv.convR (V (Proc.devRef .tc main_v23)) (V (Proc.devRef .tc main_v24)) (V (Proc.devRef .tc main_v44))
          (RBn.dotR1 (V (Proc.devRef .tc main_arg0)) (V (Proc.devRef .tc main_arg2))) (V (Proc.devRef .tc main_arg3)) := by
  after_results_simp
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  rfl

set_option maxRecDepth 100000 in
set_option maxHeartbeats 16000000 in
theorem v184_eq (V : Valuation τ sig (Elt Ideal)) :
    after (flat9 (F := Ideal)) (after (flat8 (F := Ideal)) (after (flat7 (F := Ideal)) V)) (Proc.devRef .tc main_v184)
      = RConv.convR (V (Proc.devRef .tc main_v23)) (V (Proc.devRef .tc main_v24)) (V (Proc.devRef .tc main_v44))
          (RBn.dotR2 (V (Proc.devRef .tc main_v124)) (V (Proc.devRef .tc main_arg6))) (V (Proc.devRef .tc main_arg7)) := by
  after_results_simp
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  rfl

set_option maxRecDepth 8192 in
set_option maxHeartbeats 4000000 in
theorem v123_eq (V : Valuation τ sig (Elt Ideal)) :
    after (flat5 (F := Ideal)) V (Proc.devRef .tc main_v123)
      = RBn.bnR (V (Proc.devRef .tc main_v104)) (V (Proc.devRef .tc main_arg4)) (V (Proc.devRef .tc main_arg5)) := by
  after_results_simp
  rfl

set_option maxRecDepth 8192 in
theorem v124_eq (V : Valuation τ sig (Elt Ideal)) :
    after (flat6 (F := Ideal)) V (Proc.devRef .tc main_v124) = RBn.reluR (V (Proc.devRef .tc main_v123)) := by
  after_results_simp
  rfl

set_option maxRecDepth 8192 in
set_option maxHeartbeats 4000000 in
theorem v203_eq (V : Valuation τ sig (Elt Ideal)) :
    after (flat10 (F := Ideal)) V (Proc.devRef .tc main_v203)
      = RBn.bnR (V (Proc.devRef .tc main_v184)) (V (Proc.devRef .tc main_arg8)) (V (Proc.devRef .tc main_arg9)) := by
  after_results_simp
  rfl

section
open RRunKeep
variable (V : Valuation τ sig (Elt Ideal)) {r : Ref sig .tc}
theorem keep12 (hr : r ∈ [main_v23, main_v24]) :
    after (flat2 (F := Ideal)) (after (flat1 (F := Ideal)) V) (no_index (Proc.devRef .tc r)) = V (Proc.devRef .tc r) :=
  flat12_keep V hr
end

open RRunKeep in
theorem arg_keep (V : Valuation τ sig (Elt Ideal)) {r : Ref sig .tc} (hr : r ∈ keptArgs) :
    after (ops (F := Ideal)) V (Proc.devRef .tc r) = V (Proc.devRef .tc r) := by
  have hm : r ∈ keptMid := List.mem_append_left _ hr
  simp only [ops, win0, win1, win2, win3, win4, after_append]
  rw [flat10_keep _ hm, flat9_keep _ hm, flat8_keep _ hm, flat7_keep _ hm, flat6_keep _ hm, flat5_keep _ hm, flat4_keep _ hm,
    flat3_keep _ hm, flat2_keep _ hr, flat1_keep _ hr, flat0_keep _ hr]

open RRunKeep in
set_option maxRecDepth 8192 in
theorem result_eq (V : Valuation τ sig (Elt Ideal)) :
    after (ops (F := Ideal)) V (Proc.devRef .tc main_v203)
      = RTerm.refTerm (V (Proc.devRef .tc main_arg0)) (V (Proc.devRef .tc main_arg1)) (V (Proc.devRef .tc main_arg2)) (V (Proc.devRef .tc main_arg3)) (V (Proc.devRef .tc main_arg4))
          (V (Proc.devRef .tc main_arg5)) (V (Proc.devRef .tc main_arg6)) (V (Proc.devRef .tc main_arg7)) (V (Proc.devRef .tc main_arg8)) (V (Proc.devRef .tc main_arg9)) := by
  simp only [ops, win0, win1, win2, win3, win4, after_append]
  rw [v203_eq, v184_eq, v124_eq, v123_eq, v104_eq]
  simp (disch := decide) only [flat0_keep, flat1_keep, flat2_keep, flat3_keep, flat4_keep, flat5_keep, flat6_keep, flat7_keep, flat8_keep, flat9_keep, keep12]
  rw [v44_eq, v23_eq, v24_eq]
  simp (disch := decide) only [flat0_keep]
  rw [← ewV_eq]
  rfl

/-- The ten argument arrays hold in `mem` what they hold in `m`. -/
abbrev ArgsKept (m mem : (ℓ : Loc nD τ sig) → Buf (Elt Ideal) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)

theorem run (m : (ℓ : Loc nD τ sig) → Buf (Elt Ideal) ℓ) (ρ : Dev nD → PrngReg) :
    θ_run (defs (F := Ideal)) (onTc (τ := τ) (main (F := Ideal))) ⟨m, fun _ => 0, ρ⟩
      (fun r => ∀ c : Dev nD,
        r.2.mem ((c.tc : Thread nD τ).loc main_v203)
          = RTerm.refTerm (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
        ∧ ArgsKept m r.2.mem c) :=
  (θ_run (defs (F := Ideal)) _ _).mono (fun _ h c =>
    ⟨(h c main_v203).trans (result_eq (launchContents m c)),
      (h c main_arg0).trans (arg_keep (launchContents m c) (by decide)),
      (h c main_arg1).trans (arg_keep (launchContents m c) (by decide)),
      (h c main_arg2).trans (arg_keep (launchContents m c) (by decide)),
      (h c main_arg3).trans (arg_keep (launchContents m c) (by decide)),
      (h c main_arg4).trans (arg_keep (launchContents m c) (by decide)),
      (h c main_arg5).trans (arg_keep (launchContents m c) (by decide)),
      (h c main_arg6).trans (arg_keep (launchContents m c) (by decide)),
      (h c main_arg7).trans (arg_keep (launchContents m c) (by decide)),
      (h c main_arg8).trans (arg_keep (launchContents m c) (by decide)),
      (h c main_arg9).trans (arg_keep (launchContents m c) (by decide))⟩)
    (run_fold m ρ)

end Cert.ReferenceIdeal.RRun

end
-- ==== Proof.RValue.lean ====
import proofs.«103018_g28046136442917_fold_wed_c4_759_2_alg».proof.ReferenceIdeal
import proofs.«103018_g28046136442917_fold_wed_c4_759_2_alg».proof.Proof.Gen.ReferenceIdeal
import proofs.«103018_g28046136442917_fold_wed_c4_759_2_alg».proof.Proof.Spec
import proofs.«103018_g28046136442917_fold_wed_c4_759_2_alg».proof.Proof.RTerm
import proofs.«103018_g28046136442917_fold_wed_c4_759_2_alg».proof.Proof.RRun

noncomputable section

namespace Cert.ReferenceIdeal.RValue

open Idealize.ShloMosaic Idealize.SL.Sem

def ArgsReal (m : (ℓ : Loc nD τ sig) → Buf (Elt Ideal) ℓ)
    (c : Dev nD) : Prop :=
  GcnSpec.IsReal (m ((c.tc : Thread nD τ).loc main_arg0))
      ∧ GcnSpec.IsReal (m ((c.tc : Thread nD τ).loc main_arg1))
      ∧ GcnSpec.IsReal (m ((c.tc : Thread nD τ).loc main_arg2))
      ∧ GcnSpec.IsReal (m ((c.tc : Thread nD τ).loc main_arg3))
      ∧ GcnSpec.IsReal (m ((c.tc : Thread nD τ).loc main_arg4))
      ∧ GcnSpec.IsReal (m ((c.tc : Thread nD τ).loc main_arg5))
      ∧ GcnSpec.IsReal (m ((c.tc : Thread nD τ).loc main_arg6))
      ∧ GcnSpec.IsReal (m ((c.tc : Thread nD τ).loc main_arg7))
      ∧ GcnSpec.IsReal (m ((c.tc : Thread nD τ).loc main_arg8))
      ∧ GcnSpec.IsReal (m ((c.tc : Thread nD τ).loc main_arg9))

theorem run (m : (ℓ : Loc nD τ sig) → Buf (Elt Ideal) ℓ)
    (ρ : Dev nD → PrngReg) (hreal : ∀ c, ArgsReal m c) :
    θ_run (defs (F := Ideal)) (onTc (τ := τ) (main (F := Ideal))) ⟨m, fun _ => 0, ρ⟩
      (fun r => ∀ c : Dev nD,
        r.2.mem ((c.tc : Thread nD τ).loc main_v203)
          = GcnSpec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ RRun.ArgsKept m r.2.mem c) :=
  (θ_run (defs (F := Ideal)) _ _).mono (fun _ h c =>
    ⟨(h c).1.trans (RTerm.refTerm_eq _ _ _ _ _ _ _ _ _ _
        (hreal c).1 (hreal c).2.1 (hreal c).2.2.1 (hreal c).2.2.2.1 (hreal c).2.2.2.2.1 (hreal c).2.2.2.2.2.1
        (hreal c).2.2.2.2.2.2.1 (hreal c).2.2.2.2.2.2.2.1 (hreal c).2.2.2.2.2.2.2.2.1 (hreal c).2.2.2.2.2.2.2.2.2),
      (h c).2⟩) (RRun.run m ρ)

end Cert.ReferenceIdeal.RValue

end
-- ==== Proof.Finite.lean ====
import proofs.«103018_g28046136442917_fold_wed_c4_759_2_alg».proof.Defs
import proofs.«103018_g28046136442917_fold_wed_c4_759_2_alg».proof.Proof.Gen.ReferenceIdeal
import proofs.«103018_g28046136442917_fold_wed_c4_759_2_alg».proof.Proof.Gen.Pre_finite_inputs
import proofs.«103018_g28046136442917_fold_wed_c4_759_2_alg».proof.Proof.RValue
import Idealize.ShloMosaic.Lib.ReduceAll

noncomputable section

namespace Cert.Proof.Finite

open Idealize.ShloMosaic Idealize.SL.Sem

instance : Subsingleton Cert.Pre_finite_inputs.S_.Idx := ⟨fun a b => funext fun d => d.elim0⟩

theorem inf_eq : Ideal.ofBits .f32 0x7F800000#32 = (⊤ : EReal) := by
  simp [Ideal.ofBits, Ideal.ieee]

theorem real_of_abs_lt_top (x : EReal) (h : max x (-x) < ⊤) : ∃ r : ℝ, x = (r : EReal) := by
  induction x using EReal.rec with
  | bot => simp at h
  | coe r => exact ⟨r, rfl⟩
  | top => simp at h

theorem ofBool_eq_one {b : Bool} : BitVec.ofBool b = 1#1 ↔ b = true := by cases b <;> decide

theorem andi_at {s : Shape} (a b : IVec s 1) (j : s.Idx) (h : andi a b j = 1#1) : a j = 1#1 ∧ b j = 1#1 :=
  IntOp.andi_eq_one.1 h

theorem isReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x) (broadcastInDim s ![] hb (constant Cert.Pre_finite_inputs.S_ .f32 0x7F800000#32)))
          (constantI Cert.Pre_finite_inputs.S_ 1 1#1) hr hu j = 1#1) :
    Cert.GcnSpec.IsReal x := by
  intro i
  have h := Host.reduce_andi_all _ _ hr hu j e i
  have h' : Ideal.cmp .olt (max (x i) (-(x i))) (Ideal.ofBits .f32 0x7F800000#32) = 1#1 := h
  rw [inf_eq] at h'
  exact real_of_abs_lt_top _ (of_decide_eq_true (ofBool_eq_one.1 h'))

theorem argsReal_of_pre (m : (ℓ : Loc Cert.ReferenceIdeal.nD Cert.ReferenceIdeal.τ Cert.ReferenceIdeal.sig) → Buf (Elt Ideal) ℓ)
    (hpre : Cert.Pre_ReferenceIdeal m) (c : Dev Cert.ReferenceIdeal.nD) : Cert.ReferenceIdeal.RValue.ArgsReal m c := by
  have h := congrFun (hpre c) ValueIdx.ix0
  dsimp only [Cert.Pre_finite_inputs.fn, Cert.Pre_finite_inputs.fn_part1, Cert.Pre_finite_inputs.fn_part2] at h
  obtain ⟨h, h9⟩ := andi_at _ _ _ h
  obtain ⟨h, h8⟩ := andi_at _ _ _ h
  obtain ⟨h, h7⟩ := andi_at _ _ _ h
  obtain ⟨h, h6⟩ := andi_at _ _ _ h
  obtain ⟨h, h5⟩ := andi_at _ _ _ h
  obtain ⟨h, h4⟩ := andi_at _ _ _ h
  obtain ⟨h, h3⟩ := andi_at _ _ _ h
  obtain ⟨h, h2⟩ := andi_at _ _ _ h
  obtain ⟨h0, h1⟩ := andi_at _ _ _ h
  exact ⟨isReal_of_all _ _ _ _ _ h0, isReal_of_all _ _ _ _ _ h1, isReal_of_all _ _ _ _ _ h2, isReal_of_all _ _ _ _ _ h3,
    isReal_of_all _ _ _ _ _ h4, isReal_of_all _ _ _ _ _ h5, isReal_of_all _ _ _ _ _ h6, isReal_of_all _ _ _ _ _ h7,
    isReal_of_all _ _ _ _ _ h8, isReal_of_all _ _ _ _ _ h9⟩

end Cert.Proof.Finite

end
-- ==== Proof.lean ====
import proofs.«103018_g28046136442917_fold_wed_c4_759_2_alg».proof.Defs
import proofs.«103018_g28046136442917_fold_wed_c4_759_2_alg».proof.Proof.Gen.Kernel
import proofs.«103018_g28046136442917_fold_wed_c4_759_2_alg».proof.Proof.Gen.KernelIdeal
import proofs.«103018_g28046136442917_fold_wed_c4_759_2_alg».proof.Proof.Gen.ReferenceIdeal
import proofs.«103018_g28046136442917_fold_wed_c4_759_2_alg».proof.Proof.Gen.Pre_finite_inputs
import proofs.«103018_g28046136442917_fold_wed_c4_759_2_alg».proof.Proof.KValue
import proofs.«103018_g28046136442917_fold_wed_c4_759_2_alg».proof.Proof.RValue
import proofs.«103018_g28046136442917_fold_wed_c4_759_2_alg».proof.Proof.Finite

noncomputable section

namespace Cert.Proof

open Idealize.ShloMosaic Idealize.SL.Sem

/-- The kernel as printed and its idealization are one text, so their body tables are the same term. -/
theorem defs₀_eq : Cert.Kernel.defs₀ (F := Bits) = Cert.KernelIdeal.defs₀ (F := Bits) :=
  congrArg Defs.onTc (funext fun l => funext fun a => match l, a with
    | 0, (_, _) => rfl
    | ⟨_ + 1, h⟩, _ => absurd h (Nat.not_lt.2 (Nat.le_add_left _ _)))

theorem defs_eq : Cert.Kernel.defs (F := Bits) = Cert.KernelIdeal.defs (F := Bits) :=
  congrArg (Pipeline.defs Cert.KernelIdeal.pcfgs) defs₀_eq

/-- The frame run is proved once for every instance; at words it is the printed kernel's. -/
theorem frame_k : Cert.frame_Kernel := fun m ρ _ => by
  show θ_run (Cert.Kernel.defs (F := Bits)) _ _ _
  rw [defs_eq]
  exact Cert.KernelIdeal.KBody.frame (F := Bits) m ρ

theorem frame_ki : Cert.frame_KernelIdeal := fun m ρ _ =>
  (θ_run (Cert.KernelIdeal.defs (F := Ideal)) _ _).mono (fun _ h c => (h c).2) (Cert.KernelIdeal.KValue.run m ρ)

theorem frame_ri : Cert.frame_ReferenceIdeal := fun m ρ hpre =>
  (θ_run (Cert.ReferenceIdeal.defs (F := Ideal)) _ _).mono (fun _ h c => (h c).2)
    (Cert.ReferenceIdeal.RValue.run m ρ (fun c => Cert.Proof.Finite.argsReal_of_pre m hpre c))

/-- Both runs end at the specification's result of the arguments, on which the two memories agree. -/
theorem algebraic : Cert.algebraic_KernelIdeal_ReferenceIdeal := by
  intro m ρ m' ρ' hpre hagree
  have hpre' : Cert.Pre_ReferenceIdeal m' := fun c => by
    have h := hpre c
    rw [← (hagree c).1, ← (hagree c).2.1, ← (hagree c).2.2.1, ← (hagree c).2.2.2.1, ← (hagree c).2.2.2.2.1, ← (hagree c).2.2.2.2.2.1, ← (hagree c).2.2.2.2.2.2.1, ← (hagree c).2.2.2.2.2.2.2.1, ← (hagree c).2.2.2.2.2.2.2.2.1, ← (hagree c).2.2.2.2.2.2.2.2.2] at h
    exact h
  refine ⟨_, Cert.KernelIdeal.KValue.run m ρ, ?_⟩
  refine (θ_run (Cert.ReferenceIdeal.defs (F := Ideal)) _ _).mono (fun _ h c => ⟨(h c).1.trans ?_, (h c).2⟩)
    (Cert.ReferenceIdeal.RValue.run m' ρ' (fun c => Cert.Proof.Finite.argsReal_of_pre m' hpre' c))
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
